-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S50000x128 : Shape := ⟨2, ![50000, 128]⟩
abbrev S50000x896 : Shape := ⟨2, ![50000, 896]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x896 : S_.BroadcastsInDim S50000x896 (![] : Fin 0 → Fin S50000x896.rank)
  reducesTo_S50000x896_S_d0_1 : S50000x896.ReducesTo [0, 1] S_
  bcast_S_S32x2048 : S_.BroadcastsInDim S32x2048 (![] : Fin 0 → Fin S32x2048.rank)
  reducesTo_S32x2048_S_d0_1 : S32x2048.ReducesTo [0, 1] S_

variable [Facts]

def fn {F : FTy → Type} [FloatOps F] (main_arg0 : IVec S32x2048 32) (main_arg1 : FVec F S50000x128 .f32) (main_arg2 : FVec F S50000x896 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x896 .f32 := Host.absf main_arg2
  let main_cst_0 : FVec F S_ .f32 := constant S_ .f32 0x7F800000#32
  let main_v5 : FVec F S50000x896 .f32 := broadcastInDim S50000x896 ![] bcast_S_S50000x896 main_cst_0
  let main_v6 : IVec S50000x896 1 := cmpf .olt main_v4 main_v5
  let main_c_1 : IVec S_ 1 := constantI S_ 1 1#1
  let main_v7 : IVec S_ 1 := (fun x v => Host.reduce IntOp.andi x v reducesTo_S50000x896_S_d0_1 h_S_) main_v6 main_c_1
  let main_v8 : IVec S_ 1 := andi main_v3 main_v7
  let main_c_2 : IVec S_ 32 := constantI S_ 32 0#32
  let main_v9 : IVec S32x2048 32 := broadcastInDim S32x2048 ![] bcast_S_S32x2048 main_c_2
  let main_v10 : IVec S32x2048 1 := cmpi .sge main_arg0 main_v9
  let main_c_3 : IVec S_ 32 := constantI S_ 32 50000#32
  let main_v11 : IVec S32x2048 32 := broadcastInDim S32x2048 ![] bcast_S_S32x2048 main_c_3
  let main_v12 : IVec S32x2048 1 := cmpi .slt main_arg0 main_v11
  let main_v13 : IVec S32x2048 1 := andi main_v10 main_v12
  let main_c_4 : IVec S_ 1 := constantI S_ 1 1#1
  let main_v14 : IVec S_ 1 := (fun x v => Host.reduce IntOp.andi x v reducesTo_S32x2048_S_d0_1 h_S_) main_v13 main_c_4
  let main_v15 : IVec S_ 1 := andi main_v8 main_v14
  main_v15
-- ==== Kernel.lean ====
abbrev S32x2048 : Shape := ⟨2, ![32, 2048]⟩
abbrev S50000x128 : Shape := ⟨2, ![50000, 128]⟩
abbrev S50000x896 : Shape := ⟨2, ![50000, 896]⟩
abbrev S65536 : Shape := ⟨1, ![65536]⟩
abbrev S65536x128 : Shape := ⟨2, ![65536, 128]⟩
abbrev S64x128 : Shape := ⟨2, ![64, 128]⟩
abbrev S64 : Shape := ⟨1, ![64]⟩
abbrev S1 : Shape := ⟨1, ![1]⟩
abbrev S_ : Shape := ⟨0, ![]⟩
abbrev S1x128 : Shape := ⟨2, ![1, 128]⟩
abbrev S128 : Shape := ⟨1, ![128]⟩
abbrev S32x2048x128 : Shape := ⟨3, ![32, 2048, 128]⟩
abbrev S32x2042 : Shape := ⟨2, ![32, 2042]⟩
abbrev S65344 : Shape := ⟨1, ![65344]⟩
abbrev S65344x896 : Shape := ⟨2, ![65344, 896]⟩
abbrev S64x896 : Shape := ⟨2, ![64, 896]⟩
abbrev S1x896 : Shape := ⟨2, ![1, 896]⟩
abbrev S896 : Shape := ⟨1, ![896]⟩
abbrev S32x2042x896 : Shape := ⟨3, ![32, 2042, 896]⟩
abbrev S32x2042x128 : Shape := ⟨3, ![32, 2042, 128]⟩
abbrev S1x2048x128 : Shape := ⟨3, ![1, 2048, 128]⟩
abbrev S1x2042x896 : Shape := ⟨3, ![1, 2042, 896]⟩
abbrev S1x2042x128 : Shape := ⟨3, ![1, 2042, 128]⟩
abbrev S2048x128 : Shape := ⟨2, ![2048, 128]⟩
abbrev S2042x896 : Shape := ⟨2, ![2042, 896]⟩
abbrev S2042x128 : Shape := ⟨2, ![2042, 128]⟩

abbrev nBuf : Space → Nat
  | .hbm => 9
  | .vmem => 10
  | .smem => 2
  | _ => 0

abbrev bufTy : (tb : Table) → Fin (tcTables nBuf tb) → BufTy
  | .hbm, ⟨0, _⟩ => ⟨S32x2048, .i32⟩
  | .hbm, ⟨1, _⟩ => ⟨S50000x128, .f32⟩
  | .hbm, ⟨2, _⟩ => ⟨S50000x896, .f32⟩
  | .hbm, ⟨3, _⟩ => ⟨S65536x128, .f32⟩
  | .hbm, ⟨4, _⟩ => ⟨S32x2048x128, .f32⟩
  | .hbm, ⟨5, _⟩ => ⟨S32x2042, .i32⟩
  | .hbm, ⟨6, _⟩ => ⟨S65344x896, .f32⟩
  | .hbm, ⟨7, _⟩ => ⟨S32x2042x896, .f32⟩
  | .hbm, ⟨8, _⟩ => ⟨S32x2042x128, .f32⟩
  | .local _ .vmem, ⟨0, _⟩ => ⟨S64x128, .f32⟩
  | .local _ .vmem, ⟨1, _⟩ => ⟨S64x128, .f32⟩
  | .local _ .vmem, ⟨2, _⟩ => ⟨S64x896, .f32⟩
  | .local _ .vmem, ⟨3, _⟩ => ⟨S64x896, .f32⟩
  | .local _ .vmem, ⟨4, _⟩ => ⟨S1x2048x128, .f32⟩
  | .local _ .vmem, ⟨5, _⟩ => ⟨S1x2048x128, .f32⟩
  | .local _ .vmem, ⟨6, _⟩ => ⟨S1x2042x896, .f32⟩
  | .local _ .vmem, ⟨7, _⟩ => ⟨S1x2042x896, .f32⟩
  | .local _ .vmem, ⟨8, _⟩ => ⟨S1x2042x128, .f32⟩
  | .local _ .vmem, ⟨9, _⟩ => ⟨S1x2042x128, .f32⟩
  | .local _ .smem, ⟨0, _⟩ => ⟨S65536, .i32⟩
  | .local _ .smem, ⟨1, _⟩ => ⟨S65344, .i32⟩
  | _, _ => ⟨S32x2048, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 138 → Bool
  | ⟨i, _⟩ => dmaSemScopedAt i

abbrev sig : RefSig :=
  ofTc nBuf bufTy 0 138 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v0 : Ref sig .tc := ⟨.smem, 0, rfl⟩
abbrev main_v4 : Ref sig .tc := ⟨.smem, 1, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc0_sem0_0 : DmaSem sig := 0
abbrev cc0_sem0_1 : DmaSem sig := 1
abbrev cc1_sem0_0 : DmaSem sig := 66
abbrev cc1_sem0_1 : DmaSem sig := 67
abbrev cc2_sem0_0 : DmaSem sig := 132
abbrev cc2_sem0_1 : DmaSem sig := 133
abbrev cc2_sem1_0 : DmaSem sig := 134
abbrev cc2_sem1_1 : DmaSem sig := 135
abbrev cc2_sem2_0 : DmaSem sig := 136
abbrev cc2_sem2_1 : DmaSem sig := 137

abbrev nD : Nat := 1
abbrev τ : Topo := Topo.v7x

variable {F : FTy → Type} [FloatOps F]

abbrev grid0 : Pipeline.Grid := ⟨1, ![1024], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_off3 (i : grid0.Coords) : Fin 1 → Nat :=
  let arg0 : BitVec 32 := BitVec.ofNat 32 (i 0).val
  let c64_i32 : BitVec 32 := 64#32
  let v0 : BitVec 32 := Scalar.muli arg0 c64_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_off5 (i : grid0.Coords) : Fin 1 → Nat :=
  let arg0 : BitVec 32 := BitVec.ofNat 32 (i 0).val
  let c64_i32 : BitVec 32 := 64#32
  let v0 : BitVec 32 := Scalar.muli arg0 c64_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_off7 (i : grid0.Coords) : Fin 1 → Nat :=
  let arg0 : BitVec 32 := BitVec.ofNat 32 (i 0).val
  let c64_i32 : BitVec 32 := 64#32
  let v0 : BitVec 32 := Scalar.muli arg0 c64_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_off9 (i : grid0.Coords) : Fin 1 → Nat :=
  let arg0 : BitVec 32 := BitVec.ofNat 32 (i 0).val
  let c64_i32 : BitVec 32 := 64#32
  let v0 : BitVec 32 := Scalar.muli arg0 c64_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_off11 (i : grid0.Coords) : Fin 1 → Nat :=
  let arg0 : BitVec 32 := BitVec.ofNat 32 (i 0).val
  let c64_i32 : BitVec 32 := 64#32
  let v0 : BitVec 32 := Scalar.muli arg0 c64_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_off13 (i : grid0.Coords) : Fin 1 → Nat :=
  let arg0 : BitVec 32 := BitVec.ofNat 32 (i 0).val
  let c64_i32 : BitVec 32 := 64#32
  let v0 : BitVec 32 := Scalar.muli arg0 c64_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_off15 (i : grid0.Coords) : Fin 1 → Nat :=
  let arg0 : BitVec 32 := BitVec.ofNat 32 (i 0).val
  let c64_i32 : BitVec 32 := 64#32
  let v0 : BitVec 32 := Scalar.muli arg0 c64_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_off17 (i : grid0.Coords) : Fin 1 → Nat :=
  let arg0 : BitVec 32 := BitVec.ofNat 32 (i 0).val
  let c64_i32 : BitVec 32 := 64#32
  let v0 : BitVec 32 := Scalar.muli arg0 c64_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_off19 (i : grid0.Coords) : Fin 1 → Nat :=
  let arg0 : BitVec 32 := BitVec.ofNat 32 (i 0).val
  let c64_i32 : BitVec 32 := 64#32
  let v0 : BitVec 32 := Scalar.muli arg0 c64_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_off21 (i : grid0.Coords) : Fin 1 → Nat :=
  let arg0 : BitVec 32 := BitVec.ofNat 32 (i 0).val
  let c64_i32 : BitVec 32 := 64#32
  let v0 : BitVec 32 := Scalar.muli arg0 c64_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_off23 (i : grid0.Coords) : Fin 1 → Nat :=
  let arg0 : BitVec 32 := BitVec.ofNat 32 (i 0).val
  let c64_i32 : BitVec 32 := 64#32
  let v0 : BitVec 32 := Scalar.muli arg0 c64_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_off25 (i : grid0.Coords) : Fin 1 → Nat :=
  let arg0 : BitVec 32 := BitVec.ofNat 32 (i 0).val
  let c64_i32 : BitVec 32 := 64#32
  let v0 : BitVec 32 := Scalar.muli arg0 c64_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_off27 (i : grid0.Coords) : Fin 1 → Nat :=
  let arg0 : BitVec 32 := BitVec.ofNat 32 (i 0).val
  let c64_i32 : BitVec 32 := 64#32
  let v0 : BitVec 32 := Scalar.muli arg0 c64_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_off29 (i : grid0.Coords) : Fin 1 → Nat :=
  let arg0 : BitVec 32 := BitVec.ofNat 32 (i 0).val
  let c64_i32 : BitVec 32 := 64#32
  let v0 : BitVec 32 := Scalar.muli arg0 c64_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_off31 (i : grid0.Coords) : Fin 1 → Nat :=
  let arg0 : BitVec 32 := BitVec.ofNat 32 (i 0).val
  let c64_i32 : BitVec 32 := 64#32
  let v0 : BitVec 32 := Scalar.muli arg0 c64_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_off33 (i : grid0.Coords) : Fin 1 → Nat :=
  let arg0 : BitVec 32 := BitVec.ofNat 32 (i 0).val
  let c64_i32 : BitVec 32 := 64#32
  let v0 : BitVec 32 := Scalar.muli arg0 c64_i32
  let c16_i32 : BitVec 32 := 16#32
  let v145 : BitVec 32 := Scalar.addi v0 c16_i32
  let v146 : Index := Scalar.indexCast v145
  ![v146.toNat]
def k0_off34 (v147 : BitVec 32) : Fin 2 → Nat :=
  let c0_i32_67 : BitVec 32 := 0#32
  ![v147.toNat, 0]

def k0_off35 (i : grid0.Coords) : Fin 1 → Nat :=
  let arg0 : BitVec 32 := BitVec.ofNat 32 (i 0).val
  let c64_i32 : BitVec 32 := 64#32
  let v0 : BitVec 32 := Scalar.muli arg0 c64_i32
  let c17_i32 : BitVec 32 := 17#32
  let v154 : BitVec 32 := Scalar.addi v0 c17_i32
  let v155 : Index := Scalar.indexCast v154
  ![v155.toNat]
def k0_off36 (v156 : BitVec 32) : Fin 2 → Nat :=
  let c0_i32_71 : BitVec 32 := 0#32
  ![v156.toNat, 0]

def k0_off37 (i : grid0.Coords) : Fin 1 → Nat :=
  let arg0 : BitVec 32 := BitVec.ofNat 32 (i 0).val
  let c64_i32 : BitVec 32 := 64#32
  let v0 : BitVec 32 := Scalar.muli arg0 c64_i32
  let c18_i32 : BitVec 32 := 18#32
  let v163 : BitVec 32 := Scalar.addi v0 c18_i32
  let v164 : Index := Scalar.indexCast v163
  ![v164.toNat]
def k0_off38 (v165 : BitVec 32) : Fin 2 → Nat :=
  let c0_i32_75 : BitVec 32 := 0#32
  ![v165.toNat, 0]

def k0_off39 (i : grid0.Coords) : Fin 1 → Nat :=
  let arg0 : BitVec 32 := BitVec.ofNat 32 (i 0).val
  let c64_i32 : BitVec 32 := 64#32
  let v0 : BitVec 32 := Scalar.muli arg0 c64_i32
  let c19_i32 : BitVec 32 := 19#32
  let v172 : BitVec 32 := Scalar.addi v0 c19_i32
  let v173 : Index := Scalar.indexCast v172
  ![v173.toNat]
def k0_off40 (v174 : BitVec 32) : Fin 2 → Nat :=
  let c0_i32_79 : BitVec 32 := 0#32
  ![v174.toNat, 0]

def k0_off41 (i : grid0.Coords) : Fin 1 → Nat :=
  let arg0 : BitVec 32 := BitVec.ofNat 32 (i 0).val
  let c64_i32 : BitVec 32 := 64#32
  let v0 : BitVec 32 := Scalar.muli arg0 c64_i32
  let c20_i32 : BitVec 32 := 20#32
  let v181 : BitVec 32 := Scalar.addi v0 c20_i32
  let v182 : Index := Scalar.indexCast v181
  ![v182.toNat]
def k0_off42 (v183 : BitVec 32) : Fin 2 → Nat :=
  let c0_i32_83 : BitVec 32 := 0#32
  ![v183.toNat, 0]

def k0_off43 (i : grid0.Coords) : Fin 1 → Nat :=
  let arg0 : BitVec 32 := BitVec.ofNat 32 (i 0).val
  let c64_i32 : BitVec 32 := 64#32
  let v0 : BitVec 32 := Scalar.muli arg0 c64_i32
  let c21_i32 : BitVec 32 := 21#32
  let v190 : BitVec 32 := Scalar.addi v0 c21_i32
  let v191 : Index := Scalar.indexCast v190
  ![v191.toNat]
def k0_off44 (v192 : BitVec 32) : Fin 2 → Nat :=
  let c0_i32_87 : BitVec 32 := 0#32
  ![v192.toNat, 0]

def k0_off45 (i : grid0.Coords) : Fin 1 → Nat :=
  let arg0 : BitVec 32 := BitVec.ofNat 32 (i 0).val
  let c64_i32 : BitVec 32 := 64#32
  let v0 : BitVec 32 := Scalar.muli arg0 c64_i32
  let c22_i32 : BitVec 32 := 22#32
  let v199 : BitVec 32 := Scalar.addi v0 c22_i32
  let v200 : Index := Scalar.indexCast v199
  ![v200.toNat]
def k0_off46 (v201 : BitVec 32) : Fin 2 → Nat :=
  let c0_i32_91 : BitVec 32 := 0#32
  ![v201.toNat, 0]

def k0_off47 (i : grid0.Coords) : Fin 1 → Nat :=
  let arg0 : BitVec 32 := BitVec.ofNat 32 (i 0).val
  let c64_i32 : BitVec 32 := 64#32
  let v0 : BitVec 32 := Scalar.muli arg0 c64_i32
  let c23_i32 : BitVec 32 := 23#32
  let v208 : BitVec 32 := Scalar.addi v0 c23_i32
  let v209 : Index := Scalar.indexCast v208
  ![v209.toNat]
def k0_off48 (v210 : BitVec 32) : Fin 2 → Nat :=
  let c0_i32_95 : BitVec 32 := 0#32
  ![v210.toNat, 0]

def k0_off49 (i : grid0.Coords) : Fin 1 → Nat :=
  let arg0 : BitVec 32 := BitVec.ofNat 32 (i 0).val
  let c64_i32 : BitVec 32 := 64#32
  let v0 : BitVec 32 := Scalar.muli arg0 c64_i32
  let c24_i32 : BitVec 32 := 24#32
  let v217 : BitVec 32 := Scalar.addi v0 c24_i32
  let v218 : Index := Scalar.indexCast v217
  ![v218.toNat]
def k0_off50 (v219 : BitVec 32) : Fin 2 → Nat :=
  let c0_i32_99 : BitVec 32 := 0#32
  ![v219.toNat, 0]

def k0_off51 (i : grid0.Coords) : Fin 1 → Nat :=
  let arg0 : BitVec 32 := BitVec.ofNat 32 (i 0).val
  let c64_i32 : BitVec 32 := 64#32
  let v0 : BitVec 32 := Scalar.muli arg0 c64_i32
  let c25_i32 : BitVec 32 := 25#32
  let v226 : BitVec 32 := Scalar.addi v0 c25_i32
  let v227 : Index := Scalar.indexCast v226
  ![v227.toNat]
def k0_off52 (v228 : BitVec 32) : Fin 2 → Nat :=
  let c0_i32_103 : BitVec 32 := 0#32
  ![v228.toNat, 0]

def k0_off53 (i : grid0.Coords) : Fin 1 → Nat :=
  let arg0 : BitVec 32 := BitVec.ofNat 32 (i 0).val
  let c64_i32 : BitVec 32 := 64#32
  let v0 : BitVec 32 := Scalar.muli arg0 c64_i32
  let c26_i32 : BitVec 32 := 26#32
  let v235 : BitVec 32 := Scalar.addi v0 c26_i32
  let v236 : Index := Scalar.indexCast v235
  ![v236.toNat]
def k0_off54 (v237 : BitVec 32) : Fin 2 → Nat :=
  let c0_i32_107 : BitVec 32 := 0#32
  ![v237.toNat, 0]

def k0_off55 (i : grid0.Coords) : Fin 1 → Nat :=
  let arg0 : BitVec 32 := BitVec.ofNat 32 (i 0).val
  let c64_i32 : BitVec 32 := 64#32
  let v0 : BitVec 32 := Scalar.muli arg0 c64_i32
  let c27_i32 : BitVec 32 := 27#32
  let v244 : BitVec 32 := Scalar.addi v0 c27_i32
  let v245 : Index := Scalar.indexCast v244
  ![v245.toNat]
def k0_off56 (v246 : BitVec 32) : Fin 2 → Nat :=
  let c0_i32_111 : BitVec 32 := 0#32
  ![v246.toNat, 0]

def k0_off57 (i : grid0.Coords) : Fin 1 → Nat :=
  let arg0 : BitVec 32 := BitVec.ofNat 32 (i 0).val
  let c64_i32 : BitVec 32 := 64#32
  let v0 : BitVec 32 := Scalar.muli arg0 c64_i32
  let c28_i32 : BitVec 32 := 28#32
  let v253 : BitVec 32 := Scalar.addi v0 c28_i32
  let v254 : Index := Scalar.indexCast v253
  ![v254.toNat]
def k0_off58 (v255 : BitVec 32) : Fin 2 → Nat :=
  let c0_i32_115 : BitVec 32 := 0#32
  ![v255.toNat, 0]

def k0_off59 (i : grid0.Coords) : Fin 1 → Nat :=
  let arg0 : BitVec 32 := BitVec.ofNat 32 (i 0).val
  let c64_i32 : BitVec 32 := 64#32
  let v0 : BitVec 32 := Scalar.muli arg0 c64_i32
  let c29_i32 : BitVec 32 := 29#32
  let v262 : BitVec 32 := Scalar.addi v0 c29_i32
  let v263 : Index := Scalar.indexCast v262
  ![v263.toNat]
def k0_off60 (v264 : BitVec 32) : Fin 2 → Nat :=
  let c0_i32_119 : BitVec 32 := 0#32
  ![v264.toNat, 0]

def k0_off61 (i : grid0.Coords) : Fin 1 → Nat :=
  let arg0 : BitVec 32 := BitVec.ofNat 32 (i 0).val
  let c64_i32 : BitVec 32 := 64#32
  let v0 : BitVec 32 := Scalar.muli arg0 c64_i32
  let c30_i32 : BitVec 32 := 30#32
  let v271 : BitVec 32 := Scalar.addi v0 c30_i32
  let v272 : Index := Scalar.indexCast v271
  ![v272.toNat]
def k0_off62 (v273 : BitVec 32) : Fin 2 → Nat :=
  let c0_i32_123 : BitVec 32 := 0#32
  ![v273.toNat, 0]

def k0_off63 (i : grid0.Coords) : Fin 1 → Nat :=
  let arg0 : BitVec 32 := BitVec.ofNat 32 (i 0).val
  let c64_i32 : BitVec 32 := 64#32
  let v0 : BitVec 32 := Scalar.muli arg0 c64_i32
  let c31_i32 : BitVec 32 := 31#32
  let v280 : BitVec 32 := Scalar.addi v0 c31_i32
  let v281 : Index := Scalar.indexCast v280
  ![v281.toNat]
def k0_off64 (v282 : BitVec 32) : Fin 2 → Nat :=
  let c0_i32_127 : BitVec 32 := 0#32
  ![v282.toNat, 0]

def k0_off65 (i : grid0.Coords) : Fin 1 → Nat :=
  let arg0 : BitVec 32 := BitVec.ofNat 32 (i 0).val
  let c64_i32 : BitVec 32 := 64#32
  let v0 : BitVec 32 := Scalar.muli arg0 c64_i32
  let c32_i32 : BitVec 32 := 32#32
  let v289 : BitVec 32 := Scalar.addi v0 c32_i32
  let v290 : Index := Scalar.indexCast v289
  ![v290.toNat]
def k0_off66 (v291 : BitVec 32) : Fin 2 → Nat :=
  let c0_i32_131 : BitVec 32 := 0#32
  ![v291.toNat, 0]

def k0_off67 (i : grid0.Coords) : Fin 1 → Nat :=
  let arg0 : BitVec 32 := BitVec.ofNat 32 (i 0).val
  let c64_i32 : BitVec 32 := 64#32
  let v0 : BitVec 32 := Scalar.muli arg0 c64_i32
  let c33_i32 : BitVec 32 := 33#32
  let v298 : BitVec 32 := Scalar.addi v0 c33_i32
  let v299 : Index := Scalar.indexCast v298
  ![v299.toNat]
def k0_off68 (v300 : BitVec 32) : Fin 2 → Nat :=
  let c0_i32_135 : BitVec 32 := 0#32
  ![v300.toNat, 0]

def k0_off69 (i : grid0.Coords) : Fin 1 → Nat :=
  let arg0 : BitVec 32 := BitVec.ofNat 32 (i 0).val
  let c64_i32 : BitVec 32 := 64#32
  let v0 : BitVec 32 := Scalar.muli arg0 c64_i32
  let c34_i32 : BitVec 32 := 34#32
  let v307 : BitVec 32 := Scalar.addi v0 c34_i32
  let v308 : Index := Scalar.indexCast v307
  ![v308.toNat]
def k0_off70 (v309 : BitVec 32) : Fin 2 → Nat :=
  let c0_i32_139 : BitVec 32 := 0#32
  ![v309.toNat, 0]

def k0_off71 (i : grid0.Coords) : Fin 1 → Nat :=
  let arg0 : BitVec 32 := BitVec.ofNat 32 (i 0).val
  let c64_i32 : BitVec 32 := 64#32
  let v0 : BitVec 32 := Scalar.muli arg0 c64_i32
  let c35_i32 : BitVec 32 := 35#32
  let v316 : BitVec 32 := Scalar.addi v0 c35_i32
  let v317 : Index := Scalar.indexCast v316
  ![v317.toNat]
def k0_off72 (v318 : BitVec 32) : Fin 2 → Nat :=
  let c0_i32_143 : BitVec 32 := 0#32
  ![v318.toNat, 0]

def k0_off73 (i : grid0.Coords) : Fin 1 → Nat :=
  let arg0 : BitVec 32 := BitVec.ofNat 32 (i 0).val
  let c64_i32 : BitVec 32 := 64#32
  let v0 : BitVec 32 := Scalar.muli arg0 c64_i32
  let c36_i32 : BitVec 32 := 36#32
  let v325 : BitVec 32 := Scalar.addi v0 c36_i32
  let v326 : Index := Scalar.indexCast v325
  ![v326.toNat]
def k0_off74 (v327 : BitVec 32) : Fin 2 → Nat :=
  let c0_i32_147 : BitVec 32 := 0#32
  ![v327.toNat, 0]

def k0_off75 (i : grid0.Coords) : Fin 1 → Nat :=
  let arg0 : BitVec 32 := BitVec.ofNat 32 (i 0).val
  let c64_i32 : BitVec 32 := 64#32
  let v0 : BitVec 32 := Scalar.muli arg0 c64_i32
  let c37_i32 : BitVec 32 := 37#32
  let v334 : BitVec 32 := Scalar.addi v0 c37_i32
  let v335 : Index := Scalar.indexCast v334
  ![v335.toNat]
def k0_off76 (v336 : BitVec 32) : Fin 2 → Nat :=
  let c0_i32_151 : BitVec 32 := 0#32
  ![v336.toNat, 0]

def k0_off77 (i : grid0.Coords) : Fin 1 → Nat :=
  let arg0 : BitVec 32 := BitVec.ofNat 32 (i 0).val
  let c64_i32 : BitVec 32 := 64#32
  let v0 : BitVec 32 := Scalar.muli arg0 c64_i32
  let c38_i32 : BitVec 32 := 38#32
  let v343 : BitVec 32 := Scalar.addi v0 c38_i32
  let v344 : Index := Scalar.indexCast v343
  ![v344.toNat]
def k0_off78 (v345 : BitVec 32) : Fin 2 → Nat :=
  let c0_i32_155 : BitVec 32 := 0#32
  ![v345.toNat, 0]

def k0_off79 (i : grid0.Coords) : Fin 1 → Nat :=
  let arg0 : BitVec 32 := BitVec.ofNat 32 (i 0).val
  let c64_i32 : BitVec 32 := 64#32
  let v0 : BitVec 32 := Scalar.muli arg0 c64_i32
  let c39_i32 : BitVec 32 := 39#32
  let v352 : BitVec 32 := Scalar.addi v0 c39_i32
  let v353 : Index := Scalar.indexCast v352
  ![v353.toNat]
def k0_off80 (v354 : BitVec 32) : Fin 2 → Nat :=
  let c0_i32_159 : BitVec 32 := 0#32
  ![v354.toNat, 0]

def k0_off81 (i : grid0.Coords) : Fin 1 → Nat :=
  let arg0 : BitVec 32 := BitVec.ofNat 32 (i 0).val
  let c64_i32 : BitVec 32 := 64#32
  let v0 : BitVec 32 := Scalar.muli arg0 c64_i32
  let c40_i32 : BitVec 32 := 40#32
  let v361 : BitVec 32 := Scalar.addi v0 c40_i32
  let v362 : Index := Scalar.indexCast v361
  ![v362.toNat]
def k0_off82 (v363 : BitVec 32) : Fin 2 → Nat :=
  let c0_i32_163 : BitVec 32 := 0#32
  ![v363.toNat, 0]

def k0_off83 (i : grid0.Coords) : Fin 1 → Nat :=
  let arg0 : BitVec 32 := BitVec.ofNat 32 (i 0).val
  let c64_i32 : BitVec 32 := 64#32
  let v0 : BitVec 32 := Scalar.muli arg0 c64_i32
  let c41_i32 : BitVec 32 := 41#32
  let v370 : BitVec 32 := Scalar.addi v0 c41_i32
  let v371 : Index := Scalar.indexCast v370
  ![v371.toNat]
def k0_off84 (v372 : BitVec 32) : Fin 2 → Nat :=
  let c0_i32_167 : BitVec 32 := 0#32
  ![v372.toNat, 0]

def k0_off85 (i : grid0.Coords) : Fin 1 → Nat :=
  let arg0 : BitVec 32 := BitVec.ofNat 32 (i 0).val
  let c64_i32 : BitVec 32 := 64#32
  let v0 : BitVec 32 := Scalar.muli arg0 c64_i32
  let c42_i32 : BitVec 32 := 42#32
  let v379 : BitVec 32 := Scalar.addi v0 c42_i32
  let v380 : Index := Scalar.indexCast v379
  ![v380.toNat]
def k0_off86 (v381 : BitVec 32) : Fin 2 → Nat :=
  let c0_i32_171 : BitVec 32 := 0#32
  ![v381.toNat, 0]

def k0_off87 (i : grid0.Coords) : Fin 1 → Nat :=
  let arg0 : BitVec 32 := BitVec.ofNat 32 (i 0).val
  let c64_i32 : BitVec 32 := 64#32
  let v0 : BitVec 32 := Scalar.muli arg0 c64_i32
  let c43_i32 : BitVec 32 := 43#32
  let v388 : BitVec 32 := Scalar.addi v0 c43_i32
  let v389 : Index := Scalar.indexCast v388
  ![v389.toNat]
def k0_off88 (v390 : BitVec 32) : Fin 2 → Nat :=
  let c0_i32_175 : BitVec 32 := 0#32
  ![v390.toNat, 0]

def k0_off89 (i : grid0.Coords) : Fin 1 → Nat :=
  let arg0 : BitVec 32 := BitVec.ofNat 32 (i 0).val
  let c64_i32 : BitVec 32 := 64#32
  let v0 : BitVec 32 := Scalar.muli arg0 c64_i32
  let c44_i32 : BitVec 32 := 44#32
  let v397 : BitVec 32 := Scalar.addi v0 c44_i32
  let v398 : Index := Scalar.indexCast v397
  ![v398.toNat]
def k0_off90 (v399 : BitVec 32) : Fin 2 → Nat :=
  let c0_i32_179 : BitVec 32 := 0#32
  ![v399.toNat, 0]

def k0_off91 (i : grid0.Coords) : Fin 1 → Nat :=
  let arg0 : BitVec 32 := BitVec.ofNat 32 (i 0).val
  let c64_i32 : BitVec 32 := 64#32
  let v0 : BitVec 32 := Scalar.muli arg0 c64_i32
  let c45_i32 : BitVec 32 := 45#32
  let v406 : BitVec 32 := Scalar.addi v0 c45_i32
  let v407 : Index := Scalar.indexCast v406
  ![v407.toNat]
def k0_off92 (v408 : BitVec 32) : Fin 2 → Nat :=
  let c0_i32_183 : BitVec 32 := 0#32
  ![v408.toNat, 0]

def k0_off93 (i : grid0.Coords) : Fin 1 → Nat :=
  let arg0 : BitVec 32 := BitVec.ofNat 32 (i 0).val
  let c64_i32 : BitVec 32 := 64#32
  let v0 : BitVec 32 := Scalar.muli arg0 c64_i32
  let c46_i32 : BitVec 32 := 46#32
  let v415 : BitVec 32 := Scalar.addi v0 c46_i32
  let v416 : Index := Scalar.indexCast v415
  ![v416.toNat]
def k0_off94 (v417 : BitVec 32) : Fin 2 → Nat :=
  let c0_i32_187 : BitVec 32 := 0#32
  ![v417.toNat, 0]

def k0_off95 (i : grid0.Coords) : Fin 1 → Nat :=
  let arg0 : BitVec 32 := BitVec.ofNat 32 (i 0).val
  let c64_i32 : BitVec 32 := 64#32
  let v0 : BitVec 32 := Scalar.muli arg0 c64_i32
  let c47_i32 : BitVec 32 := 47#32
  let v424 : BitVec 32 := Scalar.addi v0 c47_i32
  let v425 : Index := Scalar.indexCast v424
  ![v425.toNat]
def k0_off96 (v426 : BitVec 32) : Fin 2 → Nat :=
  let c0_i32_191 : BitVec 32 := 0#32
  ![v426.toNat, 0]

def k0_off97 (i : grid0.Coords) : Fin 1 → Nat :=
  let arg0 : BitVec 32 := BitVec.ofNat 32 (i 0).val
  let c64_i32 : BitVec 32 := 64#32
  let v0 : BitVec 32 := Scalar.muli arg0 c64_i32
  let c48_i32 : BitVec 32 := 48#32
  let v433 : BitVec 32 := Scalar.addi v0 c48_i32
  let v434 : Index := Scalar.indexCast v433
  ![v434.toNat]
def k0_off98 (v435 : BitVec 32) : Fin 2 → Nat :=
  let c0_i32_195 : BitVec 32 := 0#32
  ![v435.toNat, 0]

def k0_off99 (i : grid0.Coords) : Fin 1 → Nat :=
  let arg0 : BitVec 32 := BitVec.ofNat 32 (i 0).val
  let c64_i32 : BitVec 32 := 64#32
  let v0 : BitVec 32 := Scalar.muli arg0 c64_i32
  let c49_i32 : BitVec 32 := 49#32
  let v442 : BitVec 32 := Scalar.addi v0 c49_i32
  let v443 : Index := Scalar.indexCast v442
  ![v443.toNat]
def k0_off100 (v444 : BitVec 32) : Fin 2 → Nat :=
  let c0_i32_199 : BitVec 32 := 0#32
  ![v444.toNat, 0]

def k0_off101 (i : grid0.Coords) : Fin 1 → Nat :=
  let arg0 : BitVec 32 := BitVec.ofNat 32 (i 0).val
  let c64_i32 : BitVec 32 := 64#32
  let v0 : BitVec 32 := Scalar.muli arg0 c64_i32
  let c50_i32 : BitVec 32 := 50#32
  let v451 : BitVec 32 := Scalar.addi v0 c50_i32
  let v452 : Index := Scalar.indexCast v451
  ![v452.toNat]
def k0_off102 (v453 : BitVec 32) : Fin 2 → Nat :=
  let c0_i32_203 : BitVec 32 := 0#32
  ![v453.toNat, 0]

def k0_off103 (i : grid0.Coords) : Fin 1 → Nat :=
  let arg0 : BitVec 32 := BitVec.ofNat 32 (i 0).val
  let c64_i32 : BitVec 32 := 64#32
  let v0 : BitVec 32 := Scalar.muli arg0 c64_i32
  let c51_i32 : BitVec 32 := 51#32
  let v460 : BitVec 32 := Scalar.addi v0 c51_i32
  let v461 : Index := Scalar.indexCast v460
  ![v461.toNat]
def k0_off104 (v462 : BitVec 32) : Fin 2 → Nat :=
  let c0_i32_207 : BitVec 32 := 0#32
  ![v462.toNat, 0]

def k0_off105 (i : grid0.Coords) : Fin 1 → Nat :=
  let arg0 : BitVec 32 := BitVec.ofNat 32 (i 0).val
  let c64_i32 : BitVec 32 := 64#32
  let v0 : BitVec 32 := Scalar.muli arg0 c64_i32
  let c52_i32 : BitVec 32 := 52#32
  let v469 : BitVec 32 := Scalar.addi v0 c52_i32
  let v470 : Index := Scalar.indexCast v469
  ![v470.toNat]
def k0_off106 (v471 : BitVec 32) : Fin 2 → Nat :=
  let c0_i32_211 : BitVec 32 := 0#32
  ![v471.toNat, 0]

def k0_off107 (i : grid0.Coords) : Fin 1 → Nat :=
  let arg0 : BitVec 32 := BitVec.ofNat 32 (i 0).val
  let c64_i32 : BitVec 32 := 64#32
  let v0 : BitVec 32 := Scalar.muli arg0 c64_i32
  let c53_i32 : BitVec 32 := 53#32
  let v478 : BitVec 32 := Scalar.addi v0 c53_i32
  let v479 : Index := Scalar.indexCast v478
  ![v479.toNat]
def k0_off108 (v480 : BitVec 32) : Fin 2 → Nat :=
  let c0_i32_215 : BitVec 32 := 0#32
  ![v480.toNat, 0]

def k0_off109 (i : grid0.Coords) : Fin 1 → Nat :=
  let arg0 : BitVec 32 := BitVec.ofNat 32 (i 0).val
  let c64_i32 : BitVec 32 := 64#32
  let v0 : BitVec 32 := Scalar.muli arg0 c64_i32
  let c54_i32 : BitVec 32 := 54#32
  let v487 : BitVec 32 := Scalar.addi v0 c54_i32
  let v488 : Index := Scalar.indexCast v487
  ![v488.toNat]
def k0_off110 (v489 : BitVec 32) : Fin 2 → Nat :=
  let c0_i32_219 : BitVec 32 := 0#32
  ![v489.toNat, 0]

def k0_off111 (i : grid0.Coords) : Fin 1 → Nat :=
  let arg0 : BitVec 32 := BitVec.ofNat 32 (i 0).val
  let c64_i32 : BitVec 32 := 64#32
  let v0 : BitVec 32 := Scalar.muli arg0 c64_i32
  let c55_i32 : BitVec 32 := 55#32
  let v496 : BitVec 32 := Scalar.addi v0 c55_i32
  let v497 : Index := Scalar.indexCast v496
  ![v497.toNat]
def k0_off112 (v498 : BitVec 32) : Fin 2 → Nat :=
  let c0_i32_223 : BitVec 32 := 0#32
  ![v498.toNat, 0]

def k0_off113 (i : grid0.Coords) : Fin 1 → Nat :=
  let arg0 : BitVec 32 := BitVec.ofNat 32 (i 0).val
  let c64_i32 : BitVec 32 := 64#32
  let v0 : BitVec 32 := Scalar.muli arg0 c64_i32
  let c56_i32 : BitVec 32 := 56#32
  let v505 : BitVec 32 := Scalar.addi v0 c56_i32
  let v506 : Index := Scalar.indexCast v505
  ![v506.toNat]
def k0_off114 (v507 : BitVec 32) : Fin 2 → Nat :=
  let c0_i32_227 : BitVec 32 := 0#32
  ![v507.toNat, 0]

def k0_off115 (i : grid0.Coords) : Fin 1 → Nat :=
  let arg0 : BitVec 32 := BitVec.ofNat 32 (i 0).val
  let c64_i32 : BitVec 32 := 64#32
  let v0 : BitVec 32 := Scalar.muli arg0 c64_i32
  let c57_i32 : BitVec 32 := 57#32
  let v514 : BitVec 32 := Scalar.addi v0 c57_i32
  let v515 : Index := Scalar.indexCast v514
  ![v515.toNat]
def k0_off116 (v516 : BitVec 32) : Fin 2 → Nat :=
  let c0_i32_231 : BitVec 32 := 0#32
  ![v516.toNat, 0]

def k0_off117 (i : grid0.Coords) : Fin 1 → Nat :=
  let arg0 : BitVec 32 := BitVec.ofNat 32 (i 0).val
  let c64_i32 : BitVec 32 := 64#32
  let v0 : BitVec 32 := Scalar.muli arg0 c64_i32
  let c58_i32 : BitVec 32 := 58#32
  let v523 : BitVec 32 := Scalar.addi v0 c58_i32
  let v524 : Index := Scalar.indexCast v523
  ![v524.toNat]
def k0_off118 (v525 : BitVec 32) : Fin 2 → Nat :=
  let c0_i32_235 : BitVec 32 := 0#32
  ![v525.toNat, 0]

def k0_off119 (i : grid0.Coords) : Fin 1 → Nat :=
  let arg0 : BitVec 32 := BitVec.ofNat 32 (i 0).val
  let c64_i32 : BitVec 32 := 64#32
  let v0 : BitVec 32 := Scalar.muli arg0 c64_i32
  let c59_i32 : BitVec 32 := 59#32
  let v532 : BitVec 32 := Scalar.addi v0 c59_i32
  let v533 : Index := Scalar.indexCast v532
  ![v533.toNat]
def k0_off120 (v534 : BitVec 32) : Fin 2 → Nat :=
  let c0_i32_239 : BitVec 32 := 0#32
  ![v534.toNat, 0]

def k0_off121 (i : grid0.Coords) : Fin 1 → Nat :=
  let arg0 : BitVec 32 := BitVec.ofNat 32 (i 0).val
  let c64_i32 : BitVec 32 := 64#32
  let v0 : BitVec 32 := Scalar.muli arg0 c64_i32
  let c60_i32 : BitVec 32 := 60#32
  let v541 : BitVec 32 := Scalar.addi v0 c60_i32
  let v542 : Index := Scalar.indexCast v541
  ![v542.toNat]
def k0_off122 (v543 : BitVec 32) : Fin 2 → Nat :=
  let c0_i32_243 : BitVec 32 := 0#32
  ![v543.toNat, 0]

def k0_off123 (i : grid0.Coords) : Fin 1 → Nat :=
  let arg0 : BitVec 32 := BitVec.ofNat 32 (i 0).val
  let c64_i32 : BitVec 32 := 64#32
  let v0 : BitVec 32 := Scalar.muli arg0 c64_i32
  let c61_i32 : BitVec 32 := 61#32
  let v550 : BitVec 32 := Scalar.addi v0 c61_i32
  let v551 : Index := Scalar.indexCast v550
  ![v551.toNat]
def k0_off124 (v552 : BitVec 32) : Fin 2 → Nat :=
  let c0_i32_247 : BitVec 32 := 0#32
  ![v552.toNat, 0]

def k0_off125 (i : grid0.Coords) : Fin 1 → Nat :=
  let arg0 : BitVec 32 := BitVec.ofNat 32 (i 0).val
  let c64_i32 : BitVec 32 := 64#32
  let v0 : BitVec 32 := Scalar.muli arg0 c64_i32
  let c62_i32 : BitVec 32 := 62#32
  let v559 : BitVec 32 := Scalar.addi v0 c62_i32
  let v560 : Index := Scalar.indexCast v559
  ![v560.toNat]
def k0_off126 (v561 : BitVec 32) : Fin 2 → Nat :=
  let c0_i32_251 : BitVec 32 := 0#32
  ![v561.toNat, 0]

def k0_off127 (i : grid0.Coords) : Fin 1 → Nat :=
  let arg0 : BitVec 32 := BitVec.ofNat 32 (i 0).val
  let c64_i32 : BitVec 32 := 64#32
  let v0 : BitVec 32 := Scalar.muli arg0 c64_i32
  let c63_i32 : BitVec 32 := 63#32
  let v568 : BitVec 32 := Scalar.addi v0 c63_i32
  let v569 : Index := Scalar.indexCast v568
  ![v569.toNat]
def k0_off128 (v570 : BitVec 32) : Fin 2 → Nat :=
  let c0_i32_255 : BitVec 32 := 0#32
  ![v570.toNat, 0]

def k0_chk64 (v570 : BitVec 32) : Prop :=
  (∀ a, (k0_off128 v570) a + S1x128.size a ≤ S50000x128.size a)
instance k0_chk64.dec : ∀ (v570 : BitVec 32), Decidable (k0_chk64 v570) := fun v570 => decidable_of_iff' _ (Iff.of_eq (k0_chk64.eq_1 v570))
theorem k0_off128_inb : ∀ (v570 : BitVec 32) (k0_hw64 : k0_chk64 v570), ∀ a, (k0_off128 v570) a + S1x128.size a ≤ S50000x128.size a := fun v570 k0_hw64 => k0_hw64

def k0_off129 (v3 : BitVec 32) : Fin 2 → Nat :=
  let c0_i32_259 : BitVec 32 := 0#32
  ![v3.toNat, 0]

def k0_chk1 (v3 : BitVec 32) : Prop :=
  (∀ a, (k0_off2 v3) a + S1x128.size a ≤ S50000x128.size a) ∧
  (∀ a, (k0_off129 v3) a + S1x128.size a ≤ S50000x128.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x128.size a ≤ S50000x128.size a := fun v3 k0_hw1 => k0_hw1.1
theorem k0_off129_inb : ∀ (v3 : BitVec 32) (k0_hw1 : k0_chk1 v3), ∀ a, (k0_off129 v3) a + S1x128.size a ≤ S50000x128.size a := fun v3 k0_hw1 => k0_hw1.2

def k0_off130 (v12 : BitVec 32) : Fin 2 → Nat :=
  let c0_i32_263 : BitVec 32 := 0#32
  ![v12.toNat, 0]

def k0_chk2 (v12 : BitVec 32) : Prop :=
  (∀ a, (k0_off4 v12) a + S1x128.size a ≤ S50000x128.size a) ∧
  (∀ a, (k0_off130 v12) a + S1x128.size a ≤ S50000x128.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x128.size a ≤ S50000x128.size a := fun v12 k0_hw2 => k0_hw2.1
theorem k0_off130_inb : ∀ (v12 : BitVec 32) (k0_hw2 : k0_chk2 v12), ∀ a, (k0_off130 v12) a + S1x128.size a ≤ S50000x128.size a := fun v12 k0_hw2 => k0_hw2.2

def k0_off131 (v21 : BitVec 32) : Fin 2 → Nat :=
  let c0_i32_267 : BitVec 32 := 0#32
  ![v21.toNat, 0]

def k0_chk3 (v21 : BitVec 32) : Prop :=
  (∀ a, (k0_off6 v21) a + S1x128.size a ≤ S50000x128.size a) ∧
  (∀ a, (k0_off131 v21) a + S1x128.size a ≤ S50000x128.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x128.size a ≤ S50000x128.size a := fun v21 k0_hw3 => k0_hw3.1
theorem k0_off131_inb : ∀ (v21 : BitVec 32) (k0_hw3 : k0_chk3 v21), ∀ a, (k0_off131 v21) a + S1x128.size a ≤ S50000x128.size a := fun v21 k0_hw3 => k0_hw3.2

def k0_off132 (v30 : BitVec 32) : Fin 2 → Nat :=
  let c0_i32_271 : BitVec 32 := 0#32
  ![v30.toNat, 0]

def k0_chk4 (v30 : BitVec 32) : Prop :=
  (∀ a, (k0_off8 v30) a + S1x128.size a ≤ S50000x128.size a) ∧
  (∀ a, (k0_off132 v30) a + S1x128.size a ≤ S50000x128.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x128.size a ≤ S50000x128.size a := fun v30 k0_hw4 => k0_hw4.1
theorem k0_off132_inb : ∀ (v30 : BitVec 32) (k0_hw4 : k0_chk4 v30), ∀ a, (k0_off132 v30) a + S1x128.size a ≤ S50000x128.size a := fun v30 k0_hw4 => k0_hw4.2

def k0_off133 (v39 : BitVec 32) : Fin 2 → Nat :=
  let c0_i32_275 : BitVec 32 := 0#32
  ![v39.toNat, 0]

def k0_chk5 (v39 : BitVec 32) : Prop :=
  (∀ a, (k0_off10 v39) a + S1x128.size a ≤ S50000x128.size a) ∧
  (∀ a, (k0_off133 v39) a + S1x128.size a ≤ S50000x128.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x128.size a ≤ S50000x128.size a := fun v39 k0_hw5 => k0_hw5.1
theorem k0_off133_inb : ∀ (v39 : BitVec 32) (k0_hw5 : k0_chk5 v39), ∀ a, (k0_off133 v39) a + S1x128.size a ≤ S50000x128.size a := fun v39 k0_hw5 => k0_hw5.2

def k0_off134 (v48 : BitVec 32) : Fin 2 → Nat :=
  let c0_i32_279 : BitVec 32 := 0#32
  ![v48.toNat, 0]

def k0_chk6 (v48 : BitVec 32) : Prop :=
  (∀ a, (k0_off12 v48) a + S1x128.size a ≤ S50000x128.size a) ∧
  (∀ a, (k0_off134 v48) a + S1x128.size a ≤ S50000x128.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x128.size a ≤ S50000x128.size a := fun v48 k0_hw6 => k0_hw6.1
theorem k0_off134_inb : ∀ (v48 : BitVec 32) (k0_hw6 : k0_chk6 v48), ∀ a, (k0_off134 v48) a + S1x128.size a ≤ S50000x128.size a := fun v48 k0_hw6 => k0_hw6.2

def k0_off135 (v57 : BitVec 32) : Fin 2 → Nat :=
  let c0_i32_283 : BitVec 32 := 0#32
  ![v57.toNat, 0]

def k0_chk7 (v57 : BitVec 32) : Prop :=
  (∀ a, (k0_off14 v57) a + S1x128.size a ≤ S50000x128.size a) ∧
  (∀ a, (k0_off135 v57) a + S1x128.size a ≤ S50000x128.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x128.size a ≤ S50000x128.size a := fun v57 k0_hw7 => k0_hw7.1
theorem k0_off135_inb : ∀ (v57 : BitVec 32) (k0_hw7 : k0_chk7 v57), ∀ a, (k0_off135 v57) a + S1x128.size a ≤ S50000x128.size a := fun v57 k0_hw7 => k0_hw7.2

def k0_off136 (v66 : BitVec 32) : Fin 2 → Nat :=
  let c0_i32_287 : BitVec 32 := 0#32
  ![v66.toNat, 0]

def k0_chk8 (v66 : BitVec 32) : Prop :=
  (∀ a, (k0_off16 v66) a + S1x128.size a ≤ S50000x128.size a) ∧
  (∀ a, (k0_off136 v66) a + S1x128.size a ≤ S50000x128.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x128.size a ≤ S50000x128.size a := fun v66 k0_hw8 => k0_hw8.1
theorem k0_off136_inb : ∀ (v66 : BitVec 32) (k0_hw8 : k0_chk8 v66), ∀ a, (k0_off136 v66) a + S1x128.size a ≤ S50000x128.size a := fun v66 k0_hw8 => k0_hw8.2

def k0_off137 (v75 : BitVec 32) : Fin 2 → Nat :=
  let c0_i32_291 : BitVec 32 := 0#32
  ![v75.toNat, 0]

def k0_chk9 (v75 : BitVec 32) : Prop :=
  (∀ a, (k0_off18 v75) a + S1x128.size a ≤ S50000x128.size a) ∧
  (∀ a, (k0_off137 v75) a + S1x128.size a ≤ S50000x128.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x128.size a ≤ S50000x128.size a := fun v75 k0_hw9 => k0_hw9.1
theorem k0_off137_inb : ∀ (v75 : BitVec 32) (k0_hw9 : k0_chk9 v75), ∀ a, (k0_off137 v75) a + S1x128.size a ≤ S50000x128.size a := fun v75 k0_hw9 => k0_hw9.2

def k0_off138 (v84 : BitVec 32) : Fin 2 → Nat :=
  let c0_i32_295 : BitVec 32 := 0#32
  ![v84.toNat, 0]

def k0_chk10 (v84 : BitVec 32) : Prop :=
  (∀ a, (k0_off20 v84) a + S1x128.size a ≤ S50000x128.size a) ∧
  (∀ a, (k0_off138 v84) a + S1x128.size a ≤ S50000x128.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x128.size a ≤ S50000x128.size a := fun v84 k0_hw10 => k0_hw10.1
theorem k0_off138_inb : ∀ (v84 : BitVec 32) (k0_hw10 : k0_chk10 v84), ∀ a, (k0_off138 v84) a + S1x128.size a ≤ S50000x128.size a := fun v84 k0_hw10 => k0_hw10.2

def k0_off139 (v93 : BitVec 32) : Fin 2 → Nat :=
  let c0_i32_299 : BitVec 32 := 0#32
  ![v93.toNat, 0]

def k0_chk11 (v93 : BitVec 32) : Prop :=
  (∀ a, (k0_off22 v93) a + S1x128.size a ≤ S50000x128.size a) ∧
  (∀ a, (k0_off139 v93) a + S1x128.size a ≤ S50000x128.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x128.size a ≤ S50000x128.size a := fun v93 k0_hw11 => k0_hw11.1
theorem k0_off139_inb : ∀ (v93 : BitVec 32) (k0_hw11 : k0_chk11 v93), ∀ a, (k0_off139 v93) a + S1x128.size a ≤ S50000x128.size a := fun v93 k0_hw11 => k0_hw11.2

def k0_off140 (v102 : BitVec 32) : Fin 2 → Nat :=
  let c0_i32_303 : BitVec 32 := 0#32
  ![v102.toNat, 0]

def k0_chk12 (v102 : BitVec 32) : Prop :=
  (∀ a, (k0_off24 v102) a + S1x128.size a ≤ S50000x128.size a) ∧
  (∀ a, (k0_off140 v102) a + S1x128.size a ≤ S50000x128.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x128.size a ≤ S50000x128.size a := fun v102 k0_hw12 => k0_hw12.1
theorem k0_off140_inb : ∀ (v102 : BitVec 32) (k0_hw12 : k0_chk12 v102), ∀ a, (k0_off140 v102) a + S1x128.size a ≤ S50000x128.size a := fun v102 k0_hw12 => k0_hw12.2

def k0_off141 (v111 : BitVec 32) : Fin 2 → Nat :=
  let c0_i32_307 : BitVec 32 := 0#32
  ![v111.toNat, 0]

def k0_chk13 (v111 : BitVec 32) : Prop :=
  (∀ a, (k0_off26 v111) a + S1x128.size a ≤ S50000x128.size a) ∧
  (∀ a, (k0_off141 v111) a + S1x128.size a ≤ S50000x128.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x128.size a ≤ S50000x128.size a := fun v111 k0_hw13 => k0_hw13.1
theorem k0_off141_inb : ∀ (v111 : BitVec 32) (k0_hw13 : k0_chk13 v111), ∀ a, (k0_off141 v111) a + S1x128.size a ≤ S50000x128.size a := fun v111 k0_hw13 => k0_hw13.2

def k0_off142 (v120 : BitVec 32) : Fin 2 → Nat :=
  let c0_i32_311 : BitVec 32 := 0#32
  ![v120.toNat, 0]

def k0_chk14 (v120 : BitVec 32) : Prop :=
  (∀ a, (k0_off28 v120) a + S1x128.size a ≤ S50000x128.size a) ∧
  (∀ a, (k0_off142 v120) a + S1x128.size a ≤ S50000x128.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x128.size a ≤ S50000x128.size a := fun v120 k0_hw14 => k0_hw14.1
theorem k0_off142_inb : ∀ (v120 : BitVec 32) (k0_hw14 : k0_chk14 v120), ∀ a, (k0_off142 v120) a + S1x128.size a ≤ S50000x128.size a := fun v120 k0_hw14 => k0_hw14.2

def k0_off143 (v129 : BitVec 32) : Fin 2 → Nat :=
  let c0_i32_315 : BitVec 32 := 0#32
  ![v129.toNat, 0]

def k0_chk15 (v129 : BitVec 32) : Prop :=
  (∀ a, (k0_off30 v129) a + S1x128.size a ≤ S50000x128.size a) ∧
  (∀ a, (k0_off143 v129) a + S1x128.size a ≤ S50000x128.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x128.size a ≤ S50000x128.size a := fun v129 k0_hw15 => k0_hw15.1
theorem k0_off143_inb : ∀ (v129 : BitVec 32) (k0_hw15 : k0_chk15 v129), ∀ a, (k0_off143 v129) a + S1x128.size a ≤ S50000x128.size a := fun v129 k0_hw15 => k0_hw15.2

def k0_off144 (v138 : BitVec 32) : Fin 2 → Nat :=
  let c0_i32_319 : BitVec 32 := 0#32
  ![v138.toNat, 0]

def k0_chk16 (v138 : BitVec 32) : Prop :=
  (∀ a, (k0_off32 v138) a + S1x128.size a ≤ S50000x128.size a) ∧
  (∀ a, (k0_off144 v138) a + S1x128.size a ≤ S50000x128.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x128.size a ≤ S50000x128.size a := fun v138 k0_hw16 => k0_hw16.1
theorem k0_off144_inb : ∀ (v138 : BitVec 32) (k0_hw16 : k0_chk16 v138), ∀ a, (k0_off144 v138) a + S1x128.size a ≤ S50000x128.size a := fun v138 k0_hw16 => k0_hw16.2

def k0_off145 (v147 : BitVec 32) : Fin 2 → Nat :=
  let c0_i32_323 : BitVec 32 := 0#32
  ![v147.toNat, 0]

def k0_chk17 (v147 : BitVec 32) : Prop :=
  (∀ a, (k0_off34 v147) a + S1x128.size a ≤ S50000x128.size a) ∧
  (∀ a, (k0_off145 v147) a + S1x128.size a ≤ S50000x128.size a)
instance k0_chk17.dec : ∀ (v147 : BitVec 32), Decidable (k0_chk17 v147) := fun v147 => decidable_of_iff' _ (Iff.of_eq (k0_chk17.eq_1 v147))
theorem k0_off34_inb : ∀ (v147 : BitVec 32) (k0_hw17 : k0_chk17 v147), ∀ a, (k0_off34 v147) a + S1x128.size a ≤ S50000x128.size a := fun v147 k0_hw17 => k0_hw17.1
theorem k0_off145_inb : ∀ (v147 : BitVec 32) (k0_hw17 : k0_chk17 v147), ∀ a, (k0_off145 v147) a + S1x128.size a ≤ S50000x128.size a := fun v147 k0_hw17 => k0_hw17.2

def k0_off146 (v156 : BitVec 32) : Fin 2 → Nat :=
  let c0_i32_327 : BitVec 32 := 0#32
  ![v156.toNat, 0]

def k0_chk18 (v156 : BitVec 32) : Prop :=
  (∀ a, (k0_off36 v156) a + S1x128.size a ≤ S50000x128.size a) ∧
  (∀ a, (k0_off146 v156) a + S1x128.size a ≤ S50000x128.size a)
instance k0_chk18.dec : ∀ (v156 : BitVec 32), Decidable (k0_chk18 v156) := fun v156 => decidable_of_iff' _ (Iff.of_eq (k0_chk18.eq_1 v156))
theorem k0_off36_inb : ∀ (v156 : BitVec 32) (k0_hw18 : k0_chk18 v156), ∀ a, (k0_off36 v156) a + S1x128.size a ≤ S50000x128.size a := fun v156 k0_hw18 => k0_hw18.1
theorem k0_off146_inb : ∀ (v156 : BitVec 32) (k0_hw18 : k0_chk18 v156), ∀ a, (k0_off146 v156) a + S1x128.size a ≤ S50000x128.size a := fun v156 k0_hw18 => k0_hw18.2

def k0_off147 (v165 : BitVec 32) : Fin 2 → Nat :=
  let c0_i32_331 : BitVec 32 := 0#32
  ![v165.toNat, 0]

def k0_chk19 (v165 : BitVec 32) : Prop :=
  (∀ a, (k0_off38 v165) a + S1x128.size a ≤ S50000x128.size a) ∧
  (∀ a, (k0_off147 v165) a + S1x128.size a ≤ S50000x128.size a)
instance k0_chk19.dec : ∀ (v165 : BitVec 32), Decidable (k0_chk19 v165) := fun v165 => decidable_of_iff' _ (Iff.of_eq (k0_chk19.eq_1 v165))
theorem k0_off38_inb : ∀ (v165 : BitVec 32) (k0_hw19 : k0_chk19 v165), ∀ a, (k0_off38 v165) a + S1x128.size a ≤ S50000x128.size a := fun v165 k0_hw19 => k0_hw19.1
theorem k0_off147_inb : ∀ (v165 : BitVec 32) (k0_hw19 : k0_chk19 v165), ∀ a, (k0_off147 v165) a + S1x128.size a ≤ S50000x128.size a := fun v165 k0_hw19 => k0_hw19.2

def k0_off148 (v174 : BitVec 32) : Fin 2 → Nat :=
  let c0_i32_335 : BitVec 32 := 0#32
  ![v174.toNat, 0]

def k0_chk20 (v174 : BitVec 32) : Prop :=
  (∀ a, (k0_off40 v174) a + S1x128.size a ≤ S50000x128.size a) ∧
  (∀ a, (k0_off148 v174) a + S1x128.size a ≤ S50000x128.size a)
instance k0_chk20.dec : ∀ (v174 : BitVec 32), Decidable (k0_chk20 v174) := fun v174 => decidable_of_iff' _ (Iff.of_eq (k0_chk20.eq_1 v174))
theorem k0_off40_inb : ∀ (v174 : BitVec 32) (k0_hw20 : k0_chk20 v174), ∀ a, (k0_off40 v174) a + S1x128.size a ≤ S50000x128.size a := fun v174 k0_hw20 => k0_hw20.1
theorem k0_off148_inb : ∀ (v174 : BitVec 32) (k0_hw20 : k0_chk20 v174), ∀ a, (k0_off148 v174) a + S1x128.size a ≤ S50000x128.size a := fun v174 k0_hw20 => k0_hw20.2

def k0_off149 (v183 : BitVec 32) : Fin 2 → Nat :=
  let c0_i32_339 : BitVec 32 := 0#32
  ![v183.toNat, 0]

def k0_chk21 (v183 : BitVec 32) : Prop :=
  (∀ a, (k0_off42 v183) a + S1x128.size a ≤ S50000x128.size a) ∧
  (∀ a, (k0_off149 v183) a + S1x128.size a ≤ S50000x128.size a)
instance k0_chk21.dec : ∀ (v183 : BitVec 32), Decidable (k0_chk21 v183) := fun v183 => decidable_of_iff' _ (Iff.of_eq (k0_chk21.eq_1 v183))
theorem k0_off42_inb : ∀ (v183 : BitVec 32) (k0_hw21 : k0_chk21 v183), ∀ a, (k0_off42 v183) a + S1x128.size a ≤ S50000x128.size a := fun v183 k0_hw21 => k0_hw21.1
theorem k0_off149_inb : ∀ (v183 : BitVec 32) (k0_hw21 : k0_chk21 v183), ∀ a, (k0_off149 v183) a + S1x128.size a ≤ S50000x128.size a := fun v183 k0_hw21 => k0_hw21.2

def k0_off150 (v192 : BitVec 32) : Fin 2 → Nat :=
  let c0_i32_343 : BitVec 32 := 0#32
  ![v192.toNat, 0]

def k0_chk22 (v192 : BitVec 32) : Prop :=
  (∀ a, (k0_off44 v192) a + S1x128.size a ≤ S50000x128.size a) ∧
  (∀ a, (k0_off150 v192) a + S1x128.size a ≤ S50000x128.size a)
instance k0_chk22.dec : ∀ (v192 : BitVec 32), Decidable (k0_chk22 v192) := fun v192 => decidable_of_iff' _ (Iff.of_eq (k0_chk22.eq_1 v192))
theorem k0_off44_inb : ∀ (v192 : BitVec 32) (k0_hw22 : k0_chk22 v192), ∀ a, (k0_off44 v192) a + S1x128.size a ≤ S50000x128.size a := fun v192 k0_hw22 => k0_hw22.1
theorem k0_off150_inb : ∀ (v192 : BitVec 32) (k0_hw22 : k0_chk22 v192), ∀ a, (k0_off150 v192) a + S1x128.size a ≤ S50000x128.size a := fun v192 k0_hw22 => k0_hw22.2

def k0_off151 (v201 : BitVec 32) : Fin 2 → Nat :=
  let c0_i32_347 : BitVec 32 := 0#32
  ![v201.toNat, 0]

def k0_chk23 (v201 : BitVec 32) : Prop :=
  (∀ a, (k0_off46 v201) a + S1x128.size a ≤ S50000x128.size a) ∧
  (∀ a, (k0_off151 v201) a + S1x128.size a ≤ S50000x128.size a)
instance k0_chk23.dec : ∀ (v201 : BitVec 32), Decidable (k0_chk23 v201) := fun v201 => decidable_of_iff' _ (Iff.of_eq (k0_chk23.eq_1 v201))
theorem k0_off46_inb : ∀ (v201 : BitVec 32) (k0_hw23 : k0_chk23 v201), ∀ a, (k0_off46 v201) a + S1x128.size a ≤ S50000x128.size a := fun v201 k0_hw23 => k0_hw23.1
theorem k0_off151_inb : ∀ (v201 : BitVec 32) (k0_hw23 : k0_chk23 v201), ∀ a, (k0_off151 v201) a + S1x128.size a ≤ S50000x128.size a := fun v201 k0_hw23 => k0_hw23.2

def k0_off152 (v210 : BitVec 32) : Fin 2 → Nat :=
  let c0_i32_351 : BitVec 32 := 0#32
  ![v210.toNat, 0]

def k0_chk24 (v210 : BitVec 32) : Prop :=
  (∀ a, (k0_off48 v210) a + S1x128.size a ≤ S50000x128.size a) ∧
  (∀ a, (k0_off152 v210) a + S1x128.size a ≤ S50000x128.size a)
instance k0_chk24.dec : ∀ (v210 : BitVec 32), Decidable (k0_chk24 v210) := fun v210 => decidable_of_iff' _ (Iff.of_eq (k0_chk24.eq_1 v210))
theorem k0_off48_inb : ∀ (v210 : BitVec 32) (k0_hw24 : k0_chk24 v210), ∀ a, (k0_off48 v210) a + S1x128.size a ≤ S50000x128.size a := fun v210 k0_hw24 => k0_hw24.1
theorem k0_off152_inb : ∀ (v210 : BitVec 32) (k0_hw24 : k0_chk24 v210), ∀ a, (k0_off152 v210) a + S1x128.size a ≤ S50000x128.size a := fun v210 k0_hw24 => k0_hw24.2

def k0_off153 (v219 : BitVec 32) : Fin 2 → Nat :=
  let c0_i32_355 : BitVec 32 := 0#32
  ![v219.toNat, 0]

def k0_chk25 (v219 : BitVec 32) : Prop :=
  (∀ a, (k0_off50 v219) a + S1x128.size a ≤ S50000x128.size a) ∧
  (∀ a, (k0_off153 v219) a + S1x128.size a ≤ S50000x128.size a)
instance k0_chk25.dec : ∀ (v219 : BitVec 32), Decidable (k0_chk25 v219) := fun v219 => decidable_of_iff' _ (Iff.of_eq (k0_chk25.eq_1 v219))
theorem k0_off50_inb : ∀ (v219 : BitVec 32) (k0_hw25 : k0_chk25 v219), ∀ a, (k0_off50 v219) a + S1x128.size a ≤ S50000x128.size a := fun v219 k0_hw25 => k0_hw25.1
theorem k0_off153_inb : ∀ (v219 : BitVec 32) (k0_hw25 : k0_chk25 v219), ∀ a, (k0_off153 v219) a + S1x128.size a ≤ S50000x128.size a := fun v219 k0_hw25 => k0_hw25.2

def k0_off154 (v228 : BitVec 32) : Fin 2 → Nat :=
  let c0_i32_359 : BitVec 32 := 0#32
  ![v228.toNat, 0]

def k0_chk26 (v228 : BitVec 32) : Prop :=
  (∀ a, (k0_off52 v228) a + S1x128.size a ≤ S50000x128.size a) ∧
  (∀ a, (k0_off154 v228) a + S1x128.size a ≤ S50000x128.size a)
instance k0_chk26.dec : ∀ (v228 : BitVec 32), Decidable (k0_chk26 v228) := fun v228 => decidable_of_iff' _ (Iff.of_eq (k0_chk26.eq_1 v228))
theorem k0_off52_inb : ∀ (v228 : BitVec 32) (k0_hw26 : k0_chk26 v228), ∀ a, (k0_off52 v228) a + S1x128.size a ≤ S50000x128.size a := fun v228 k0_hw26 => k0_hw26.1
theorem k0_off154_inb : ∀ (v228 : BitVec 32) (k0_hw26 : k0_chk26 v228), ∀ a, (k0_off154 v228) a + S1x128.size a ≤ S50000x128.size a := fun v228 k0_hw26 => k0_hw26.2

def k0_off155 (v237 : BitVec 32) : Fin 2 → Nat :=
  let c0_i32_363 : BitVec 32 := 0#32
  ![v237.toNat, 0]

def k0_chk27 (v237 : BitVec 32) : Prop :=
  (∀ a, (k0_off54 v237) a + S1x128.size a ≤ S50000x128.size a) ∧
  (∀ a, (k0_off155 v237) a + S1x128.size a ≤ S50000x128.size a)
instance k0_chk27.dec : ∀ (v237 : BitVec 32), Decidable (k0_chk27 v237) := fun v237 => decidable_of_iff' _ (Iff.of_eq (k0_chk27.eq_1 v237))
theorem k0_off54_inb : ∀ (v237 : BitVec 32) (k0_hw27 : k0_chk27 v237), ∀ a, (k0_off54 v237) a + S1x128.size a ≤ S50000x128.size a := fun v237 k0_hw27 => k0_hw27.1
theorem k0_off155_inb : ∀ (v237 : BitVec 32) (k0_hw27 : k0_chk27 v237), ∀ a, (k0_off155 v237) a + S1x128.size a ≤ S50000x128.size a := fun v237 k0_hw27 => k0_hw27.2

def k0_off156 (v246 : BitVec 32) : Fin 2 → Nat :=
  let c0_i32_367 : BitVec 32 := 0#32
  ![v246.toNat, 0]

def k0_chk28 (v246 : BitVec 32) : Prop :=
  (∀ a, (k0_off56 v246) a + S1x128.size a ≤ S50000x128.size a) ∧
  (∀ a, (k0_off156 v246) a + S1x128.size a ≤ S50000x128.size a)
instance k0_chk28.dec : ∀ (v246 : BitVec 32), Decidable (k0_chk28 v246) := fun v246 => decidable_of_iff' _ (Iff.of_eq (k0_chk28.eq_1 v246))
theorem k0_off56_inb : ∀ (v246 : BitVec 32) (k0_hw28 : k0_chk28 v246), ∀ a, (k0_off56 v246) a + S1x128.size a ≤ S50000x128.size a := fun v246 k0_hw28 => k0_hw28.1
theorem k0_off156_inb : ∀ (v246 : BitVec 32) (k0_hw28 : k0_chk28 v246), ∀ a, (k0_off156 v246) a + S1x128.size a ≤ S50000x128.size a := fun v246 k0_hw28 => k0_hw28.2

def k0_off157 (v255 : BitVec 32) : Fin 2 → Nat :=
  let c0_i32_371 : BitVec 32 := 0#32
  ![v255.toNat, 0]

def k0_chk29 (v255 : BitVec 32) : Prop :=
  (∀ a, (k0_off58 v255) a + S1x128.size a ≤ S50000x128.size a) ∧
  (∀ a, (k0_off157 v255) a + S1x128.size a ≤ S50000x128.size a)
instance k0_chk29.dec : ∀ (v255 : BitVec 32), Decidable (k0_chk29 v255) := fun v255 => decidable_of_iff' _ (Iff.of_eq (k0_chk29.eq_1 v255))
theorem k0_off58_inb : ∀ (v255 : BitVec 32) (k0_hw29 : k0_chk29 v255), ∀ a, (k0_off58 v255) a + S1x128.size a ≤ S50000x128.size a := fun v255 k0_hw29 => k0_hw29.1
theorem k0_off157_inb : ∀ (v255 : BitVec 32) (k0_hw29 : k0_chk29 v255), ∀ a, (k0_off157 v255) a + S1x128.size a ≤ S50000x128.size a := fun v255 k0_hw29 => k0_hw29.2

def k0_off158 (v264 : BitVec 32) : Fin 2 → Nat :=
  let c0_i32_375 : BitVec 32 := 0#32
  ![v264.toNat, 0]

def k0_chk30 (v264 : BitVec 32) : Prop :=
  (∀ a, (k0_off60 v264) a + S1x128.size a ≤ S50000x128.size a) ∧
  (∀ a, (k0_off158 v264) a + S1x128.size a ≤ S50000x128.size a)
instance k0_chk30.dec : ∀ (v264 : BitVec 32), Decidable (k0_chk30 v264) := fun v264 => decidable_of_iff' _ (Iff.of_eq (k0_chk30.eq_1 v264))
theorem k0_off60_inb : ∀ (v264 : BitVec 32) (k0_hw30 : k0_chk30 v264), ∀ a, (k0_off60 v264) a + S1x128.size a ≤ S50000x128.size a := fun v264 k0_hw30 => k0_hw30.1
theorem k0_off158_inb : ∀ (v264 : BitVec 32) (k0_hw30 : k0_chk30 v264), ∀ a, (k0_off158 v264) a + S1x128.size a ≤ S50000x128.size a := fun v264 k0_hw30 => k0_hw30.2

def k0_off159 (v273 : BitVec 32) : Fin 2 → Nat :=
  let c0_i32_379 : BitVec 32 := 0#32
  ![v273.toNat, 0]

def k0_chk31 (v273 : BitVec 32) : Prop :=
  (∀ a, (k0_off62 v273) a + S1x128.size a ≤ S50000x128.size a) ∧
  (∀ a, (k0_off159 v273) a + S1x128.size a ≤ S50000x128.size a)
instance k0_chk31.dec : ∀ (v273 : BitVec 32), Decidable (k0_chk31 v273) := fun v273 => decidable_of_iff' _ (Iff.of_eq (k0_chk31.eq_1 v273))
theorem k0_off62_inb : ∀ (v273 : BitVec 32) (k0_hw31 : k0_chk31 v273), ∀ a, (k0_off62 v273) a + S1x128.size a ≤ S50000x128.size a := fun v273 k0_hw31 => k0_hw31.1
theorem k0_off159_inb : ∀ (v273 : BitVec 32) (k0_hw31 : k0_chk31 v273), ∀ a, (k0_off159 v273) a + S1x128.size a ≤ S50000x128.size a := fun v273 k0_hw31 => k0_hw31.2

def k0_off160 (v282 : BitVec 32) : Fin 2 → Nat :=
  let c0_i32_383 : BitVec 32 := 0#32
  ![v282.toNat, 0]

def k0_chk32 (v282 : BitVec 32) : Prop :=
  (∀ a, (k0_off64 v282) a + S1x128.size a ≤ S50000x128.size a) ∧
  (∀ a, (k0_off160 v282) a + S1x128.size a ≤ S50000x128.size a)
instance k0_chk32.dec : ∀ (v282 : BitVec 32), Decidable (k0_chk32 v282) := fun v282 => decidable_of_iff' _ (Iff.of_eq (k0_chk32.eq_1 v282))
theorem k0_off64_inb : ∀ (v282 : BitVec 32) (k0_hw32 : k0_chk32 v282), ∀ a, (k0_off64 v282) a + S1x128.size a ≤ S50000x128.size a := fun v282 k0_hw32 => k0_hw32.1
theorem k0_off160_inb : ∀ (v282 : BitVec 32) (k0_hw32 : k0_chk32 v282), ∀ a, (k0_off160 v282) a + S1x128.size a ≤ S50000x128.size a := fun v282 k0_hw32 => k0_hw32.2

def k0_off161 (v291 : BitVec 32) : Fin 2 → Nat :=
  let c0_i32_387 : BitVec 32 := 0#32
  ![v291.toNat, 0]

def k0_chk33 (v291 : BitVec 32) : Prop :=
  (∀ a, (k0_off66 v291) a + S1x128.size a ≤ S50000x128.size a) ∧
  (∀ a, (k0_off161 v291) a + S1x128.size a ≤ S50000x128.size a)
instance k0_chk33.dec : ∀ (v291 : BitVec 32), Decidable (k0_chk33 v291) := fun v291 => decidable_of_iff' _ (Iff.of_eq (k0_chk33.eq_1 v291))
theorem k0_off66_inb : ∀ (v291 : BitVec 32) (k0_hw33 : k0_chk33 v291), ∀ a, (k0_off66 v291) a + S1x128.size a ≤ S50000x128.size a := fun v291 k0_hw33 => k0_hw33.1
theorem k0_off161_inb : ∀ (v291 : BitVec 32) (k0_hw33 : k0_chk33 v291), ∀ a, (k0_off161 v291) a + S1x128.size a ≤ S50000x128.size a := fun v291 k0_hw33 => k0_hw33.2

def k0_off162 (v300 : BitVec 32) : Fin 2 → Nat :=
  let c0_i32_391 : BitVec 32 := 0#32
  ![v300.toNat, 0]

def k0_chk34 (v300 : BitVec 32) : Prop :=
  (∀ a, (k0_off68 v300) a + S1x128.size a ≤ S50000x128.size a) ∧
  (∀ a, (k0_off162 v300) a + S1x128.size a ≤ S50000x128.size a)
instance k0_chk34.dec : ∀ (v300 : BitVec 32), Decidable (k0_chk34 v300) := fun v300 => decidable_of_iff' _ (Iff.of_eq (k0_chk34.eq_1 v300))
theorem k0_off68_inb : ∀ (v300 : BitVec 32) (k0_hw34 : k0_chk34 v300), ∀ a, (k0_off68 v300) a + S1x128.size a ≤ S50000x128.size a := fun v300 k0_hw34 => k0_hw34.1
theorem k0_off162_inb : ∀ (v300 : BitVec 32) (k0_hw34 : k0_chk34 v300), ∀ a, (k0_off162 v300) a + S1x128.size a ≤ S50000x128.size a := fun v300 k0_hw34 => k0_hw34.2

def k0_off163 (v309 : BitVec 32) : Fin 2 → Nat :=
  let c0_i32_395 : BitVec 32 := 0#32
  ![v309.toNat, 0]

def k0_chk35 (v309 : BitVec 32) : Prop :=
  (∀ a, (k0_off70 v309) a + S1x128.size a ≤ S50000x128.size a) ∧
  (∀ a, (k0_off163 v309) a + S1x128.size a ≤ S50000x128.size a)
instance k0_chk35.dec : ∀ (v309 : BitVec 32), Decidable (k0_chk35 v309) := fun v309 => decidable_of_iff' _ (Iff.of_eq (k0_chk35.eq_1 v309))
theorem k0_off70_inb : ∀ (v309 : BitVec 32) (k0_hw35 : k0_chk35 v309), ∀ a, (k0_off70 v309) a + S1x128.size a ≤ S50000x128.size a := fun v309 k0_hw35 => k0_hw35.1
theorem k0_off163_inb : ∀ (v309 : BitVec 32) (k0_hw35 : k0_chk35 v309), ∀ a, (k0_off163 v309) a + S1x128.size a ≤ S50000x128.size a := fun v309 k0_hw35 => k0_hw35.2

def k0_off164 (v318 : BitVec 32) : Fin 2 → Nat :=
  let c0_i32_399 : BitVec 32 := 0#32
  ![v318.toNat, 0]

def k0_chk36 (v318 : BitVec 32) : Prop :=
  (∀ a, (k0_off72 v318) a + S1x128.size a ≤ S50000x128.size a) ∧
  (∀ a, (k0_off164 v318) a + S1x128.size a ≤ S50000x128.size a)
instance k0_chk36.dec : ∀ (v318 : BitVec 32), Decidable (k0_chk36 v318) := fun v318 => decidable_of_iff' _ (Iff.of_eq (k0_chk36.eq_1 v318))
theorem k0_off72_inb : ∀ (v318 : BitVec 32) (k0_hw36 : k0_chk36 v318), ∀ a, (k0_off72 v318) a + S1x128.size a ≤ S50000x128.size a := fun v318 k0_hw36 => k0_hw36.1
theorem k0_off164_inb : ∀ (v318 : BitVec 32) (k0_hw36 : k0_chk36 v318), ∀ a, (k0_off164 v318) a + S1x128.size a ≤ S50000x128.size a := fun v318 k0_hw36 => k0_hw36.2

def k0_off165 (v327 : BitVec 32) : Fin 2 → Nat :=
  let c0_i32_403 : BitVec 32 := 0#32
  ![v327.toNat, 0]

def k0_chk37 (v327 : BitVec 32) : Prop :=
  (∀ a, (k0_off74 v327) a + S1x128.size a ≤ S50000x128.size a) ∧
  (∀ a, (k0_off165 v327) a + S1x128.size a ≤ S50000x128.size a)
instance k0_chk37.dec : ∀ (v327 : BitVec 32), Decidable (k0_chk37 v327) := fun v327 => decidable_of_iff' _ (Iff.of_eq (k0_chk37.eq_1 v327))
theorem k0_off74_inb : ∀ (v327 : BitVec 32) (k0_hw37 : k0_chk37 v327), ∀ a, (k0_off74 v327) a + S1x128.size a ≤ S50000x128.size a := fun v327 k0_hw37 => k0_hw37.1
theorem k0_off165_inb : ∀ (v327 : BitVec 32) (k0_hw37 : k0_chk37 v327), ∀ a, (k0_off165 v327) a + S1x128.size a ≤ S50000x128.size a := fun v327 k0_hw37 => k0_hw37.2

def k0_off166 (v336 : BitVec 32) : Fin 2 → Nat :=
  let c0_i32_407 : BitVec 32 := 0#32
  ![v336.toNat, 0]

def k0_chk38 (v336 : BitVec 32) : Prop :=
  (∀ a, (k0_off76 v336) a + S1x128.size a ≤ S50000x128.size a) ∧
  (∀ a, (k0_off166 v336) a + S1x128.size a ≤ S50000x128.size a)
instance k0_chk38.dec : ∀ (v336 : BitVec 32), Decidable (k0_chk38 v336) := fun v336 => decidable_of_iff' _ (Iff.of_eq (k0_chk38.eq_1 v336))
theorem k0_off76_inb : ∀ (v336 : BitVec 32) (k0_hw38 : k0_chk38 v336), ∀ a, (k0_off76 v336) a + S1x128.size a ≤ S50000x128.size a := fun v336 k0_hw38 => k0_hw38.1
theorem k0_off166_inb : ∀ (v336 : BitVec 32) (k0_hw38 : k0_chk38 v336), ∀ a, (k0_off166 v336) a + S1x128.size a ≤ S50000x128.size a := fun v336 k0_hw38 => k0_hw38.2

def k0_off167 (v345 : BitVec 32) : Fin 2 → Nat :=
  let c0_i32_411 : BitVec 32 := 0#32
  ![v345.toNat, 0]

def k0_chk39 (v345 : BitVec 32) : Prop :=
  (∀ a, (k0_off78 v345) a + S1x128.size a ≤ S50000x128.size a) ∧
  (∀ a, (k0_off167 v345) a + S1x128.size a ≤ S50000x128.size a)
instance k0_chk39.dec : ∀ (v345 : BitVec 32), Decidable (k0_chk39 v345) := fun v345 => decidable_of_iff' _ (Iff.of_eq (k0_chk39.eq_1 v345))
theorem k0_off78_inb : ∀ (v345 : BitVec 32) (k0_hw39 : k0_chk39 v345), ∀ a, (k0_off78 v345) a + S1x128.size a ≤ S50000x128.size a := fun v345 k0_hw39 => k0_hw39.1
theorem k0_off167_inb : ∀ (v345 : BitVec 32) (k0_hw39 : k0_chk39 v345), ∀ a, (k0_off167 v345) a + S1x128.size a ≤ S50000x128.size a := fun v345 k0_hw39 => k0_hw39.2

def k0_off168 (v354 : BitVec 32) : Fin 2 → Nat :=
  let c0_i32_415 : BitVec 32 := 0#32
  ![v354.toNat, 0]

def k0_chk40 (v354 : BitVec 32) : Prop :=
  (∀ a, (k0_off80 v354) a + S1x128.size a ≤ S50000x128.size a) ∧
  (∀ a, (k0_off168 v354) a + S1x128.size a ≤ S50000x128.size a)
instance k0_chk40.dec : ∀ (v354 : BitVec 32), Decidable (k0_chk40 v354) := fun v354 => decidable_of_iff' _ (Iff.of_eq (k0_chk40.eq_1 v354))
theorem k0_off80_inb : ∀ (v354 : BitVec 32) (k0_hw40 : k0_chk40 v354), ∀ a, (k0_off80 v354) a + S1x128.size a ≤ S50000x128.size a := fun v354 k0_hw40 => k0_hw40.1
theorem k0_off168_inb : ∀ (v354 : BitVec 32) (k0_hw40 : k0_chk40 v354), ∀ a, (k0_off168 v354) a + S1x128.size a ≤ S50000x128.size a := fun v354 k0_hw40 => k0_hw40.2

def k0_off169 (v363 : BitVec 32) : Fin 2 → Nat :=
  let c0_i32_419 : BitVec 32 := 0#32
  ![v363.toNat, 0]

def k0_chk41 (v363 : BitVec 32) : Prop :=
  (∀ a, (k0_off82 v363) a + S1x128.size a ≤ S50000x128.size a) ∧
  (∀ a, (k0_off169 v363) a + S1x128.size a ≤ S50000x128.size a)
instance k0_chk41.dec : ∀ (v363 : BitVec 32), Decidable (k0_chk41 v363) := fun v363 => decidable_of_iff' _ (Iff.of_eq (k0_chk41.eq_1 v363))
theorem k0_off82_inb : ∀ (v363 : BitVec 32) (k0_hw41 : k0_chk41 v363), ∀ a, (k0_off82 v363) a + S1x128.size a ≤ S50000x128.size a := fun v363 k0_hw41 => k0_hw41.1
theorem k0_off169_inb : ∀ (v363 : BitVec 32) (k0_hw41 : k0_chk41 v363), ∀ a, (k0_off169 v363) a + S1x128.size a ≤ S50000x128.size a := fun v363 k0_hw41 => k0_hw41.2

def k0_off170 (v372 : BitVec 32) : Fin 2 → Nat :=
  let c0_i32_423 : BitVec 32 := 0#32
  ![v372.toNat, 0]

def k0_chk42 (v372 : BitVec 32) : Prop :=
  (∀ a, (k0_off84 v372) a + S1x128.size a ≤ S50000x128.size a) ∧
  (∀ a, (k0_off170 v372) a + S1x128.size a ≤ S50000x128.size a)
instance k0_chk42.dec : ∀ (v372 : BitVec 32), Decidable (k0_chk42 v372) := fun v372 => decidable_of_iff' _ (Iff.of_eq (k0_chk42.eq_1 v372))
theorem k0_off84_inb : ∀ (v372 : BitVec 32) (k0_hw42 : k0_chk42 v372), ∀ a, (k0_off84 v372) a + S1x128.size a ≤ S50000x128.size a := fun v372 k0_hw42 => k0_hw42.1
theorem k0_off170_inb : ∀ (v372 : BitVec 32) (k0_hw42 : k0_chk42 v372), ∀ a, (k0_off170 v372) a + S1x128.size a ≤ S50000x128.size a := fun v372 k0_hw42 => k0_hw42.2

def k0_off171 (v381 : BitVec 32) : Fin 2 → Nat :=
  let c0_i32_427 : BitVec 32 := 0#32
  ![v381.toNat, 0]

def k0_chk43 (v381 : BitVec 32) : Prop :=
  (∀ a, (k0_off86 v381) a + S1x128.size a ≤ S50000x128.size a) ∧
  (∀ a, (k0_off171 v381) a + S1x128.size a ≤ S50000x128.size a)
instance k0_chk43.dec : ∀ (v381 : BitVec 32), Decidable (k0_chk43 v381) := fun v381 => decidable_of_iff' _ (Iff.of_eq (k0_chk43.eq_1 v381))
theorem k0_off86_inb : ∀ (v381 : BitVec 32) (k0_hw43 : k0_chk43 v381), ∀ a, (k0_off86 v381) a + S1x128.size a ≤ S50000x128.size a := fun v381 k0_hw43 => k0_hw43.1
theorem k0_off171_inb : ∀ (v381 : BitVec 32) (k0_hw43 : k0_chk43 v381), ∀ a, (k0_off171 v381) a + S1x128.size a ≤ S50000x128.size a := fun v381 k0_hw43 => k0_hw43.2

def k0_off172 (v390 : BitVec 32) : Fin 2 → Nat :=
  let c0_i32_431 : BitVec 32 := 0#32
  ![v390.toNat, 0]

def k0_chk44 (v390 : BitVec 32) : Prop :=
  (∀ a, (k0_off88 v390) a + S1x128.size a ≤ S50000x128.size a) ∧
  (∀ a, (k0_off172 v390) a + S1x128.size a ≤ S50000x128.size a)
instance k0_chk44.dec : ∀ (v390 : BitVec 32), Decidable (k0_chk44 v390) := fun v390 => decidable_of_iff' _ (Iff.of_eq (k0_chk44.eq_1 v390))
theorem k0_off88_inb : ∀ (v390 : BitVec 32) (k0_hw44 : k0_chk44 v390), ∀ a, (k0_off88 v390) a + S1x128.size a ≤ S50000x128.size a := fun v390 k0_hw44 => k0_hw44.1
theorem k0_off172_inb : ∀ (v390 : BitVec 32) (k0_hw44 : k0_chk44 v390), ∀ a, (k0_off172 v390) a + S1x128.size a ≤ S50000x128.size a := fun v390 k0_hw44 => k0_hw44.2

def k0_off173 (v399 : BitVec 32) : Fin 2 → Nat :=
  let c0_i32_435 : BitVec 32 := 0#32
  ![v399.toNat, 0]

def k0_chk45 (v399 : BitVec 32) : Prop :=
  (∀ a, (k0_off90 v399) a + S1x128.size a ≤ S50000x128.size a) ∧
  (∀ a, (k0_off173 v399) a + S1x128.size a ≤ S50000x128.size a)
instance k0_chk45.dec : ∀ (v399 : BitVec 32), Decidable (k0_chk45 v399) := fun v399 => decidable_of_iff' _ (Iff.of_eq (k0_chk45.eq_1 v399))
theorem k0_off90_inb : ∀ (v399 : BitVec 32) (k0_hw45 : k0_chk45 v399), ∀ a, (k0_off90 v399) a + S1x128.size a ≤ S50000x128.size a := fun v399 k0_hw45 => k0_hw45.1
theorem k0_off173_inb : ∀ (v399 : BitVec 32) (k0_hw45 : k0_chk45 v399), ∀ a, (k0_off173 v399) a + S1x128.size a ≤ S50000x128.size a := fun v399 k0_hw45 => k0_hw45.2

def k0_off174 (v408 : BitVec 32) : Fin 2 → Nat :=
  let c0_i32_439 : BitVec 32 := 0#32
  ![v408.toNat, 0]

def k0_chk46 (v408 : BitVec 32) : Prop :=
  (∀ a, (k0_off92 v408) a + S1x128.size a ≤ S50000x128.size a) ∧
  (∀ a, (k0_off174 v408) a + S1x128.size a ≤ S50000x128.size a)
instance k0_chk46.dec : ∀ (v408 : BitVec 32), Decidable (k0_chk46 v408) := fun v408 => decidable_of_iff' _ (Iff.of_eq (k0_chk46.eq_1 v408))
theorem k0_off92_inb : ∀ (v408 : BitVec 32) (k0_hw46 : k0_chk46 v408), ∀ a, (k0_off92 v408) a + S1x128.size a ≤ S50000x128.size a := fun v408 k0_hw46 => k0_hw46.1
theorem k0_off174_inb : ∀ (v408 : BitVec 32) (k0_hw46 : k0_chk46 v408), ∀ a, (k0_off174 v408) a + S1x128.size a ≤ S50000x128.size a := fun v408 k0_hw46 => k0_hw46.2

def k0_off175 (v417 : BitVec 32) : Fin 2 → Nat :=
  let c0_i32_443 : BitVec 32 := 0#32
  ![v417.toNat, 0]

def k0_chk47 (v417 : BitVec 32) : Prop :=
  (∀ a, (k0_off94 v417) a + S1x128.size a ≤ S50000x128.size a) ∧
  (∀ a, (k0_off175 v417) a + S1x128.size a ≤ S50000x128.size a)
instance k0_chk47.dec : ∀ (v417 : BitVec 32), Decidable (k0_chk47 v417) := fun v417 => decidable_of_iff' _ (Iff.of_eq (k0_chk47.eq_1 v417))
theorem k0_off94_inb : ∀ (v417 : BitVec 32) (k0_hw47 : k0_chk47 v417), ∀ a, (k0_off94 v417) a + S1x128.size a ≤ S50000x128.size a := fun v417 k0_hw47 => k0_hw47.1
theorem k0_off175_inb : ∀ (v417 : BitVec 32) (k0_hw47 : k0_chk47 v417), ∀ a, (k0_off175 v417) a + S1x128.size a ≤ S50000x128.size a := fun v417 k0_hw47 => k0_hw47.2

def k0_off176 (v426 : BitVec 32) : Fin 2 → Nat :=
  let c0_i32_447 : BitVec 32 := 0#32
  ![v426.toNat, 0]

def k0_chk48 (v426 : BitVec 32) : Prop :=
  (∀ a, (k0_off96 v426) a + S1x128.size a ≤ S50000x128.size a) ∧
  (∀ a, (k0_off176 v426) a + S1x128.size a ≤ S50000x128.size a)
instance k0_chk48.dec : ∀ (v426 : BitVec 32), Decidable (k0_chk48 v426) := fun v426 => decidable_of_iff' _ (Iff.of_eq (k0_chk48.eq_1 v426))
theorem k0_off96_inb : ∀ (v426 : BitVec 32) (k0_hw48 : k0_chk48 v426), ∀ a, (k0_off96 v426) a + S1x128.size a ≤ S50000x128.size a := fun v426 k0_hw48 => k0_hw48.1
theorem k0_off176_inb : ∀ (v426 : BitVec 32) (k0_hw48 : k0_chk48 v426), ∀ a, (k0_off176 v426) a + S1x128.size a ≤ S50000x128.size a := fun v426 k0_hw48 => k0_hw48.2

def k0_off177 (v435 : BitVec 32) : Fin 2 → Nat :=
  let c0_i32_451 : BitVec 32 := 0#32
  ![v435.toNat, 0]

def k0_chk49 (v435 : BitVec 32) : Prop :=
  (∀ a, (k0_off98 v435) a + S1x128.size a ≤ S50000x128.size a) ∧
  (∀ a, (k0_off177 v435) a + S1x128.size a ≤ S50000x128.size a)
instance k0_chk49.dec : ∀ (v435 : BitVec 32), Decidable (k0_chk49 v435) := fun v435 => decidable_of_iff' _ (Iff.of_eq (k0_chk49.eq_1 v435))
theorem k0_off98_inb : ∀ (v435 : BitVec 32) (k0_hw49 : k0_chk49 v435), ∀ a, (k0_off98 v435) a + S1x128.size a ≤ S50000x128.size a := fun v435 k0_hw49 => k0_hw49.1
theorem k0_off177_inb : ∀ (v435 : BitVec 32) (k0_hw49 : k0_chk49 v435), ∀ a, (k0_off177 v435) a + S1x128.size a ≤ S50000x128.size a := fun v435 k0_hw49 => k0_hw49.2

def k0_off178 (v444 : BitVec 32) : Fin 2 → Nat :=
  let c0_i32_455 : BitVec 32 := 0#32
  ![v444.toNat, 0]

def k0_chk50 (v444 : BitVec 32) : Prop :=
  (∀ a, (k0_off100 v444) a + S1x128.size a ≤ S50000x128.size a) ∧
  (∀ a, (k0_off178 v444) a + S1x128.size a ≤ S50000x128.size a)
instance k0_chk50.dec : ∀ (v444 : BitVec 32), Decidable (k0_chk50 v444) := fun v444 => decidable_of_iff' _ (Iff.of_eq (k0_chk50.eq_1 v444))
theorem k0_off100_inb : ∀ (v444 : BitVec 32) (k0_hw50 : k0_chk50 v444), ∀ a, (k0_off100 v444) a + S1x128.size a ≤ S50000x128.size a := fun v444 k0_hw50 => k0_hw50.1
theorem k0_off178_inb : ∀ (v444 : BitVec 32) (k0_hw50 : k0_chk50 v444), ∀ a, (k0_off178 v444) a + S1x128.size a ≤ S50000x128.size a := fun v444 k0_hw50 => k0_hw50.2

def k0_off179 (v453 : BitVec 32) : Fin 2 → Nat :=
  let c0_i32_459 : BitVec 32 := 0#32
  ![v453.toNat, 0]

def k0_chk51 (v453 : BitVec 32) : Prop :=
  (∀ a, (k0_off102 v453) a + S1x128.size a ≤ S50000x128.size a) ∧
  (∀ a, (k0_off179 v453) a + S1x128.size a ≤ S50000x128.size a)
instance k0_chk51.dec : ∀ (v453 : BitVec 32), Decidable (k0_chk51 v453) := fun v453 => decidable_of_iff' _ (Iff.of_eq (k0_chk51.eq_1 v453))
theorem k0_off102_inb : ∀ (v453 : BitVec 32) (k0_hw51 : k0_chk51 v453), ∀ a, (k0_off102 v453) a + S1x128.size a ≤ S50000x128.size a := fun v453 k0_hw51 => k0_hw51.1
theorem k0_off179_inb : ∀ (v453 : BitVec 32) (k0_hw51 : k0_chk51 v453), ∀ a, (k0_off179 v453) a + S1x128.size a ≤ S50000x128.size a := fun v453 k0_hw51 => k0_hw51.2

def k0_off180 (v462 : BitVec 32) : Fin 2 → Nat :=
  let c0_i32_463 : BitVec 32 := 0#32
  ![v462.toNat, 0]

def k0_chk52 (v462 : BitVec 32) : Prop :=
  (∀ a, (k0_off104 v462) a + S1x128.size a ≤ S50000x128.size a) ∧
  (∀ a, (k0_off180 v462) a + S1x128.size a ≤ S50000x128.size a)
instance k0_chk52.dec : ∀ (v462 : BitVec 32), Decidable (k0_chk52 v462) := fun v462 => decidable_of_iff' _ (Iff.of_eq (k0_chk52.eq_1 v462))
theorem k0_off104_inb : ∀ (v462 : BitVec 32) (k0_hw52 : k0_chk52 v462), ∀ a, (k0_off104 v462) a + S1x128.size a ≤ S50000x128.size a := fun v462 k0_hw52 => k0_hw52.1
theorem k0_off180_inb : ∀ (v462 : BitVec 32) (k0_hw52 : k0_chk52 v462), ∀ a, (k0_off180 v462) a + S1x128.size a ≤ S50000x128.size a := fun v462 k0_hw52 => k0_hw52.2

def k0_off181 (v471 : BitVec 32) : Fin 2 → Nat :=
  let c0_i32_467 : BitVec 32 := 0#32
  ![v471.toNat, 0]

def k0_chk53 (v471 : BitVec 32) : Prop :=
  (∀ a, (k0_off106 v471) a + S1x128.size a ≤ S50000x128.size a) ∧
  (∀ a, (k0_off181 v471) a + S1x128.size a ≤ S50000x128.size a)
instance k0_chk53.dec : ∀ (v471 : BitVec 32), Decidable (k0_chk53 v471) := fun v471 => decidable_of_iff' _ (Iff.of_eq (k0_chk53.eq_1 v471))
theorem k0_off106_inb : ∀ (v471 : BitVec 32) (k0_hw53 : k0_chk53 v471), ∀ a, (k0_off106 v471) a + S1x128.size a ≤ S50000x128.size a := fun v471 k0_hw53 => k0_hw53.1
theorem k0_off181_inb : ∀ (v471 : BitVec 32) (k0_hw53 : k0_chk53 v471), ∀ a, (k0_off181 v471) a + S1x128.size a ≤ S50000x128.size a := fun v471 k0_hw53 => k0_hw53.2

def k0_off182 (v480 : BitVec 32) : Fin 2 → Nat :=
  let c0_i32_471 : BitVec 32 := 0#32
  ![v480.toNat, 0]

def k0_chk54 (v480 : BitVec 32) : Prop :=
  (∀ a, (k0_off108 v480) a + S1x128.size a ≤ S50000x128.size a) ∧
  (∀ a, (k0_off182 v480) a + S1x128.size a ≤ S50000x128.size a)
instance k0_chk54.dec : ∀ (v480 : BitVec 32), Decidable (k0_chk54 v480) := fun v480 => decidable_of_iff' _ (Iff.of_eq (k0_chk54.eq_1 v480))
theorem k0_off108_inb : ∀ (v480 : BitVec 32) (k0_hw54 : k0_chk54 v480), ∀ a, (k0_off108 v480) a + S1x128.size a ≤ S50000x128.size a := fun v480 k0_hw54 => k0_hw54.1
theorem k0_off182_inb : ∀ (v480 : BitVec 32) (k0_hw54 : k0_chk54 v480), ∀ a, (k0_off182 v480) a + S1x128.size a ≤ S50000x128.size a := fun v480 k0_hw54 => k0_hw54.2

def k0_off183 (v489 : BitVec 32) : Fin 2 → Nat :=
  let c0_i32_475 : BitVec 32 := 0#32
  ![v489.toNat, 0]

def k0_chk55 (v489 : BitVec 32) : Prop :=
  (∀ a, (k0_off110 v489) a + S1x128.size a ≤ S50000x128.size a) ∧
  (∀ a, (k0_off183 v489) a + S1x128.size a ≤ S50000x128.size a)
instance k0_chk55.dec : ∀ (v489 : BitVec 32), Decidable (k0_chk55 v489) := fun v489 => decidable_of_iff' _ (Iff.of_eq (k0_chk55.eq_1 v489))
theorem k0_off110_inb : ∀ (v489 : BitVec 32) (k0_hw55 : k0_chk55 v489), ∀ a, (k0_off110 v489) a + S1x128.size a ≤ S50000x128.size a := fun v489 k0_hw55 => k0_hw55.1
theorem k0_off183_inb : ∀ (v489 : BitVec 32) (k0_hw55 : k0_chk55 v489), ∀ a, (k0_off183 v489) a + S1x128.size a ≤ S50000x128.size a := fun v489 k0_hw55 => k0_hw55.2

def k0_off184 (v498 : BitVec 32) : Fin 2 → Nat :=
  let c0_i32_479 : BitVec 32 := 0#32
  ![v498.toNat, 0]

def k0_chk56 (v498 : BitVec 32) : Prop :=
  (∀ a, (k0_off112 v498) a + S1x128.size a ≤ S50000x128.size a) ∧
  (∀ a, (k0_off184 v498) a + S1x128.size a ≤ S50000x128.size a)
instance k0_chk56.dec : ∀ (v498 : BitVec 32), Decidable (k0_chk56 v498) := fun v498 => decidable_of_iff' _ (Iff.of_eq (k0_chk56.eq_1 v498))
theorem k0_off112_inb : ∀ (v498 : BitVec 32) (k0_hw56 : k0_chk56 v498), ∀ a, (k0_off112 v498) a + S1x128.size a ≤ S50000x128.size a := fun v498 k0_hw56 => k0_hw56.1
theorem k0_off184_inb : ∀ (v498 : BitVec 32) (k0_hw56 : k0_chk56 v498), ∀ a, (k0_off184 v498) a + S1x128.size a ≤ S50000x128.size a := fun v498 k0_hw56 => k0_hw56.2

def k0_off185 (v507 : BitVec 32) : Fin 2 → Nat :=
  let c0_i32_483 : BitVec 32 := 0#32
  ![v507.toNat, 0]

def k0_chk57 (v507 : BitVec 32) : Prop :=
  (∀ a, (k0_off114 v507) a + S1x128.size a ≤ S50000x128.size a) ∧
  (∀ a, (k0_off185 v507) a + S1x128.size a ≤ S50000x128.size a)
instance k0_chk57.dec : ∀ (v507 : BitVec 32), Decidable (k0_chk57 v507) := fun v507 => decidable_of_iff' _ (Iff.of_eq (k0_chk57.eq_1 v507))
theorem k0_off114_inb : ∀ (v507 : BitVec 32) (k0_hw57 : k0_chk57 v507), ∀ a, (k0_off114 v507) a + S1x128.size a ≤ S50000x128.size a := fun v507 k0_hw57 => k0_hw57.1
theorem k0_off185_inb : ∀ (v507 : BitVec 32) (k0_hw57 : k0_chk57 v507), ∀ a, (k0_off185 v507) a + S1x128.size a ≤ S50000x128.size a := fun v507 k0_hw57 => k0_hw57.2

def k0_off186 (v516 : BitVec 32) : Fin 2 → Nat :=
  let c0_i32_487 : BitVec 32 := 0#32
  ![v516.toNat, 0]

def k0_chk58 (v516 : BitVec 32) : Prop :=
  (∀ a, (k0_off116 v516) a + S1x128.size a ≤ S50000x128.size a) ∧
  (∀ a, (k0_off186 v516) a + S1x128.size a ≤ S50000x128.size a)
instance k0_chk58.dec : ∀ (v516 : BitVec 32), Decidable (k0_chk58 v516) := fun v516 => decidable_of_iff' _ (Iff.of_eq (k0_chk58.eq_1 v516))
theorem k0_off116_inb : ∀ (v516 : BitVec 32) (k0_hw58 : k0_chk58 v516), ∀ a, (k0_off116 v516) a + S1x128.size a ≤ S50000x128.size a := fun v516 k0_hw58 => k0_hw58.1
theorem k0_off186_inb : ∀ (v516 : BitVec 32) (k0_hw58 : k0_chk58 v516), ∀ a, (k0_off186 v516) a + S1x128.size a ≤ S50000x128.size a := fun v516 k0_hw58 => k0_hw58.2

def k0_off187 (v525 : BitVec 32) : Fin 2 → Nat :=
  let c0_i32_491 : BitVec 32 := 0#32
  ![v525.toNat, 0]

def k0_chk59 (v525 : BitVec 32) : Prop :=
  (∀ a, (k0_off118 v525) a + S1x128.size a ≤ S50000x128.size a) ∧
  (∀ a, (k0_off187 v525) a + S1x128.size a ≤ S50000x128.size a)
instance k0_chk59.dec : ∀ (v525 : BitVec 32), Decidable (k0_chk59 v525) := fun v525 => decidable_of_iff' _ (Iff.of_eq (k0_chk59.eq_1 v525))
theorem k0_off118_inb : ∀ (v525 : BitVec 32) (k0_hw59 : k0_chk59 v525), ∀ a, (k0_off118 v525) a + S1x128.size a ≤ S50000x128.size a := fun v525 k0_hw59 => k0_hw59.1
theorem k0_off187_inb : ∀ (v525 : BitVec 32) (k0_hw59 : k0_chk59 v525), ∀ a, (k0_off187 v525) a + S1x128.size a ≤ S50000x128.size a := fun v525 k0_hw59 => k0_hw59.2

def k0_off188 (v534 : BitVec 32) : Fin 2 → Nat :=
  let c0_i32_495 : BitVec 32 := 0#32
  ![v534.toNat, 0]

def k0_chk60 (v534 : BitVec 32) : Prop :=
  (∀ a, (k0_off120 v534) a + S1x128.size a ≤ S50000x128.size a) ∧
  (∀ a, (k0_off188 v534) a + S1x128.size a ≤ S50000x128.size a)
instance k0_chk60.dec : ∀ (v534 : BitVec 32), Decidable (k0_chk60 v534) := fun v534 => decidable_of_iff' _ (Iff.of_eq (k0_chk60.eq_1 v534))
theorem k0_off120_inb : ∀ (v534 : BitVec 32) (k0_hw60 : k0_chk60 v534), ∀ a, (k0_off120 v534) a + S1x128.size a ≤ S50000x128.size a := fun v534 k0_hw60 => k0_hw60.1
theorem k0_off188_inb : ∀ (v534 : BitVec 32) (k0_hw60 : k0_chk60 v534), ∀ a, (k0_off188 v534) a + S1x128.size a ≤ S50000x128.size a := fun v534 k0_hw60 => k0_hw60.2

def k0_off189 (v543 : BitVec 32) : Fin 2 → Nat :=
  let c0_i32_499 : BitVec 32 := 0#32
  ![v543.toNat, 0]

def k0_chk61 (v543 : BitVec 32) : Prop :=
  (∀ a, (k0_off122 v543) a + S1x128.size a ≤ S50000x128.size a) ∧
  (∀ a, (k0_off189 v543) a + S1x128.size a ≤ S50000x128.size a)
instance k0_chk61.dec : ∀ (v543 : BitVec 32), Decidable (k0_chk61 v543) := fun v543 => decidable_of_iff' _ (Iff.of_eq (k0_chk61.eq_1 v543))
theorem k0_off122_inb : ∀ (v543 : BitVec 32) (k0_hw61 : k0_chk61 v543), ∀ a, (k0_off122 v543) a + S1x128.size a ≤ S50000x128.size a := fun v543 k0_hw61 => k0_hw61.1
theorem k0_off189_inb : ∀ (v543 : BitVec 32) (k0_hw61 : k0_chk61 v543), ∀ a, (k0_off189 v543) a + S1x128.size a ≤ S50000x128.size a := fun v543 k0_hw61 => k0_hw61.2

def k0_off190 (v552 : BitVec 32) : Fin 2 → Nat :=
  let c0_i32_503 : BitVec 32 := 0#32
  ![v552.toNat, 0]

def k0_chk62 (v552 : BitVec 32) : Prop :=
  (∀ a, (k0_off124 v552) a + S1x128.size a ≤ S50000x128.size a) ∧
  (∀ a, (k0_off190 v552) a + S1x128.size a ≤ S50000x128.size a)
instance k0_chk62.dec : ∀ (v552 : BitVec 32), Decidable (k0_chk62 v552) := fun v552 => decidable_of_iff' _ (Iff.of_eq (k0_chk62.eq_1 v552))
theorem k0_off124_inb : ∀ (v552 : BitVec 32) (k0_hw62 : k0_chk62 v552), ∀ a, (k0_off124 v552) a + S1x128.size a ≤ S50000x128.size a := fun v552 k0_hw62 => k0_hw62.1
theorem k0_off190_inb : ∀ (v552 : BitVec 32) (k0_hw62 : k0_chk62 v552), ∀ a, (k0_off190 v552) a + S1x128.size a ≤ S50000x128.size a := fun v552 k0_hw62 => k0_hw62.2

def k0_off191 (v561 : BitVec 32) : Fin 2 → Nat :=
  let c0_i32_507 : BitVec 32 := 0#32
  ![v561.toNat, 0]

def k0_chk63 (v561 : BitVec 32) : Prop :=
  (∀ a, (k0_off126 v561) a + S1x128.size a ≤ S50000x128.size a) ∧
  (∀ a, (k0_off191 v561) a + S1x128.size a ≤ S50000x128.size a)
instance k0_chk63.dec : ∀ (v561 : BitVec 32), Decidable (k0_chk63 v561) := fun v561 => decidable_of_iff' _ (Iff.of_eq (k0_chk63.eq_1 v561))
theorem k0_off126_inb : ∀ (v561 : BitVec 32) (k0_hw63 : k0_chk63 v561), ∀ a, (k0_off126 v561) a + S1x128.size a ≤ S50000x128.size a := fun v561 k0_hw63 => k0_hw63.1
theorem k0_off191_inb : ∀ (v561 : BitVec 32) (k0_hw63 : k0_chk63 v561), ∀ a, (k0_off191 v561) a + S1x128.size a ≤ S50000x128.size a := fun v561 k0_hw63 => k0_hw63.2

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![1021], ![false]⟩

abbrev pre1 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_off3 (i : grid1.Coords) : Fin 1 → Nat :=
  let arg0 : BitVec 32 := BitVec.ofNat 32 (i 0).val
  let c64_i32 : BitVec 32 := 64#32
  let v0 : BitVec 32 := Scalar.muli arg0 c64_i32
  let c1_i32 : BitVec 32 := 1#32
  let v10 : BitVec 32 := Scalar.addi v0 c1_i32
  let v11 : Index := Scalar.indexCast v10
  ![v11.toNat]
def k1_off4 (v12 : BitVec 32) : Fin 2 → Nat :=
  let c0_i32_7 : BitVec 32 := 0#32
  ![v12.toNat, 0]

def k1_off5 (i : grid1.Coords) : Fin 1 → Nat :=
  let arg0 : BitVec 32 := BitVec.ofNat 32 (i 0).val
  let c64_i32 : BitVec 32 := 64#32
  let v0 : BitVec 32 := Scalar.muli arg0 c64_i32
  let c2_i32 : BitVec 32 := 2#32
  let v19 : BitVec 32 := Scalar.addi v0 c2_i32
  let v20 : Index := Scalar.indexCast v19
  ![v20.toNat]
def k1_off6 (v21 : BitVec 32) : Fin 2 → Nat :=
  let c0_i32_11 : BitVec 32 := 0#32
  ![v21.toNat, 0]

def k1_off7 (i : grid1.Coords) : Fin 1 → Nat :=
  let arg0 : BitVec 32 := BitVec.ofNat 32 (i 0).val
  let c64_i32 : BitVec 32 := 64#32
  let v0 : BitVec 32 := Scalar.muli arg0 c64_i32
  let c3_i32 : BitVec 32 := 3#32
  let v28 : BitVec 32 := Scalar.addi v0 c3_i32
  let v29 : Index := Scalar.indexCast v28
  ![v29.toNat]
def k1_off8 (v30 : BitVec 32) : Fin 2 → Nat :=
  let c0_i32_15 : BitVec 32 := 0#32
  ![v30.toNat, 0]

def k1_off9 (i : grid1.Coords) : Fin 1 → Nat :=
  let arg0 : BitVec 32 := BitVec.ofNat 32 (i 0).val
  let c64_i32 : BitVec 32 := 64#32
  let v0 : BitVec 32 := Scalar.muli arg0 c64_i32
  let c4_i32 : BitVec 32 := 4#32
  let v37 : BitVec 32 := Scalar.addi v0 c4_i32
  let v38 : Index := Scalar.indexCast v37
  ![v38.toNat]
def k1_off10 (v39 : BitVec 32) : Fin 2 → Nat :=
  let c0_i32_19 : BitVec 32 := 0#32
  ![v39.toNat, 0]

def k1_off11 (i : grid1.Coords) : Fin 1 → Nat :=
  let arg0 : BitVec 32 := BitVec.ofNat 32 (i 0).val
  let c64_i32 : BitVec 32 := 64#32
  let v0 : BitVec 32 := Scalar.muli arg0 c64_i32
  let c5_i32 : BitVec 32 := 5#32
  let v46 : BitVec 32 := Scalar.addi v0 c5_i32
  let v47 : Index := Scalar.indexCast v46
  ![v47.toNat]
def k1_off12 (v48 : BitVec 32) : Fin 2 → Nat :=
  let c0_i32_23 : BitVec 32 := 0#32
  ![v48.toNat, 0]

def k1_off13 (i : grid1.Coords) : Fin 1 → Nat :=
  let arg0 : BitVec 32 := BitVec.ofNat 32 (i 0).val
  let c64_i32 : BitVec 32 := 64#32
  let v0 : BitVec 32 := Scalar.muli arg0 c64_i32
  let c6_i32 : BitVec 32 := 6#32
  let v55 : BitVec 32 := Scalar.addi v0 c6_i32
  let v56 : Index := Scalar.indexCast v55
  ![v56.toNat]
def k1_off14 (v57 : BitVec 32) : Fin 2 → Nat :=
  let c0_i32_27 : BitVec 32 := 0#32
  ![v57.toNat, 0]

def k1_off15 (i : grid1.Coords) : Fin 1 → Nat :=
  let arg0 : BitVec 32 := BitVec.ofNat 32 (i 0).val
  let c64_i32 : BitVec 32 := 64#32
  let v0 : BitVec 32 := Scalar.muli arg0 c64_i32
  let c7_i32 : BitVec 32 := 7#32
  let v64 : BitVec 32 := Scalar.addi v0 c7_i32
  let v65 : Index := Scalar.indexCast v64
  ![v65.toNat]
def k1_off16 (v66 : BitVec 32) : Fin 2 → Nat :=
  let c0_i32_31 : BitVec 32 := 0#32
  ![v66.toNat, 0]

def k1_off17 (i : grid1.Coords) : Fin 1 → Nat :=
  let arg0 : BitVec 32 := BitVec.ofNat 32 (i 0).val
  let c64_i32 : BitVec 32 := 64#32
  let v0 : BitVec 32 := Scalar.muli arg0 c64_i32
  let c8_i32 : BitVec 32 := 8#32
  let v73 : BitVec 32 := Scalar.addi v0 c8_i32
  let v74 : Index := Scalar.indexCast v73
  ![v74.toNat]
def k1_off18 (v75 : BitVec 32) : Fin 2 → Nat :=
  let c0_i32_35 : BitVec 32 := 0#32
  ![v75.toNat, 0]

def k1_off19 (i : grid1.Coords) : Fin 1 → Nat :=
  let arg0 : BitVec 32 := BitVec.ofNat 32 (i 0).val
  let c64_i32 : BitVec 32 := 64#32
  let v0 : BitVec 32 := Scalar.muli arg0 c64_i32
  let c9_i32 : BitVec 32 := 9#32
  let v82 : BitVec 32 := Scalar.addi v0 c9_i32
  let v83 : Index := Scalar.indexCast v82
  ![v83.toNat]
def k1_off20 (v84 : BitVec 32) : Fin 2 → Nat :=
  let c0_i32_39 : BitVec 32 := 0#32
  ![v84.toNat, 0]

def k1_off21 (i : grid1.Coords) : Fin 1 → Nat :=
  let arg0 : BitVec 32 := BitVec.ofNat 32 (i 0).val
  let c64_i32 : BitVec 32 := 64#32
  let v0 : BitVec 32 := Scalar.muli arg0 c64_i32
  let c10_i32 : BitVec 32 := 10#32
  let v91 : BitVec 32 := Scalar.addi v0 c10_i32
  let v92 : Index := Scalar.indexCast v91
  ![v92.toNat]
def k1_off22 (v93 : BitVec 32) : Fin 2 → Nat :=
  let c0_i32_43 : BitVec 32 := 0#32
  ![v93.toNat, 0]

def k1_off23 (i : grid1.Coords) : Fin 1 → Nat :=
  let arg0 : BitVec 32 := BitVec.ofNat 32 (i 0).val
  let c64_i32 : BitVec 32 := 64#32
  let v0 : BitVec 32 := Scalar.muli arg0 c64_i32
  let c11_i32 : BitVec 32 := 11#32
  let v100 : BitVec 32 := Scalar.addi v0 c11_i32
  let v101 : Index := Scalar.indexCast v100
  ![v101.toNat]
def k1_off24 (v102 : BitVec 32) : Fin 2 → Nat :=
  let c0_i32_47 : BitVec 32 := 0#32
  ![v102.toNat, 0]

def k1_off25 (i : grid1.Coords) : Fin 1 → Nat :=
  let arg0 : BitVec 32 := BitVec.ofNat 32 (i 0).val
  let c64_i32 : BitVec 32 := 64#32
  let v0 : BitVec 32 := Scalar.muli arg0 c64_i32
  let c12_i32 : BitVec 32 := 12#32
  let v109 : BitVec 32 := Scalar.addi v0 c12_i32
  let v110 : Index := Scalar.indexCast v109
  ![v110.toNat]
def k1_off26 (v111 : BitVec 32) : Fin 2 → Nat :=
  let c0_i32_51 : BitVec 32 := 0#32
  ![v111.toNat, 0]

def k1_off27 (i : grid1.Coords) : Fin 1 → Nat :=
  let arg0 : BitVec 32 := BitVec.ofNat 32 (i 0).val
  let c64_i32 : BitVec 32 := 64#32
  let v0 : BitVec 32 := Scalar.muli arg0 c64_i32
  let c13_i32 : BitVec 32 := 13#32
  let v118 : BitVec 32 := Scalar.addi v0 c13_i32
  let v119 : Index := Scalar.indexCast v118
  ![v119.toNat]
def k1_off28 (v120 : BitVec 32) : Fin 2 → Nat :=
  let c0_i32_55 : BitVec 32 := 0#32
  ![v120.toNat, 0]

def k1_off29 (i : grid1.Coords) : Fin 1 → Nat :=
  let arg0 : BitVec 32 := BitVec.ofNat 32 (i 0).val
  let c64_i32 : BitVec 32 := 64#32
  let v0 : BitVec 32 := Scalar.muli arg0 c64_i32
  let c14_i32 : BitVec 32 := 14#32
  let v127 : BitVec 32 := Scalar.addi v0 c14_i32
  let v128 : Index := Scalar.indexCast v127
  ![v128.toNat]
def k1_off30 (v129 : BitVec 32) : Fin 2 → Nat :=
  let c0_i32_59 : BitVec 32 := 0#32
  ![v129.toNat, 0]

def k1_off31 (i : grid1.Coords) : Fin 1 → Nat :=
  let arg0 : BitVec 32 := BitVec.ofNat 32 (i 0).val
  let c64_i32 : BitVec 32 := 64#32
  let v0 : BitVec 32 := Scalar.muli arg0 c64_i32
  let c15_i32 : BitVec 32 := 15#32
  let v136 : BitVec 32 := Scalar.addi v0 c15_i32
  let v137 : Index := Scalar.indexCast v136
  ![v137.toNat]
def k1_off32 (v138 : BitVec 32) : Fin 2 → Nat :=
  let c0_i32_63 : BitVec 32 := 0#32
  ![v138.toNat, 0]

def k1_off33 (i : grid1.Coords) : Fin 1 → Nat :=
  let arg0 : BitVec 32 := BitVec.ofNat 32 (i 0).val
  let c64_i32 : BitVec 32 := 64#32
  let v0 : BitVec 32 := Scalar.muli arg0 c64_i32
  let c16_i32 : BitVec 32 := 16#32
  let v145 : BitVec 32 := Scalar.addi v0 c16_i32
  let v146 : Index := Scalar.indexCast v145
  ![v146.toNat]
def k1_off34 (v147 : BitVec 32) : Fin 2 → Nat :=
  let c0_i32_67 : BitVec 32 := 0#32
  ![v147.toNat, 0]

def k1_off35 (i : grid1.Coords) : Fin 1 → Nat :=
  let arg0 : BitVec 32 := BitVec.ofNat 32 (i 0).val
  let c64_i32 : BitVec 32 := 64#32
  let v0 : BitVec 32 := Scalar.muli arg0 c64_i32
  let c17_i32 : BitVec 32 := 17#32
  let v154 : BitVec 32 := Scalar.addi v0 c17_i32
  let v155 : Index := Scalar.indexCast v154
  ![v155.toNat]
def k1_off36 (v156 : BitVec 32) : Fin 2 → Nat :=
  let c0_i32_71 : BitVec 32 := 0#32
  ![v156.toNat, 0]

def k1_off37 (i : grid1.Coords) : Fin 1 → Nat :=
  let arg0 : BitVec 32 := BitVec.ofNat 32 (i 0).val
  let c64_i32 : BitVec 32 := 64#32
  let v0 : BitVec 32 := Scalar.muli arg0 c64_i32
  let c18_i32 : BitVec 32 := 18#32
  let v163 : BitVec 32 := Scalar.addi v0 c18_i32
  let v164 : Index := Scalar.indexCast v163
  ![v164.toNat]
def k1_off38 (v165 : BitVec 32) : Fin 2 → Nat :=
  let c0_i32_75 : BitVec 32 := 0#32
  ![v165.toNat, 0]

def k1_off39 (i : grid1.Coords) : Fin 1 → Nat :=
  let arg0 : BitVec 32 := BitVec.ofNat 32 (i 0).val
  let c64_i32 : BitVec 32 := 64#32
  let v0 : BitVec 32 := Scalar.muli arg0 c64_i32
  let c19_i32 : BitVec 32 := 19#32
  let v172 : BitVec 32 := Scalar.addi v0 c19_i32
  let v173 : Index := Scalar.indexCast v172
  ![v173.toNat]
def k1_off40 (v174 : BitVec 32) : Fin 2 → Nat :=
  let c0_i32_79 : BitVec 32 := 0#32
  ![v174.toNat, 0]

def k1_off41 (i : grid1.Coords) : Fin 1 → Nat :=
  let arg0 : BitVec 32 := BitVec.ofNat 32 (i 0).val
  let c64_i32 : BitVec 32 := 64#32
  let v0 : BitVec 32 := Scalar.muli arg0 c64_i32
  let c20_i32 : BitVec 32 := 20#32
  let v181 : BitVec 32 := Scalar.addi v0 c20_i32
  let v182 : Index := Scalar.indexCast v181
  ![v182.toNat]
def k1_off42 (v183 : BitVec 32) : Fin 2 → Nat :=
  let c0_i32_83 : BitVec 32 := 0#32
  ![v183.toNat, 0]

def k1_off43 (i : grid1.Coords) : Fin 1 → Nat :=
  let arg0 : BitVec 32 := BitVec.ofNat 32 (i 0).val
  let c64_i32 : BitVec 32 := 64#32
  let v0 : BitVec 32 := Scalar.muli arg0 c64_i32
  let c21_i32 : BitVec 32 := 21#32
  let v190 : BitVec 32 := Scalar.addi v0 c21_i32
  let v191 : Index := Scalar.indexCast v190
  ![v191.toNat]
def k1_off44 (v192 : BitVec 32) : Fin 2 → Nat :=
  let c0_i32_87 : BitVec 32 := 0#32
  ![v192.toNat, 0]

def k1_off45 (i : grid1.Coords) : Fin 1 → Nat :=
  let arg0 : BitVec 32 := BitVec.ofNat 32 (i 0).val
  let c64_i32 : BitVec 32 := 64#32
  let v0 : BitVec 32 := Scalar.muli arg0 c64_i32
  let c22_i32 : BitVec 32 := 22#32
  let v199 : BitVec 32 := Scalar.addi v0 c22_i32
  let v200 : Index := Scalar.indexCast v199
  ![v200.toNat]
def k1_off46 (v201 : BitVec 32) : Fin 2 → Nat :=
  let c0_i32_91 : BitVec 32 := 0#32
  ![v201.toNat, 0]

def k1_off47 (i : grid1.Coords) : Fin 1 → Nat :=
  let arg0 : BitVec 32 := BitVec.ofNat 32 (i 0).val
  let c64_i32 : BitVec 32 := 64#32
  let v0 : BitVec 32 := Scalar.muli arg0 c64_i32
  let c23_i32 : BitVec 32 := 23#32
  let v208 : BitVec 32 := Scalar.addi v0 c23_i32
  let v209 : Index := Scalar.indexCast v208
  ![v209.toNat]
def k1_off48 (v210 : BitVec 32) : Fin 2 → Nat :=
  let c0_i32_95 : BitVec 32 := 0#32
  ![v210.toNat, 0]

def k1_off49 (i : grid1.Coords) : Fin 1 → Nat :=
  let arg0 : BitVec 32 := BitVec.ofNat 32 (i 0).val
  let c64_i32 : BitVec 32 := 64#32
  let v0 : BitVec 32 := Scalar.muli arg0 c64_i32
  let c24_i32 : BitVec 32 := 24#32
  let v217 : BitVec 32 := Scalar.addi v0 c24_i32
  let v218 : Index := Scalar.indexCast v217
  ![v218.toNat]
def k1_off50 (v219 : BitVec 32) : Fin 2 → Nat :=
  let c0_i32_99 : BitVec 32 := 0#32
  ![v219.toNat, 0]

def k1_off51 (i : grid1.Coords) : Fin 1 → Nat :=
  let arg0 : BitVec 32 := BitVec.ofNat 32 (i 0).val
  let c64_i32 : BitVec 32 := 64#32
  let v0 : BitVec 32 := Scalar.muli arg0 c64_i32
  let c25_i32 : BitVec 32 := 25#32
  let v226 : BitVec 32 := Scalar.addi v0 c25_i32
  let v227 : Index := Scalar.indexCast v226
  ![v227.toNat]
def k1_off52 (v228 : BitVec 32) : Fin 2 → Nat :=
  let c0_i32_103 : BitVec 32 := 0#32
  ![v228.toNat, 0]

def k1_off53 (i : grid1.Coords) : Fin 1 → Nat :=
  let arg0 : BitVec 32 := BitVec.ofNat 32 (i 0).val
  let c64_i32 : BitVec 32 := 64#32
  let v0 : BitVec 32 := Scalar.muli arg0 c64_i32
  let c26_i32 : BitVec 32 := 26#32
  let v235 : BitVec 32 := Scalar.addi v0 c26_i32
  let v236 : Index := Scalar.indexCast v235
  ![v236.toNat]
def k1_off54 (v237 : BitVec 32) : Fin 2 → Nat :=
  let c0_i32_107 : BitVec 32 := 0#32
  ![v237.toNat, 0]

def k1_off55 (i : grid1.Coords) : Fin 1 → Nat :=
  let arg0 : BitVec 32 := BitVec.ofNat 32 (i 0).val
  let c64_i32 : BitVec 32 := 64#32
  let v0 : BitVec 32 := Scalar.muli arg0 c64_i32
  let c27_i32 : BitVec 32 := 27#32
  let v244 : BitVec 32 := Scalar.addi v0 c27_i32
  let v245 : Index := Scalar.indexCast v244
  ![v245.toNat]
def k1_off56 (v246 : BitVec 32) : Fin 2 → Nat :=
  let c0_i32_111 : BitVec 32 := 0#32
  ![v246.toNat, 0]

def k1_off57 (i : grid1.Coords) : Fin 1 → Nat :=
  let arg0 : BitVec 32 := BitVec.ofNat 32 (i 0).val
  let c64_i32 : BitVec 32 := 64#32
  let v0 : BitVec 32 := Scalar.muli arg0 c64_i32
  let c28_i32 : BitVec 32 := 28#32
  let v253 : BitVec 32 := Scalar.addi v0 c28_i32
  let v254 : Index := Scalar.indexCast v253
  ![v254.toNat]
def k1_off58 (v255 : BitVec 32) : Fin 2 → Nat :=
  let c0_i32_115 : BitVec 32 := 0#32
  ![v255.toNat, 0]

def k1_off59 (i : grid1.Coords) : Fin 1 → Nat :=
  let arg0 : BitVec 32 := BitVec.ofNat 32 (i 0).val
  let c64_i32 : BitVec 32 := 64#32
  let v0 : BitVec 32 := Scalar.muli arg0 c64_i32
  let c29_i32 : BitVec 32 := 29#32
  let v262 : BitVec 32 := Scalar.addi v0 c29_i32
  let v263 : Index := Scalar.indexCast v262
  ![v263.toNat]
def k1_off60 (v264 : BitVec 32) : Fin 2 → Nat :=
  let c0_i32_119 : BitVec 32 := 0#32
  ![v264.toNat, 0]

def k1_off61 (i : grid1.Coords) : Fin 1 → Nat :=
  let arg0 : BitVec 32 := BitVec.ofNat 32 (i 0).val
  let c64_i32 : BitVec 32 := 64#32
  let v0 : BitVec 32 := Scalar.muli arg0 c64_i32
  let c30_i32 : BitVec 32 := 30#32
  let v271 : BitVec 32 := Scalar.addi v0 c30_i32
  let v272 : Index := Scalar.indexCast v271
  ![v272.toNat]
def k1_off62 (v273 : BitVec 32) : Fin 2 → Nat :=
  let c0_i32_123 : BitVec 32 := 0#32
  ![v273.toNat, 0]

def k1_off63 (i : grid1.Coords) : Fin 1 → Nat :=
  let arg0 : BitVec 32 := BitVec.ofNat 32 (i 0).val
  let c64_i32 : BitVec 32 := 64#32
  let v0 : BitVec 32 := Scalar.muli arg0 c64_i32
  let c31_i32 : BitVec 32 := 31#32
  let v280 : BitVec 32 := Scalar.addi v0 c31_i32
  let v281 : Index := Scalar.indexCast v280
  ![v281.toNat]
def k1_off64 (v282 : BitVec 32) : Fin 2 → Nat :=
  let c0_i32_127 : BitVec 32 := 0#32
  ![v282.toNat, 0]

def k1_off65 (i : grid1.Coords) : Fin 1 → Nat :=
  let arg0 : BitVec 32 := BitVec.ofNat 32 (i 0).val
  let c64_i32 : BitVec 32 := 64#32
  let v0 : BitVec 32 := Scalar.muli arg0 c64_i32
  let c32_i32 : BitVec 32 := 32#32
  let v289 : BitVec 32 := Scalar.addi v0 c32_i32
  let v290 : Index := Scalar.indexCast v289
  ![v290.toNat]
def k1_off66 (v291 : BitVec 32) : Fin 2 → Nat :=
  let c0_i32_131 : BitVec 32 := 0#32
  ![v291.toNat, 0]

def k1_off67 (i : grid1.Coords) : Fin 1 → Nat :=
  let arg0 : BitVec 32 := BitVec.ofNat 32 (i 0).val
  let c64_i32 : BitVec 32 := 64#32
  let v0 : BitVec 32 := Scalar.muli arg0 c64_i32
  let c33_i32 : BitVec 32 := 33#32
  let v298 : BitVec 32 := Scalar.addi v0 c33_i32
  let v299 : Index := Scalar.indexCast v298
  ![v299.toNat]
def k1_off68 (v300 : BitVec 32) : Fin 2 → Nat :=
  let c0_i32_135 : BitVec 32 := 0#32
  ![v300.toNat, 0]

def k1_off69 (i : grid1.Coords) : Fin 1 → Nat :=
  let arg0 : BitVec 32 := BitVec.ofNat 32 (i 0).val
  let c64_i32 : BitVec 32 := 64#32
  let v0 : BitVec 32 := Scalar.muli arg0 c64_i32
  let c34_i32 : BitVec 32 := 34#32
  let v307 : BitVec 32 := Scalar.addi v0 c34_i32
  let v308 : Index := Scalar.indexCast v307
  ![v308.toNat]
def k1_off70 (v309 : BitVec 32) : Fin 2 → Nat :=
  let c0_i32_139 : BitVec 32 := 0#32
  ![v309.toNat, 0]

def k1_off71 (i : grid1.Coords) : Fin 1 → Nat :=
  let arg0 : BitVec 32 := BitVec.ofNat 32 (i 0).val
  let c64_i32 : BitVec 32 := 64#32
  let v0 : BitVec 32 := Scalar.muli arg0 c64_i32
  let c35_i32 : BitVec 32 := 35#32
  let v316 : BitVec 32 := Scalar.addi v0 c35_i32
  let v317 : Index := Scalar.indexCast v316
  ![v317.toNat]
def k1_off72 (v318 : BitVec 32) : Fin 2 → Nat :=
  let c0_i32_143 : BitVec 32 := 0#32
  ![v318.toNat, 0]

def k1_off73 (i : grid1.Coords) : Fin 1 → Nat :=
  let arg0 : BitVec 32 := BitVec.ofNat 32 (i 0).val
  let c64_i32 : BitVec 32 := 64#32
  let v0 : BitVec 32 := Scalar.muli arg0 c64_i32
  let c36_i32 : BitVec 32 := 36#32
  let v325 : BitVec 32 := Scalar.addi v0 c36_i32
  let v326 : Index := Scalar.indexCast v325
  ![v326.toNat]
def k1_off74 (v327 : BitVec 32) : Fin 2 → Nat :=
  let c0_i32_147 : BitVec 32 := 0#32
  ![v327.toNat, 0]

def k1_off75 (i : grid1.Coords) : Fin 1 → Nat :=
  let arg0 : BitVec 32 := BitVec.ofNat 32 (i 0).val
  let c64_i32 : BitVec 32 := 64#32
  let v0 : BitVec 32 := Scalar.muli arg0 c64_i32
  let c37_i32 : BitVec 32 := 37#32
  let v334 : BitVec 32 := Scalar.addi v0 c37_i32
  let v335 : Index := Scalar.indexCast v334
  ![v335.toNat]
def k1_off76 (v336 : BitVec 32) : Fin 2 → Nat :=
  let c0_i32_151 : BitVec 32 := 0#32
  ![v336.toNat, 0]

def k1_off77 (i : grid1.Coords) : Fin 1 → Nat :=
  let arg0 : BitVec 32 := BitVec.ofNat 32 (i 0).val
  let c64_i32 : BitVec 32 := 64#32
  let v0 : BitVec 32 := Scalar.muli arg0 c64_i32
  let c38_i32 : BitVec 32 := 38#32
  let v343 : BitVec 32 := Scalar.addi v0 c38_i32
  let v344 : Index := Scalar.indexCast v343
  ![v344.toNat]
def k1_off78 (v345 : BitVec 32) : Fin 2 → Nat :=
  let c0_i32_155 : BitVec 32 := 0#32
  ![v345.toNat, 0]

def k1_off79 (i : grid1.Coords) : Fin 1 → Nat :=
  let arg0 : BitVec 32 := BitVec.ofNat 32 (i 0).val
  let c64_i32 : BitVec 32 := 64#32
  let v0 : BitVec 32 := Scalar.muli arg0 c64_i32
  let c39_i32 : BitVec 32 := 39#32
  let v352 : BitVec 32 := Scalar.addi v0 c39_i32
  let v353 : Index := Scalar.indexCast v352
  ![v353.toNat]
def k1_off80 (v354 : BitVec 32) : Fin 2 → Nat :=
  let c0_i32_159 : BitVec 32 := 0#32
  ![v354.toNat, 0]

def k1_off81 (i : grid1.Coords) : Fin 1 → Nat :=
  let arg0 : BitVec 32 := BitVec.ofNat 32 (i 0).val
  let c64_i32 : BitVec 32 := 64#32
  let v0 : BitVec 32 := Scalar.muli arg0 c64_i32
  let c40_i32 : BitVec 32 := 40#32
  let v361 : BitVec 32 := Scalar.addi v0 c40_i32
  let v362 : Index := Scalar.indexCast v361
  ![v362.toNat]
def k1_off82 (v363 : BitVec 32) : Fin 2 → Nat :=
  let c0_i32_163 : BitVec 32 := 0#32
  ![v363.toNat, 0]

def k1_off83 (i : grid1.Coords) : Fin 1 → Nat :=
  let arg0 : BitVec 32 := BitVec.ofNat 32 (i 0).val
  let c64_i32 : BitVec 32 := 64#32
  let v0 : BitVec 32 := Scalar.muli arg0 c64_i32
  let c41_i32 : BitVec 32 := 41#32
  let v370 : BitVec 32 := Scalar.addi v0 c41_i32
  let v371 : Index := Scalar.indexCast v370
  ![v371.toNat]
def k1_off84 (v372 : BitVec 32) : Fin 2 → Nat :=
  let c0_i32_167 : BitVec 32 := 0#32
  ![v372.toNat, 0]

def k1_off85 (i : grid1.Coords) : Fin 1 → Nat :=
  let arg0 : BitVec 32 := BitVec.ofNat 32 (i 0).val
  let c64_i32 : BitVec 32 := 64#32
  let v0 : BitVec 32 := Scalar.muli arg0 c64_i32
  let c42_i32 : BitVec 32 := 42#32
  let v379 : BitVec 32 := Scalar.addi v0 c42_i32
  let v380 : Index := Scalar.indexCast v379
  ![v380.toNat]
def k1_off86 (v381 : BitVec 32) : Fin 2 → Nat :=
  let c0_i32_171 : BitVec 32 := 0#32
  ![v381.toNat, 0]

def k1_off87 (i : grid1.Coords) : Fin 1 → Nat :=
  let arg0 : BitVec 32 := BitVec.ofNat 32 (i 0).val
  let c64_i32 : BitVec 32 := 64#32
  let v0 : BitVec 32 := Scalar.muli arg0 c64_i32
  let c43_i32 : BitVec 32 := 43#32
  let v388 : BitVec 32 := Scalar.addi v0 c43_i32
  let v389 : Index := Scalar.indexCast v388
  ![v389.toNat]
def k1_off88 (v390 : BitVec 32) : Fin 2 → Nat :=
  let c0_i32_175 : BitVec 32 := 0#32
  ![v390.toNat, 0]

def k1_off89 (i : grid1.Coords) : Fin 1 → Nat :=
  let arg0 : BitVec 32 := BitVec.ofNat 32 (i 0).val
  let c64_i32 : BitVec 32 := 64#32
  let v0 : BitVec 32 := Scalar.muli arg0 c64_i32
  let c44_i32 : BitVec 32 := 44#32
  let v397 : BitVec 32 := Scalar.addi v0 c44_i32
  let v398 : Index := Scalar.indexCast v397
  ![v398.toNat]
def k1_off90 (v399 : BitVec 32) : Fin 2 → Nat :=
  let c0_i32_179 : BitVec 32 := 0#32
  ![v399.toNat, 0]

def k1_off91 (i : grid1.Coords) : Fin 1 → Nat :=
  let arg0 : BitVec 32 := BitVec.ofNat 32 (i 0).val
  let c64_i32 : BitVec 32 := 64#32
  let v0 : BitVec 32 := Scalar.muli arg0 c64_i32
  let c45_i32 : BitVec 32 := 45#32
  let v406 : BitVec 32 := Scalar.addi v0 c45_i32
  let v407 : Index := Scalar.indexCast v406
  ![v407.toNat]
def k1_off92 (v408 : BitVec 32) : Fin 2 → Nat :=
  let c0_i32_183 : BitVec 32 := 0#32
  ![v408.toNat, 0]

def k1_off93 (i : grid1.Coords) : Fin 1 → Nat :=
  let arg0 : BitVec 32 := BitVec.ofNat 32 (i 0).val
  let c64_i32 : BitVec 32 := 64#32
  let v0 : BitVec 32 := Scalar.muli arg0 c64_i32
  let c46_i32 : BitVec 32 := 46#32
  let v415 : BitVec 32 := Scalar.addi v0 c46_i32
  let v416 : Index := Scalar.indexCast v415
  ![v416.toNat]
def k1_off94 (v417 : BitVec 32) : Fin 2 → Nat :=
  let c0_i32_187 : BitVec 32 := 0#32
  ![v417.toNat, 0]

def k1_off95 (i : grid1.Coords) : Fin 1 → Nat :=
  let arg0 : BitVec 32 := BitVec.ofNat 32 (i 0).val
  let c64_i32 : BitVec 32 := 64#32
  let v0 : BitVec 32 := Scalar.muli arg0 c64_i32
  let c47_i32 : BitVec 32 := 47#32
  let v424 : BitVec 32 := Scalar.addi v0 c47_i32
  let v425 : Index := Scalar.indexCast v424
  ![v425.toNat]
def k1_off96 (v426 : BitVec 32) : Fin 2 → Nat :=
  let c0_i32_191 : BitVec 32 := 0#32
  ![v426.toNat, 0]

def k1_off97 (i : grid1.Coords) : Fin 1 → Nat :=
  let arg0 : BitVec 32 := BitVec.ofNat 32 (i 0).val
  let c64_i32 : BitVec 32 := 64#32
  let v0 : BitVec 32 := Scalar.muli arg0 c64_i32
  let c48_i32 : BitVec 32 := 48#32
  let v433 : BitVec 32 := Scalar.addi v0 c48_i32
  let v434 : Index := Scalar.indexCast v433
  ![v434.toNat]
def k1_off98 (v435 : BitVec 32) : Fin 2 → Nat :=
  let c0_i32_195 : BitVec 32 := 0#32
  ![v435.toNat, 0]

def k1_off99 (i : grid1.Coords) : Fin 1 → Nat :=
  let arg0 : BitVec 32 := BitVec.ofNat 32 (i 0).val
  let c64_i32 : BitVec 32 := 64#32
  let v0 : BitVec 32 := Scalar.muli arg0 c64_i32
  let c49_i32 : BitVec 32 := 49#32
  let v442 : BitVec 32 := Scalar.addi v0 c49_i32
  let v443 : Index := Scalar.indexCast v442
  ![v443.toNat]
def k1_off100 (v444 : BitVec 32) : Fin 2 → Nat :=
  let c0_i32_199 : BitVec 32 := 0#32
  ![v444.toNat, 0]

def k1_off101 (i : grid1.Coords) : Fin 1 → Nat :=
  let arg0 : BitVec 32 := BitVec.ofNat 32 (i 0).val
  let c64_i32 : BitVec 32 := 64#32
  let v0 : BitVec 32 := Scalar.muli arg0 c64_i32
  let c50_i32 : BitVec 32 := 50#32
  let v451 : BitVec 32 := Scalar.addi v0 c50_i32
  let v452 : Index := Scalar.indexCast v451
  ![v452.toNat]
def k1_off102 (v453 : BitVec 32) : Fin 2 → Nat :=
  let c0_i32_203 : BitVec 32 := 0#32
  ![v453.toNat, 0]

def k1_off103 (i : grid1.Coords) : Fin 1 → Nat :=
  let arg0 : BitVec 32 := BitVec.ofNat 32 (i 0).val
  let c64_i32 : BitVec 32 := 64#32
  let v0 : BitVec 32 := Scalar.muli arg0 c64_i32
  let c51_i32 : BitVec 32 := 51#32
  let v460 : BitVec 32 := Scalar.addi v0 c51_i32
  let v461 : Index := Scalar.indexCast v460
  ![v461.toNat]
def k1_off104 (v462 : BitVec 32) : Fin 2 → Nat :=
  let c0_i32_207 : BitVec 32 := 0#32
  ![v462.toNat, 0]

def k1_off105 (i : grid1.Coords) : Fin 1 → Nat :=
  let arg0 : BitVec 32 := BitVec.ofNat 32 (i 0).val
  let c64_i32 : BitVec 32 := 64#32
  let v0 : BitVec 32 := Scalar.muli arg0 c64_i32
  let c52_i32 : BitVec 32 := 52#32
  let v469 : BitVec 32 := Scalar.addi v0 c52_i32
  let v470 : Index := Scalar.indexCast v469
  ![v470.toNat]
def k1_off106 (v471 : BitVec 32) : Fin 2 → Nat :=
  let c0_i32_211 : BitVec 32 := 0#32
  ![v471.toNat, 0]

def k1_off107 (i : grid1.Coords) : Fin 1 → Nat :=
  let arg0 : BitVec 32 := BitVec.ofNat 32 (i 0).val
  let c64_i32 : BitVec 32 := 64#32
  let v0 : BitVec 32 := Scalar.muli arg0 c64_i32
  let c53_i32 : BitVec 32 := 53#32
  let v478 : BitVec 32 := Scalar.addi v0 c53_i32
  let v479 : Index := Scalar.indexCast v478
  ![v479.toNat]
def k1_off108 (v480 : BitVec 32) : Fin 2 → Nat :=
  let c0_i32_215 : BitVec 32 := 0#32
  ![v480.toNat, 0]

def k1_off109 (i : grid1.Coords) : Fin 1 → Nat :=
  let arg0 : BitVec 32 := BitVec.ofNat 32 (i 0).val
  let c64_i32 : BitVec 32 := 64#32
  let v0 : BitVec 32 := Scalar.muli arg0 c64_i32
  let c54_i32 : BitVec 32 := 54#32
  let v487 : BitVec 32 := Scalar.addi v0 c54_i32
  let v488 : Index := Scalar.indexCast v487
  ![v488.toNat]
def k1_off110 (v489 : BitVec 32) : Fin 2 → Nat :=
  let c0_i32_219 : BitVec 32 := 0#32
  ![v489.toNat, 0]

def k1_off111 (i : grid1.Coords) : Fin 1 → Nat :=
  let arg0 : BitVec 32 := BitVec.ofNat 32 (i 0).val
  let c64_i32 : BitVec 32 := 64#32
  let v0 : BitVec 32 := Scalar.muli arg0 c64_i32
  let c55_i32 : BitVec 32 := 55#32
  let v496 : BitVec 32 := Scalar.addi v0 c55_i32
  let v497 : Index := Scalar.indexCast v496
  ![v497.toNat]
def k1_off112 (v498 : BitVec 32) : Fin 2 → Nat :=
  let c0_i32_223 : BitVec 32 := 0#32
  ![v498.toNat, 0]

def k1_off113 (i : grid1.Coords) : Fin 1 → Nat :=
  let arg0 : BitVec 32 := BitVec.ofNat 32 (i 0).val
  let c64_i32 : BitVec 32 := 64#32
  let v0 : BitVec 32 := Scalar.muli arg0 c64_i32
  let c56_i32 : BitVec 32 := 56#32
  let v505 : BitVec 32 := Scalar.addi v0 c56_i32
  let v506 : Index := Scalar.indexCast v505
  ![v506.toNat]
def k1_off114 (v507 : BitVec 32) : Fin 2 → Nat :=
  let c0_i32_227 : BitVec 32 := 0#32
  ![v507.toNat, 0]

def k1_off115 (i : grid1.Coords) : Fin 1 → Nat :=
  let arg0 : BitVec 32 := BitVec.ofNat 32 (i 0).val
  let c64_i32 : BitVec 32 := 64#32
  let v0 : BitVec 32 := Scalar.muli arg0 c64_i32
  let c57_i32 : BitVec 32 := 57#32
  let v514 : BitVec 32 := Scalar.addi v0 c57_i32
  let v515 : Index := Scalar.indexCast v514
  ![v515.toNat]
def k1_off116 (v516 : BitVec 32) : Fin 2 → Nat :=
  let c0_i32_231 : BitVec 32 := 0#32
  ![v516.toNat, 0]

def k1_off117 (i : grid1.Coords) : Fin 1 → Nat :=
  let arg0 : BitVec 32 := BitVec.ofNat 32 (i 0).val
  let c64_i32 : BitVec 32 := 64#32
  let v0 : BitVec 32 := Scalar.muli arg0 c64_i32
  let c58_i32 : BitVec 32 := 58#32
  let v523 : BitVec 32 := Scalar.addi v0 c58_i32
  let v524 : Index := Scalar.indexCast v523
  ![v524.toNat]
def k1_off118 (v525 : BitVec 32) : Fin 2 → Nat :=
  let c0_i32_235 : BitVec 32 := 0#32
  ![v525.toNat, 0]

def k1_off119 (i : grid1.Coords) : Fin 1 → Nat :=
  let arg0 : BitVec 32 := BitVec.ofNat 32 (i 0).val
  let c64_i32 : BitVec 32 := 64#32
  let v0 : BitVec 32 := Scalar.muli arg0 c64_i32
  let c59_i32 : BitVec 32 := 59#32
  let v532 : BitVec 32 := Scalar.addi v0 c59_i32
  let v533 : Index := Scalar.indexCast v532
  ![v533.toNat]
def k1_off120 (v534 : BitVec 32) : Fin 2 → Nat :=
  let c0_i32_239 : BitVec 32 := 0#32
  ![v534.toNat, 0]

def k1_off121 (i : grid1.Coords) : Fin 1 → Nat :=
  let arg0 : BitVec 32 := BitVec.ofNat 32 (i 0).val
  let c64_i32 : BitVec 32 := 64#32
  let v0 : BitVec 32 := Scalar.muli arg0 c64_i32
  let c60_i32 : BitVec 32 := 60#32
  let v541 : BitVec 32 := Scalar.addi v0 c60_i32
  let v542 : Index := Scalar.indexCast v541
  ![v542.toNat]
def k1_off122 (v543 : BitVec 32) : Fin 2 → Nat :=
  let c0_i32_243 : BitVec 32 := 0#32
  ![v543.toNat, 0]

def k1_off123 (i : grid1.Coords) : Fin 1 → Nat :=
  let arg0 : BitVec 32 := BitVec.ofNat 32 (i 0).val
  let c64_i32 : BitVec 32 := 64#32
  let v0 : BitVec 32 := Scalar.muli arg0 c64_i32
  let c61_i32 : BitVec 32 := 61#32
  let v550 : BitVec 32 := Scalar.addi v0 c61_i32
  let v551 : Index := Scalar.indexCast v550
  ![v551.toNat]
def k1_off124 (v552 : BitVec 32) : Fin 2 → Nat :=
  let c0_i32_247 : BitVec 32 := 0#32
  ![v552.toNat, 0]

def k1_off125 (i : grid1.Coords) : Fin 1 → Nat :=
  let arg0 : BitVec 32 := BitVec.ofNat 32 (i 0).val
  let c64_i32 : BitVec 32 := 64#32
  let v0 : BitVec 32 := Scalar.muli arg0 c64_i32
  let c62_i32 : BitVec 32 := 62#32
  let v559 : BitVec 32 := Scalar.addi v0 c62_i32
  let v560 : Index := Scalar.indexCast v559
  ![v560.toNat]
def k1_off126 (v561 : BitVec 32) : Fin 2 → Nat :=
  let c0_i32_251 : BitVec 32 := 0#32
  ![v561.toNat, 0]

def k1_off127 (i : grid1.Coords) : Fin 1 → Nat :=
  let arg0 : BitVec 32 := BitVec.ofNat 32 (i 0).val
  let c64_i32 : BitVec 32 := 64#32
  let v0 : BitVec 32 := Scalar.muli arg0 c64_i32
  let c63_i32 : BitVec 32 := 63#32
  let v568 : BitVec 32 := Scalar.addi v0 c63_i32
  let v569 : Index := Scalar.indexCast v568
  ![v569.toNat]
def k1_off128 (v570 : BitVec 32) : Fin 2 → Nat :=
  let c0_i32_255 : BitVec 32 := 0#32
  ![v570.toNat, 0]

def k1_chk64 (v570 : BitVec 32) : Prop :=
  (∀ a, (k1_off128 v570) a + S1x896.size a ≤ S50000x896.size a)
instance k1_chk64.dec : ∀ (v570 : BitVec 32), Decidable (k1_chk64 v570) := fun v570 => decidable_of_iff' _ (Iff.of_eq (k1_chk64.eq_1 v570))
theorem k1_off128_inb : ∀ (v570 : BitVec 32) (k1_hw64 : k1_chk64 v570), ∀ a, (k1_off128 v570) a + S1x896.size a ≤ S50000x896.size a := fun v570 k1_hw64 => k1_hw64

def k1_off129 (v3 : BitVec 32) : Fin 2 → Nat :=
  let c0_i32_259 : BitVec 32 := 0#32
  ![v3.toNat, 0]

def k1_chk1 (v3 : BitVec 32) : Prop :=
  (∀ a, (k1_off2 v3) a + S1x896.size a ≤ S50000x896.size a) ∧
  (∀ a, (k1_off129 v3) a + S1x896.size a ≤ S50000x896.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x896.size a ≤ S50000x896.size a := fun v3 k1_hw1 => k1_hw1.1
theorem k1_off129_inb : ∀ (v3 : BitVec 32) (k1_hw1 : k1_chk1 v3), ∀ a, (k1_off129 v3) a + S1x896.size a ≤ S50000x896.size a := fun v3 k1_hw1 => k1_hw1.2

def k1_off130 (v12 : BitVec 32) : Fin 2 → Nat :=
  let c0_i32_263 : BitVec 32 := 0#32
  ![v12.toNat, 0]

def k1_chk2 (v12 : BitVec 32) : Prop :=
  (∀ a, (k1_off4 v12) a + S1x896.size a ≤ S50000x896.size a) ∧
  (∀ a, (k1_off130 v12) a + S1x896.size a ≤ S50000x896.size a)
instance k1_chk2.dec : ∀ (v12 : BitVec 32), Decidable (k1_chk2 v12) := fun v12 => decidable_of_iff' _ (Iff.of_eq (k1_chk2.eq_1 v12))
theorem k1_off4_inb : ∀ (v12 : BitVec 32) (k1_hw2 : k1_chk2 v12), ∀ a, (k1_off4 v12) a + S1x896.size a ≤ S50000x896.size a := fun v12 k1_hw2 => k1_hw2.1
theorem k1_off130_inb : ∀ (v12 : BitVec 32) (k1_hw2 : k1_chk2 v12), ∀ a, (k1_off130 v12) a + S1x896.size a ≤ S50000x896.size a := fun v12 k1_hw2 => k1_hw2.2

def k1_off131 (v21 : BitVec 32) : Fin 2 → Nat :=
  let c0_i32_267 : BitVec 32 := 0#32
  ![v21.toNat, 0]

def k1_chk3 (v21 : BitVec 32) : Prop :=
  (∀ a, (k1_off6 v21) a + S1x896.size a ≤ S50000x896.size a) ∧
  (∀ a, (k1_off131 v21) a + S1x896.size a ≤ S50000x896.size a)
instance k1_chk3.dec : ∀ (v21 : BitVec 32), Decidable (k1_chk3 v21) := fun v21 => decidable_of_iff' _ (Iff.of_eq (k1_chk3.eq_1 v21))
theorem k1_off6_inb : ∀ (v21 : BitVec 32) (k1_hw3 : k1_chk3 v21), ∀ a, (k1_off6 v21) a + S1x896.size a ≤ S50000x896.size a := fun v21 k1_hw3 => k1_hw3.1
theorem k1_off131_inb : ∀ (v21 : BitVec 32) (k1_hw3 : k1_chk3 v21), ∀ a, (k1_off131 v21) a + S1x896.size a ≤ S50000x896.size a := fun v21 k1_hw3 => k1_hw3.2

def k1_off132 (v30 : BitVec 32) : Fin 2 → Nat :=
  let c0_i32_271 : BitVec 32 := 0#32
  ![v30.toNat, 0]

def k1_chk4 (v30 : BitVec 32) : Prop :=
  (∀ a, (k1_off8 v30) a + S1x896.size a ≤ S50000x896.size a) ∧
  (∀ a, (k1_off132 v30) a + S1x896.size a ≤ S50000x896.size a)
instance k1_chk4.dec : ∀ (v30 : BitVec 32), Decidable (k1_chk4 v30) := fun v30 => decidable_of_iff' _ (Iff.of_eq (k1_chk4.eq_1 v30))
theorem k1_off8_inb : ∀ (v30 : BitVec 32) (k1_hw4 : k1_chk4 v30), ∀ a, (k1_off8 v30) a + S1x896.size a ≤ S50000x896.size a := fun v30 k1_hw4 => k1_hw4.1
theorem k1_off132_inb : ∀ (v30 : BitVec 32) (k1_hw4 : k1_chk4 v30), ∀ a, (k1_off132 v30) a + S1x896.size a ≤ S50000x896.size a := fun v30 k1_hw4 => k1_hw4.2

def k1_off133 (v39 : BitVec 32) : Fin 2 → Nat :=
  let c0_i32_275 : BitVec 32 := 0#32
  ![v39.toNat, 0]

def k1_chk5 (v39 : BitVec 32) : Prop :=
  (∀ a, (k1_off10 v39) a + S1x896.size a ≤ S50000x896.size a) ∧
  (∀ a, (k1_off133 v39) a + S1x896.size a ≤ S50000x896.size a)
instance k1_chk5.dec : ∀ (v39 : BitVec 32), Decidable (k1_chk5 v39) := fun v39 => decidable_of_iff' _ (Iff.of_eq (k1_chk5.eq_1 v39))
theorem k1_off10_inb : ∀ (v39 : BitVec 32) (k1_hw5 : k1_chk5 v39), ∀ a, (k1_off10 v39) a + S1x896.size a ≤ S50000x896.size a := fun v39 k1_hw5 => k1_hw5.1
theorem k1_off133_inb : ∀ (v39 : BitVec 32) (k1_hw5 : k1_chk5 v39), ∀ a, (k1_off133 v39) a + S1x896.size a ≤ S50000x896.size a := fun v39 k1_hw5 => k1_hw5.2

def k1_off134 (v48 : BitVec 32) : Fin 2 → Nat :=
  let c0_i32_279 : BitVec 32 := 0#32
  ![v48.toNat, 0]

def k1_chk6 (v48 : BitVec 32) : Prop :=
  (∀ a, (k1_off12 v48) a + S1x896.size a ≤ S50000x896.size a) ∧
  (∀ a, (k1_off134 v48) a + S1x896.size a ≤ S50000x896.size a)
instance k1_chk6.dec : ∀ (v48 : BitVec 32), Decidable (k1_chk6 v48) := fun v48 => decidable_of_iff' _ (Iff.of_eq (k1_chk6.eq_1 v48))
theorem k1_off12_inb : ∀ (v48 : BitVec 32) (k1_hw6 : k1_chk6 v48), ∀ a, (k1_off12 v48) a + S1x896.size a ≤ S50000x896.size a := fun v48 k1_hw6 => k1_hw6.1
theorem k1_off134_inb : ∀ (v48 : BitVec 32) (k1_hw6 : k1_chk6 v48), ∀ a, (k1_off134 v48) a + S1x896.size a ≤ S50000x896.size a := fun v48 k1_hw6 => k1_hw6.2

def k1_off135 (v57 : BitVec 32) : Fin 2 → Nat :=
  let c0_i32_283 : BitVec 32 := 0#32
  ![v57.toNat, 0]

def k1_chk7 (v57 : BitVec 32) : Prop :=
  (∀ a, (k1_off14 v57) a + S1x896.size a ≤ S50000x896.size a) ∧
  (∀ a, (k1_off135 v57) a + S1x896.size a ≤ S50000x896.size a)
instance k1_chk7.dec : ∀ (v57 : BitVec 32), Decidable (k1_chk7 v57) := fun v57 => decidable_of_iff' _ (Iff.of_eq (k1_chk7.eq_1 v57))
theorem k1_off14_inb : ∀ (v57 : BitVec 32) (k1_hw7 : k1_chk7 v57), ∀ a, (k1_off14 v57) a + S1x896.size a ≤ S50000x896.size a := fun v57 k1_hw7 => k1_hw7.1
theorem k1_off135_inb : ∀ (v57 : BitVec 32) (k1_hw7 : k1_chk7 v57), ∀ a, (k1_off135 v57) a + S1x896.size a ≤ S50000x896.size a := fun v57 k1_hw7 => k1_hw7.2

def k1_off136 (v66 : BitVec 32) : Fin 2 → Nat :=
  let c0_i32_287 : BitVec 32 := 0#32
  ![v66.toNat, 0]

def k1_chk8 (v66 : BitVec 32) : Prop :=
  (∀ a, (k1_off16 v66) a + S1x896.size a ≤ S50000x896.size a) ∧
  (∀ a, (k1_off136 v66) a + S1x896.size a ≤ S50000x896.size a)
instance k1_chk8.dec : ∀ (v66 : BitVec 32), Decidable (k1_chk8 v66) := fun v66 => decidable_of_iff' _ (Iff.of_eq (k1_chk8.eq_1 v66))
theorem k1_off16_inb : ∀ (v66 : BitVec 32) (k1_hw8 : k1_chk8 v66), ∀ a, (k1_off16 v66) a + S1x896.size a ≤ S50000x896.size a := fun v66 k1_hw8 => k1_hw8.1
theorem k1_off136_inb : ∀ (v66 : BitVec 32) (k1_hw8 : k1_chk8 v66), ∀ a, (k1_off136 v66) a + S1x896.size a ≤ S50000x896.size a := fun v66 k1_hw8 => k1_hw8.2

def k1_off137 (v75 : BitVec 32) : Fin 2 → Nat :=
  let c0_i32_291 : BitVec 32 := 0#32
  ![v75.toNat, 0]

def k1_chk9 (v75 : BitVec 32) : Prop :=
  (∀ a, (k1_off18 v75) a + S1x896.size a ≤ S50000x896.size a) ∧
  (∀ a, (k1_off137 v75) a + S1x896.size a ≤ S50000x896.size a)
instance k1_chk9.dec : ∀ (v75 : BitVec 32), Decidable (k1_chk9 v75) := fun v75 => decidable_of_iff' _ (Iff.of_eq (k1_chk9.eq_1 v75))
theorem k1_off18_inb : ∀ (v75 : BitVec 32) (k1_hw9 : k1_chk9 v75), ∀ a, (k1_off18 v75) a + S1x896.size a ≤ S50000x896.size a := fun v75 k1_hw9 => k1_hw9.1
theorem k1_off137_inb : ∀ (v75 : BitVec 32) (k1_hw9 : k1_chk9 v75), ∀ a, (k1_off137 v75) a + S1x896.size a ≤ S50000x896.size a := fun v75 k1_hw9 => k1_hw9.2

def k1_off138 (v84 : BitVec 32) : Fin 2 → Nat :=
  let c0_i32_295 : BitVec 32 := 0#32
  ![v84.toNat, 0]

def k1_chk10 (v84 : BitVec 32) : Prop :=
  (∀ a, (k1_off20 v84) a + S1x896.size a ≤ S50000x896.size a) ∧
  (∀ a, (k1_off138 v84) a + S1x896.size a ≤ S50000x896.size a)
instance k1_chk10.dec : ∀ (v84 : BitVec 32), Decidable (k1_chk10 v84) := fun v84 => decidable_of_iff' _ (Iff.of_eq (k1_chk10.eq_1 v84))
theorem k1_off20_inb : ∀ (v84 : BitVec 32) (k1_hw10 : k1_chk10 v84), ∀ a, (k1_off20 v84) a + S1x896.size a ≤ S50000x896.size a := fun v84 k1_hw10 => k1_hw10.1
theorem k1_off138_inb : ∀ (v84 : BitVec 32) (k1_hw10 : k1_chk10 v84), ∀ a, (k1_off138 v84) a + S1x896.size a ≤ S50000x896.size a := fun v84 k1_hw10 => k1_hw10.2

def k1_off139 (v93 : BitVec 32) : Fin 2 → Nat :=
  let c0_i32_299 : BitVec 32 := 0#32
  ![v93.toNat, 0]

def k1_chk11 (v93 : BitVec 32) : Prop :=
  (∀ a, (k1_off22 v93) a + S1x896.size a ≤ S50000x896.size a) ∧
  (∀ a, (k1_off139 v93) a + S1x896.size a ≤ S50000x896.size a)
instance k1_chk11.dec : ∀ (v93 : BitVec 32), Decidable (k1_chk11 v93) := fun v93 => decidable_of_iff' _ (Iff.of_eq (k1_chk11.eq_1 v93))
theorem k1_off22_inb : ∀ (v93 : BitVec 32) (k1_hw11 : k1_chk11 v93), ∀ a, (k1_off22 v93) a + S1x896.size a ≤ S50000x896.size a := fun v93 k1_hw11 => k1_hw11.1
theorem k1_off139_inb : ∀ (v93 : BitVec 32) (k1_hw11 : k1_chk11 v93), ∀ a, (k1_off139 v93) a + S1x896.size a ≤ S50000x896.size a := fun v93 k1_hw11 => k1_hw11.2

def k1_off140 (v102 : BitVec 32) : Fin 2 → Nat :=
  let c0_i32_303 : BitVec 32 := 0#32
  ![v102.toNat, 0]

def k1_chk12 (v102 : BitVec 32) : Prop :=
  (∀ a, (k1_off24 v102) a + S1x896.size a ≤ S50000x896.size a) ∧
  (∀ a, (k1_off140 v102) a + S1x896.size a ≤ S50000x896.size a)
instance k1_chk12.dec : ∀ (v102 : BitVec 32), Decidable (k1_chk12 v102) := fun v102 => decidable_of_iff' _ (Iff.of_eq (k1_chk12.eq_1 v102))
theorem k1_off24_inb : ∀ (v102 : BitVec 32) (k1_hw12 : k1_chk12 v102), ∀ a, (k1_off24 v102) a + S1x896.size a ≤ S50000x896.size a := fun v102 k1_hw12 => k1_hw12.1
theorem k1_off140_inb : ∀ (v102 : BitVec 32) (k1_hw12 : k1_chk12 v102), ∀ a, (k1_off140 v102) a + S1x896.size a ≤ S50000x896.size a := fun v102 k1_hw12 => k1_hw12.2

def k1_off141 (v111 : BitVec 32) : Fin 2 → Nat :=
  let c0_i32_307 : BitVec 32 := 0#32
  ![v111.toNat, 0]

def k1_chk13 (v111 : BitVec 32) : Prop :=
  (∀ a, (k1_off26 v111) a + S1x896.size a ≤ S50000x896.size a) ∧
  (∀ a, (k1_off141 v111) a + S1x896.size a ≤ S50000x896.size a)
instance k1_chk13.dec : ∀ (v111 : BitVec 32), Decidable (k1_chk13 v111) := fun v111 => decidable_of_iff' _ (Iff.of_eq (k1_chk13.eq_1 v111))
theorem k1_off26_inb : ∀ (v111 : BitVec 32) (k1_hw13 : k1_chk13 v111), ∀ a, (k1_off26 v111) a + S1x896.size a ≤ S50000x896.size a := fun v111 k1_hw13 => k1_hw13.1
theorem k1_off141_inb : ∀ (v111 : BitVec 32) (k1_hw13 : k1_chk13 v111), ∀ a, (k1_off141 v111) a + S1x896.size a ≤ S50000x896.size a := fun v111 k1_hw13 => k1_hw13.2

def k1_off142 (v120 : BitVec 32) : Fin 2 → Nat :=
  let c0_i32_311 : BitVec 32 := 0#32
  ![v120.toNat, 0]

def k1_chk14 (v120 : BitVec 32) : Prop :=
  (∀ a, (k1_off28 v120) a + S1x896.size a ≤ S50000x896.size a) ∧
  (∀ a, (k1_off142 v120) a + S1x896.size a ≤ S50000x896.size a)
instance k1_chk14.dec : ∀ (v120 : BitVec 32), Decidable (k1_chk14 v120) := fun v120 => decidable_of_iff' _ (Iff.of_eq (k1_chk14.eq_1 v120))
theorem k1_off28_inb : ∀ (v120 : BitVec 32) (k1_hw14 : k1_chk14 v120), ∀ a, (k1_off28 v120) a + S1x896.size a ≤ S50000x896.size a := fun v120 k1_hw14 => k1_hw14.1
theorem k1_off142_inb : ∀ (v120 : BitVec 32) (k1_hw14 : k1_chk14 v120), ∀ a, (k1_off142 v120) a + S1x896.size a ≤ S50000x896.size a := fun v120 k1_hw14 => k1_hw14.2

def k1_off143 (v129 : BitVec 32) : Fin 2 → Nat :=
  let c0_i32_315 : BitVec 32 := 0#32
  ![v129.toNat, 0]

def k1_chk15 (v129 : BitVec 32) : Prop :=
  (∀ a, (k1_off30 v129) a + S1x896.size a ≤ S50000x896.size a) ∧
  (∀ a, (k1_off143 v129) a + S1x896.size a ≤ S50000x896.size a)
instance k1_chk15.dec : ∀ (v129 : BitVec 32), Decidable (k1_chk15 v129) := fun v129 => decidable_of_iff' _ (Iff.of_eq (k1_chk15.eq_1 v129))
theorem k1_off30_inb : ∀ (v129 : BitVec 32) (k1_hw15 : k1_chk15 v129), ∀ a, (k1_off30 v129) a + S1x896.size a ≤ S50000x896.size a := fun v129 k1_hw15 => k1_hw15.1
theorem k1_off143_inb : ∀ (v129 : BitVec 32) (k1_hw15 : k1_chk15 v129), ∀ a, (k1_off143 v129) a + S1x896.size a ≤ S50000x896.size a := fun v129 k1_hw15 => k1_hw15.2

def k1_off144 (v138 : BitVec 32) : Fin 2 → Nat :=
  let c0_i32_319 : BitVec 32 := 0#32
  ![v138.toNat, 0]

def k1_chk16 (v138 : BitVec 32) : Prop :=
  (∀ a, (k1_off32 v138) a + S1x896.size a ≤ S50000x896.size a) ∧
  (∀ a, (k1_off144 v138) a + S1x896.size a ≤ S50000x896.size a)
instance k1_chk16.dec : ∀ (v138 : BitVec 32), Decidable (k1_chk16 v138) := fun v138 => decidable_of_iff' _ (Iff.of_eq (k1_chk16.eq_1 v138))
theorem k1_off32_inb : ∀ (v138 : BitVec 32) (k1_hw16 : k1_chk16 v138), ∀ a, (k1_off32 v138) a + S1x896.size a ≤ S50000x896.size a := fun v138 k1_hw16 => k1_hw16.1
theorem k1_off144_inb : ∀ (v138 : BitVec 32) (k1_hw16 : k1_chk16 v138), ∀ a, (k1_off144 v138) a + S1x896.size a ≤ S50000x896.size a := fun v138 k1_hw16 => k1_hw16.2

def k1_off145 (v147 : BitVec 32) : Fin 2 → Nat :=
  let c0_i32_323 : BitVec 32 := 0#32
  ![v147.toNat, 0]

def k1_chk17 (v147 : BitVec 32) : Prop :=
  (∀ a, (k1_off34 v147) a + S1x896.size a ≤ S50000x896.size a) ∧
  (∀ a, (k1_off145 v147) a + S1x896.size a ≤ S50000x896.size a)
instance k1_chk17.dec : ∀ (v147 : BitVec 32), Decidable (k1_chk17 v147) := fun v147 => decidable_of_iff' _ (Iff.of_eq (k1_chk17.eq_1 v147))
theorem k1_off34_inb : ∀ (v147 : BitVec 32) (k1_hw17 : k1_chk17 v147), ∀ a, (k1_off34 v147) a + S1x896.size a ≤ S50000x896.size a := fun v147 k1_hw17 => k1_hw17.1
theorem k1_off145_inb : ∀ (v147 : BitVec 32) (k1_hw17 : k1_chk17 v147), ∀ a, (k1_off145 v147) a + S1x896.size a ≤ S50000x896.size a := fun v147 k1_hw17 => k1_hw17.2

def k1_off146 (v156 : BitVec 32) : Fin 2 → Nat :=
  let c0_i32_327 : BitVec 32 := 0#32
  ![v156.toNat, 0]

def k1_chk18 (v156 : BitVec 32) : Prop :=
  (∀ a, (k1_off36 v156) a + S1x896.size a ≤ S50000x896.size a) ∧
  (∀ a, (k1_off146 v156) a + S1x896.size a ≤ S50000x896.size a)
instance k1_chk18.dec : ∀ (v156 : BitVec 32), Decidable (k1_chk18 v156) := fun v156 => decidable_of_iff' _ (Iff.of_eq (k1_chk18.eq_1 v156))
theorem k1_off36_inb : ∀ (v156 : BitVec 32) (k1_hw18 : k1_chk18 v156), ∀ a, (k1_off36 v156) a + S1x896.size a ≤ S50000x896.size a := fun v156 k1_hw18 => k1_hw18.1
theorem k1_off146_inb : ∀ (v156 : BitVec 32) (k1_hw18 : k1_chk18 v156), ∀ a, (k1_off146 v156) a + S1x896.size a ≤ S50000x896.size a := fun v156 k1_hw18 => k1_hw18.2

def k1_off147 (v165 : BitVec 32) : Fin 2 → Nat :=
  let c0_i32_331 : BitVec 32 := 0#32
  ![v165.toNat, 0]

def k1_chk19 (v165 : BitVec 32) : Prop :=
  (∀ a, (k1_off38 v165) a + S1x896.size a ≤ S50000x896.size a) ∧
  (∀ a, (k1_off147 v165) a + S1x896.size a ≤ S50000x896.size a)
instance k1_chk19.dec : ∀ (v165 : BitVec 32), Decidable (k1_chk19 v165) := fun v165 => decidable_of_iff' _ (Iff.of_eq (k1_chk19.eq_1 v165))
theorem k1_off38_inb : ∀ (v165 : BitVec 32) (k1_hw19 : k1_chk19 v165), ∀ a, (k1_off38 v165) a + S1x896.size a ≤ S50000x896.size a := fun v165 k1_hw19 => k1_hw19.1
theorem k1_off147_inb : ∀ (v165 : BitVec 32) (k1_hw19 : k1_chk19 v165), ∀ a, (k1_off147 v165) a + S1x896.size a ≤ S50000x896.size a := fun v165 k1_hw19 => k1_hw19.2

def k1_off148 (v174 : BitVec 32) : Fin 2 → Nat :=
  let c0_i32_335 : BitVec 32 := 0#32
  ![v174.toNat, 0]

def k1_chk20 (v174 : BitVec 32) : Prop :=
  (∀ a, (k1_off40 v174) a + S1x896.size a ≤ S50000x896.size a) ∧
  (∀ a, (k1_off148 v174) a + S1x896.size a ≤ S50000x896.size a)
instance k1_chk20.dec : ∀ (v174 : BitVec 32), Decidable (k1_chk20 v174) := fun v174 => decidable_of_iff' _ (Iff.of_eq (k1_chk20.eq_1 v174))
theorem k1_off40_inb : ∀ (v174 : BitVec 32) (k1_hw20 : k1_chk20 v174), ∀ a, (k1_off40 v174) a + S1x896.size a ≤ S50000x896.size a := fun v174 k1_hw20 => k1_hw20.1
theorem k1_off148_inb : ∀ (v174 : BitVec 32) (k1_hw20 : k1_chk20 v174), ∀ a, (k1_off148 v174) a + S1x896.size a ≤ S50000x896.size a := fun v174 k1_hw20 => k1_hw20.2

def k1_off149 (v183 : BitVec 32) : Fin 2 → Nat :=
  let c0_i32_339 : BitVec 32 := 0#32
  ![v183.toNat, 0]

def k1_chk21 (v183 : BitVec 32) : Prop :=
  (∀ a, (k1_off42 v183) a + S1x896.size a ≤ S50000x896.size a) ∧
  (∀ a, (k1_off149 v183) a + S1x896.size a ≤ S50000x896.size a)
instance k1_chk21.dec : ∀ (v183 : BitVec 32), Decidable (k1_chk21 v183) := fun v183 => decidable_of_iff' _ (Iff.of_eq (k1_chk21.eq_1 v183))
theorem k1_off42_inb : ∀ (v183 : BitVec 32) (k1_hw21 : k1_chk21 v183), ∀ a, (k1_off42 v183) a + S1x896.size a ≤ S50000x896.size a := fun v183 k1_hw21 => k1_hw21.1
theorem k1_off149_inb : ∀ (v183 : BitVec 32) (k1_hw21 : k1_chk21 v183), ∀ a, (k1_off149 v183) a + S1x896.size a ≤ S50000x896.size a := fun v183 k1_hw21 => k1_hw21.2

def k1_off150 (v192 : BitVec 32) : Fin 2 → Nat :=
  let c0_i32_343 : BitVec 32 := 0#32
  ![v192.toNat, 0]

def k1_chk22 (v192 : BitVec 32) : Prop :=
  (∀ a, (k1_off44 v192) a + S1x896.size a ≤ S50000x896.size a) ∧
  (∀ a, (k1_off150 v192) a + S1x896.size a ≤ S50000x896.size a)
instance k1_chk22.dec : ∀ (v192 : BitVec 32), Decidable (k1_chk22 v192) := fun v192 => decidable_of_iff' _ (Iff.of_eq (k1_chk22.eq_1 v192))
theorem k1_off44_inb : ∀ (v192 : BitVec 32) (k1_hw22 : k1_chk22 v192), ∀ a, (k1_off44 v192) a + S1x896.size a ≤ S50000x896.size a := fun v192 k1_hw22 => k1_hw22.1
theorem k1_off150_inb : ∀ (v192 : BitVec 32) (k1_hw22 : k1_chk22 v192), ∀ a, (k1_off150 v192) a + S1x896.size a ≤ S50000x896.size a := fun v192 k1_hw22 => k1_hw22.2

def k1_off151 (v201 : BitVec 32) : Fin 2 → Nat :=
  let c0_i32_347 : BitVec 32 := 0#32
  ![v201.toNat, 0]

def k1_chk23 (v201 : BitVec 32) : Prop :=
  (∀ a, (k1_off46 v201) a + S1x896.size a ≤ S50000x896.size a) ∧
  (∀ a, (k1_off151 v201) a + S1x896.size a ≤ S50000x896.size a)
instance k1_chk23.dec : ∀ (v201 : BitVec 32), Decidable (k1_chk23 v201) := fun v201 => decidable_of_iff' _ (Iff.of_eq (k1_chk23.eq_1 v201))
theorem k1_off46_inb : ∀ (v201 : BitVec 32) (k1_hw23 : k1_chk23 v201), ∀ a, (k1_off46 v201) a + S1x896.size a ≤ S50000x896.size a := fun v201 k1_hw23 => k1_hw23.1
theorem k1_off151_inb : ∀ (v201 : BitVec 32) (k1_hw23 : k1_chk23 v201), ∀ a, (k1_off151 v201) a + S1x896.size a ≤ S50000x896.size a := fun v201 k1_hw23 => k1_hw23.2

def k1_off152 (v210 : BitVec 32) : Fin 2 → Nat :=
  let c0_i32_351 : BitVec 32 := 0#32
  ![v210.toNat, 0]

def k1_chk24 (v210 : BitVec 32) : Prop :=
  (∀ a, (k1_off48 v210) a + S1x896.size a ≤ S50000x896.size a) ∧
  (∀ a, (k1_off152 v210) a + S1x896.size a ≤ S50000x896.size a)
instance k1_chk24.dec : ∀ (v210 : BitVec 32), Decidable (k1_chk24 v210) := fun v210 => decidable_of_iff' _ (Iff.of_eq (k1_chk24.eq_1 v210))
theorem k1_off48_inb : ∀ (v210 : BitVec 32) (k1_hw24 : k1_chk24 v210), ∀ a, (k1_off48 v210) a + S1x896.size a ≤ S50000x896.size a := fun v210 k1_hw24 => k1_hw24.1
theorem k1_off152_inb : ∀ (v210 : BitVec 32) (k1_hw24 : k1_chk24 v210), ∀ a, (k1_off152 v210) a + S1x896.size a ≤ S50000x896.size a := fun v210 k1_hw24 => k1_hw24.2

def k1_off153 (v219 : BitVec 32) : Fin 2 → Nat :=
  let c0_i32_355 : BitVec 32 := 0#32
  ![v219.toNat, 0]

def k1_chk25 (v219 : BitVec 32) : Prop :=
  (∀ a, (k1_off50 v219) a + S1x896.size a ≤ S50000x896.size a) ∧
  (∀ a, (k1_off153 v219) a + S1x896.size a ≤ S50000x896.size a)
instance k1_chk25.dec : ∀ (v219 : BitVec 32), Decidable (k1_chk25 v219) := fun v219 => decidable_of_iff' _ (Iff.of_eq (k1_chk25.eq_1 v219))
theorem k1_off50_inb : ∀ (v219 : BitVec 32) (k1_hw25 : k1_chk25 v219), ∀ a, (k1_off50 v219) a + S1x896.size a ≤ S50000x896.size a := fun v219 k1_hw25 => k1_hw25.1
theorem k1_off153_inb : ∀ (v219 : BitVec 32) (k1_hw25 : k1_chk25 v219), ∀ a, (k1_off153 v219) a + S1x896.size a ≤ S50000x896.size a := fun v219 k1_hw25 => k1_hw25.2

def k1_off154 (v228 : BitVec 32) : Fin 2 → Nat :=
  let c0_i32_359 : BitVec 32 := 0#32
  ![v228.toNat, 0]

def k1_chk26 (v228 : BitVec 32) : Prop :=
  (∀ a, (k1_off52 v228) a + S1x896.size a ≤ S50000x896.size a) ∧
  (∀ a, (k1_off154 v228) a + S1x896.size a ≤ S50000x896.size a)
instance k1_chk26.dec : ∀ (v228 : BitVec 32), Decidable (k1_chk26 v228) := fun v228 => decidable_of_iff' _ (Iff.of_eq (k1_chk26.eq_1 v228))
theorem k1_off52_inb : ∀ (v228 : BitVec 32) (k1_hw26 : k1_chk26 v228), ∀ a, (k1_off52 v228) a + S1x896.size a ≤ S50000x896.size a := fun v228 k1_hw26 => k1_hw26.1
theorem k1_off154_inb : ∀ (v228 : BitVec 32) (k1_hw26 : k1_chk26 v228), ∀ a, (k1_off154 v228) a + S1x896.size a ≤ S50000x896.size a := fun v228 k1_hw26 => k1_hw26.2

def k1_off155 (v237 : BitVec 32) : Fin 2 → Nat :=
  let c0_i32_363 : BitVec 32 := 0#32
  ![v237.toNat, 0]

def k1_chk27 (v237 : BitVec 32) : Prop :=
  (∀ a, (k1_off54 v237) a + S1x896.size a ≤ S50000x896.size a) ∧
  (∀ a, (k1_off155 v237) a + S1x896.size a ≤ S50000x896.size a)
instance k1_chk27.dec : ∀ (v237 : BitVec 32), Decidable (k1_chk27 v237) := fun v237 => decidable_of_iff' _ (Iff.of_eq (k1_chk27.eq_1 v237))
theorem k1_off54_inb : ∀ (v237 : BitVec 32) (k1_hw27 : k1_chk27 v237), ∀ a, (k1_off54 v237) a + S1x896.size a ≤ S50000x896.size a := fun v237 k1_hw27 => k1_hw27.1
theorem k1_off155_inb : ∀ (v237 : BitVec 32) (k1_hw27 : k1_chk27 v237), ∀ a, (k1_off155 v237) a + S1x896.size a ≤ S50000x896.size a := fun v237 k1_hw27 => k1_hw27.2

def k1_off156 (v246 : BitVec 32) : Fin 2 → Nat :=
  let c0_i32_367 : BitVec 32 := 0#32
  ![v246.toNat, 0]

def k1_chk28 (v246 : BitVec 32) : Prop :=
  (∀ a, (k1_off56 v246) a + S1x896.size a ≤ S50000x896.size a) ∧
  (∀ a, (k1_off156 v246) a + S1x896.size a ≤ S50000x896.size a)
instance k1_chk28.dec : ∀ (v246 : BitVec 32), Decidable (k1_chk28 v246) := fun v246 => decidable_of_iff' _ (Iff.of_eq (k1_chk28.eq_1 v246))
theorem k1_off56_inb : ∀ (v246 : BitVec 32) (k1_hw28 : k1_chk28 v246), ∀ a, (k1_off56 v246) a + S1x896.size a ≤ S50000x896.size a := fun v246 k1_hw28 => k1_hw28.1
theorem k1_off156_inb : ∀ (v246 : BitVec 32) (k1_hw28 : k1_chk28 v246), ∀ a, (k1_off156 v246) a + S1x896.size a ≤ S50000x896.size a := fun v246 k1_hw28 => k1_hw28.2

def k1_off157 (v255 : BitVec 32) : Fin 2 → Nat :=
  let c0_i32_371 : BitVec 32 := 0#32
  ![v255.toNat, 0]

def k1_chk29 (v255 : BitVec 32) : Prop :=
  (∀ a, (k1_off58 v255) a + S1x896.size a ≤ S50000x896.size a) ∧
  (∀ a, (k1_off157 v255) a + S1x896.size a ≤ S50000x896.size a)
instance k1_chk29.dec : ∀ (v255 : BitVec 32), Decidable (k1_chk29 v255) := fun v255 => decidable_of_iff' _ (Iff.of_eq (k1_chk29.eq_1 v255))
theorem k1_off58_inb : ∀ (v255 : BitVec 32) (k1_hw29 : k1_chk29 v255), ∀ a, (k1_off58 v255) a + S1x896.size a ≤ S50000x896.size a := fun v255 k1_hw29 => k1_hw29.1
theorem k1_off157_inb : ∀ (v255 : BitVec 32) (k1_hw29 : k1_chk29 v255), ∀ a, (k1_off157 v255) a + S1x896.size a ≤ S50000x896.size a := fun v255 k1_hw29 => k1_hw29.2

def k1_off158 (v264 : BitVec 32) : Fin 2 → Nat :=
  let c0_i32_375 : BitVec 32 := 0#32
  ![v264.toNat, 0]

def k1_chk30 (v264 : BitVec 32) : Prop :=
  (∀ a, (k1_off60 v264) a + S1x896.size a ≤ S50000x896.size a) ∧
  (∀ a, (k1_off158 v264) a + S1x896.size a ≤ S50000x896.size a)
instance k1_chk30.dec : ∀ (v264 : BitVec 32), Decidable (k1_chk30 v264) := fun v264 => decidable_of_iff' _ (Iff.of_eq (k1_chk30.eq_1 v264))
theorem k1_off60_inb : ∀ (v264 : BitVec 32) (k1_hw30 : k1_chk30 v264), ∀ a, (k1_off60 v264) a + S1x896.size a ≤ S50000x896.size a := fun v264 k1_hw30 => k1_hw30.1
theorem k1_off158_inb : ∀ (v264 : BitVec 32) (k1_hw30 : k1_chk30 v264), ∀ a, (k1_off158 v264) a + S1x896.size a ≤ S50000x896.size a := fun v264 k1_hw30 => k1_hw30.2

def k1_off159 (v273 : BitVec 32) : Fin 2 → Nat :=
  let c0_i32_379 : BitVec 32 := 0#32
  ![v273.toNat, 0]

def k1_chk31 (v273 : BitVec 32) : Prop :=
  (∀ a, (k1_off62 v273) a + S1x896.size a ≤ S50000x896.size a) ∧
  (∀ a, (k1_off159 v273) a + S1x896.size a ≤ S50000x896.size a)
instance k1_chk31.dec : ∀ (v273 : BitVec 32), Decidable (k1_chk31 v273) := fun v273 => decidable_of_iff' _ (Iff.of_eq (k1_chk31.eq_1 v273))
theorem k1_off62_inb : ∀ (v273 : BitVec 32) (k1_hw31 : k1_chk31 v273), ∀ a, (k1_off62 v273) a + S1x896.size a ≤ S50000x896.size a := fun v273 k1_hw31 => k1_hw31.1
theorem k1_off159_inb : ∀ (v273 : BitVec 32) (k1_hw31 : k1_chk31 v273), ∀ a, (k1_off159 v273) a + S1x896.size a ≤ S50000x896.size a := fun v273 k1_hw31 => k1_hw31.2

def k1_off160 (v282 : BitVec 32) : Fin 2 → Nat :=
  let c0_i32_383 : BitVec 32 := 0#32
  ![v282.toNat, 0]

def k1_chk32 (v282 : BitVec 32) : Prop :=
  (∀ a, (k1_off64 v282) a + S1x896.size a ≤ S50000x896.size a) ∧
  (∀ a, (k1_off160 v282) a + S1x896.size a ≤ S50000x896.size a)
instance k1_chk32.dec : ∀ (v282 : BitVec 32), Decidable (k1_chk32 v282) := fun v282 => decidable_of_iff' _ (Iff.of_eq (k1_chk32.eq_1 v282))
theorem k1_off64_inb : ∀ (v282 : BitVec 32) (k1_hw32 : k1_chk32 v282), ∀ a, (k1_off64 v282) a + S1x896.size a ≤ S50000x896.size a := fun v282 k1_hw32 => k1_hw32.1
theorem k1_off160_inb : ∀ (v282 : BitVec 32) (k1_hw32 : k1_chk32 v282), ∀ a, (k1_off160 v282) a + S1x896.size a ≤ S50000x896.size a := fun v282 k1_hw32 => k1_hw32.2

def k1_off161 (v291 : BitVec 32) : Fin 2 → Nat :=
  let c0_i32_387 : BitVec 32 := 0#32
  ![v291.toNat, 0]

def k1_chk33 (v291 : BitVec 32) : Prop :=
  (∀ a, (k1_off66 v291) a + S1x896.size a ≤ S50000x896.size a) ∧
  (∀ a, (k1_off161 v291) a + S1x896.size a ≤ S50000x896.size a)
instance k1_chk33.dec : ∀ (v291 : BitVec 32), Decidable (k1_chk33 v291) := fun v291 => decidable_of_iff' _ (Iff.of_eq (k1_chk33.eq_1 v291))
theorem k1_off66_inb : ∀ (v291 : BitVec 32) (k1_hw33 : k1_chk33 v291), ∀ a, (k1_off66 v291) a + S1x896.size a ≤ S50000x896.size a := fun v291 k1_hw33 => k1_hw33.1
theorem k1_off161_inb : ∀ (v291 : BitVec 32) (k1_hw33 : k1_chk33 v291), ∀ a, (k1_off161 v291) a + S1x896.size a ≤ S50000x896.size a := fun v291 k1_hw33 => k1_hw33.2

def k1_off162 (v300 : BitVec 32) : Fin 2 → Nat :=
  let c0_i32_391 : BitVec 32 := 0#32
  ![v300.toNat, 0]

def k1_chk34 (v300 : BitVec 32) : Prop :=
  (∀ a, (k1_off68 v300) a + S1x896.size a ≤ S50000x896.size a) ∧
  (∀ a, (k1_off162 v300) a + S1x896.size a ≤ S50000x896.size a)
instance k1_chk34.dec : ∀ (v300 : BitVec 32), Decidable (k1_chk34 v300) := fun v300 => decidable_of_iff' _ (Iff.of_eq (k1_chk34.eq_1 v300))
theorem k1_off68_inb : ∀ (v300 : BitVec 32) (k1_hw34 : k1_chk34 v300), ∀ a, (k1_off68 v300) a + S1x896.size a ≤ S50000x896.size a := fun v300 k1_hw34 => k1_hw34.1
theorem k1_off162_inb : ∀ (v300 : BitVec 32) (k1_hw34 : k1_chk34 v300), ∀ a, (k1_off162 v300) a + S1x896.size a ≤ S50000x896.size a := fun v300 k1_hw34 => k1_hw34.2

def k1_off163 (v309 : BitVec 32) : Fin 2 → Nat :=
  let c0_i32_395 : BitVec 32 := 0#32
  ![v309.toNat, 0]

def k1_chk35 (v309 : BitVec 32) : Prop :=
  (∀ a, (k1_off70 v309) a + S1x896.size a ≤ S50000x896.size a) ∧
  (∀ a, (k1_off163 v309) a + S1x896.size a ≤ S50000x896.size a)
instance k1_chk35.dec : ∀ (v309 : BitVec 32), Decidable (k1_chk35 v309) := fun v309 => decidable_of_iff' _ (Iff.of_eq (k1_chk35.eq_1 v309))
theorem k1_off70_inb : ∀ (v309 : BitVec 32) (k1_hw35 : k1_chk35 v309), ∀ a, (k1_off70 v309) a + S1x896.size a ≤ S50000x896.size a := fun v309 k1_hw35 => k1_hw35.1
theorem k1_off163_inb : ∀ (v309 : BitVec 32) (k1_hw35 : k1_chk35 v309), ∀ a, (k1_off163 v309) a + S1x896.size a ≤ S50000x896.size a := fun v309 k1_hw35 => k1_hw35.2

def k1_off164 (v318 : BitVec 32) : Fin 2 → Nat :=
  let c0_i32_399 : BitVec 32 := 0#32
  ![v318.toNat, 0]

def k1_chk36 (v318 : BitVec 32) : Prop :=
  (∀ a, (k1_off72 v318) a + S1x896.size a ≤ S50000x896.size a) ∧
  (∀ a, (k1_off164 v318) a + S1x896.size a ≤ S50000x896.size a)
instance k1_chk36.dec : ∀ (v318 : BitVec 32), Decidable (k1_chk36 v318) := fun v318 => decidable_of_iff' _ (Iff.of_eq (k1_chk36.eq_1 v318))
theorem k1_off72_inb : ∀ (v318 : BitVec 32) (k1_hw36 : k1_chk36 v318), ∀ a, (k1_off72 v318) a + S1x896.size a ≤ S50000x896.size a := fun v318 k1_hw36 => k1_hw36.1
theorem k1_off164_inb : ∀ (v318 : BitVec 32) (k1_hw36 : k1_chk36 v318), ∀ a, (k1_off164 v318) a + S1x896.size a ≤ S50000x896.size a := fun v318 k1_hw36 => k1_hw36.2

def k1_off165 (v327 : BitVec 32) : Fin 2 → Nat :=
  let c0_i32_403 : BitVec 32 := 0#32
  ![v327.toNat, 0]

def k1_chk37 (v327 : BitVec 32) : Prop :=
  (∀ a, (k1_off74 v327) a + S1x896.size a ≤ S50000x896.size a) ∧
  (∀ a, (k1_off165 v327) a + S1x896.size a ≤ S50000x896.size a)
instance k1_chk37.dec : ∀ (v327 : BitVec 32), Decidable (k1_chk37 v327) := fun v327 => decidable_of_iff' _ (Iff.of_eq (k1_chk37.eq_1 v327))
theorem k1_off74_inb : ∀ (v327 : BitVec 32) (k1_hw37 : k1_chk37 v327), ∀ a, (k1_off74 v327) a + S1x896.size a ≤ S50000x896.size a := fun v327 k1_hw37 => k1_hw37.1
theorem k1_off165_inb : ∀ (v327 : BitVec 32) (k1_hw37 : k1_chk37 v327), ∀ a, (k1_off165 v327) a + S1x896.size a ≤ S50000x896.size a := fun v327 k1_hw37 => k1_hw37.2

def k1_off166 (v336 : BitVec 32) : Fin 2 → Nat :=
  let c0_i32_407 : BitVec 32 := 0#32
  ![v336.toNat, 0]

def k1_chk38 (v336 : BitVec 32) : Prop :=
  (∀ a, (k1_off76 v336) a + S1x896.size a ≤ S50000x896.size a) ∧
  (∀ a, (k1_off166 v336) a + S1x896.size a ≤ S50000x896.size a)
instance k1_chk38.dec : ∀ (v336 : BitVec 32), Decidable (k1_chk38 v336) := fun v336 => decidable_of_iff' _ (Iff.of_eq (k1_chk38.eq_1 v336))
theorem k1_off76_inb : ∀ (v336 : BitVec 32) (k1_hw38 : k1_chk38 v336), ∀ a, (k1_off76 v336) a + S1x896.size a ≤ S50000x896.size a := fun v336 k1_hw38 => k1_hw38.1
theorem k1_off166_inb : ∀ (v336 : BitVec 32) (k1_hw38 : k1_chk38 v336), ∀ a, (k1_off166 v336) a + S1x896.size a ≤ S50000x896.size a := fun v336 k1_hw38 => k1_hw38.2

def k1_off167 (v345 : BitVec 32) : Fin 2 → Nat :=
  let c0_i32_411 : BitVec 32 := 0#32
  ![v345.toNat, 0]

def k1_chk39 (v345 : BitVec 32) : Prop :=
  (∀ a, (k1_off78 v345) a + S1x896.size a ≤ S50000x896.size a) ∧
  (∀ a, (k1_off167 v345) a + S1x896.size a ≤ S50000x896.size a)
instance k1_chk39.dec : ∀ (v345 : BitVec 32), Decidable (k1_chk39 v345) := fun v345 => decidable_of_iff' _ (Iff.of_eq (k1_chk39.eq_1 v345))
theorem k1_off78_inb : ∀ (v345 : BitVec 32) (k1_hw39 : k1_chk39 v345), ∀ a, (k1_off78 v345) a + S1x896.size a ≤ S50000x896.size a := fun v345 k1_hw39 => k1_hw39.1
theorem k1_off167_inb : ∀ (v345 : BitVec 32) (k1_hw39 : k1_chk39 v345), ∀ a, (k1_off167 v345) a + S1x896.size a ≤ S50000x896.size a := fun v345 k1_hw39 => k1_hw39.2

def k1_off168 (v354 : BitVec 32) : Fin 2 → Nat :=
  let c0_i32_415 : BitVec 32 := 0#32
  ![v354.toNat, 0]

def k1_chk40 (v354 : BitVec 32) : Prop :=
  (∀ a, (k1_off80 v354) a + S1x896.size a ≤ S50000x896.size a) ∧
  (∀ a, (k1_off168 v354) a + S1x896.size a ≤ S50000x896.size a)
instance k1_chk40.dec : ∀ (v354 : BitVec 32), Decidable (k1_chk40 v354) := fun v354 => decidable_of_iff' _ (Iff.of_eq (k1_chk40.eq_1 v354))
theorem k1_off80_inb : ∀ (v354 : BitVec 32) (k1_hw40 : k1_chk40 v354), ∀ a, (k1_off80 v354) a + S1x896.size a ≤ S50000x896.size a := fun v354 k1_hw40 => k1_hw40.1
theorem k1_off168_inb : ∀ (v354 : BitVec 32) (k1_hw40 : k1_chk40 v354), ∀ a, (k1_off168 v354) a + S1x896.size a ≤ S50000x896.size a := fun v354 k1_hw40 => k1_hw40.2

def k1_off169 (v363 : BitVec 32) : Fin 2 → Nat :=
  let c0_i32_419 : BitVec 32 := 0#32
  ![v363.toNat, 0]

def k1_chk41 (v363 : BitVec 32) : Prop :=
  (∀ a, (k1_off82 v363) a + S1x896.size a ≤ S50000x896.size a) ∧
  (∀ a, (k1_off169 v363) a + S1x896.size a ≤ S50000x896.size a)
instance k1_chk41.dec : ∀ (v363 : BitVec 32), Decidable (k1_chk41 v363) := fun v363 => decidable_of_iff' _ (Iff.of_eq (k1_chk41.eq_1 v363))
theorem k1_off82_inb : ∀ (v363 : BitVec 32) (k1_hw41 : k1_chk41 v363), ∀ a, (k1_off82 v363) a + S1x896.size a ≤ S50000x896.size a := fun v363 k1_hw41 => k1_hw41.1
theorem k1_off169_inb : ∀ (v363 : BitVec 32) (k1_hw41 : k1_chk41 v363), ∀ a, (k1_off169 v363) a + S1x896.size a ≤ S50000x896.size a := fun v363 k1_hw41 => k1_hw41.2

def k1_off170 (v372 : BitVec 32) : Fin 2 → Nat :=
  let c0_i32_423 : BitVec 32 := 0#32
  ![v372.toNat, 0]

def k1_chk42 (v372 : BitVec 32) : Prop :=
  (∀ a, (k1_off84 v372) a + S1x896.size a ≤ S50000x896.size a) ∧
  (∀ a, (k1_off170 v372) a + S1x896.size a ≤ S50000x896.size a)
instance k1_chk42.dec : ∀ (v372 : BitVec 32), Decidable (k1_chk42 v372) := fun v372 => decidable_of_iff' _ (Iff.of_eq (k1_chk42.eq_1 v372))
theorem k1_off84_inb : ∀ (v372 : BitVec 32) (k1_hw42 : k1_chk42 v372), ∀ a, (k1_off84 v372) a + S1x896.size a ≤ S50000x896.size a := fun v372 k1_hw42 => k1_hw42.1
theorem k1_off170_inb : ∀ (v372 : BitVec 32) (k1_hw42 : k1_chk42 v372), ∀ a, (k1_off170 v372) a + S1x896.size a ≤ S50000x896.size a := fun v372 k1_hw42 => k1_hw42.2

def k1_off171 (v381 : BitVec 32) : Fin 2 → Nat :=
  let c0_i32_427 : BitVec 32 := 0#32
  ![v381.toNat, 0]

def k1_chk43 (v381 : BitVec 32) : Prop :=
  (∀ a, (k1_off86 v381) a + S1x896.size a ≤ S50000x896.size a) ∧
  (∀ a, (k1_off171 v381) a + S1x896.size a ≤ S50000x896.size a)
instance k1_chk43.dec : ∀ (v381 : BitVec 32), Decidable (k1_chk43 v381) := fun v381 => decidable_of_iff' _ (Iff.of_eq (k1_chk43.eq_1 v381))
theorem k1_off86_inb : ∀ (v381 : BitVec 32) (k1_hw43 : k1_chk43 v381), ∀ a, (k1_off86 v381) a + S1x896.size a ≤ S50000x896.size a := fun v381 k1_hw43 => k1_hw43.1
theorem k1_off171_inb : ∀ (v381 : BitVec 32) (k1_hw43 : k1_chk43 v381), ∀ a, (k1_off171 v381) a + S1x896.size a ≤ S50000x896.size a := fun v381 k1_hw43 => k1_hw43.2

def k1_off172 (v390 : BitVec 32) : Fin 2 → Nat :=
  let c0_i32_431 : BitVec 32 := 0#32
  ![v390.toNat, 0]

def k1_chk44 (v390 : BitVec 32) : Prop :=
  (∀ a, (k1_off88 v390) a + S1x896.size a ≤ S50000x896.size a) ∧
  (∀ a, (k1_off172 v390) a + S1x896.size a ≤ S50000x896.size a)
instance k1_chk44.dec : ∀ (v390 : BitVec 32), Decidable (k1_chk44 v390) := fun v390 => decidable_of_iff' _ (Iff.of_eq (k1_chk44.eq_1 v390))
theorem k1_off88_inb : ∀ (v390 : BitVec 32) (k1_hw44 : k1_chk44 v390), ∀ a, (k1_off88 v390) a + S1x896.size a ≤ S50000x896.size a := fun v390 k1_hw44 => k1_hw44.1
theorem k1_off172_inb : ∀ (v390 : BitVec 32) (k1_hw44 : k1_chk44 v390), ∀ a, (k1_off172 v390) a + S1x896.size a ≤ S50000x896.size a := fun v390 k1_hw44 => k1_hw44.2

def k1_off173 (v399 : BitVec 32) : Fin 2 → Nat :=
  let c0_i32_435 : BitVec 32 := 0#32
  ![v399.toNat, 0]

def k1_chk45 (v399 : BitVec 32) : Prop :=
  (∀ a, (k1_off90 v399) a + S1x896.size a ≤ S50000x896.size a) ∧
  (∀ a, (k1_off173 v399) a + S1x896.size a ≤ S50000x896.size a)
instance k1_chk45.dec : ∀ (v399 : BitVec 32), Decidable (k1_chk45 v399) := fun v399 => decidable_of_iff' _ (Iff.of_eq (k1_chk45.eq_1 v399))
theorem k1_off90_inb : ∀ (v399 : BitVec 32) (k1_hw45 : k1_chk45 v399), ∀ a, (k1_off90 v399) a + S1x896.size a ≤ S50000x896.size a := fun v399 k1_hw45 => k1_hw45.1
theorem k1_off173_inb : ∀ (v399 : BitVec 32) (k1_hw45 : k1_chk45 v399), ∀ a, (k1_off173 v399) a + S1x896.size a ≤ S50000x896.size a := fun v399 k1_hw45 => k1_hw45.2

def k1_off174 (v408 : BitVec 32) : Fin 2 → Nat :=
  let c0_i32_439 : BitVec 32 := 0#32
  ![v408.toNat, 0]

def k1_chk46 (v408 : BitVec 32) : Prop :=
  (∀ a, (k1_off92 v408) a + S1x896.size a ≤ S50000x896.size a) ∧
  (∀ a, (k1_off174 v408) a + S1x896.size a ≤ S50000x896.size a)
instance k1_chk46.dec : ∀ (v408 : BitVec 32), Decidable (k1_chk46 v408) := fun v408 => decidable_of_iff' _ (Iff.of_eq (k1_chk46.eq_1 v408))
theorem k1_off92_inb : ∀ (v408 : BitVec 32) (k1_hw46 : k1_chk46 v408), ∀ a, (k1_off92 v408) a + S1x896.size a ≤ S50000x896.size a := fun v408 k1_hw46 => k1_hw46.1
theorem k1_off174_inb : ∀ (v408 : BitVec 32) (k1_hw46 : k1_chk46 v408), ∀ a, (k1_off174 v408) a + S1x896.size a ≤ S50000x896.size a := fun v408 k1_hw46 => k1_hw46.2

def k1_off175 (v417 : BitVec 32) : Fin 2 → Nat :=
  let c0_i32_443 : BitVec 32 := 0#32
  ![v417.toNat, 0]

def k1_chk47 (v417 : BitVec 32) : Prop :=
  (∀ a, (k1_off94 v417) a + S1x896.size a ≤ S50000x896.size a) ∧
  (∀ a, (k1_off175 v417) a + S1x896.size a ≤ S50000x896.size a)
instance k1_chk47.dec : ∀ (v417 : BitVec 32), Decidable (k1_chk47 v417) := fun v417 => decidable_of_iff' _ (Iff.of_eq (k1_chk47.eq_1 v417))
theorem k1_off94_inb : ∀ (v417 : BitVec 32) (k1_hw47 : k1_chk47 v417), ∀ a, (k1_off94 v417) a + S1x896.size a ≤ S50000x896.size a := fun v417 k1_hw47 => k1_hw47.1
theorem k1_off175_inb : ∀ (v417 : BitVec 32) (k1_hw47 : k1_chk47 v417), ∀ a, (k1_off175 v417) a + S1x896.size a ≤ S50000x896.size a := fun v417 k1_hw47 => k1_hw47.2

def k1_off176 (v426 : BitVec 32) : Fin 2 → Nat :=
  let c0_i32_447 : BitVec 32 := 0#32
  ![v426.toNat, 0]

def k1_chk48 (v426 : BitVec 32) : Prop :=
  (∀ a, (k1_off96 v426) a + S1x896.size a ≤ S50000x896.size a) ∧
  (∀ a, (k1_off176 v426) a + S1x896.size a ≤ S50000x896.size a)
instance k1_chk48.dec : ∀ (v426 : BitVec 32), Decidable (k1_chk48 v426) := fun v426 => decidable_of_iff' _ (Iff.of_eq (k1_chk48.eq_1 v426))
theorem k1_off96_inb : ∀ (v426 : BitVec 32) (k1_hw48 : k1_chk48 v426), ∀ a, (k1_off96 v426) a + S1x896.size a ≤ S50000x896.size a := fun v426 k1_hw48 => k1_hw48.1
theorem k1_off176_inb : ∀ (v426 : BitVec 32) (k1_hw48 : k1_chk48 v426), ∀ a, (k1_off176 v426) a + S1x896.size a ≤ S50000x896.size a := fun v426 k1_hw48 => k1_hw48.2

def k1_off177 (v435 : BitVec 32) : Fin 2 → Nat :=
  let c0_i32_451 : BitVec 32 := 0#32
  ![v435.toNat, 0]

def k1_chk49 (v435 : BitVec 32) : Prop :=
  (∀ a, (k1_off98 v435) a + S1x896.size a ≤ S50000x896.size a) ∧
  (∀ a, (k1_off177 v435) a + S1x896.size a ≤ S50000x896.size a)
instance k1_chk49.dec : ∀ (v435 : BitVec 32), Decidable (k1_chk49 v435) := fun v435 => decidable_of_iff' _ (Iff.of_eq (k1_chk49.eq_1 v435))
theorem k1_off98_inb : ∀ (v435 : BitVec 32) (k1_hw49 : k1_chk49 v435), ∀ a, (k1_off98 v435) a + S1x896.size a ≤ S50000x896.size a := fun v435 k1_hw49 => k1_hw49.1
theorem k1_off177_inb : ∀ (v435 : BitVec 32) (k1_hw49 : k1_chk49 v435), ∀ a, (k1_off177 v435) a + S1x896.size a ≤ S50000x896.size a := fun v435 k1_hw49 => k1_hw49.2

def k1_off178 (v444 : BitVec 32) : Fin 2 → Nat :=
  let c0_i32_455 : BitVec 32 := 0#32
  ![v444.toNat, 0]

def k1_chk50 (v444 : BitVec 32) : Prop :=
  (∀ a, (k1_off100 v444) a + S1x896.size a ≤ S50000x896.size a) ∧
  (∀ a, (k1_off178 v444) a + S1x896.size a ≤ S50000x896.size a)
instance k1_chk50.dec : ∀ (v444 : BitVec 32), Decidable (k1_chk50 v444) := fun v444 => decidable_of_iff' _ (Iff.of_eq (k1_chk50.eq_1 v444))
theorem k1_off100_inb : ∀ (v444 : BitVec 32) (k1_hw50 : k1_chk50 v444), ∀ a, (k1_off100 v444) a + S1x896.size a ≤ S50000x896.size a := fun v444 k1_hw50 => k1_hw50.1
theorem k1_off178_inb : ∀ (v444 : BitVec 32) (k1_hw50 : k1_chk50 v444), ∀ a, (k1_off178 v444) a + S1x896.size a ≤ S50000x896.size a := fun v444 k1_hw50 => k1_hw50.2

def k1_off179 (v453 : BitVec 32) : Fin 2 → Nat :=
  let c0_i32_459 : BitVec 32 := 0#32
  ![v453.toNat, 0]

def k1_chk51 (v453 : BitVec 32) : Prop :=
  (∀ a, (k1_off102 v453) a + S1x896.size a ≤ S50000x896.size a) ∧
  (∀ a, (k1_off179 v453) a + S1x896.size a ≤ S50000x896.size a)
instance k1_chk51.dec : ∀ (v453 : BitVec 32), Decidable (k1_chk51 v453) := fun v453 => decidable_of_iff' _ (Iff.of_eq (k1_chk51.eq_1 v453))
theorem k1_off102_inb : ∀ (v453 : BitVec 32) (k1_hw51 : k1_chk51 v453), ∀ a, (k1_off102 v453) a + S1x896.size a ≤ S50000x896.size a := fun v453 k1_hw51 => k1_hw51.1
theorem k1_off179_inb : ∀ (v453 : BitVec 32) (k1_hw51 : k1_chk51 v453), ∀ a, (k1_off179 v453) a + S1x896.size a ≤ S50000x896.size a := fun v453 k1_hw51 => k1_hw51.2

def k1_off180 (v462 : BitVec 32) : Fin 2 → Nat :=
  let c0_i32_463 : BitVec 32 := 0#32
  ![v462.toNat, 0]

def k1_chk52 (v462 : BitVec 32) : Prop :=
  (∀ a, (k1_off104 v462) a + S1x896.size a ≤ S50000x896.size a) ∧
  (∀ a, (k1_off180 v462) a + S1x896.size a ≤ S50000x896.size a)
instance k1_chk52.dec : ∀ (v462 : BitVec 32), Decidable (k1_chk52 v462) := fun v462 => decidable_of_iff' _ (Iff.of_eq (k1_chk52.eq_1 v462))
theorem k1_off104_inb : ∀ (v462 : BitVec 32) (k1_hw52 : k1_chk52 v462), ∀ a, (k1_off104 v462) a + S1x896.size a ≤ S50000x896.size a := fun v462 k1_hw52 => k1_hw52.1
theorem k1_off180_inb : ∀ (v462 : BitVec 32) (k1_hw52 : k1_chk52 v462), ∀ a, (k1_off180 v462) a + S1x896.size a ≤ S50000x896.size a := fun v462 k1_hw52 => k1_hw52.2

def k1_off181 (v471 : BitVec 32) : Fin 2 → Nat :=
  let c0_i32_467 : BitVec 32 := 0#32
  ![v471.toNat, 0]

def k1_chk53 (v471 : BitVec 32) : Prop :=
  (∀ a, (k1_off106 v471) a + S1x896.size a ≤ S50000x896.size a) ∧
  (∀ a, (k1_off181 v471) a + S1x896.size a ≤ S50000x896.size a)
instance k1_chk53.dec : ∀ (v471 : BitVec 32), Decidable (k1_chk53 v471) := fun v471 => decidable_of_iff' _ (Iff.of_eq (k1_chk53.eq_1 v471))
theorem k1_off106_inb : ∀ (v471 : BitVec 32) (k1_hw53 : k1_chk53 v471), ∀ a, (k1_off106 v471) a + S1x896.size a ≤ S50000x896.size a := fun v471 k1_hw53 => k1_hw53.1
theorem k1_off181_inb : ∀ (v471 : BitVec 32) (k1_hw53 : k1_chk53 v471), ∀ a, (k1_off181 v471) a + S1x896.size a ≤ S50000x896.size a := fun v471 k1_hw53 => k1_hw53.2

def k1_off182 (v480 : BitVec 32) : Fin 2 → Nat :=
  let c0_i32_471 : BitVec 32 := 0#32
  ![v480.toNat, 0]

def k1_chk54 (v480 : BitVec 32) : Prop :=
  (∀ a, (k1_off108 v480) a + S1x896.size a ≤ S50000x896.size a) ∧
  (∀ a, (k1_off182 v480) a + S1x896.size a ≤ S50000x896.size a)
instance k1_chk54.dec : ∀ (v480 : BitVec 32), Decidable (k1_chk54 v480) := fun v480 => decidable_of_iff' _ (Iff.of_eq (k1_chk54.eq_1 v480))
theorem k1_off108_inb : ∀ (v480 : BitVec 32) (k1_hw54 : k1_chk54 v480), ∀ a, (k1_off108 v480) a + S1x896.size a ≤ S50000x896.size a := fun v480 k1_hw54 => k1_hw54.1
theorem k1_off182_inb : ∀ (v480 : BitVec 32) (k1_hw54 : k1_chk54 v480), ∀ a, (k1_off182 v480) a + S1x896.size a ≤ S50000x896.size a := fun v480 k1_hw54 => k1_hw54.2

def k1_off183 (v489 : BitVec 32) : Fin 2 → Nat :=
  let c0_i32_475 : BitVec 32 := 0#32
  ![v489.toNat, 0]

def k1_chk55 (v489 : BitVec 32) : Prop :=
  (∀ a, (k1_off110 v489) a + S1x896.size a ≤ S50000x896.size a) ∧
  (∀ a, (k1_off183 v489) a + S1x896.size a ≤ S50000x896.size a)
instance k1_chk55.dec : ∀ (v489 : BitVec 32), Decidable (k1_chk55 v489) := fun v489 => decidable_of_iff' _ (Iff.of_eq (k1_chk55.eq_1 v489))
theorem k1_off110_inb : ∀ (v489 : BitVec 32) (k1_hw55 : k1_chk55 v489), ∀ a, (k1_off110 v489) a + S1x896.size a ≤ S50000x896.size a := fun v489 k1_hw55 => k1_hw55.1
theorem k1_off183_inb : ∀ (v489 : BitVec 32) (k1_hw55 : k1_chk55 v489), ∀ a, (k1_off183 v489) a + S1x896.size a ≤ S50000x896.size a := fun v489 k1_hw55 => k1_hw55.2

def k1_off184 (v498 : BitVec 32) : Fin 2 → Nat :=
  let c0_i32_479 : BitVec 32 := 0#32
  ![v498.toNat, 0]

def k1_chk56 (v498 : BitVec 32) : Prop :=
  (∀ a, (k1_off112 v498) a + S1x896.size a ≤ S50000x896.size a) ∧
  (∀ a, (k1_off184 v498) a + S1x896.size a ≤ S50000x896.size a)
instance k1_chk56.dec : ∀ (v498 : BitVec 32), Decidable (k1_chk56 v498) := fun v498 => decidable_of_iff' _ (Iff.of_eq (k1_chk56.eq_1 v498))
theorem k1_off112_inb : ∀ (v498 : BitVec 32) (k1_hw56 : k1_chk56 v498), ∀ a, (k1_off112 v498) a + S1x896.size a ≤ S50000x896.size a := fun v498 k1_hw56 => k1_hw56.1
theorem k1_off184_inb : ∀ (v498 : BitVec 32) (k1_hw56 : k1_chk56 v498), ∀ a, (k1_off184 v498) a + S1x896.size a ≤ S50000x896.size a := fun v498 k1_hw56 => k1_hw56.2

def k1_off185 (v507 : BitVec 32) : Fin 2 → Nat :=
  let c0_i32_483 : BitVec 32 := 0#32
  ![v507.toNat, 0]

def k1_chk57 (v507 : BitVec 32) : Prop :=
  (∀ a, (k1_off114 v507) a + S1x896.size a ≤ S50000x896.size a) ∧
  (∀ a, (k1_off185 v507) a + S1x896.size a ≤ S50000x896.size a)
instance k1_chk57.dec : ∀ (v507 : BitVec 32), Decidable (k1_chk57 v507) := fun v507 => decidable_of_iff' _ (Iff.of_eq (k1_chk57.eq_1 v507))
theorem k1_off114_inb : ∀ (v507 : BitVec 32) (k1_hw57 : k1_chk57 v507), ∀ a, (k1_off114 v507) a + S1x896.size a ≤ S50000x896.size a := fun v507 k1_hw57 => k1_hw57.1
theorem k1_off185_inb : ∀ (v507 : BitVec 32) (k1_hw57 : k1_chk57 v507), ∀ a, (k1_off185 v507) a + S1x896.size a ≤ S50000x896.size a := fun v507 k1_hw57 => k1_hw57.2

def k1_off186 (v516 : BitVec 32) : Fin 2 → Nat :=
  let c0_i32_487 : BitVec 32 := 0#32
  ![v516.toNat, 0]

def k1_chk58 (v516 : BitVec 32) : Prop :=
  (∀ a, (k1_off116 v516) a + S1x896.size a ≤ S50000x896.size a) ∧
  (∀ a, (k1_off186 v516) a + S1x896.size a ≤ S50000x896.size a)
instance k1_chk58.dec : ∀ (v516 : BitVec 32), Decidable (k1_chk58 v516) := fun v516 => decidable_of_iff' _ (Iff.of_eq (k1_chk58.eq_1 v516))
theorem k1_off116_inb : ∀ (v516 : BitVec 32) (k1_hw58 : k1_chk58 v516), ∀ a, (k1_off116 v516) a + S1x896.size a ≤ S50000x896.size a := fun v516 k1_hw58 => k1_hw58.1
theorem k1_off186_inb : ∀ (v516 : BitVec 32) (k1_hw58 : k1_chk58 v516), ∀ a, (k1_off186 v516) a + S1x896.size a ≤ S50000x896.size a := fun v516 k1_hw58 => k1_hw58.2

def k1_off187 (v525 : BitVec 32) : Fin 2 → Nat :=
  let c0_i32_491 : BitVec 32 := 0#32
  ![v525.toNat, 0]

def k1_chk59 (v525 : BitVec 32) : Prop :=
  (∀ a, (k1_off118 v525) a + S1x896.size a ≤ S50000x896.size a) ∧
  (∀ a, (k1_off187 v525) a + S1x896.size a ≤ S50000x896.size a)
instance k1_chk59.dec : ∀ (v525 : BitVec 32), Decidable (k1_chk59 v525) := fun v525 => decidable_of_iff' _ (Iff.of_eq (k1_chk59.eq_1 v525))
theorem k1_off118_inb : ∀ (v525 : BitVec 32) (k1_hw59 : k1_chk59 v525), ∀ a, (k1_off118 v525) a + S1x896.size a ≤ S50000x896.size a := fun v525 k1_hw59 => k1_hw59.1
theorem k1_off187_inb : ∀ (v525 : BitVec 32) (k1_hw59 : k1_chk59 v525), ∀ a, (k1_off187 v525) a + S1x896.size a ≤ S50000x896.size a := fun v525 k1_hw59 => k1_hw59.2

def k1_off188 (v534 : BitVec 32) : Fin 2 → Nat :=
  let c0_i32_495 : BitVec 32 := 0#32
  ![v534.toNat, 0]

def k1_chk60 (v534 : BitVec 32) : Prop :=
  (∀ a, (k1_off120 v534) a + S1x896.size a ≤ S50000x896.size a) ∧
  (∀ a, (k1_off188 v534) a + S1x896.size a ≤ S50000x896.size a)
instance k1_chk60.dec : ∀ (v534 : BitVec 32), Decidable (k1_chk60 v534) := fun v534 => decidable_of_iff' _ (Iff.of_eq (k1_chk60.eq_1 v534))
theorem k1_off120_inb : ∀ (v534 : BitVec 32) (k1_hw60 : k1_chk60 v534), ∀ a, (k1_off120 v534) a + S1x896.size a ≤ S50000x896.size a := fun v534 k1_hw60 => k1_hw60.1
theorem k1_off188_inb : ∀ (v534 : BitVec 32) (k1_hw60 : k1_chk60 v534), ∀ a, (k1_off188 v534) a + S1x896.size a ≤ S50000x896.size a := fun v534 k1_hw60 => k1_hw60.2

def k1_off189 (v543 : BitVec 32) : Fin 2 → Nat :=
  let c0_i32_499 : BitVec 32 := 0#32
  ![v543.toNat, 0]

def k1_chk61 (v543 : BitVec 32) : Prop :=
  (∀ a, (k1_off122 v543) a + S1x896.size a ≤ S50000x896.size a) ∧
  (∀ a, (k1_off189 v543) a + S1x896.size a ≤ S50000x896.size a)
instance k1_chk61.dec : ∀ (v543 : BitVec 32), Decidable (k1_chk61 v543) := fun v543 => decidable_of_iff' _ (Iff.of_eq (k1_chk61.eq_1 v543))
theorem k1_off122_inb : ∀ (v543 : BitVec 32) (k1_hw61 : k1_chk61 v543), ∀ a, (k1_off122 v543) a + S1x896.size a ≤ S50000x896.size a := fun v543 k1_hw61 => k1_hw61.1
theorem k1_off189_inb : ∀ (v543 : BitVec 32) (k1_hw61 : k1_chk61 v543), ∀ a, (k1_off189 v543) a + S1x896.size a ≤ S50000x896.size a := fun v543 k1_hw61 => k1_hw61.2

def k1_off190 (v552 : BitVec 32) : Fin 2 → Nat :=
  let c0_i32_503 : BitVec 32 := 0#32
  ![v552.toNat, 0]

def k1_chk62 (v552 : BitVec 32) : Prop :=
  (∀ a, (k1_off124 v552) a + S1x896.size a ≤ S50000x896.size a) ∧
  (∀ a, (k1_off190 v552) a + S1x896.size a ≤ S50000x896.size a)
instance k1_chk62.dec : ∀ (v552 : BitVec 32), Decidable (k1_chk62 v552) := fun v552 => decidable_of_iff' _ (Iff.of_eq (k1_chk62.eq_1 v552))
theorem k1_off124_inb : ∀ (v552 : BitVec 32) (k1_hw62 : k1_chk62 v552), ∀ a, (k1_off124 v552) a + S1x896.size a ≤ S50000x896.size a := fun v552 k1_hw62 => k1_hw62.1
theorem k1_off190_inb : ∀ (v552 : BitVec 32) (k1_hw62 : k1_chk62 v552), ∀ a, (k1_off190 v552) a + S1x896.size a ≤ S50000x896.size a := fun v552 k1_hw62 => k1_hw62.2

def k1_off191 (v561 : BitVec 32) : Fin 2 → Nat :=
  let c0_i32_507 : BitVec 32 := 0#32
  ![v561.toNat, 0]

def k1_chk63 (v561 : BitVec 32) : Prop :=
  (∀ a, (k1_off126 v561) a + S1x896.size a ≤ S50000x896.size a) ∧
  (∀ a, (k1_off191 v561) a + S1x896.size a ≤ S50000x896.size a)
instance k1_chk63.dec : ∀ (v561 : BitVec 32), Decidable (k1_chk63 v561) := fun v561 => decidable_of_iff' _ (Iff.of_eq (k1_chk63.eq_1 v561))
theorem k1_off126_inb : ∀ (v561 : BitVec 32) (k1_hw63 : k1_chk63 v561), ∀ a, (k1_off126 v561) a + S1x896.size a ≤ S50000x896.size a := fun v561 k1_hw63 => k1_hw63.1
theorem k1_off191_inb : ∀ (v561 : BitVec 32) (k1_hw63 : k1_chk63 v561), ∀ a, (k1_off191 v561) a + S1x896.size a ≤ S50000x896.size a := fun v561 k1_hw63 => k1_hw63.2

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x896 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2042x896 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2042x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S32x2048_S65536 : S32x2048.ShapeCasts S65536
  numel1_S1 : S1.numel = 1
  inb_S64_S1_0 : ∀ a, (![0] : Fin 1 → Nat) a + S1.size a ≤ S64.size a
  squeezes_S1_S_ : S1.Squeezes S_
  inb_S64x128_S1x128_0_0 : ∀ a, (![0, 0] : Fin 2 → Nat) a + S1x128.size a ≤ S64x128.size a
  squeezes_S1x128_S128 : S1x128.Squeezes S128
  inb_S64_S1_1 : ∀ a, (![1] : Fin 1 → Nat) a + S1.size a ≤ S64.size a
  inb_S64x128_S1x128_1_0 : ∀ a, (![1, 0] : Fin 2 → Nat) a + S1x128.size a ≤ S64x128.size a
  inb_S64_S1_2 : ∀ a, (![2] : Fin 1 → Nat) a + S1.size a ≤ S64.size a
  inb_S64x128_S1x128_2_0 : ∀ a, (![2, 0] : Fin 2 → Nat) a + S1x128.size a ≤ S64x128.size a
  inb_S64_S1_3 : ∀ a, (![3] : Fin 1 → Nat) a + S1.size a ≤ S64.size a
  inb_S64x128_S1x128_3_0 : ∀ a, (![3, 0] : Fin 2 → Nat) a + S1x128.size a ≤ S64x128.size a
  inb_S64_S1_4 : ∀ a, (![4] : Fin 1 → Nat) a + S1.size a ≤ S64.size a
  inb_S64x128_S1x128_4_0 : ∀ a, (![4, 0] : Fin 2 → Nat) a + S1x128.size a ≤ S64x128.size a
  inb_S64_S1_5 : ∀ a, (![5] : Fin 1 → Nat) a + S1.size a ≤ S64.size a
  inb_S64x128_S1x128_5_0 : ∀ a, (![5, 0] : Fin 2 → Nat) a + S1x128.size a ≤ S64x128.size a
  inb_S64_S1_6 : ∀ a, (![6] : Fin 1 → Nat) a + S1.size a ≤ S64.size a
  inb_S64x128_S1x128_6_0 : ∀ a, (![6, 0] : Fin 2 → Nat) a + S1x128.size a ≤ S64x128.size a
  inb_S64_S1_7 : ∀ a, (![7] : Fin 1 → Nat) a + S1.size a ≤ S64.size a
  inb_S64x128_S1x128_7_0 : ∀ a, (![7, 0] : Fin 2 → Nat) a + S1x128.size a ≤ S64x128.size a
  inb_S64_S1_8 : ∀ a, (![8] : Fin 1 → Nat) a + S1.size a ≤ S64.size a
  inb_S64x128_S1x128_8_0 : ∀ a, (![8, 0] : Fin 2 → Nat) a + S1x128.size a ≤ S64x128.size a
  inb_S64_S1_9 : ∀ a, (![9] : Fin 1 → Nat) a + S1.size a ≤ S64.size a
  inb_S64x128_S1x128_9_0 : ∀ a, (![9, 0] : Fin 2 → Nat) a + S1x128.size a ≤ S64x128.size a
  inb_S64_S1_10 : ∀ a, (![10] : Fin 1 → Nat) a + S1.size a ≤ S64.size a
  inb_S64x128_S1x128_10_0 : ∀ a, (![10, 0] : Fin 2 → Nat) a + S1x128.size a ≤ S64x128.size a
  inb_S64_S1_11 : ∀ a, (![11] : Fin 1 → Nat) a + S1.size a ≤ S64.size a
  inb_S64x128_S1x128_11_0 : ∀ a, (![11, 0] : Fin 2 → Nat) a + S1x128.size a ≤ S64x128.size a
  inb_S64_S1_12 : ∀ a, (![12] : Fin 1 → Nat) a + S1.size a ≤ S64.size a
  inb_S64x128_S1x128_12_0 : ∀ a, (![12, 0] : Fin 2 → Nat) a + S1x128.size a ≤ S64x128.size a
  inb_S64_S1_13 : ∀ a, (![13] : Fin 1 → Nat) a + S1.size a ≤ S64.size a
  inb_S64x128_S1x128_13_0 : ∀ a, (![13, 0] : Fin 2 → Nat) a + S1x128.size a ≤ S64x128.size a
  inb_S64_S1_14 : ∀ a, (![14] : Fin 1 → Nat) a + S1.size a ≤ S64.size a
  inb_S64x128_S1x128_14_0 : ∀ a, (![14, 0] : Fin 2 → Nat) a + S1x128.size a ≤ S64x128.size a
  inb_S64_S1_15 : ∀ a, (![15] : Fin 1 → Nat) a + S1.size a ≤ S64.size a
  inb_S64x128_S1x128_15_0 : ∀ a, (![15, 0] : Fin 2 → Nat) a + S1x128.size a ≤ S64x128.size a
  inb_S64_S1_16 : ∀ a, (![16] : Fin 1 → Nat) a + S1.size a ≤ S64.size a
  inb_S64x128_S1x128_16_0 : ∀ a, (![16, 0] : Fin 2 → Nat) a + S1x128.size a ≤ S64x128.size a
  inb_S64_S1_17 : ∀ a, (![17] : Fin 1 → Nat) a + S1.size a ≤ S64.size a
  inb_S64x128_S1x128_17_0 : ∀ a, (![17, 0] : Fin 2 → Nat) a + S1x128.size a ≤ S64x128.size a
  inb_S64_S1_18 : ∀ a, (![18] : Fin 1 → Nat) a + S1.size a ≤ S64.size a
  inb_S64x128_S1x128_18_0 : ∀ a, (![18, 0] : Fin 2 → Nat) a + S1x128.size a ≤ S64x128.size a
  inb_S64_S1_19 : ∀ a, (![19] : Fin 1 → Nat) a + S1.size a ≤ S64.size a
  inb_S64x128_S1x128_19_0 : ∀ a, (![19, 0] : Fin 2 → Nat) a + S1x128.size a ≤ S64x128.size a
  inb_S64_S1_20 : ∀ a, (![20] : Fin 1 → Nat) a + S1.size a ≤ S64.size a
  inb_S64x128_S1x128_20_0 : ∀ a, (![20, 0] : Fin 2 → Nat) a + S1x128.size a ≤ S64x128.size a
  inb_S64_S1_21 : ∀ a, (![21] : Fin 1 → Nat) a + S1.size a ≤ S64.size a
  inb_S64x128_S1x128_21_0 : ∀ a, (![21, 0] : Fin 2 → Nat) a + S1x128.size a ≤ S64x128.size a
  inb_S64_S1_22 : ∀ a, (![22] : Fin 1 → Nat) a + S1.size a ≤ S64.size a
  inb_S64x128_S1x128_22_0 : ∀ a, (![22, 0] : Fin 2 → Nat) a + S1x128.size a ≤ S64x128.size a
  inb_S64_S1_23 : ∀ a, (![23] : Fin 1 → Nat) a + S1.size a ≤ S64.size a
  inb_S64x128_S1x128_23_0 : ∀ a, (![23, 0] : Fin 2 → Nat) a + S1x128.size a ≤ S64x128.size a
  inb_S64_S1_24 : ∀ a, (![24] : Fin 1 → Nat) a + S1.size a ≤ S64.size a
  inb_S64x128_S1x128_24_0 : ∀ a, (![24, 0] : Fin 2 → Nat) a + S1x128.size a ≤ S64x128.size a
  inb_S64_S1_25 : ∀ a, (![25] : Fin 1 → Nat) a + S1.size a ≤ S64.size a
  inb_S64x128_S1x128_25_0 : ∀ a, (![25, 0] : Fin 2 → Nat) a + S1x128.size a ≤ S64x128.size a
  inb_S64_S1_26 : ∀ a, (![26] : Fin 1 → Nat) a + S1.size a ≤ S64.size a
  inb_S64x128_S1x128_26_0 : ∀ a, (![26, 0] : Fin 2 → Nat) a + S1x128.size a ≤ S64x128.size a
  inb_S64_S1_27 : ∀ a, (![27] : Fin 1 → Nat) a + S1.size a ≤ S64.size a
  inb_S64x128_S1x128_27_0 : ∀ a, (![27, 0] : Fin 2 → Nat) a + S1x128.size a ≤ S64x128.size a
  inb_S64_S1_28 : ∀ a, (![28] : Fin 1 → Nat) a + S1.size a ≤ S64.size a
  inb_S64x128_S1x128_28_0 : ∀ a, (![28, 0] : Fin 2 → Nat) a + S1x128.size a ≤ S64x128.size a
  inb_S64_S1_29 : ∀ a, (![29] : Fin 1 → Nat) a + S1.size a ≤ S64.size a
  inb_S64x128_S1x128_29_0 : ∀ a, (![29, 0] : Fin 2 → Nat) a + S1x128.size a ≤ S64x128.size a
  inb_S64_S1_30 : ∀ a, (![30] : Fin 1 → Nat) a + S1.size a ≤ S64.size a
  inb_S64x128_S1x128_30_0 : ∀ a, (![30, 0] : Fin 2 → Nat) a + S1x128.size a ≤ S64x128.size a
  inb_S64_S1_31 : ∀ a, (![31] : Fin 1 → Nat) a + S1.size a ≤ S64.size a
  inb_S64x128_S1x128_31_0 : ∀ a, (![31, 0] : Fin 2 → Nat) a + S1x128.size a ≤ S64x128.size a
  inb_S64_S1_32 : ∀ a, (![32] : Fin 1 → Nat) a + S1.size a ≤ S64.size a
  inb_S64x128_S1x128_32_0 : ∀ a, (![32, 0] : Fin 2 → Nat) a + S1x128.size a ≤ S64x128.size a
  inb_S64_S1_33 : ∀ a, (![33] : Fin 1 → Nat) a + S1.size a ≤ S64.size a
  inb_S64x128_S1x128_33_0 : ∀ a, (![33, 0] : Fin 2 → Nat) a + S1x128.size a ≤ S64x128.size a
  inb_S64_S1_34 : ∀ a, (![34] : Fin 1 → Nat) a + S1.size a ≤ S64.size a
  inb_S64x128_S1x128_34_0 : ∀ a, (![34, 0] : Fin 2 → Nat) a + S1x128.size a ≤ S64x128.size a
  inb_S64_S1_35 : ∀ a, (![35] : Fin 1 → Nat) a + S1.size a ≤ S64.size a
  inb_S64x128_S1x128_35_0 : ∀ a, (![35, 0] : Fin 2 → Nat) a + S1x128.size a ≤ S64x128.size a
  inb_S64_S1_36 : ∀ a, (![36] : Fin 1 → Nat) a + S1.size a ≤ S64.size a
  inb_S64x128_S1x128_36_0 : ∀ a, (![36, 0] : Fin 2 → Nat) a + S1x128.size a ≤ S64x128.size a
  inb_S64_S1_37 : ∀ a, (![37] : Fin 1 → Nat) a + S1.size a ≤ S64.size a
  inb_S64x128_S1x128_37_0 : ∀ a, (![37, 0] : Fin 2 → Nat) a + S1x128.size a ≤ S64x128.size a
  inb_S64_S1_38 : ∀ a, (![38] : Fin 1 → Nat) a + S1.size a ≤ S64.size a
  inb_S64x128_S1x128_38_0 : ∀ a, (![38, 0] : Fin 2 → Nat) a + S1x128.size a ≤ S64x128.size a
  inb_S64_S1_39 : ∀ a, (![39] : Fin 1 → Nat) a + S1.size a ≤ S64.size a
  inb_S64x128_S1x128_39_0 : ∀ a, (![39, 0] : Fin 2 → Nat) a + S1x128.size a ≤ S64x128.size a
  inb_S64_S1_40 : ∀ a, (![40] : Fin 1 → Nat) a + S1.size a ≤ S64.size a
  inb_S64x128_S1x128_40_0 : ∀ a, (![40, 0] : Fin 2 → Nat) a + S1x128.size a ≤ S64x128.size a
  inb_S64_S1_41 : ∀ a, (![41] : Fin 1 → Nat) a + S1.size a ≤ S64.size a
  inb_S64x128_S1x128_41_0 : ∀ a, (![41, 0] : Fin 2 → Nat) a + S1x128.size a ≤ S64x128.size a
  inb_S64_S1_42 : ∀ a, (![42] : Fin 1 → Nat) a + S1.size a ≤ S64.size a
  inb_S64x128_S1x128_42_0 : ∀ a, (![42, 0] : Fin 2 → Nat) a + S1x128.size a ≤ S64x128.size a
  inb_S64_S1_43 : ∀ a, (![43] : Fin 1 → Nat) a + S1.size a ≤ S64.size a
  inb_S64x128_S1x128_43_0 : ∀ a, (![43, 0] : Fin 2 → Nat) a + S1x128.size a ≤ S64x128.size a
  inb_S64_S1_44 : ∀ a, (![44] : Fin 1 → Nat) a + S1.size a ≤ S64.size a
  inb_S64x128_S1x128_44_0 : ∀ a, (![44, 0] : Fin 2 → Nat) a + S1x128.size a ≤ S64x128.size a
  inb_S64_S1_45 : ∀ a, (![45] : Fin 1 → Nat) a + S1.size a ≤ S64.size a
  inb_S64x128_S1x128_45_0 : ∀ a, (![45, 0] : Fin 2 → Nat) a + S1x128.size a ≤ S64x128.size a
  inb_S64_S1_46 : ∀ a, (![46] : Fin 1 → Nat) a + S1.size a ≤ S64.size a
  inb_S64x128_S1x128_46_0 : ∀ a, (![46, 0] : Fin 2 → Nat) a + S1x128.size a ≤ S64x128.size a
  inb_S64_S1_47 : ∀ a, (![47] : Fin 1 → Nat) a + S1.size a ≤ S64.size a
  inb_S64x128_S1x128_47_0 : ∀ a, (![47, 0] : Fin 2 → Nat) a + S1x128.size a ≤ S64x128.size a
  inb_S64_S1_48 : ∀ a, (![48] : Fin 1 → Nat) a + S1.size a ≤ S64.size a
  inb_S64x128_S1x128_48_0 : ∀ a, (![48, 0] : Fin 2 → Nat) a + S1x128.size a ≤ S64x128.size a
  inb_S64_S1_49 : ∀ a, (![49] : Fin 1 → Nat) a + S1.size a ≤ S64.size a
  inb_S64x128_S1x128_49_0 : ∀ a, (![49, 0] : Fin 2 → Nat) a + S1x128.size a ≤ S64x128.size a
  inb_S64_S1_50 : ∀ a, (![50] : Fin 1 → Nat) a + S1.size a ≤ S64.size a
  inb_S64x128_S1x128_50_0 : ∀ a, (![50, 0] : Fin 2 → Nat) a + S1x128.size a ≤ S64x128.size a
  inb_S64_S1_51 : ∀ a, (![51] : Fin 1 → Nat) a + S1.size a ≤ S64.size a
  inb_S64x128_S1x128_51_0 : ∀ a, (![51, 0] : Fin 2 → Nat) a + S1x128.size a ≤ S64x128.size a
  inb_S64_S1_52 : ∀ a, (![52] : Fin 1 → Nat) a + S1.size a ≤ S64.size a
  inb_S64x128_S1x128_52_0 : ∀ a, (![52, 0] : Fin 2 → Nat) a + S1x128.size a ≤ S64x128.size a
  inb_S64_S1_53 : ∀ a, (![53] : Fin 1 → Nat) a + S1.size a ≤ S64.size a
  inb_S64x128_S1x128_53_0 : ∀ a, (![53, 0] : Fin 2 → Nat) a + S1x128.size a ≤ S64x128.size a
  inb_S64_S1_54 : ∀ a, (![54] : Fin 1 → Nat) a + S1.size a ≤ S64.size a
  inb_S64x128_S1x128_54_0 : ∀ a, (![54, 0] : Fin 2 → Nat) a + S1x128.size a ≤ S64x128.size a
  inb_S64_S1_55 : ∀ a, (![55] : Fin 1 → Nat) a + S1.size a ≤ S64.size a
  inb_S64x128_S1x128_55_0 : ∀ a, (![55, 0] : Fin 2 → Nat) a + S1x128.size a ≤ S64x128.size a
  inb_S64_S1_56 : ∀ a, (![56] : Fin 1 → Nat) a + S1.size a ≤ S64.size a
  inb_S64x128_S1x128_56_0 : ∀ a, (![56, 0] : Fin 2 → Nat) a + S1x128.size a ≤ S64x128.size a
  inb_S64_S1_57 : ∀ a, (![57] : Fin 1 → Nat) a + S1.size a ≤ S64.size a
  inb_S64x128_S1x128_57_0 : ∀ a, (![57, 0] : Fin 2 → Nat) a + S1x128.size a ≤ S64x128.size a
  inb_S64_S1_58 : ∀ a, (![58] : Fin 1 → Nat) a + S1.size a ≤ S64.size a
  inb_S64x128_S1x128_58_0 : ∀ a, (![58, 0] : Fin 2 → Nat) a + S1x128.size a ≤ S64x128.size a
  inb_S64_S1_59 : ∀ a, (![59] : Fin 1 → Nat) a + S1.size a ≤ S64.size a
  inb_S64x128_S1x128_59_0 : ∀ a, (![59, 0] : Fin 2 → Nat) a + S1x128.size a ≤ S64x128.size a
  inb_S64_S1_60 : ∀ a, (![60] : Fin 1 → Nat) a + S1.size a ≤ S64.size a
  inb_S64x128_S1x128_60_0 : ∀ a, (![60, 0] : Fin 2 → Nat) a + S1x128.size a ≤ S64x128.size a
  inb_S64_S1_61 : ∀ a, (![61] : Fin 1 → Nat) a + S1.size a ≤ S64.size a
  inb_S64x128_S1x128_61_0 : ∀ a, (![61, 0] : Fin 2 → Nat) a + S1x128.size a ≤ S64x128.size a
  inb_S64_S1_62 : ∀ a, (![62] : Fin 1 → Nat) a + S1.size a ≤ S64.size a
  inb_S64x128_S1x128_62_0 : ∀ a, (![62, 0] : Fin 2 → Nat) a + S1x128.size a ≤ S64x128.size a
  inb_S64_S1_63 : ∀ a, (![63] : Fin 1 → Nat) a + S1.size a ≤ S64.size a
  inb_S64x128_S1x128_63_0 : ∀ a, (![63, 0] : Fin 2 → Nat) a + S1x128.size a ≤ S64x128.size a
  shapeCasts_S65536x128_S32x2048x128 : S65536x128.ShapeCasts S32x2048x128
  slices_S32x2048_S32x2042_0_3 : S32x2048.Slices ![0, 3] S32x2042
  shapeCasts_S32x2042_S65344 : S32x2042.ShapeCasts S65344
  inb_S64x896_S1x896_0_0 : ∀ a, (![0, 0] : Fin 2 → Nat) a + S1x896.size a ≤ S64x896.size a
  squeezes_S1x896_S896 : S1x896.Squeezes S896
  inb_S64x896_S1x896_1_0 : ∀ a, (![1, 0] : Fin 2 → Nat) a + S1x896.size a ≤ S64x896.size a
  inb_S64x896_S1x896_2_0 : ∀ a, (![2, 0] : Fin 2 → Nat) a + S1x896.size a ≤ S64x896.size a
  inb_S64x896_S1x896_3_0 : ∀ a, (![3, 0] : Fin 2 → Nat) a + S1x896.size a ≤ S64x896.size a
  inb_S64x896_S1x896_4_0 : ∀ a, (![4, 0] : Fin 2 → Nat) a + S1x896.size a ≤ S64x896.size a
  inb_S64x896_S1x896_5_0 : ∀ a, (![5, 0] : Fin 2 → Nat) a + S1x896.size a ≤ S64x896.size a
  inb_S64x896_S1x896_6_0 : ∀ a, (![6, 0] : Fin 2 → Nat) a + S1x896.size a ≤ S64x896.size a
  inb_S64x896_S1x896_7_0 : ∀ a, (![7, 0] : Fin 2 → Nat) a + S1x896.size a ≤ S64x896.size a
  inb_S64x896_S1x896_8_0 : ∀ a, (![8, 0] : Fin 2 → Nat) a + S1x896.size a ≤ S64x896.size a
  inb_S64x896_S1x896_9_0 : ∀ a, (![9, 0] : Fin 2 → Nat) a + S1x896.size a ≤ S64x896.size a
  inb_S64x896_S1x896_10_0 : ∀ a, (![10, 0] : Fin 2 → Nat) a + S1x896.size a ≤ S64x896.size a
  inb_S64x896_S1x896_11_0 : ∀ a, (![11, 0] : Fin 2 → Nat) a + S1x896.size a ≤ S64x896.size a
  inb_S64x896_S1x896_12_0 : ∀ a, (![12, 0] : Fin 2 → Nat) a + S1x896.size a ≤ S64x896.size a
  inb_S64x896_S1x896_13_0 : ∀ a, (![13, 0] : Fin 2 → Nat) a + S1x896.size a ≤ S64x896.size a
  inb_S64x896_S1x896_14_0 : ∀ a, (![14, 0] : Fin 2 → Nat) a + S1x896.size a ≤ S64x896.size a
  inb_S64x896_S1x896_15_0 : ∀ a, (![15, 0] : Fin 2 → Nat) a + S1x896.size a ≤ S64x896.size a
  inb_S64x896_S1x896_16_0 : ∀ a, (![16, 0] : Fin 2 → Nat) a + S1x896.size a ≤ S64x896.size a
  inb_S64x896_S1x896_17_0 : ∀ a, (![17, 0] : Fin 2 → Nat) a + S1x896.size a ≤ S64x896.size a
  inb_S64x896_S1x896_18_0 : ∀ a, (![18, 0] : Fin 2 → Nat) a + S1x896.size a ≤ S64x896.size a
  inb_S64x896_S1x896_19_0 : ∀ a, (![19, 0] : Fin 2 → Nat) a + S1x896.size a ≤ S64x896.size a
  inb_S64x896_S1x896_20_0 : ∀ a, (![20, 0] : Fin 2 → Nat) a + S1x896.size a ≤ S64x896.size a
  inb_S64x896_S1x896_21_0 : ∀ a, (![21, 0] : Fin 2 → Nat) a + S1x896.size a ≤ S64x896.size a
  inb_S64x896_S1x896_22_0 : ∀ a, (![22, 0] : Fin 2 → Nat) a + S1x896.size a ≤ S64x896.size a
  inb_S64x896_S1x896_23_0 : ∀ a, (![23, 0] : Fin 2 → Nat) a + S1x896.size a ≤ S64x896.size a
  inb_S64x896_S1x896_24_0 : ∀ a, (![24, 0] : Fin 2 → Nat) a + S1x896.size a ≤ S64x896.size a
  inb_S64x896_S1x896_25_0 : ∀ a, (![25, 0] : Fin 2 → Nat) a + S1x896.size a ≤ S64x896.size a
  inb_S64x896_S1x896_26_0 : ∀ a, (![26, 0] : Fin 2 → Nat) a + S1x896.size a ≤ S64x896.size a
  inb_S64x896_S1x896_27_0 : ∀ a, (![27, 0] : Fin 2 → Nat) a + S1x896.size a ≤ S64x896.size a
  inb_S64x896_S1x896_28_0 : ∀ a, (![28, 0] : Fin 2 → Nat) a + S1x896.size a ≤ S64x896.size a
  inb_S64x896_S1x896_29_0 : ∀ a, (![29, 0] : Fin 2 → Nat) a + S1x896.size a ≤ S64x896.size a
  inb_S64x896_S1x896_30_0 : ∀ a, (![30, 0] : Fin 2 → Nat) a + S1x896.size a ≤ S64x896.size a
  inb_S64x896_S1x896_31_0 : ∀ a, (![31, 0] : Fin 2 → Nat) a + S1x896.size a ≤ S64x896.size a
  inb_S64x896_S1x896_32_0 : ∀ a, (![32, 0] : Fin 2 → Nat) a + S1x896.size a ≤ S64x896.size a
  inb_S64x896_S1x896_33_0 : ∀ a, (![33, 0] : Fin 2 → Nat) a + S1x896.size a ≤ S64x896.size a
  inb_S64x896_S1x896_34_0 : ∀ a, (![34, 0] : Fin 2 → Nat) a + S1x896.size a ≤ S64x896.size a
  inb_S64x896_S1x896_35_0 : ∀ a, (![35, 0] : Fin 2 → Nat) a + S1x896.size a ≤ S64x896.size a
  inb_S64x896_S1x896_36_0 : ∀ a, (![36, 0] : Fin 2 → Nat) a + S1x896.size a ≤ S64x896.size a
  inb_S64x896_S1x896_37_0 : ∀ a, (![37, 0] : Fin 2 → Nat) a + S1x896.size a ≤ S64x896.size a
  inb_S64x896_S1x896_38_0 : ∀ a, (![38, 0] : Fin 2 → Nat) a + S1x896.size a ≤ S64x896.size a
  inb_S64x896_S1x896_39_0 : ∀ a, (![39, 0] : Fin 2 → Nat) a + S1x896.size a ≤ S64x896.size a
  inb_S64x896_S1x896_40_0 : ∀ a, (![40, 0] : Fin 2 → Nat) a + S1x896.size a ≤ S64x896.size a
  inb_S64x896_S1x896_41_0 : ∀ a, (![41, 0] : Fin 2 → Nat) a + S1x896.size a ≤ S64x896.size a
  inb_S64x896_S1x896_42_0 : ∀ a, (![42, 0] : Fin 2 → Nat) a + S1x896.size a ≤ S64x896.size a
  inb_S64x896_S1x896_43_0 : ∀ a, (![43, 0] : Fin 2 → Nat) a + S1x896.size a ≤ S64x896.size a
  inb_S64x896_S1x896_44_0 : ∀ a, (![44, 0] : Fin 2 → Nat) a + S1x896.size a ≤ S64x896.size a
  inb_S64x896_S1x896_45_0 : ∀ a, (![45, 0] : Fin 2 → Nat) a + S1x896.size a ≤ S64x896.size a
  inb_S64x896_S1x896_46_0 : ∀ a, (![46, 0] : Fin 2 → Nat) a + S1x896.size a ≤ S64x896.size a
  inb_S64x896_S1x896_47_0 : ∀ a, (![47, 0] : Fin 2 → Nat) a + S1x896.size a ≤ S64x896.size a
  inb_S64x896_S1x896_48_0 : ∀ a, (![48, 0] : Fin 2 → Nat) a + S1x896.size a ≤ S64x896.size a
  inb_S64x896_S1x896_49_0 : ∀ a, (![49, 0] : Fin 2 → Nat) a + S1x896.size a ≤ S64x896.size a
  inb_S64x896_S1x896_50_0 : ∀ a, (![50, 0] : Fin 2 → Nat) a + S1x896.size a ≤ S64x896.size a
  inb_S64x896_S1x896_51_0 : ∀ a, (![51, 0] : Fin 2 → Nat) a + S1x896.size a ≤ S64x896.size a
  inb_S64x896_S1x896_52_0 : ∀ a, (![52, 0] : Fin 2 → Nat) a + S1x896.size a ≤ S64x896.size a
  inb_S64x896_S1x896_53_0 : ∀ a, (![53, 0] : Fin 2 → Nat) a + S1x896.size a ≤ S64x896.size a
  inb_S64x896_S1x896_54_0 : ∀ a, (![54, 0] : Fin 2 → Nat) a + S1x896.size a ≤ S64x896.size a
  inb_S64x896_S1x896_55_0 : ∀ a, (![55, 0] : Fin 2 → Nat) a + S1x896.size a ≤ S64x896.size a
  inb_S64x896_S1x896_56_0 : ∀ a, (![56, 0] : Fin 2 → Nat) a + S1x896.size a ≤ S64x896.size a
  inb_S64x896_S1x896_57_0 : ∀ a, (![57, 0] : Fin 2 → Nat) a + S1x896.size a ≤ S64x896.size a
  inb_S64x896_S1x896_58_0 : ∀ a, (![58, 0] : Fin 2 → Nat) a + S1x896.size a ≤ S64x896.size a
  inb_S64x896_S1x896_59_0 : ∀ a, (![59, 0] : Fin 2 → Nat) a + S1x896.size a ≤ S64x896.size a
  inb_S64x896_S1x896_60_0 : ∀ a, (![60, 0] : Fin 2 → Nat) a + S1x896.size a ≤ S64x896.size a
  inb_S64x896_S1x896_61_0 : ∀ a, (![61, 0] : Fin 2 → Nat) a + S1x896.size a ≤ S64x896.size a
  inb_S64x896_S1x896_62_0 : ∀ a, (![62, 0] : Fin 2 → Nat) a + S1x896.size a ≤ S64x896.size a
  inb_S64x896_S1x896_63_0 : ∀ a, (![63, 0] : Fin 2 → Nat) a + S1x896.size a ≤ S64x896.size a
  shapeCasts_S65344x896_S32x2042x896 : S65344x896.ShapeCasts S32x2042x896
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x2042x896_S1x2042x896_0_0_0 : ∀ a, (![0, 0, 0] : Fin 3 → Nat) a + S1x2042x896.size a ≤ S1x2042x896.size a
  h_S1x2042x896 : 0 < S1x2042x896.numel
  shapeCasts_S1x2042x896_S2042x896 : S1x2042x896.ShapeCasts S2042x896
  slices_S2048x128_o0_0_S2042x128 : S2048x128.Slices ![0, 0] S2042x128
  slices_S2042x896_o0_0_S2042x128 : S2042x896.Slices ![0, 0] S2042x128
  slices_S2048x128_o1_0_S2042x128 : S2048x128.Slices ![1, 0] S2042x128
  slices_S2042x896_o0_128_S2042x128 : S2042x896.Slices ![0, 128] S2042x128
  slices_S2048x128_o2_0_S2042x128 : S2048x128.Slices ![2, 0] S2042x128
  slices_S2042x896_o0_256_S2042x128 : S2042x896.Slices ![0, 256] S2042x128
  slices_S2048x128_o3_0_S2042x128 : S2048x128.Slices ![3, 0] S2042x128
  slices_S2042x896_o0_384_S2042x128 : S2042x896.Slices ![0, 384] S2042x128
  slices_S2048x128_o4_0_S2042x128 : S2048x128.Slices ![4, 0] S2042x128
  slices_S2042x896_o0_512_S2042x128 : S2042x896.Slices ![0, 512] S2042x128
  slices_S2048x128_o5_0_S2042x128 : S2048x128.Slices ![5, 0] S2042x128
  slices_S2042x896_o0_640_S2042x128 : S2042x896.Slices ![0, 640] S2042x128
  slices_S2048x128_o6_0_S2042x128 : S2048x128.Slices ![6, 0] S2042x128
  slices_S2042x896_o0_768_S2042x128 : S2042x896.Slices ![0, 768] S2042x128
  inb_S1x2042x128_S1x2042x128_0_0_0 : ∀ a, (![0, 0, 0] : Fin 3 → Nat) a + S1x2042x128.size a ≤ S1x2042x128.size a
  h_S1x2042x128 : 0 < S1x2042x128.numel
  shapeCasts_S1x2042x128_S2042x128 : S1x2042x128.ShapeCasts S2042x128
  shapeCasts_S2042x128_S1x2042x128 : S2042x128.ShapeCasts S1x2042x128
  hcc0_scratch0 : 2 + S64.numel ≤ 138
  hcc1_scratch0 : 68 + S64.numel ≤ 138
  hrank0 : 0 < grid0.rank
  k0_off1_inb : ∀ i : grid0.Coords, ∀ a, (k0_off1 i) a + S1.size a ≤ S65536.size a
  k0_off3_inb : ∀ i : grid0.Coords, ∀ a, (k0_off3 i) a + S1.size a ≤ S65536.size a
  k0_off5_inb : ∀ i : grid0.Coords, ∀ a, (k0_off5 i) a + S1.size a ≤ S65536.size a
  k0_off7_inb : ∀ i : grid0.Coords, ∀ a, (k0_off7 i) a + S1.size a ≤ S65536.size a
  k0_off9_inb : ∀ i : grid0.Coords, ∀ a, (k0_off9 i) a + S1.size a ≤ S65536.size a
  k0_off11_inb : ∀ i : grid0.Coords, ∀ a, (k0_off11 i) a + S1.size a ≤ S65536.size a
  k0_off13_inb : ∀ i : grid0.Coords, ∀ a, (k0_off13 i) a + S1.size a ≤ S65536.size a
  k0_off15_inb : ∀ i : grid0.Coords, ∀ a, (k0_off15 i) a + S1.size a ≤ S65536.size a
  k0_off17_inb : ∀ i : grid0.Coords, ∀ a, (k0_off17 i) a + S1.size a ≤ S65536.size a
  k0_off19_inb : ∀ i : grid0.Coords, ∀ a, (k0_off19 i) a + S1.size a ≤ S65536.size a
  k0_off21_inb : ∀ i : grid0.Coords, ∀ a, (k0_off21 i) a + S1.size a ≤ S65536.size a
  k0_off23_inb : ∀ i : grid0.Coords, ∀ a, (k0_off23 i) a + S1.size a ≤ S65536.size a
  k0_off25_inb : ∀ i : grid0.Coords, ∀ a, (k0_off25 i) a + S1.size a ≤ S65536.size a
  k0_off27_inb : ∀ i : grid0.Coords, ∀ a, (k0_off27 i) a + S1.size a ≤ S65536.size a
  k0_off29_inb : ∀ i : grid0.Coords, ∀ a, (k0_off29 i) a + S1.size a ≤ S65536.size a
  k0_off31_inb : ∀ i : grid0.Coords, ∀ a, (k0_off31 i) a + S1.size a ≤ S65536.size a
  k0_off33_inb : ∀ i : grid0.Coords, ∀ a, (k0_off33 i) a + S1.size a ≤ S65536.size a
  k0_off35_inb : ∀ i : grid0.Coords, ∀ a, (k0_off35 i) a + S1.size a ≤ S65536.size a
  k0_off37_inb : ∀ i : grid0.Coords, ∀ a, (k0_off37 i) a + S1.size a ≤ S65536.size a
  k0_off39_inb : ∀ i : grid0.Coords, ∀ a, (k0_off39 i) a + S1.size a ≤ S65536.size a
  k0_off41_inb : ∀ i : grid0.Coords, ∀ a, (k0_off41 i) a + S1.size a ≤ S65536.size a
  k0_off43_inb : ∀ i : grid0.Coords, ∀ a, (k0_off43 i) a + S1.size a ≤ S65536.size a
  k0_off45_inb : ∀ i : grid0.Coords, ∀ a, (k0_off45 i) a + S1.size a ≤ S65536.size a
  k0_off47_inb : ∀ i : grid0.Coords, ∀ a, (k0_off47 i) a + S1.size a ≤ S65536.size a
  k0_off49_inb : ∀ i : grid0.Coords, ∀ a, (k0_off49 i) a + S1.size a ≤ S65536.size a
  k0_off51_inb : ∀ i : grid0.Coords, ∀ a, (k0_off51 i) a + S1.size a ≤ S65536.size a
  k0_off53_inb : ∀ i : grid0.Coords, ∀ a, (k0_off53 i) a + S1.size a ≤ S65536.size a
  k0_off55_inb : ∀ i : grid0.Coords, ∀ a, (k0_off55 i) a + S1.size a ≤ S65536.size a
  k0_off57_inb : ∀ i : grid0.Coords, ∀ a, (k0_off57 i) a + S1.size a ≤ S65536.size a
  k0_off59_inb : ∀ i : grid0.Coords, ∀ a, (k0_off59 i) a + S1.size a ≤ S65536.size a
  k0_off61_inb : ∀ i : grid0.Coords, ∀ a, (k0_off61 i) a + S1.size a ≤ S65536.size a
  k0_off63_inb : ∀ i : grid0.Coords, ∀ a, (k0_off63 i) a + S1.size a ≤ S65536.size a
  k0_off65_inb : ∀ i : grid0.Coords, ∀ a, (k0_off65 i) a + S1.size a ≤ S65536.size a
  k0_off67_inb : ∀ i : grid0.Coords, ∀ a, (k0_off67 i) a + S1.size a ≤ S65536.size a
  k0_off69_inb : ∀ i : grid0.Coords, ∀ a, (k0_off69 i) a + S1.size a ≤ S65536.size a
  k0_off71_inb : ∀ i : grid0.Coords, ∀ a, (k0_off71 i) a + S1.size a ≤ S65536.size a
  k0_off73_inb : ∀ i : grid0.Coords, ∀ a, (k0_off73 i) a + S1.size a ≤ S65536.size a
  k0_off75_inb : ∀ i : grid0.Coords, ∀ a, (k0_off75 i) a + S1.size a ≤ S65536.size a
  k0_off77_inb : ∀ i : grid0.Coords, ∀ a, (k0_off77 i) a + S1.size a ≤ S65536.size a
  k0_off79_inb : ∀ i : grid0.Coords, ∀ a, (k0_off79 i) a + S1.size a ≤ S65536.size a
  k0_off81_inb : ∀ i : grid0.Coords, ∀ a, (k0_off81 i) a + S1.size a ≤ S65536.size a
  k0_off83_inb : ∀ i : grid0.Coords, ∀ a, (k0_off83 i) a + S1.size a ≤ S65536.size a
  k0_off85_inb : ∀ i : grid0.Coords, ∀ a, (k0_off85 i) a + S1.size a ≤ S65536.size a
  k0_off87_inb : ∀ i : grid0.Coords, ∀ a, (k0_off87 i) a + S1.size a ≤ S65536.size a
  k0_off89_inb : ∀ i : grid0.Coords, ∀ a, (k0_off89 i) a + S1.size a ≤ S65536.size a
  k0_off91_inb : ∀ i : grid0.Coords, ∀ a, (k0_off91 i) a + S1.size a ≤ S65536.size a
  k0_off93_inb : ∀ i : grid0.Coords, ∀ a, (k0_off93 i) a + S1.size a ≤ S65536.size a
  k0_off95_inb : ∀ i : grid0.Coords, ∀ a, (k0_off95 i) a + S1.size a ≤ S65536.size a
  k0_off97_inb : ∀ i : grid0.Coords, ∀ a, (k0_off97 i) a + S1.size a ≤ S65536.size a
  k0_off99_inb : ∀ i : grid0.Coords, ∀ a, (k0_off99 i) a + S1.size a ≤ S65536.size a
  k0_off101_inb : ∀ i : grid0.Coords, ∀ a, (k0_off101 i) a + S1.size a ≤ S65536.size a
  k0_off103_inb : ∀ i : grid0.Coords, ∀ a, (k0_off103 i) a + S1.size a ≤ S65536.size a
  k0_off105_inb : ∀ i : grid0.Coords, ∀ a, (k0_off105 i) a + S1.size a ≤ S65536.size a
  k0_off107_inb : ∀ i : grid0.Coords, ∀ a, (k0_off107 i) a + S1.size a ≤ S65536.size a
  k0_off109_inb : ∀ i : grid0.Coords, ∀ a, (k0_off109 i) a + S1.size a ≤ S65536.size a
  k0_off111_inb : ∀ i : grid0.Coords, ∀ a, (k0_off111 i) a + S1.size a ≤ S65536.size a
  k0_off113_inb : ∀ i : grid0.Coords, ∀ a, (k0_off113 i) a + S1.size a ≤ S65536.size a
  k0_off115_inb : ∀ i : grid0.Coords, ∀ a, (k0_off115 i) a + S1.size a ≤ S65536.size a
  k0_off117_inb : ∀ i : grid0.Coords, ∀ a, (k0_off117 i) a + S1.size a ≤ S65536.size a
  k0_off119_inb : ∀ i : grid0.Coords, ∀ a, (k0_off119 i) a + S1.size a ≤ S65536.size a
  k0_off121_inb : ∀ i : grid0.Coords, ∀ a, (k0_off121 i) a + S1.size a ≤ S65536.size a
  k0_off123_inb : ∀ i : grid0.Coords, ∀ a, (k0_off123 i) a + S1.size a ≤ S65536.size a
  k0_off125_inb : ∀ i : grid0.Coords, ∀ a, (k0_off125 i) a + S1.size a ≤ S65536.size a
  k0_off127_inb : ∀ i : grid0.Coords, ∀ a, (k0_off127 i) a + S1.size a ≤ S65536.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S64x128.size a ≤ S65536x128.size a
  hwx0_0 : ∀ i : grid0.Coords, EltTy.bits .f32 = 32 ∨ (Rect.block (s := S65536x128) S64x128.size (cc0_transform_1 i) (hinb0_0 i)).WholeWords (EltTy.packing .f32)
  hrank1 : 0 < grid1.rank
  k1_off1_inb : ∀ i : grid1.Coords, ∀ a, (k1_off1 i) a + S1.size a ≤ S65344.size a
  k1_off3_inb : ∀ i : grid1.Coords, ∀ a, (k1_off3 i) a + S1.size a ≤ S65344.size a
  k1_off5_inb : ∀ i : grid1.Coords, ∀ a, (k1_off5 i) a + S1.size a ≤ S65344.size a
  k1_off7_inb : ∀ i : grid1.Coords, ∀ a, (k1_off7 i) a + S1.size a ≤ S65344.size a
  k1_off9_inb : ∀ i : grid1.Coords, ∀ a, (k1_off9 i) a + S1.size a ≤ S65344.size a
  k1_off11_inb : ∀ i : grid1.Coords, ∀ a, (k1_off11 i) a + S1.size a ≤ S65344.size a
  k1_off13_inb : ∀ i : grid1.Coords, ∀ a, (k1_off13 i) a + S1.size a ≤ S65344.size a
  k1_off15_inb : ∀ i : grid1.Coords, ∀ a, (k1_off15 i) a + S1.size a ≤ S65344.size a
  k1_off17_inb : ∀ i : grid1.Coords, ∀ a, (k1_off17 i) a + S1.size a ≤ S65344.size a
  k1_off19_inb : ∀ i : grid1.Coords, ∀ a, (k1_off19 i) a + S1.size a ≤ S65344.size a
  k1_off21_inb : ∀ i : grid1.Coords, ∀ a, (k1_off21 i) a + S1.size a ≤ S65344.size a
  k1_off23_inb : ∀ i : grid1.Coords, ∀ a, (k1_off23 i) a + S1.size a ≤ S65344.size a
  k1_off25_inb : ∀ i : grid1.Coords, ∀ a, (k1_off25 i) a + S1.size a ≤ S65344.size a
  k1_off27_inb : ∀ i : grid1.Coords, ∀ a, (k1_off27 i) a + S1.size a ≤ S65344.size a
  k1_off29_inb : ∀ i : grid1.Coords, ∀ a, (k1_off29 i) a + S1.size a ≤ S65344.size a
  k1_off31_inb : ∀ i : grid1.Coords, ∀ a, (k1_off31 i) a + S1.size a ≤ S65344.size a
  k1_off33_inb : ∀ i : grid1.Coords, ∀ a, (k1_off33 i) a + S1.size a ≤ S65344.size a
  k1_off35_inb : ∀ i : grid1.Coords, ∀ a, (k1_off35 i) a + S1.size a ≤ S65344.size a
  k1_off37_inb : ∀ i : grid1.Coords, ∀ a, (k1_off37 i) a + S1.size a ≤ S65344.size a
  k1_off39_inb : ∀ i : grid1.Coords, ∀ a, (k1_off39 i) a + S1.size a ≤ S65344.size a
  k1_off41_inb : ∀ i : grid1.Coords, ∀ a, (k1_off41 i) a + S1.size a ≤ S65344.size a
  k1_off43_inb : ∀ i : grid1.Coords, ∀ a, (k1_off43 i) a + S1.size a ≤ S65344.size a
  k1_off45_inb : ∀ i : grid1.Coords, ∀ a, (k1_off45 i) a + S1.size a ≤ S65344.size a
  k1_off47_inb : ∀ i : grid1.Coords, ∀ a, (k1_off47 i) a + S1.size a ≤ S65344.size a
  k1_off49_inb : ∀ i : grid1.Coords, ∀ a, (k1_off49 i) a + S1.size a ≤ S65344.size a
  k1_off51_inb : ∀ i : grid1.Coords, ∀ a, (k1_off51 i) a + S1.size a ≤ S65344.size a
  k1_off53_inb : ∀ i : grid1.Coords, ∀ a, (k1_off53 i) a + S1.size a ≤ S65344.size a
  k1_off55_inb : ∀ i : grid1.Coords, ∀ a, (k1_off55 i) a + S1.size a ≤ S65344.size a
  k1_off57_inb : ∀ i : grid1.Coords, ∀ a, (k1_off57 i) a + S1.size a ≤ S65344.size a
  k1_off59_inb : ∀ i : grid1.Coords, ∀ a, (k1_off59 i) a + S1.size a ≤ S65344.size a
  k1_off61_inb : ∀ i : grid1.Coords, ∀ a, (k1_off61 i) a + S1.size a ≤ S65344.size a
  k1_off63_inb : ∀ i : grid1.Coords, ∀ a, (k1_off63 i) a + S1.size a ≤ S65344.size a
  k1_off65_inb : ∀ i : grid1.Coords, ∀ a, (k1_off65 i) a + S1.size a ≤ S65344.size a
  k1_off67_inb : ∀ i : grid1.Coords, ∀ a, (k1_off67 i) a + S1.size a ≤ S65344.size a
  k1_off69_inb : ∀ i : grid1.Coords, ∀ a, (k1_off69 i) a + S1.size a ≤ S65344.size a
  k1_off71_inb : ∀ i : grid1.Coords, ∀ a, (k1_off71 i) a + S1.size a ≤ S65344.size a
  k1_off73_inb : ∀ i : grid1.Coords, ∀ a, (k1_off73 i) a + S1.size a ≤ S65344.size a
  k1_off75_inb : ∀ i : grid1.Coords, ∀ a, (k1_off75 i) a + S1.size a ≤ S65344.size a
  k1_off77_inb : ∀ i : grid1.Coords, ∀ a, (k1_off77 i) a + S1.size a ≤ S65344.size a
  k1_off79_inb : ∀ i : grid1.Coords, ∀ a, (k1_off79 i) a + S1.size a ≤ S65344.size a
  k1_off81_inb : ∀ i : grid1.Coords, ∀ a, (k1_off81 i) a + S1.size a ≤ S65344.size a
  k1_off83_inb : ∀ i : grid1.Coords, ∀ a, (k1_off83 i) a + S1.size a ≤ S65344.size a
  k1_off85_inb : ∀ i : grid1.Coords, ∀ a, (k1_off85 i) a + S1.size a ≤ S65344.size a
  k1_off87_inb : ∀ i : grid1.Coords, ∀ a, (k1_off87 i) a + S1.size a ≤ S65344.size a
  k1_off89_inb : ∀ i : grid1.Coords, ∀ a, (k1_off89 i) a + S1.size a ≤ S65344.size a
  k1_off91_inb : ∀ i : grid1.Coords, ∀ a, (k1_off91 i) a + S1.size a ≤ S65344.size a
  k1_off93_inb : ∀ i : grid1.Coords, ∀ a, (k1_off93 i) a + S1.size a ≤ S65344.size a
  k1_off95_inb : ∀ i : grid1.Coords, ∀ a, (k1_off95 i) a + S1.size a ≤ S65344.size a
  k1_off97_inb : ∀ i : grid1.Coords, ∀ a, (k1_off97 i) a + S1.size a ≤ S65344.size a
  k1_off99_inb : ∀ i : grid1.Coords, ∀ a, (k1_off99 i) a + S1.size a ≤ S65344.size a
  k1_off101_inb : ∀ i : grid1.Coords, ∀ a, (k1_off101 i) a + S1.size a ≤ S65344.size a
  k1_off103_inb : ∀ i : grid1.Coords, ∀ a, (k1_off103 i) a + S1.size a ≤ S65344.size a
  k1_off105_inb : ∀ i : grid1.Coords, ∀ a, (k1_off105 i) a + S1.size a ≤ S65344.size a
  k1_off107_inb : ∀ i : grid1.Coords, ∀ a, (k1_off107 i) a + S1.size a ≤ S65344.size a
  k1_off109_inb : ∀ i : grid1.Coords, ∀ a, (k1_off109 i) a + S1.size a ≤ S65344.size a
  k1_off111_inb : ∀ i : grid1.Coords, ∀ a, (k1_off111 i) a + S1.size a ≤ S65344.size a
  k1_off113_inb : ∀ i : grid1.Coords, ∀ a, (k1_off113 i) a + S1.size a ≤ S65344.size a
  k1_off115_inb : ∀ i : grid1.Coords, ∀ a, (k1_off115 i) a + S1.size a ≤ S65344.size a
  k1_off117_inb : ∀ i : grid1.Coords, ∀ a, (k1_off117 i) a + S1.size a ≤ S65344.size a
  k1_off119_inb : ∀ i : grid1.Coords, ∀ a, (k1_off119 i) a + S1.size a ≤ S65344.size a
  k1_off121_inb : ∀ i : grid1.Coords, ∀ a, (k1_off121 i) a + S1.size a ≤ S65344.size a
  k1_off123_inb : ∀ i : grid1.Coords, ∀ a, (k1_off123 i) a + S1.size a ≤ S65344.size a
  k1_off125_inb : ∀ i : grid1.Coords, ∀ a, (k1_off125 i) a + S1.size a ≤ S65344.size a
  k1_off127_inb : ∀ i : grid1.Coords, ∀ a, (k1_off127 i) a + S1.size a ≤ S65344.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S64x896.size a ≤ S65344x896.size a
  hwx1_0 : ∀ i : grid1.Coords, EltTy.bits .f32 = 32 ∨ (Rect.block (s := S65344x896) S64x896.size (cc1_transform_1 i) (hinb1_0 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x128.size a ≤ S32x2048x128.size a
  hwx2_0 : ∀ i : grid2.Coords, EltTy.bits .f32 = 32 ∨ (Rect.block (s := S32x2048x128) S1x2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2042x896.size a ≤ S32x2042x896.size a
  hwx2_1 : ∀ i : grid2.Coords, EltTy.bits .f32 = 32 ∨ (Rect.block (s := S32x2042x896) S1x2042x896.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2042x128.size a ≤ S32x2042x128.size a
  hwx2_2 : ∀ i : grid2.Coords, EltTy.bits .f32 = 32 ∨ (Rect.block (s := S32x2042x128) S1x2042x128.size (cc2_transform_2 i) (hinb2_2 i)).WholeWords (EltTy.packing .f32)

variable [Facts₀]

abbrev cc0_scratch0 : DmaSems sig S64 := SemArray.consecutive 2 S64 hcc0_scratch0
abbrev cc1_scratch0 : DmaSems sig S64 := SemArray.consecutive 68 S64 hcc1_scratch0

abbrev spec0_0 : Pipeline.WinSpec sig grid0.rank :=
  Pipeline.WinSpec.ofSpec (Memref.whole main_v1) S64x128.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev spec1_0 : Pipeline.WinSpec sig grid1.rank :=
  Pipeline.WinSpec.ofSpec (Memref.whole main_v5) S64x896.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))
abbrev win2_0 : Pipeline.Window sig grid2 :=
  Pipeline.Window.ofSpec (Memref.whole main_v2) S1x2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1x2042x896.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x2042x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where
  harr0 : ∀ w, (spec0 w).arr.IsWhole
  harr1 : ∀ w, (spec1 w).arr.IsWhole

variable [Facts]
-- ==== ReferenceIdeal.lean ====
abbrev S32x2048 : Shape := ⟨2, ![32, 2048]⟩
abbrev S50000x128 : Shape := ⟨2, ![50000, 128]⟩
abbrev S50000x896 : Shape := ⟨2, ![50000, 896]⟩
abbrev S32x2042 : Shape := ⟨2, ![32, 2042]⟩
abbrev S2042 : Shape := ⟨1, ![2042]⟩
abbrev S2042x1 : Shape := ⟨2, ![2042, 1]⟩
abbrev S7 : Shape := ⟨1, ![7]⟩
abbrev S1x7 : Shape := ⟨2, ![1, 7]⟩
abbrev S2042x7 : Shape := ⟨2, ![2042, 7]⟩
abbrev S_ : Shape := ⟨0, ![]⟩
abbrev S2042x7x1 : Shape := ⟨3, ![2042, 7, 1]⟩
abbrev S32x2042x7 : Shape := ⟨3, ![32, 2042, 7]⟩
abbrev S32x2042x7x1 : Shape := ⟨4, ![32, 2042, 7, 1]⟩
abbrev S32x2042x7x128 : Shape := ⟨4, ![32, 2042, 7, 128]⟩
abbrev S32x2042x1 : Shape := ⟨3, ![32, 2042, 1]⟩
abbrev S32x2042x896 : Shape := ⟨3, ![32, 2042, 896]⟩
abbrev S32x2042x128 : Shape := ⟨3, ![32, 2042, 128]⟩

abbrev nBuf : Space → Nat
  | .hbm => 42
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S50000x128, .f32⟩
  | .hbm, ⟨2, _⟩ => ⟨S50000x896, .f32⟩
  | .hbm, ⟨3, _⟩ => ⟨S32x2042, .i32⟩
  | .hbm, ⟨4, _⟩ => ⟨S2042, .i32⟩
  | .hbm, ⟨5, _⟩ => ⟨S2042x1, .i32⟩
  | .hbm, ⟨6, _⟩ => ⟨S7, .i32⟩
  | .hbm, ⟨7, _⟩ => ⟨S1x7, .i32⟩
  | .hbm, ⟨8, _⟩ => ⟨S2042x7, .i32⟩
  | .hbm, ⟨9, _⟩ => ⟨S2042x7, .i32⟩
  | .hbm, ⟨10, _⟩ => ⟨S2042x7, .i32⟩
  | .hbm, ⟨11, _⟩ => ⟨S_, .i32⟩
  | .hbm, ⟨12, _⟩ => ⟨S2042x7, .i32⟩
  | .hbm, ⟨13, _⟩ => ⟨S2042x7, .i1⟩
  | .hbm, ⟨14, _⟩ => ⟨S_, .i32⟩
  | .hbm, ⟨15, _⟩ => ⟨S2042x7, .i32⟩
  | .hbm, ⟨16, _⟩ => ⟨S2042x7, .i32⟩
  | .hbm, ⟨17, _⟩ => ⟨S2042x7, .i32⟩
  | .hbm, ⟨18, _⟩ => ⟨S2042x7x1, .i32⟩
  | .hbm, ⟨19, _⟩ => ⟨S32x2042x7, .i32⟩
  | .hbm, ⟨20, _⟩ => ⟨S_, .i32⟩
  | .hbm, ⟨21, _⟩ => ⟨S32x2042x7, .i32⟩
  | .hbm, ⟨22, _⟩ => ⟨S32x2042x7, .i1⟩
  | .hbm, ⟨23, _⟩ => ⟨S_, .i32⟩
  | .hbm, ⟨24, _⟩ => ⟨S32x2042x7, .i32⟩
  | .hbm, ⟨25, _⟩ => ⟨S32x2042x7, .i32⟩
  | .hbm, ⟨26, _⟩ => ⟨S32x2042x7, .i32⟩
  | .hbm, ⟨27, _⟩ => ⟨S32x2042x7x1, .i32⟩
  | .hbm, ⟨28, _⟩ => ⟨S32x2042x7x128, .f32⟩
  | .hbm, ⟨29, _⟩ => ⟨S_, .i32⟩
  | .hbm, ⟨30, _⟩ => ⟨S32x2042, .i32⟩
  | .hbm, ⟨31, _⟩ => ⟨S32x2042, .i1⟩
  | .hbm, ⟨32, _⟩ => ⟨S_, .i32⟩
  | .hbm, ⟨33, _⟩ => ⟨S32x2042, .i32⟩
  | .hbm, ⟨34, _⟩ => ⟨S32x2042, .i32⟩
  | .hbm, ⟨35, _⟩ => ⟨S32x2042, .i32⟩
  | .hbm, ⟨36, _⟩ => ⟨S32x2042x1, .i32⟩
  | .hbm, ⟨37, _⟩ => ⟨S32x2042x896, .f32⟩
  | .hbm, ⟨38, _⟩ => ⟨S32x2042x7x128, .f32⟩
  | .hbm, ⟨39, _⟩ => ⟨S32x2042x7x128, .f32⟩
  | .hbm, ⟨40, _⟩ => ⟨S_, .f32⟩
  | .hbm, ⟨41, _⟩ => ⟨S32x2042x128, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  slices_S32x2048_S32x2042_0_3 : S32x2048.Slices ![0, 3] S32x2042
  bcast_S2042_S2042x1_0 : S2042.BroadcastsInDim S2042x1 (![0] : Fin 1 → Fin S2042x1.rank)
  bcast_S7_S1x7_1 : S7.BroadcastsInDim S1x7 (![1] : Fin 1 → Fin S1x7.rank)
  bcast_S2042x1_S2042x7_0_1 : S2042x1.BroadcastsInDim S2042x7 (![0, 1] : Fin 2 → Fin S2042x7.rank)
  bcast_S1x7_S2042x7_0_1 : S1x7.BroadcastsInDim S2042x7 (![0, 1] : Fin 2 → Fin S2042x7.rank)
  bcast_S_S2042x7 : S_.BroadcastsInDim S2042x7 (![] : Fin 0 → Fin S2042x7.rank)
  bcast_S2042x7_S2042x7x1_0_1 : S2042x7.BroadcastsInDim S2042x7x1 (![0, 1] : Fin 2 → Fin S2042x7x1.rank)
  bcast_S_S32x2042x7 : S_.BroadcastsInDim S32x2042x7 (![] : Fin 0 → Fin S32x2042x7.rank)
  bcast_S32x2042x7_S32x2042x7x1_0_1_2 : S32x2042x7.BroadcastsInDim S32x2042x7x1 (![0, 1, 2] : Fin 3 → Fin S32x2042x7x1.rank)
  bcast_S_S32x2042 : S_.BroadcastsInDim S32x2042 (![] : Fin 0 → Fin S32x2042.rank)
  bcast_S32x2042_S32x2042x1_0_1 : S32x2042.BroadcastsInDim S32x2042x1 (![0, 1] : Fin 2 → Fin S32x2042x1.rank)
  shapeCasts_S32x2042x896_S32x2042x7x128 : S32x2042x896.ShapeCasts S32x2042x7x128
  reducesTo_S32x2042x7x128_S32x2042x128_d2 : S32x2042x7x128.ReducesTo [2] S32x2042x128
  h_S_ : 0 < S_.numel
  gather_S32x2048_S2042x7x1_S32x2042x7_0_1_n_n_1_2_321_wf : GatherDims.WF S32x2048 S2042x7x1 S32x2042x7 [0] [1] [] [1] [] 2 ![32, 1]
  gather_S50000x128_S32x2042x7x1_S32x2042x7x128_3_0_n_n_0_3_1128_wf : GatherDims.WF S50000x128 S32x2042x7x1 S32x2042x7x128 [3] [0] [] [0] [] 3 ![1, 128]
  gather_S50000x896_S32x2042x1_S32x2042x896_2_0_n_n_0_2_1896_wf : GatherDims.WF S50000x896 S32x2042x1 S32x2042x896 [2] [0] [] [0] [] 2 ![1, 896]

variable [Facts₀]

def gather_S32x2048_S2042x7x1_S32x2042x7_0_1_n_n_1_2_321 : GatherDims S32x2048 S2042x7x1 S32x2042x7 where
  offsetDims := [0]
  collapsedSliceDims := [1]
  operandBatchingDims := []
  startIndicesBatchingDims := []
  startIndexMap := [1]
  indexVectorDim := 2
  sliceSizes := ![32, 1]
  wf := gather_S32x2048_S2042x7x1_S32x2042x7_0_1_n_n_1_2_321_wf
def gather_S50000x128_S32x2042x7x1_S32x2042x7x128_3_0_n_n_0_3_1128 : GatherDims S50000x128 S32x2042x7x1 S32x2042x7x128 where
  offsetDims := [3]
  collapsedSliceDims := [0]
  operandBatchingDims := []
  startIndicesBatchingDims := []
  startIndexMap := [0]
  indexVectorDim := 3
  sliceSizes := ![1, 128]
  wf := gather_S50000x128_S32x2042x7x1_S32x2042x7x128_3_0_n_n_0_3_1128_wf
def gather_S50000x896_S32x2042x1_S32x2042x896_2_0_n_n_0_2_1896 : GatherDims S50000x896 S32x2042x1 S32x2042x896 where
  offsetDims := [2]
  collapsedSliceDims := [0]
  operandBatchingDims := []
  startIndicesBatchingDims := []
  startIndexMap := [0]
  indexVectorDim := 2
  sliceSizes := ![1, 896]
  wf := gather_S50000x896_S32x2042x1_S32x2042x896_2_0_n_n_0_2_1896_wf

class Facts : Prop extends Facts₀ where

variable [Facts]
-- ==== Proof.PreRange.lean ====
import proofs.«405285_j12421045420642_1_alg».proof.Pre_finite_inputs
import Idealize.ShloMosaic.Lib.ReduceAll
import Idealize.ShloMosaic.Lib.StableHlo.Predicate
import Idealize.ShloMosaic.Lib.ValueIdx

namespace Cert.PreRange

open Idealize.ShloMosaic Idealize.ShloMosaic.ValueIdx

instance subsingleton_scalar_idx : Subsingleton Cert.Pre_finite_inputs.S_.Idx :=
  ⟨fun _ _ => funext fun d => d.elim0⟩

theorem toNat_lt_of_signed_range (w : BitVec 32) (h0 : IntOp.cmpi .sge w 0#32 = 1#1)
    (h1 : IntOp.cmpi .slt w 50000#32 = 1#1) : w.toNat < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  have hw := w.isLt
  rw [BitVec.toInt_eq_toNat_cond] at h0 h1
  split at h0 <;> omega

theorem ids_lt_of_pre {F : FTy → Type} [FloatOps F] [Cert.Pre_finite_inputs.Facts]
    (ids : IVec Cert.Pre_finite_inputs.S32x2048 32) (we : FVec F Cert.Pre_finite_inputs.S50000x128 .f32)
    (ce : FVec F Cert.Pre_finite_inputs.S50000x896 .f32)
    (h : Cert.Pre_finite_inputs.fn (F := F) ids we ce = fun _ => 1#1) :
    ∀ j : Cert.Pre_finite_inputs.S32x2048.Idx, (ids j).toNat < 50000 := by
  intro j

  have e := congrFun h ix0
  unfold Cert.Pre_finite_inputs.fn at e
  dsimp only at e

  have eAll := (IntOp.andi_eq_one.1 e).2

  have ej := Host.reduce_andi_all _ _ _ _ ix0 eAll j

  have ec := IntOp.andi_eq_one.1 ej
  exact toNat_lt_of_signed_range (ids j) ec.1 ec.2

end Cert.PreRange
-- ==== Proof.RegionSpec.lean ====
import Idealize.ShloMosaic.PureOps.Ideal
import Idealize.ShloMosaic.Lib.ValueIdx

noncomputable section

namespace Cert.RegionSpec

open Idealize.ShloMosaic Idealize.ShloMosaic.ValueIdx

abbrev SIds : Shape := ⟨2, ![32, 2048]⟩
abbrev SWord : Shape := ⟨2, ![50000, 128]⟩
abbrev SCtx : Shape := ⟨2, ![50000, 896]⟩
abbrev SOut : Shape := ⟨3, ![32, 2042, 128]⟩

def rowOf (w : BitVec 32) : Fin 50000 := ⟨w.toNat % 50000, Nat.mod_lt _ (by decide)⟩

theorem rowOf_val_of_lt {w : BitVec 32} (h : w.toNat < 50000) : (rowOf w).val = w.toNat := Nat.mod_eq_of_lt h

def pos (l : Fin 2042) (r : Fin 7) : Fin 2048 := ⟨l.val + r.val, by omega⟩

def slab (r : Fin 7) (d : Fin 128) : Fin 896 := ⟨r.val * 128 + d.val, by omega⟩

def term (ids : SIds.Idx → BitVec 32) (we : SWord.Idx → EReal) (ce : SCtx.Idx → EReal)
    (b : Fin 32) (l : Fin 2042) (d : Fin 128) (r : Fin 7) : EReal :=
  we (ix2 (rowOf (ids (ix2 b (pos l r)))) d) * ce (ix2 (rowOf (ids (ix2 b (pos l 3)))) (slab r d))

def regionAt (ids : SIds.Idx → BitVec 32) (we : SWord.Idx → EReal) (ce : SCtx.Idx → EReal)
    (b : Fin 32) (l : Fin 2042) (d : Fin 128) : EReal :=
  max (max (max (max (max (max (term ids we ce b l d 0) (term ids we ce b l d 1)) (term ids we ce b l d 2))
    (term ids we ce b l d 3)) (term ids we ce b l d 4)) (term ids we ce b l d 5)) (term ids we ce b l d 6)

def region (ids : SIds.Idx → BitVec 32) (we : SWord.Idx → EReal) (ce : SCtx.Idx → EReal) : SOut.Idx → EReal :=
  fun j => regionAt ids we ce (j 0) (j 1) (j 2)

end Cert.RegionSpec

end
-- ==== Proof.LibWord.lean ====
import Idealize.ShloMosaic.Lib.StableHlo.Predicate
import Idealize.ShloMosaic.PureOps.Float

namespace Cert.LibWord

open Idealize.ShloMosaic Idealize.ShloMosaic.StableHlo.Predicate

def sgn (x : BitVec 32) : BitVec 32 := if x = 0 then 0 else if x.msb then -1 else 1

theorem signi_apply {s : Shape} (x : IVec s 32) (i : s.Idx) : signi x i = sgn (x i) := rfl

theorem msb_false_of_lt {a : BitVec 32} (ha : a.toNat < 2 ^ 31) : a.msb = false :=
  BitVec.msb_eq_false_iff_two_mul_lt.mpr (by omega)

theorem bit_eq_zero_of_ne_one {c : BitVec 1} (h : ¬ c = 1#1) : c = 0#1 := by
  rcases BitVec.eq_zero_or_eq_one c with h0 | h1
  · exact h0
  · exact absurd h1 h

theorem select_zero {α : Type} (a b : α) : Scalar.select 0#1 a b = b := by
  unfold Scalar.select
  exact if_neg (by decide)

theorem not_corner512 (a : BitVec 32) : ¬ IntOp.SDivCorner a 512#32 := by
  intro hc
  rcases hc with hc | ⟨_, hc⟩ <;> exact absurd hc (by decide)

theorem divsi512 (a : BitVec 32) (ha : a.toNat < 2 ^ 31) :
    IntOp.divsi .host a 512#32 = BitVec.ofNat 32 (a.toNat / 512) := by
  have hm : a.msb = false := msb_false_of_lt ha
  apply BitVec.eq_of_toNat_eq
  simp only [IntOp.divsi, if_neg (not_corner512 a), BitVec.sdiv_eq, hm,
    show (512#32 : BitVec 32).msb = false from by decide, BitVec.udiv_eq, BitVec.toNat_udiv, BitVec.toNat_ofNat, Nat.reducePow, Nat.reduceMod]
  omega

theorem sgn_pos {a : BitVec 32} (ha : a.toNat < 2 ^ 31) (h0 : a ≠ 0) : sgn a = 1#32 := by
  unfold sgn
  rw [if_neg h0, msb_false_of_lt ha]
  rfl

theorem floorDiv512 (a : BitVec 32) (ha : a.toNat < 2 ^ 31) :
    Scalar.select (IntOp.andi (IntOp.cmpi .ne (sgn a) (sgn 512#32)) (IntOp.cmpi .ne (IntOp.remsi .host a 512#32) 0#32))
      (IntOp.subi (IntOp.divsi .host a 512#32) 1#32) (IntOp.divsi .host a 512#32)
      = BitVec.ofNat 32 (a.toNat / 512) := by

  have hc : IntOp.andi (IntOp.cmpi .ne (sgn a) (sgn 512#32)) (IntOp.cmpi .ne (IntOp.remsi .host a 512#32) 0#32) = 0#1 := by
    by_cases h0 : a = 0
    · subst h0
      have hr : IntOp.remsi .host (0 : BitVec 32) 512#32 = 0#32 := by
        simp only [IntOp.remsi, if_neg (not_corner512 0)]
        decide
      rw [hr]
      have : IntOp.cmpi .ne (0#32 : BitVec 32) 0#32 = 0#1 := by decide
      rw [this]
      unfold IntOp.andi
      exact BitVec.and_zero
    · have h512 : sgn 512#32 = 1#32 := by unfold sgn; decide
      rw [sgn_pos ha h0, h512]
      have : IntOp.cmpi .ne (1#32 : BitVec 32) 1#32 = 0#1 := by decide
      rw [this]
      unfold IntOp.andi
      exact BitVec.zero_and
  rw [hc, select_zero]
  exact divsi512 a ha

theorem not_slt_zero {a : BitVec 32} (ha : a.toNat < 2 ^ 31) : IntOp.cmpi .slt a 0#32 = 0#1 := by
  apply bit_eq_zero_of_ne_one
  intro h
  have := (slt_iff_toNat ha (by decide)).mp h
  simp only [BitVec.toNat_ofNat] at this
  omega

theorem wrapNeg (a k : BitVec 32) (ha : a.toNat < 2 ^ 31) :
    Scalar.select (IntOp.cmpi .slt a 0#32) (IntOp.addi a k) a = a := by
  rw [not_slt_zero ha, select_zero]

theorem clamp0 (a hi : BitVec 32) (hhi : hi.toNat < 2 ^ 31) (ha : a.toNat ≤ hi.toNat) :
    IntOp.minsi hi (IntOp.maxsi 0#32 a) = a := by
  have ha' : a.toNat < 2 ^ 31 := by omega
  have hti : a.toInt = a.toNat := toInt_eq_toNat_of_lt ha'
  have hth : hi.toInt = hi.toNat := toInt_eq_toNat_of_lt hhi
  have h0 : (0#32 : BitVec 32).toInt = 0 := by decide

  have hmax : IntOp.maxsi 0#32 a = a := by
    unfold IntOp.maxsi
    have hn : ¬ (a.slt 0#32 = true) := by
      simp only [BitVec.slt, hti, h0, decide_eq_true_eq]
      omega
    exact if_neg hn
  rw [hmax]

  unfold IntOp.minsi
  have hn : ¬ (hi.slt a = true) := by
    simp only [BitVec.slt, hti, hth, decide_eq_true_eq]
    omega
  exact if_neg hn

theorem inRange (a hi : BitVec 32) (hhi : hi.toNat < 2 ^ 31) (ha : a.toNat ≤ hi.toNat) :
    IntOp.andi (IntOp.cmpi .sge a 0#32) (IntOp.cmpi .sle a hi) = 1#1 := by
  have ha' : a.toNat < 2 ^ 31 := by omega
  have h1 : IntOp.cmpi .sge a 0#32 = 1#1 :=
    (sge_iff_toNat ha' (by decide)).mpr (by simp only [BitVec.toNat_ofNat]; omega)
  have h2 : IntOp.cmpi .sle a hi = 1#1 := (sle_iff_toNat ha' hhi).mpr ha
  rw [h1, h2]
  decide

theorem ofNat_add (a b : ℕ) : BitVec.ofNat 32 a + BitVec.ofNat 32 b = BitVec.ofNat 32 (a + b) := by
  apply BitVec.eq_of_toNat_eq
  simp only [BitVec.toNat_add, BitVec.toNat_ofNat]
  omega
theorem ofNat_sub (a b : ℕ) (h : b ≤ a) (ha : a < 2 ^ 32) : BitVec.ofNat 32 a - BitVec.ofNat 32 b = BitVec.ofNat 32 (a - b) := by
  apply BitVec.eq_of_toNat_eq
  simp only [BitVec.toNat_sub, BitVec.toNat_ofNat]
  omega
theorem ofNat_mul (a b : ℕ) : BitVec.ofNat 32 a * BitVec.ofNat 32 b = BitVec.ofNat 32 (a * b) := by
  apply BitVec.eq_of_toNat_eq
  simp only [BitVec.toNat_mul, BitVec.toNat_ofNat]
  exact (Nat.mul_mod a b (2 ^ 32)).symm
theorem eq_ofNat_toNat (a : BitVec 32) : a = BitVec.ofNat 32 a.toNat := by
  apply BitVec.eq_of_toNat_eq
  rw [BitVec.toNat_ofNat]
  exact (Nat.mod_eq_of_lt a.isLt).symm
theorem toNat_ofNat_lt (a : ℕ) (h : a < 2 ^ 32) : (BitVec.ofNat 32 a).toNat = a := by
  rw [BitVec.toNat_ofNat]
  exact Nat.mod_eq_of_lt h

theorem cmpi_sge_ofNat (a b : ℕ) (ha : a < 2 ^ 31) (hb : b < 2 ^ 31) :
    IntOp.cmpi .sge (BitVec.ofNat 32 a) (BitVec.ofNat 32 b) = if b ≤ a then 1#1 else 0#1 := by
  have key : IntOp.cmpi .sge (BitVec.ofNat 32 a) (BitVec.ofNat 32 b) = 1#1 ↔ b ≤ a := by
    unfold IntOp.cmpi
    exact sle_ofNat_iff b a hb ha
  by_cases h : b ≤ a
  · rw [if_pos h]
    exact key.mpr h
  · rw [if_neg h]
    exact bit_eq_zero_of_ne_one (fun hc => h (key.mp hc))
theorem cmpi_slt_ofNat (a b : ℕ) (ha : a < 2 ^ 31) (hb : b < 2 ^ 31) :
    IntOp.cmpi .slt (BitVec.ofNat 32 a) (BitVec.ofNat 32 b) = if a < b then 1#1 else 0#1 := by
  have key : IntOp.cmpi .slt (BitVec.ofNat 32 a) (BitVec.ofNat 32 b) = 1#1 ↔ a < b := by
    unfold IntOp.cmpi
    exact slt_ofNat_iff a b ha hb
  by_cases h : a < b
  · rw [if_pos h]
    exact key.mpr h
  · rw [if_neg h]
    exact bit_eq_zero_of_ne_one (fun hc => h (key.mp hc))
theorem cmpi_eq_word (a b : BitVec 32) : IntOp.cmpi .eq a b = if a = b then 1#1 else 0#1 := by
  by_cases h : a = b
  · rw [if_pos h]
    exact cmpi_eq_iff.mpr h
  · rw [if_neg h]
    exact bit_eq_zero_of_ne_one (fun hc => h (cmpi_eq_iff.mp hc))

end Cert.LibWord
-- ==== Proof.LibGatherNd.lean ====
import Idealize.ShloMosaic.Lib.ValueIdx
import Idealize.ShloMosaic.PureOps.ShapeOps

namespace Cert.LibGatherNd

open Idealize.ShloMosaic Idealize.ShloMosaic.ValueIdx

theorem gather_cols_at_rank2 {α : Type} {B N L R w : Nat}
    (d : GatherDims ⟨2, ![B, N]⟩ ⟨3, ![L, R, 1]⟩ ⟨3, ![B, L, R]⟩)
    (hoff : d.offsetDims = [0]) (hcoll : d.collapsedSliceDims = [1]) (hob : d.operandBatchingDims = [])
    (hsim : d.startIndexMap = [1]) (hivd : d.indexVectorDim = 2)
    (x : (⟨2, ![B, N]⟩ : Shape).Idx → α) (idx : IVec ⟨3, ![L, R, 1]⟩ w) (b : Fin B) (l : Fin L) (r : Fin R)
    (hN : 0 < N) :
    Host.gather d x idx (ix3 b l r)
      = x (ix2 b ⟨min (idx (ix3 l r (0 : Fin 1))).toInt.toNat (N - 1), by omega⟩) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>

    show GatherDims.start _ _ _ 0 + GatherDims.batchCoord _ _ 0 + GatherDims.offCoord _ _ 0 = b.val
    rw [GatherDims.batchCoord_eq_zero _ _ _ List.not_mem_nil]
    unfold GatherDims.start
    rw [dif_neg (show (0 : Fin 2) ∉ [(1 : Fin 2)] by decide)]
    simp only [Nat.zero_add, Nat.add_zero]
    rfl
  | ⟨1, _⟩ =>

    have hsl : ss 1 = 1 := wf.2.2.2.2.2.2.2.2.2.2.2.1 1 (List.mem_singleton.mpr rfl)
    show GatherDims.start _ _ _ 1 + GatherDims.batchCoord _ _ 1 + GatherDims.offCoord _ _ 1 = min _ _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 1) = _
    rw [hsl]
    congr 3
    congr 1
    funext c
    apply Fin.ext
    match c with
    | ⟨0, _⟩ => rfl
    | ⟨1, _⟩ => rfl
    | ⟨2, _⟩ => rfl

theorem gather_rows_at_rank2 {α : Type} {N C B L w : Nat}
    (d : GatherDims ⟨2, ![N, C]⟩ ⟨3, ![B, L, 1]⟩ ⟨3, ![B, L, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![B, L, 1]⟩ w) (b : Fin B) (l : Fin L) (c : Fin C)
    (hN : 0 < N) :
    Host.gather d x idx (ix3 b l c)
      = x (ix2 ⟨min (idx (ix3 b l (0 : Fin 1))).toInt.toNat (N - 1), by omega⟩ c) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>

    have hsl : ss 0 = 1 := wf.2.2.2.2.2.2.2.2.2.2.2.1 0 (List.mem_singleton.mpr rfl)
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext e
    apply Fin.ext
    match e with
    | ⟨0, _⟩ => rfl
    | ⟨1, _⟩ => rfl
    | ⟨2, _⟩ => rfl
  | ⟨1, _⟩ =>

    show GatherDims.start _ _ _ 1 + GatherDims.batchCoord _ _ 1 + GatherDims.offCoord _ _ 1 = c.val
    rw [GatherDims.batchCoord_eq_zero _ _ _ List.not_mem_nil]
    unfold GatherDims.start
    rw [dif_neg (show (1 : Fin 2) ∉ [(0 : Fin 2)] by decide)]
    simp only [Nat.zero_add]
    rfl

theorem gather_rows_at_rank3 {α : Type} {N C B L R w : Nat}
    (d : GatherDims ⟨2, ![N, C]⟩ ⟨4, ![B, L, R, 1]⟩ ⟨4, ![B, L, R, C]⟩)
    (hoff : d.offsetDims = [3]) (hcoll : d.collapsedSliceDims = [0]) (hob : d.operandBatchingDims = [])
    (hsim : d.startIndexMap = [0]) (hivd : d.indexVectorDim = 3)
    (x : (⟨2, ![N, C]⟩ : Shape).Idx → α) (idx : IVec ⟨4, ![B, L, R, 1]⟩ w) (b : Fin B) (l : Fin L) (r : Fin R)
    (c : Fin C) (hN : 0 < N) :
    Host.gather d x idx (ix4 b l r c)
      = x (ix2 ⟨min (idx (ix4 b l r (0 : Fin 1))).toInt.toNat (N - 1), by omega⟩ c) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>

    have hsl : ss 0 = 1 := wf.2.2.2.2.2.2.2.2.2.2.2.1 0 (List.mem_singleton.mpr rfl)
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext e
    apply Fin.ext
    match e with
    | ⟨0, _⟩ => rfl
    | ⟨1, _⟩ => rfl
    | ⟨2, _⟩ => rfl
    | ⟨3, _⟩ => rfl
  | ⟨1, _⟩ =>

    show GatherDims.start _ _ _ 1 + GatherDims.batchCoord _ _ 1 + GatherDims.offCoord _ _ 1 = c.val
    rw [GatherDims.batchCoord_eq_zero _ _ _ List.not_mem_nil]
    unfold GatherDims.start
    rw [dif_neg (show (1 : Fin 2) ∉ [(0 : Fin 2)] by decide)]
    simp only [Nat.zero_add]
    rfl

end Cert.LibGatherNd
-- ==== Proof.RefRegion.lean ====
import proofs.«405285_j12421045420642_1_alg».proof.Proof.Gen.ReferenceIdeal.Run
import proofs.«405285_j12421045420642_1_alg».proof.Proof.Gen.ReferenceIdeal.Read
import proofs.«405285_j12421045420642_1_alg».proof.Proof.RegionSpec
import proofs.«405285_j12421045420642_1_alg».proof.Proof.LibWord
import proofs.«405285_j12421045420642_1_alg».proof.Proof.LibGatherNd
import Idealize.ShloMosaic.PureOps.Reduce
import Idealize.ShloMosaic.PureOps.Ideal.Laws
import Idealize.ShloMosaic.Lib.StableHlo.Predicate

noncomputable section

namespace Cert.ReferenceIdeal.RefValue

open Idealize.ShloMosaic Idealize.ShloMosaic.TcCoe Idealize.SL.Sem Idealize.ShloMosaic.ValueIdx
open Idealize.ShloMosaic.StableHlo.Predicate (toInt_ofNat_small toInt_eq_toNat_of_lt)
open Cert.ReferenceIdeal Cert.ReferenceIdeal.Gen Cert.ReferenceIdeal.Read Cert.RegionSpec

theorem pos_word (l : Fin 2042) (k : Fin 7) :
    val_main_v12 (F := Ideal) (ix2 l k) = BitVec.ofNat 32 (l.val + k.val) := by
  have hl := l.isLt
  have hk := k.isLt
  have h7 : val_main_v7 (F := Ideal) (ix2 l k) = BitVec.ofNat 32 (l.val + k.val) := by
    rw [val_main_v7_apply, val_main_v5_apply, val_main_v2_apply, val_main_v1_apply, val_main_v6_apply,
      val_main_v4_apply, val_main_v3_apply]
    show BitVec.ofNat 32 l.val + BitVec.ofNat 32 k.val = _
    exact LibWord.ofNat_add _ _
  rw [val_main_v12_apply, val_main_v9_apply, val_main_v8_apply, val_main_c_apply, val_main_v11_apply, h7]
  exact LibWord.wrapNeg _ _ (by rw [LibWord.toNat_ofNat_lt _ (by omega)]; omega)

theorem pos_index (l : Fin 2042) (k : Fin 7) :
    val_main_v13 (F := Ideal) (ix3 l k (0 : Fin 1)) = BitVec.ofNat 32 (l.val + k.val) := by
  rw [val_main_v13_apply]
  have hi : idx_main_v13 (ix3 l k (0 : Fin 1)) = ix2 l k :=
    funext fun a => match a with | ⟨0, _⟩ => rfl | ⟨1, _⟩ => rfl
  rw [hi]
  exact pos_word l k

theorem win_ids (x0 : IVec S32x2048 32) (b : Fin 32) (l : Fin 2042) (k : Fin 7) :
    val_main_v14 (F := Ideal) x0 (ix3 b l k) = x0 (ix2 b (pos l k)) := by
  have hl := l.isLt
  have hk := k.isLt
  unfold val_main_v14
  rw [LibGatherNd.gather_cols_at_rank2 _ rfl rfl rfl rfl rfl x0 _ b l k (by decide)]
  refine congrArg x0 (congrArg (fun p => ix2 b p) (Fin.ext ?_))
  show min (val_main_v13 (F := Ideal) (ix3 l k (0 : Fin 1))).toInt.toNat (2048 - 1) = l.val + k.val
  rw [pos_index, toInt_ofNat_small _ (by omega)]
  omega

theorem win_row (x0 : IVec S32x2048 32) (hin : ∀ j, (x0 j).toNat < 50000) (b : Fin 32) (l : Fin 2042) (k : Fin 7) :
    val_main_v19 (F := Ideal) x0 (ix3 b l k) = x0 (ix2 b (pos l k)) := by
  have hw := hin (ix2 b (pos l k))
  rw [val_main_v19_apply, val_main_v16_apply, val_main_v15_apply, val_main_c_1_apply, val_main_v18_apply, win_ids]
  exact LibWord.wrapNeg _ _ (by omega)

theorem word_rows (x0 : IVec S32x2048 32) (x1 : FVec Ideal S50000x128 .f32) (hin : ∀ j, (x0 j).toNat < 50000)
    (b : Fin 32) (l : Fin 2042) (k : Fin 7) (d : Fin 128) :
    val_main_v21 (F := Ideal) x0 x1 (ix4 b l k d) = x1 (ix2 (rowOf (x0 (ix2 b (pos l k)))) d) := by
  have hw := hin (ix2 b (pos l k))
  have hv : val_main_v20 (F := Ideal) x0 (ix4 b l k (0 : Fin 1)) = x0 (ix2 b (pos l k)) := by
    rw [val_main_v20_apply]
    have hi : idx_main_v20 (ix4 b l k (0 : Fin 1)) = ix3 b l k :=
      funext fun a => match a with | ⟨0, _⟩ => rfl | ⟨1, _⟩ => rfl | ⟨2, _⟩ => rfl
    rw [hi]
    exact win_row x0 hin b l k
  unfold val_main_v21
  rw [LibGatherNd.gather_rows_at_rank3 _ rfl rfl rfl rfl rfl x1 _ b l k d (by decide)]
  refine congrArg x1 (congrArg (fun p => ix2 p d) (Fin.ext ?_))
  show min (val_main_v20 (F := Ideal) x0 (ix4 b l k (0 : Fin 1))).toInt.toNat (50000 - 1)
    = (rowOf (x0 (ix2 b (pos l k)))).val
  rw [hv, rowOf_val_of_lt hw, toInt_eq_toNat_of_lt (by omega)]
  omega

theorem centre_row (x0 : IVec S32x2048 32) (hin : ∀ j, (x0 j).toNat < 50000) (b : Fin 32) (l : Fin 2042) :
    val_main_v26 (F := Ideal) x0 (ix2 b l) = x0 (ix2 b (pos l 3)) := by
  have hw := hin (ix2 b (pos l 3))
  have h0 : val_main_v0 (F := Ideal) x0 (ix2 b l) = x0 (ix2 b (pos l 3)) := by
    rw [val_main_v0_apply]
    exact congrArg x0 (funext fun a => match a with
      | ⟨0, _⟩ => rfl
      | ⟨1, _⟩ => Fin.ext (by show 3 + l.val = l.val + 3; omega))
  rw [val_main_v26_apply, val_main_v23_apply, val_main_v22_apply, val_main_c_3_apply, val_main_v25_apply, h0]
  exact LibWord.wrapNeg _ _ (by omega)

theorem ctx_rows (x0 : IVec S32x2048 32) (x2 : FVec Ideal S50000x896 .f32) (hin : ∀ j, (x0 j).toNat < 50000)
    (b : Fin 32) (l : Fin 2042) (c : Fin 896) :
    val_main_v28 (F := Ideal) x0 x2 (ix3 b l c) = x2 (ix2 (rowOf (x0 (ix2 b (pos l 3)))) c) := by
  have hw := hin (ix2 b (pos l 3))
  have hv : val_main_v27 (F := Ideal) x0 (ix3 b l (0 : Fin 1)) = x0 (ix2 b (pos l 3)) := by
    rw [val_main_v27_apply]
    have hi : idx_main_v27 (ix3 b l (0 : Fin 1)) = ix2 b l :=
      funext fun a => match a with | ⟨0, _⟩ => rfl | ⟨1, _⟩ => rfl
    rw [hi]
    exact centre_row x0 hin b l
  unfold val_main_v28
  rw [LibGatherNd.gather_rows_at_rank2 _ rfl rfl rfl rfl rfl x2 _ b l c (by decide)]
  refine congrArg x2 (congrArg (fun p => ix2 p c) (Fin.ext ?_))
  show min (val_main_v27 (F := Ideal) x0 (ix3 b l (0 : Fin 1))).toInt.toNat (50000 - 1)
    = (rowOf (x0 (ix2 b (pos l 3)))).val
  rw [hv, rowOf_val_of_lt hw, toInt_eq_toNat_of_lt (by omega)]
  omega

theorem ctx_slabs (x0 : IVec S32x2048 32) (x2 : FVec Ideal S50000x896 .f32) (hin : ∀ j, (x0 j).toNat < 50000)
    (b : Fin 32) (l : Fin 2042) (k : Fin 7) (d : Fin 128) :
    val_main_v29 (F := Ideal) x0 x2 (ix4 b l k d) = x2 (ix2 (rowOf (x0 (ix2 b (pos l 3)))) (slab k d)) := by
  have hb := b.isLt
  have hl := l.isLt
  have hk := k.isLt
  have hd := d.isLt
  rw [val_main_v29_apply]
  have hi : idx_main_v29 (ix4 b l k d) = ix3 b l (slab k d) :=
    funext fun a => match a with
      | ⟨0, _⟩ => Fin.ext (by
          show (((b.val * 2042 + l.val) * 7 + k.val) * 128 + d.val) / 1829632 = b.val; omega)
      | ⟨1, _⟩ => Fin.ext (by
          show (((b.val * 2042 + l.val) * 7 + k.val) * 128 + d.val) / 896 % 2042 = l.val; omega)
      | ⟨2, _⟩ => Fin.ext (by
          show (((b.val * 2042 + l.val) * 7 + k.val) * 128 + d.val) % 896 = k.val * 128 + d.val; omega)
  rw [hi]
  exact ctx_rows x0 x2 hin b l (slab k d)

theorem prod_term (x0 : IVec S32x2048 32) (x1 : FVec Ideal S50000x128 .f32) (x2 : FVec Ideal S50000x896 .f32)
    (hin : ∀ j, (x0 j).toNat < 50000) (b : Fin 32) (l : Fin 2042) (k : Fin 7) (d : Fin 128) :
    val_main_v30 (F := Ideal) x0 x1 x2 (ix4 b l k d) = term x0 x1 x2 b l d k := by
  rw [val_main_v30_apply, word_rows x0 x1 hin, ctx_slabs x0 x2 hin]
  rfl

theorem fold_seven {α : Type} (f : α → α → α) [Std.Commutative f] [Std.Associative f] (e : α) (g : Fin 7 → α) :
    (Finset.univ : Finset (Fin 7)).fold f e g = f e (f (f (f (f (f (f (g 0) (g 1)) (g 2)) (g 3)) (g 4)) (g 5)) (g 6)) := by
  rw [show (Finset.univ : Finset (Fin 7)) = {0, 1, 2, 3, 4, 5, 6} from by decide]
  rw [Finset.fold_insert (by decide), Finset.fold_insert (by decide), Finset.fold_insert (by decide),
    Finset.fold_insert (by decide), Finset.fold_insert (by decide), Finset.fold_insert (by decide),
    Finset.fold_singleton]
  ac_rfl

theorem max_seven (g : Fin 7 → EReal) :
    (Finset.univ : Finset (Fin 7)).fold max (Ideal.ofBits .f32 0xFF800000#32) g
      = max (max (max (max (max (max (g 0) (g 1)) (g 2)) (g 3)) (g 4)) (g 5)) (g 6) := by
  rw [fold_seven]
  simp [Ideal.ofBits, Ideal.ieee]

theorem lift_offset (h : S32x2042x7x128.Reduces [2] S32x2042x128) (b : Fin 32) (l : Fin 2042) (d : Fin 128)
    (k : Fin (S32x2042x7x128.size 2)) : h.lift (ix3 b l d) k = ix4 b l (⟨k.val, k.isLt⟩ : Fin 7) d := by
  funext c
  apply Fin.ext
  fin_cases c <;> rfl

theorem val_eq_region (x0 : IVec S32x2048 32) (x1 : FVec Ideal S50000x128 .f32) (x2 : FVec Ideal S50000x896 .f32)
    (hin : ∀ j, (x0 j).toNat < 50000) :
    val_main_v31 (F := Ideal) x0 x1 x2 = region x0 x1 x2 := by
  funext j
  obtain ⟨b, l, d, rfl⟩ : ∃ (b : Fin 32) (l : Fin 2042) (d : Fin 128), j = ix3 b l d := ⟨j 0, j 1, j 2, eq_ix3 j⟩
  have hred : S32x2042x7x128.Reduces [2] S32x2042x128 := by decide
  unfold val_main_v31
  rw [Host.reduce_eq_fold_single FloatOps.maximumf _ _ reducesTo_S32x2042x7x128_S32x2042x128_d2 hred h_S_]
  have hf : (val_main_v30 (F := Ideal) x0 x1 x2 ∘ hred.lift (ix3 b l d)) = fun k : Fin 7 => term x0 x1 x2 b l d k :=
    funext fun k => (congrArg (val_main_v30 (F := Ideal) x0 x1 x2) (lift_offset hred b l d k)).trans
      (prod_term x0 x1 x2 hin b l ⟨k.val, k.isLt⟩ d)
  refine Eq.trans ?_ (max_seven fun k : Fin 7 => term x0 x1 x2 b l d k)
  exact congrArg (fun f => Finset.fold max (Ideal.ofBits .f32 0xFF800000#32) f (Finset.univ : Finset (Fin 7))) hf

theorem run_region (m' : (ℓ : Loc nD τ sig) → Buf (Elt Ideal) ℓ) (ρ' : Dev nD → PrngReg)
    (hin : ∀ (c : Dev nD) (j : S32x2048.Idx),
      ((m' ((c.tc : Thread nD τ).loc main_arg0) : S32x2048.Idx → BitVec 32) j).toNat < 50000) :
    θ_run (Cert.ReferenceIdeal.defs (F := Ideal)) (onTc (τ := τ) (Cert.ReferenceIdeal.main (F := Ideal)))
      ⟨m', fun _ => 0, ρ'⟩ (fun r => ∀ c : Dev nD,
        r.2.mem ((c.tc : Thread nD τ).loc main_v31)
            = Cert.RegionSpec.region (m' ((c.tc : Thread nD τ).loc main_arg0)) (m' ((c.tc : Thread nD τ).loc main_arg1))
                (m' ((c.tc : Thread nD τ).loc main_arg2))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)) :=
  (θ_run Cert.ReferenceIdeal.defs _ _).mono
    (fun r h c => ⟨(h c).1.trans ((val_main_v31_eq m' c).trans (val_eq_region _ _ _ (hin c))), (h c).2⟩)
    (Cert.ReferenceIdeal.Value.run (F := Ideal) m' ρ')

end Cert.ReferenceIdeal.RefValue

end
-- ==== Proof.Gather0.lean ====
import proofs.«405285_j12421045420642_1_alg».proof.Proof.Gen.KernelIdeal.Launch
import proofs.«405285_j12421045420642_1_alg».proof.Proof.Gen.KernelIdeal.Skeleton
import proofs.«405285_j12421045420642_1_alg».proof.Proof.Gen.KernelIdeal.Points
import proofs.«405285_j12421045420642_1_alg».proof.Proof.RegionSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Gather0

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev idsM : Memref sig .tc .smem S65536 .i32 := Memref.whole main_v0
abbrev tblM : Memref sig .tc .hbm S50000x128 .f32 := Memref.whole main_arg1

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev osem0 : Fin 64 → SemLoc sig := fun j => SemLoc.dma ⟨2 + j.val, by have := j.isLt; show 2 + j.val < 138; omega⟩

def wordAt (x0 : Vec F S65536 .i32) (i : grid0.Coords) (r : Fin 64) : BitVec 32 :=
  x0 (ValueIdx.ix1 ⟨64 * (i 0).val + r.val, by have h : (i 0).val < 1024 := (i 0).isLt; have := r.isLt; omega⟩)

def rowsOf (i : grid0.Coords) (x0 : Vec F S65536 .i32) (T : S50000x128.Idx → Elt F .f32) : Vec F S64x128 .f32 :=
  fun y => T (ValueIdx.ix2 (Cert.RegionSpec.rowOf (wordAt x0 i (y 0))) (y 1))

end Cert.KernelIdeal.Gather0

end
-- ==== Proof.LibChain.lean ====
import Idealize.ShloMosaic.Lib.Pipeline.Kit

noncomputable section

/-! A list's conjuncts in front of a tail, with the lists of rows and of table shares that a gather of 64 rows uses. -/

namespace Cert.LibChain

open Idealize.ShloMosaic
open Idealize.SL Idealize.SL.RA Idealize.SL.BI
open scoped Idealize.SL.BI
open Idealize.SL.BI.BIBase Idealize.SL.BI.Laws

variable {M : Type} [URA M] {I : Type}

/-- `Φ a ∗ (Φ b ∗ … ∗ (Φ z ∗ Q))`: a list's conjuncts in front of a tail, so that a statement lists nothing twice. -/
def chainL : List I → (I → sProp M) → sProp M → sProp M
  | [], _, Q => Q
  | i :: l, Φ, Q => iprop(Φ i ∗ chainL l Φ Q)

theorem bigSepL_sep (l : List I) (Φ : I → sProp M) (Q : sProp M) : BI.sep (bigSepL l Φ) Q = chainL l Φ Q := by
  induction l with
  | nil => exact equiv_iff.mp emp_sep
  | cons i l ih =>
    rw [bigSepL_cons]
    show _ = BI.sep (Φ i) (chainL l Φ Q)
    rw [← ih]
    exact equiv_iff.mp ⟨BI.sep_assoc, BI.sep_assoc'⟩

theorem chainL_mono (l : List I) {Φ Ψ : I → sProp M} {Q Q' : sProp M} (h : ∀ i, Φ i ⊢ Ψ i) (hQ : Q ⊢ Q') :
    chainL l Φ Q ⊢ chainL l Ψ Q' := by
  induction l with
  | nil => exact hQ
  | cons i l ih => exact BI.sep_mono (h i) ih

theorem bigSepL_append (l l' : List I) (Φ : I → sProp M) :
    bigSepL (l ++ l') Φ = BI.sep (bigSepL l Φ) (bigSepL l' Φ) := by
  induction l with
  | nil => exact (equiv_iff.mp emp_sep).symm
  | cons i l ih =>
    rw [List.cons_append, bigSepL_cons, ih, bigSepL_cons]
    exact (equiv_iff.mp ⟨BI.sep_assoc, BI.sep_assoc'⟩).symm

theorem chain_intro (l : List I) (Φ : I → sProp M) {P P' : sProp M} (h : P ⊢ P') : BI.sep (bigSepL l Φ) P ⊢ chainL l Φ P' :=
  (BIBase.Entails.of_eq (bigSepL_sep l Φ P)).trans (chainL_mono l (fun _ => .rfl) h)

theorem chain_elim (l : List I) (Φ : I → sProp M) {P P' : sProp M} (h : P ⊢ P') : chainL l Φ P ⊢ BI.sep (bigSepL l Φ) P' :=
  (chainL_mono l (fun _ => .rfl) h).trans (BIBase.Entails.of_eq (bigSepL_sep l Φ P').symm)

/-- The 64 rows of a block, which are also its 64 copies, in order. -/
abbrev l64 : List (Fin 64) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63]
theorem l64_all : (Finset.univ : Finset (Fin 64)) = l64.toFinset := by decide
theorem l64_nodup : l64.Nodup := by decide

/-- The shares of a table handed to the 64 copies: the last 64 of 66, and of 132. -/
abbrev lSpare0 : List (Fin 66) := [0, 1]
abbrev lTok0 : List (Fin 66) := [2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65]
theorem lTok0_all : (Finset.univ : Finset (Fin 66)) = (lSpare0 ++ lTok0).toFinset := by decide
theorem lTok0_nodup : (lSpare0 ++ lTok0).Nodup := by decide
abbrev lSpare1 : List (Fin 132) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67]
abbrev lTok1 : List (Fin 132) := [68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131]
theorem lTok1_all : (Finset.univ : Finset (Fin 132)) = (lSpare1 ++ lTok1).toFinset := by decide
theorem lTok1_nodup : (lSpare1 ++ lTok1).Nodup := by decide

end Cert.LibChain

end
-- ==== Proof.LibRows.lean ====
import proofs.«405285_j12421045420642_1_alg».proof.Proof.LibChain
import Idealize.ShloMosaic.Lib.Pipeline.FrameBody
import Idealize.ShloMosaic.Lib.Ring
import Idealize.ShloMosaic.Lib.Tactic
import Idealize.ShloMosaic.Lib.Transfers
import Idealize.ShloMosaic.Lib.Writes
import Idealize.ShloMosaic.Lib.Pipeline.Kit
import Idealize.ShloMosaic.Rules.PointsTo
import Idealize.ShloMosaic.Lib.ValueIdx

noncomputable section

/-! A block of 64 rows of any width, for any program: held row by row it splits and joins back, and a row that a table
    row was copied into reads as that table row. -/

namespace Cert.LibRows

open Cert.LibChain
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {nD : Nat} {τ : Topo} {F : FTy → Type} [FloatOps F] {D : ℕ}

local notation "𝕄" => MT nD τ sig Unit (Elt F) ℕ (Pipeline.UD sig nD τ) ℕ

abbrev SR (D : ℕ) : Shape := ⟨2, ![1, D]⟩
abbrev SV (D : ℕ) : Shape := ⟨1, ![D]⟩
abbrev SN (N D : ℕ) : Shape := ⟨2, ![N, D]⟩

theorem rowInb (r : Fin 64) : ∀ a, (![r.val, 0] : Fin 2 → Nat) a + (SR D).size a ≤ (SN 64 D).size a := by
  intro a; have := r.isLt; fin_cases a <;> simp [SR, SN] <;> omega

theorem chk_row {N : ℕ} (w : BitVec 32) (h : w.toNat < N) :
    ∀ a, (![w.toNat, 0] : Fin 2 → Nat) a + (SR D).size a ≤ (SN N D).size a := by
  intro a; fin_cases a <;> simp [SR, SN] <;> omega

theorem sqRow (D : ℕ) : (SR D).Squeezes (SV D) := by
  simp [Shape.Squeezes, Shape.dropsOnes, List.ofFn_succ]

/-- Row `off 0` of a two-axis array, as an array of its own. -/
abbrev rowM {sp : Space} {N : ℕ} (m : Memref sig .tc sp (SN N D) .f32) (off : Fin 2 → Nat)
    (h : ∀ a, off a + (SR D).size a ≤ (SN N D).size a) : Memref sig .tc sp (SV D) .f32 :=
  (m.slice (Rect.unit (s := SN N D) off (SR D).size h) (fun _ => rfl)).squeeze (SV D) (sqRow D)

abbrev rowPt (c : Dev nD) {N : ℕ} (m : Memref sig .tc .vmem (SN N D) .f32) (off : Fin 2 → Nat)
    (h : ∀ a, off a + (SR D).size a ≤ (SN N D).size a) (f : Buf (Elt F) (m.view.loc (c : Thread nD τ))) : sProp 𝕄 :=
  (rowM m off h).view.loc (c : Thread nD τ) ↦[(rowM m off h).view.set]{fullShare} f

/-- What a row of the block holds once row `w` of the table has been copied over it. -/
abbrev landed (c : Dev nD) {N T : ℕ} (m : Memref sig .tc .vmem (SN N D) .f32) (tbl : Memref sig .tc .hbm (SN T D) .f32)
    (off : Fin 2 → Nat) (hoff : ∀ a, off a + (SR D).size a ≤ (SN N D).size a) (f1 : Buf (Elt F) (m.view.loc (c : Thread nD τ)))
    (w : BitVec 32) (hw : ∀ a, (![w.toNat, 0] : Fin 2 → Nat) a + (SR D).size a ≤ (SN T D).size a)
    (ft : Buf (Elt F) (tbl.view.loc (c : Thread nD τ))) : Buf (Elt F) (m.view.loc (c : Thread nD τ)) :=
  (rowM m off hoff).view.writes (Elt F) f1 [⟨Rect.whole (SV D), ReadAs.same.apply ((rowM tbl ![w.toNat, 0] hw).view.read (Elt F) ft)⟩]

abbrev rowRect (r : Fin 64) : Rect (SN 64 D) := Rect.unit (s := SN 64 D) ![r.val, 0] (SR D).size (rowInb r)

theorem rowM_set (m : Memref sig .tc .vmem (SN 64 D) .f32) (r : Fin 64) :
    (rowM m ![r.val, 0] (rowInb r)).view.set = (rowRect r).set.map m.view.emb := by
  simp only [Memref.view_squeeze, Memref.view_slice, View.set_reshape]
  exact View.set_slice _ _

theorem rows_disjoint (m : Memref sig .tc .vmem (SN 64 D) .f32) (r r' : Fin 64) (h : r ≠ r') :
    Disjoint (rowM m ![r.val, 0] (rowInb r)).view.set (rowM m ![r'.val, 0] (rowInb r')).view.set := by
  rw [rowM_set, rowM_set, Finset.disjoint_map]
  exact Ring.lead_disjoint (s := SN 64 D) (NB := 64) 0 1 (fun b => ![b.val, 0]) (SR D).size rowInb
    (fun b => by show b.val = 1 * b.val; omega) rfl r r' h

/-- Each element of the block lies in one of its 64 rows, and by `rows_disjoint` in only one. -/
theorem rows_cover (m : Memref sig .tc .vmem (SN 64 D) .f32) :
    Finset.univ.biUnion (fun r : Fin 64 => (rowM m ![r.val, 0] (rowInb r)).view.set) = m.view.set := by
  have hc := Ring.lead_cover (s := SN 64 D) (NB := 64) 0 1 (fun b => ![b.val, 0]) (SR D).size rowInb
    (fun b => by show b.val = 1 * b.val; omega)
    (fun b a ha => by fin_cases a; · exact absurd rfl ha
                      · rfl)
    rfl
    (fun a ha => by fin_cases a; · exact absurd rfl ha
                    · rfl)
    rfl
  ext x
  constructor
  · intro hx
    obtain ⟨r, -, hr⟩ := Finset.mem_biUnion.mp hx
    rw [rowM_set] at hr
    obtain ⟨y, -, rfl⟩ := Finset.mem_map.mp hr
    exact m.view.emb_mem_set y
  · intro hx
    have hx' : x ∈ Finset.univ.map m.view.emb := hx
    obtain ⟨y, -, rfl⟩ := Finset.mem_map.mp hx'
    have hy : y ∈ Finset.univ.biUnion (fun b : Fin 64 => (rowRect (D := D) b).set) := by rw [hc]; exact Finset.mem_univ y
    obtain ⟨r, -, hr⟩ := Finset.mem_biUnion.mp hy
    refine Finset.mem_biUnion.mpr ⟨r, Finset.mem_univ r, ?_⟩
    rw [rowM_set]
    exact Finset.mem_map_of_mem _ hr

theorem rows_list (c : Dev nD) (m : Memref sig .tc .vmem (SN 64 D) .f32) (f : Buf (Elt F) (m.view.loc (c : Thread nD τ))) :
    (m.view.loc (c : Thread nD τ) ↦[m.view.set]{fullShare} f : sProp 𝕄)
      = bigSepL l64 fun r : Fin 64 => rowPt c m ![r.val, 0] (rowInb r) f := by
  rw [← rows_cover m, ← bigSep_univ_eq_bigSepL l64 l64_all l64_nodup]
  exact pointsTo_biUnion Finset.univ _ (fun r _ r' _ h => rows_disjoint m r r' h)

theorem rows_open (c : Dev nD) (m : Memref sig .tc .vmem (SN 64 D) .f32) :
    (iprop(∃ d, owns (c : Thread nD τ) m fullShare d) : sProp 𝕄)
      ⊢ iprop(∃ f1, bigSepL l64 fun r : Fin 64 => rowPt c m ![r.val, 0] (rowInb r) f1) := by
  unfold owns
  iintro ⟨%d, %f, %hf, H⟩
  iexists f
  iapply (BIBase.Entails.of_eq (rows_list c m f))
  iexact H

/-- Rows held at contents of their own are the block held at contents that agree with each row's on that row. -/
theorem rows_join (c : Dev nD) (m : Memref sig .tc .vmem (SN 64 D) .f32) (fs : Fin 64 → Buf (Elt F) (m.view.loc (c : Thread nD τ))) :
    (bigSepL l64 fun r : Fin 64 => rowPt c m ![r.val, 0] (rowInb r) (fs r) : sProp 𝕄)
      ⊢ iprop(∃ g, ⌜∀ r : Fin 64, ∀ j ∈ (rowM m ![r.val, 0] (rowInb r)).view.set, g j = fs r j⌝
          ∗ (m.view.loc (c : Thread nD τ) ↦[m.view.set]{fullShare} g)) := by
  rw [← bigSep_univ_eq_bigSepL l64 l64_all l64_nodup]
  refine (pointsTo_biUnion_join (ℓ := m.view.loc (c : Thread nD τ)) (q := fullShare) Finset.univ
    (fun r : Fin 64 => (rowM m ![r.val, 0] (rowInb r)).view.set) fs (fs 0)
    (fun r _ r' _ h => rows_disjoint m r r' h)).trans ?_
  rw [rows_cover m]
  iintro ⟨%g, %hg, H⟩
  iexists g
  isplitr
  · ipureintro; exact fun r j hj => hg r (Finset.mem_univ r) j hj
  · iexact H

/-- Entry `col` of row `a` taken as a vector is the array's entry (a, col). -/
theorem read_row {κ : Kind} {sp : Space} {e : EltTy} {N : Nat} (m : Memref sig κ sp (SN N D) e) (a : Nat)
    (h : ∀ b, (![a, 0] : Fin 2 → Nat) b + (SR D).size b ≤ (SN N D).size b) (ha : a < N)
    (f : m.view.ty.Contents (Elt F)) (col : Fin D) :
    ((m.slice (Rect.unit (s := SN N D) ![a, 0] (SR D).size h) (fun _ => rfl)).squeeze (SV D) (sqRow D)).view.read (Elt F) f (ValueIdx.ix1 col)
      = m.view.read (Elt F) f (ValueIdx.ix2 (⟨a, ha⟩ : Fin N) col) := by
  have he : ((m.slice (Rect.unit (s := SN N D) ![a, 0] (SR D).size h) (fun _ => rfl)).squeeze (SV D) (sqRow D)).view.emb (ValueIdx.ix1 col)
      = m.view.emb (ValueIdx.ix2 (⟨a, ha⟩ : Fin N) col) := by
    show m.view.emb ((Rect.unit (s := SN N D) ![a, 0] (SR D).size h).emb (Shape.reshapeEquiv _ (ValueIdx.ix1 col))) = _
    congr 1
    have hk : Shape.reshapeEquiv (s := SR D) (s' := SV D) (sqRow D).numel_eq (ValueIdx.ix1 col) = (ValueIdx.ix2 (0 : Fin 1) col : (SR D).Idx) :=
      Shape.reshapeEquiv_eq_of_rowMajor _ (by
        rw [Shape.rowMajor_val_two, Shape.rowMajor_val_one]
        show 0 * D + col.val = col.val
        omega)
    refine (congrArg _ hk).trans ?_
    funext b
    apply Fin.ext
    rw [Rect.emb_apply]
    match b with
    | ⟨0, _⟩ => show a + 1 * 0 = a; omega
    | ⟨1, _⟩ => show 0 + 1 * col.val = col.val; omega
  rw [View.read_apply, View.read_apply, he]

/-- A row after table row `w` has landed in it reads, at column `col`, the table's entry (w, col). -/
theorem landed_read (c : Dev nD) {T : ℕ} (m : Memref sig .tc .vmem (SN 64 D) .f32) (tbl : Memref sig .tc .hbm (SN T D) .f32) (r : Fin 64)
    (f1 : Buf (Elt F) (m.view.loc (c : Thread nD τ))) (w : BitVec 32) (hw : w.toNat < T)
    (ft : Buf (Elt F) (tbl.view.loc (c : Thread nD τ))) (col : Fin D) :
    m.view.read (Elt F) (landed c m tbl ![r.val, 0] (rowInb r) f1 w (chk_row w hw) ft) (ValueIdx.ix2 r col)
      = tbl.view.read (Elt F) ft (ValueIdx.ix2 (⟨w.toNat, hw⟩ : Fin T) col) := by
  refine (read_row m r.val (rowInb r) r.isLt _ col).symm.trans ?_
  have h1 := View.read_writes_cons_emb (rowM m ![r.val, 0] (rowInb r)).view f1 (Rect.whole (SV D))
    (ReadAs.same.apply ((rowM tbl ![w.toNat, 0] (chk_row w hw)).view.read (Elt F) ft)) [] (ValueIdx.ix1 col)
  rw [Rect.emb_whole_apply] at h1
  refine h1.trans ?_
  exact read_row tbl w.toNat (chk_row w hw) hw ft col

/-- A table held whole is a remainder, some spare shares, and one share for each of the 64 copies. -/
theorem toks_list (c : Dev nD) {T n : ℕ} (tbl : Memref sig .tc .hbm (SN T D) .f32) (ft : Buf (Elt F) (tbl.view.loc (c : Thread nD τ)))
    (lS lT : List (Fin n)) (hall : (Finset.univ : Finset (Fin n)) = (lS ++ lT).toFinset) (hnd : (lS ++ lT).Nodup) :
    (tbl.view.loc (c : Thread nD τ) ↦{fullShare} ft : sProp 𝕄)
      = iprop((tbl.view.loc (c : Thread nD τ) ↦{Transfers.shareDrop fullShare n} ft)
          ∗ (bigSepL lS fun k : Fin n => tbl.view.loc (c : Thread nD τ) ↦{Transfers.shareTokN fullShare k.val} ft)
          ∗ bigSepL lT fun k : Fin n => tbl.view.loc (c : Thread nD τ) ↦{Transfers.shareTokN fullShare k.val} ft) := by
  have h : (tbl.view.loc (c : Thread nD τ) ↦[Finset.univ]{fullShare} ft : sProp 𝕄) ⊣⊢ _ := Transfers.pointsTo_toks fullShare n
  rw [bigSep_univ_eq_bigSepL (lS ++ lT) hall hnd, bigSepL_append] at h
  exact equiv_iff.mp ⟨h.1, h.2⟩

end Cert.LibRows

end
-- ==== Proof.GatherRows0.lean ====
import proofs.«405285_j12421045420642_1_alg».proof.Proof.Gather0
import proofs.«405285_j12421045420642_1_alg».proof.Proof.LibRows
import Idealize.ShloMosaic.Lib.Pipeline.FrameBody
import Idealize.ShloMosaic.Lib.Ring
import Idealize.ShloMosaic.Lib.Tactic

set_option maxRecDepth 16384

noncomputable section

namespace Cert.KernelIdeal.GatherRows0

open Cert.KernelIdeal Cert.KernelIdeal.Gen Cert.LibChain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gather0 (idsM tblM HbBuf osem0)
open Cert.LibRows (rowM rowPt landed rowInb chk_row)

variable {F : FTy → Type} [FloatOps F]

local notation "𝕄" => MT nD τ sig Unit (Elt F) ℕ (Pipeline.UD sig nD τ) ℕ

abbrev tokPt (c : Dev nD) (n : ℕ) (f : HbBuf (F := F) c tblM) : sProp 𝕄 :=
  tblM.view.loc (c : Thread nD τ) ↦{Transfers.shareTokN fullShare n} f

theorem word_lt (x0 : Vec F S65536 .i32) (hx0 : ∀ j, (x0 j : BitVec 32).toNat < 50000) (r : LoadRect S65536) (x : r.shape.Idx) :
    (idsM.view.readAt (Elt F) r ((Memref.isWhole_whole _ : (idsM).IsWhole).unread x0) x : BitVec 32).toNat < 50000 := by
  rw [View.readAt_apply, (Memref.isWhole_whole _ : (idsM).IsWhole).read_unread]; exact hx0 _

abbrev wordR (x0 : Vec F S65536 .i32) (off : Fin 1 → Nat) (inb : ∀ a, off a + S1.size a ≤ S65536.size a) : Elt F .i32 :=
  idsM.view.readAt (Elt F) (Rect.unit (s := S65536) off S1.size inb).toLoadRect ((Memref.isWhole_whole _ : (idsM).IsWhole).unread x0)
    (Shape.Idx.first (numel1_S1.symm ▸ Nat.one_pos))

/-- Copy r reads its token word at 64 · i + r, computed on 32-bit words without wrapping. -/
abbrev offW (r : Fin 64) (i : grid0.Coords) : Fin 1 → Nat :=
  ![(Scalar.indexCast (Scalar.addi (Scalar.muli (BitVec.ofNat 32 (i 0).val) 64#32) (BitVec.ofNat 32 r.val))).toNat]

theorem offW_val (r : Fin 64) (i : grid0.Coords) : offW r i 0 = 64 * (i 0).val + r.val := by
  have hi : (i 0).val < 1024 := (i 0).isLt
  have hr := r.isLt
  show ((BitVec.ofNat 32 (i 0).val * 64#32 + BitVec.ofNat 32 r.val : BitVec 32)).toNat = _
  simp only [BitVec.toNat_add, BitVec.toNat_mul, BitVec.toNat_ofNat, Nat.reducePow, Nat.reduceMod]
  omega

theorem offW_inb (r : Fin 64) (i : grid0.Coords) : ∀ a, offW r i a + S1.size a ≤ S65536.size a := by
  have hi : (i 0).val < 1024 := (i 0).isLt
  have hr := r.isLt
  intro a
  match a with
  | ⟨0, _⟩ => show offW r i 0 + 1 ≤ 65536; rw [offW_val]; omega

abbrev landedAt (c : Dev nD) (i : grid0.Coords) (arg3 : Memref sig .tc .vmem S64x128 .f32) (x0 : Vec F S65536 .i32)
    (hx0 : ∀ j, (x0 j : BitVec 32).toNat < 50000) (ft : HbBuf (F := F) c tblM)
    (f1 : Buf (Elt F) (arg3.view.loc (c : Thread nD τ))) (r : Fin 64) : Buf (Elt F) (arg3.view.loc (c : Thread nD τ)) :=
  landed c arg3 tblM ![r.val, 0] (rowInb r) f1 (wordR x0 (offW r i) (offW_inb r i)) (chk_row _ (word_lt x0 hx0 _ _)) ft

set_option maxHeartbeats 4000000 in
/-- Every copy is awaited before any row is read, so the result does not depend on the order in which the copies land. -/
theorem runRows (c : Dev nD) (i : grid0.Coords) (arg3 : Memref sig .tc .vmem S64x128 .f32) (harg3 : arg3.IsWhole)
    (x0 : Vec F S65536 .i32) (hx0 : ∀ j, (x0 j : BitVec 32).toNat < 50000) (ft : HbBuf (F := F) c tblM)
    (f1 : Buf (Elt F) (arg3.view.loc (c : Thread nD τ))) (W : Waits sig Unit) (K : PUnit → sProp 𝕄) :
    iprop(owns (c : Thread nD τ) idsM fullShare x0
        ∗ chainL l64 (fun r : Fin 64 => rowPt c arg3 ![r.val, 0] (rowInb r) f1)
          (chainL l64 (fun k : Fin 64 => semVal ((c : Thread nD τ), osem0 k) 0)
            (chainL lTok0 (fun k : Fin 66 => tokPt c k.val ft)
              iprop(owes (c : Thread nD τ) 0 W
                ∗ (iprop(owns (c : Thread nD τ) idsM fullShare x0
                    ∗ chainL l64 (fun r : Fin 64 => rowPt c arg3 ![r.val, 0] (rowInb r) (landedAt c i arg3 x0 hx0 ft f1 r))
                      (chainL l64 (fun k : Fin 64 => semVal ((c : Thread nD τ), osem0 k) 0)
                        (chainL lTok0 (fun k : Fin 66 => tokPt c k.val ft) iprop(∃ W', owes (c : Thread nD τ) 0 W')))) -∗ K ⟨⟩)))))
      ⊢ wp frame (wpE (defs₀ (F := F)) Variants.none c none) Set.univ
          (cc0_kernel i idsM (Memref.isWhole_whole _) tblM (Memref.isWhole_whole _) arg3 harg3 cc0_scratch0) K := by
  simp only [chainL, l64, lTok0, Fin.val_zero, Fin.val_one, Fin.coe_ofNat_eq_mod, Nat.reduceMod]
  simp only [cc0_kernel_eq_skeleton]; unfold cc0_kernel_skel
  unfold owns
  iintro ⟨⟨%f0, %hf0, H0⟩, Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31, Hr32, Hr33, Hr34, Hr35, Hr36, Hr37, Hr38, Hr39, Hr40, Hr41, Hr42, Hr43, Hr44, Hr45, Hr46, Hr47, Hr48, Hr49, Hr50, Hr51, Hr52, Hr53, Hr54, Hr55, Hr56, Hr57, Hr58, Hr59, Hr60, Hr61, Hr62, Hr63, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Ht45, Ht46, Ht47, Ht48, Ht49, Ht50, Ht51, Ht52, Ht53, Ht54, Ht55, Ht56, Ht57, Ht58, Ht59, Ht60, Ht61, Ht62, Ht63, HW, Hk⟩
  obtain rfl := (Memref.isWhole_whole _ : (idsM).IsWhole).eq_unread hf0
  sl_exec_parts (disch := first | exact ⟨chk_row _ (word_lt x0 hx0 _ _), chk_row _ (word_lt x0 hx0 _ _)⟩ | exact chk_row _ (word_lt x0 hx0 _ _))
  sl_step
  iapply Hk
  isplitl [H0]
  · iexists _; isplitr; · ipureintro; exact (Memref.isWhole_whole _ : (idsM).IsWhole).read_unread _
    iexact H0
  sl_close

end Cert.KernelIdeal.GatherRows0

end
-- ==== Proof.Gather0Run.lean ====
import proofs.«405285_j12421045420642_1_alg».proof.Proof.GatherRows0
import Idealize.ShloMosaic.Lib.Transfers
import Idealize.ShloMosaic.Lib.Writes
import Idealize.ShloMosaic.Lib.Pipeline.Kit
import Idealize.ShloMosaic.Rules.PointsTo

set_option maxRecDepth 16384

noncomputable section

namespace Cert.KernelIdeal.Gather0Run

open Cert.KernelIdeal Cert.KernelIdeal.Gen Cert.LibChain
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gather0 (idsM tblM HbBuf hbPt osem0 wordAt rowsOf)
open Cert.KernelIdeal.GatherRows0 (tokPt wordR word_lt offW offW_val offW_inb landedAt)
open Cert.LibRows (rowM rowPt landed rowInb chk_row rowM_set rows_open rows_join landed_read)

variable {F : FTy → Type} [FloatOps F]

local notation "𝕄" => MT nD τ sig Unit (Elt F) ℕ (Pipeline.UD sig nD τ) ℕ

theorem sems_list (c : Dev nD) :
    (Pipeline.ownSems0 (Ix := Unit) (Name := ℕ) (U := Pipeline.UD sig nD τ) (Lvl := ℕ) (Val := Elt F) (τ := τ) osem0 c : sProp 𝕄)
      = bigSepL l64 fun k : Fin 64 => semVal ((c : Thread nD τ), osem0 k) 0 :=
  Pipeline.ownSems0_eq_of_list c osem0 l64 l64_all l64_nodup

theorem toks_list (c : Dev nD) (ft : HbBuf (F := F) c tblM) :
    (hbPt c tblM ft : sProp 𝕄)
      = iprop((tblM.view.loc (c : Thread nD τ) ↦{Transfers.shareDrop fullShare 66} ft)
          ∗ (bigSepL lSpare0 fun k : Fin 66 => tokPt c k.val ft) ∗ bigSepL lTok0 fun k : Fin 66 => tokPt c k.val ft) :=
  Cert.LibRows.toks_list c tblM ft lSpare0 lTok0 lTok0_all lTok0_nodup

theorem wordR_eq (x0 : Vec F S65536 .i32) (i : grid0.Coords) (r : Fin 64) :
    wordR x0 (offW r i) (offW_inb r i) = wordAt x0 i r := by
  unfold wordAt
  show idsM.view.readAt (Elt F) _ _ _ = _
  rw [View.readAt_apply, (Memref.isWhole_whole _ : (idsM).IsWhole).read_unread]
  congr 1
  funext a
  apply Fin.ext
  match a with
  | ⟨0, _⟩ =>
    show offW r i 0 + 1 * 0 = 64 * (i 0).val + r.val
    rw [offW_val]
    omega

/-- An entry of the block lies in one row, and that row holds what its copy brought. -/
theorem joined_read (c : Dev nD) (i : grid0.Coords) (arg3 : Memref sig .tc .vmem S64x128 .f32) (x0 : Vec F S65536 .i32)
    (hx0 : ∀ j, (x0 j : BitVec 32).toNat < 50000) (ft : HbBuf (F := F) c tblM)
    (f1 g : Buf (Elt F) (arg3.view.loc (c : Thread nD τ)))
    (hg : ∀ r : Fin 64, ∀ j ∈ (rowM arg3 ![r.val, 0] (rowInb r)).view.set, g j = landedAt c i arg3 x0 hx0 ft f1 r j) :
    arg3.view.read (Elt F) g = rowsOf i x0 (tblM.view.read (Elt F) ft) := by
  funext y
  obtain ⟨r, col, rfl⟩ : ∃ (r : Fin 64) (col : Fin 128), y = ValueIdx.ix2 r col := ⟨y 0, y 1, ValueIdx.eq_ix2 y⟩
  have hmem : arg3.view.emb (ValueIdx.ix2 r col) ∈ (rowM arg3 ![r.val, 0] (rowInb r)).view.set := by
    rw [rowM_set]
    refine Finset.mem_map_of_mem _ (Rect.mem_set_unit.mpr fun a => ?_)
    match a with
    | ⟨0, _⟩ => exact ⟨Nat.le_refl _, by show r.val < r.val + 1; omega⟩
    | ⟨1, _⟩ => exact ⟨Nat.zero_le _, by show col.val < 0 + 128; have := col.isLt; omega⟩
  refine (View.read_congr_at (ValueIdx.ix2 r col) (hg r _ hmem)).trans ?_
  have hw : (wordR x0 (offW r i) (offW_inb r i) : BitVec 32).toNat < 50000 := word_lt x0 hx0 _ _
  refine (landed_read c arg3 tblM r f1 _ hw ft col).trans ?_
  show tblM.view.read (Elt F) ft _ = tblM.view.read (Elt F) ft (ValueIdx.ix2 (Cert.RegionSpec.rowOf (wordAt x0 i r)) col)
  refine congrArg (fun p => tblM.view.read (Elt F) ft (ValueIdx.ix2 p col)) (Fin.ext ?_)
  show (wordR x0 (offW r i) (offW_inb r i) : BitVec 32).toNat = (Cert.RegionSpec.rowOf (wordAt x0 i r)).val
  have hwa : (wordAt x0 i r : BitVec 32).toNat < 50000 := hx0 _
  rw [Cert.RegionSpec.rowOf_val_of_lt hwa, wordR_eq]

theorem run_grouped (c : Dev nD) (i : grid0.Coords) (arg3 : Memref sig .tc .vmem S64x128 .f32) (harg3 : arg3.IsWhole)
    (x0 : Vec F S65536 .i32) (hx0 : ∀ j, (x0 j : BitVec 32).toNat < 50000) (ft : HbBuf (F := F) c tblM)
    (f1 : Buf (Elt F) (arg3.view.loc (c : Thread nD τ))) (W : Waits sig Unit) (K : PUnit → sProp 𝕄) :
    iprop(owns (c : Thread nD τ) idsM fullShare x0
        ∗ (bigSepL l64 fun r : Fin 64 => rowPt c arg3 ![r.val, 0] (rowInb r) f1)
        ∗ (bigSepL l64 fun k : Fin 64 => semVal ((c : Thread nD τ), osem0 k) 0)
        ∗ (bigSepL lTok0 fun k : Fin 66 => tokPt c k.val ft)
        ∗ owes (c : Thread nD τ) 0 W
        ∗ (iprop(owns (c : Thread nD τ) idsM fullShare x0
            ∗ (bigSepL l64 fun r : Fin 64 => rowPt c arg3 ![r.val, 0] (rowInb r) (landedAt c i arg3 x0 hx0 ft f1 r))
            ∗ (bigSepL l64 fun k : Fin 64 => semVal ((c : Thread nD τ), osem0 k) 0)
            ∗ (bigSepL lTok0 fun k : Fin 66 => tokPt c k.val ft)
            ∗ (∃ W', owes (c : Thread nD τ) 0 W')) -∗ K ⟨⟩))
      ⊢ wp frame (wpE (defs₀ (F := F)) Variants.none c none) Set.univ
          (cc0_kernel i idsM (Memref.isWhole_whole _) tblM (Memref.isWhole_whole _) arg3 harg3 cc0_scratch0) K := by
  refine BIBase.Entails.trans ?_ (Cert.KernelIdeal.GatherRows0.runRows c i arg3 harg3 x0 hx0 ft f1 W K)
  refine sep_mono .rfl (chain_intro _ _ (chain_intro _ _ (chain_intro _ _ (sep_mono .rfl (wand_mono ?_ .rfl)))))
  exact sep_mono .rfl (chain_elim _ _ (chain_elim _ _ (chain_elim _ _ .rfl)))

theorem rows_close (c : Dev nD) (i : grid0.Coords) (arg3 : Memref sig .tc .vmem S64x128 .f32) (x0 : Vec F S65536 .i32)
    (hx0 : ∀ j, (x0 j : BitVec 32).toNat < 50000) (ft : HbBuf (F := F) c tblM)
    (f1 : Buf (Elt F) (arg3.view.loc (c : Thread nD τ))) :
    (bigSepL l64 fun r : Fin 64 => rowPt c arg3 ![r.val, 0] (rowInb r) (landedAt c i arg3 x0 hx0 ft f1 r) : sProp 𝕄)
      ⊢ owns (c : Thread nD τ) arg3 fullShare (rowsOf i x0 (tblM.view.read (Elt F) ft)) := by
  refine (rows_join c arg3 (landedAt c i arg3 x0 hx0 ft f1)).trans ?_
  unfold owns
  iintro ⟨%g, %hg, H⟩
  iexists g
  isplitr
  · ipureintro; exact joined_read c i arg3 x0 hx0 ft f1 g hg
  · iexact H

set_option maxHeartbeats 1000000 in
/-- The block splits into its rows and the table's share into one share per copy; after the run both are joined back. -/
theorem kernelRun0 (c : Dev nD) (i : grid0.Coords) (arg3 : Memref sig .tc .vmem S64x128 .f32) (harg3 : arg3.IsWhole)
    (x0 : Vec F S65536 .i32) (hx0 : ∀ j, (x0 j : BitVec 32).toNat < 50000) (ft : HbBuf (F := F) c tblM)
    (W : Waits sig Unit) (K : PUnit → sProp 𝕄) :
    iprop(owns (c : Thread nD τ) idsM fullShare x0 ∗ (∃ d, owns (c : Thread nD τ) arg3 fullShare d)
        ∗ Pipeline.ownSems0 (Ix := Unit) (Name := ℕ) (U := Pipeline.UD sig nD τ) (Lvl := ℕ) (Val := Elt F) (τ := τ) osem0 c
        ∗ hbPt c tblM ft ∗ owes (c : Thread nD τ) 0 W
        ∗ (iprop(owns (c : Thread nD τ) idsM fullShare x0 ∗ owns (c : Thread nD τ) arg3 fullShare (rowsOf i x0 (tblM.view.read (Elt F) ft))
            ∗ Pipeline.ownSems0 (Ix := Unit) (Name := ℕ) (U := Pipeline.UD sig nD τ) (Lvl := ℕ) (Val := Elt F) (τ := τ) osem0 c
            ∗ hbPt c tblM ft ∗ (∃ W', owes (c : Thread nD τ) 0 W')) -∗ K ⟨⟩))
      ⊢ wp frame (wpE (defs₀ (F := F)) Variants.none c none) Set.univ
          (cc0_kernel i idsM (Memref.isWhole_whole _) tblM (Memref.isWhole_whole _) arg3 harg3 cc0_scratch0) K := by
  rw [sems_list c, toks_list c ft]
  iintro ⟨Hids, Harg, Hsems, ⟨Hrem, Hspare, Htoks⟩, Howes, HK⟩
  ihave Hrows := (rows_open c arg3) $$ Harg
  icases Hrows with ⟨%f1, Hrows⟩
  iapply (run_grouped c i arg3 harg3 x0 hx0 ft f1 W K)
  isplitl [Hids]; · iexact Hids
  isplitl [Hrows]; · iexact Hrows
  isplitl [Hsems]; · iexact Hsems
  isplitl [Htoks]; · iexact Htoks
  isplitl [Howes]; · iexact Howes
  iintro ⟨Hids, Hrows, Hsems, Htoks, HW⟩
  iapply HK
  isplitl [Hids]; · iexact Hids
  isplitl [Hrows]
  · iapply (rows_close c i arg3 x0 hx0 ft f1); iexact Hrows
  isplitl [Hsems]; · iexact Hsems
  isplitl [Hrem Hspare Htoks]
  · isplitl [Hrem]; · iexact Hrem
    isplitl [Hspare]; · iexact Hspare
    iexact Htoks
  iexact HW

end Cert.KernelIdeal.Gather0Run

end
-- ==== Proof.Gather0Dat.lean ====
import proofs.«405285_j12421045420642_1_alg».proof.Proof.Gather0Run

set_option maxRecDepth 16384

noncomputable section

namespace Cert.KernelIdeal.Gather0

open Cert.KernelIdeal Cert.KernelIdeal.Gen Cert.KernelIdeal.Gather0Run
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem ownSemFacts0 : Pipeline.OwnSemFacts spec0 osem0 := by decide

def H0 : Finset (Ref sig .tc) := {main_arg1}
theorem H0_sub : H0 ⊆ Pipeline.restRefsP sig pre0 spec0 := by decide

theorem hbmPts0_eq (c : Dev nD) :
    (bigSep H0 (fun b => ((c : Thread nD τ).loc b) ↦{fullShare} V c b) : sProp 𝕄) = iprop(hbPt c tblM (V c main_arg1)) := by
  rw [BI.bigSep_eq_bigSepL_of_eq [main_arg1] (by decide) (by decide)]; rfl

theorem prefHeld0_eq (c : Dev nD) (T : pre0.Contents (Elt F)) :
    (Pipeline.prefHeld (Ix := Unit) (Name := ℕ) (U := Pipeline.UD sig nD τ) (Lvl := ℕ) pre0 c (fun _ => fullShare) T : sProp 𝕄)
      = iprop(hbPt c idsM (T 0)) := by
  unfold Pipeline.prefHeld; rw [bigSep_W0]; rfl

abbrev Inv0 (c : Dev nD) : sProp 𝕄 :=
  iprop(Pipeline.ΦD osem0 spec0 H0 V c
    ∗ Pipeline.prefHeld (Ix := Unit) (Name := ℕ) (U := Pipeline.UD sig nD τ) (Lvl := ℕ) pre0 c (fun _ => fullShare) (fun k => V c (pre0.ref k)))

def dat0 (a : (pcfg0 (F := F)).Adm) (c : Dev nD) : Dat τ (Elt F) Unit ℕ (Pipeline.UD sig nD τ) ℕ (cfg0 a) c where
  A w := V c (Pipeline.arrRef spec0 w)
  after w t := match w with
    | ⟨0, _⟩ => rowsOf ((cfg0 a).grid.coords t) (V c main_v0) (tblM.view.read (Elt F) (V c main_arg1))
  Φ _ := Inv0 V c
  q _ := fullShare
  owed _ := 0

theorem A_eq0 (a : (pcfg0 (F := F)).Adm) (c : Dev nD) (w : Fin (cfg0 a).W) : (dat0 V a c).A w = V c (Pipeline.arrRef spec0 w) := by
  dsimp only [dat0]

theorem after0_0 (a : (pcfg0 (F := F)).Adm) (c : Dev nD) (t : Fin (cfg0 a).N) :
    (dat0 V a c).after 0 t = rowsOf ((cfg0 a).grid.coords t) (V c main_v0) (tblM.view.read (Elt F) (V c main_arg1)) := by
  dsimp only [dat0]; rfl

abbrev st0_0 (a : (pcfg0 (F := F)).Adm) (t : Fin (cfg0 a).N) : Memref sig .tc .vmem S64x128 .f32 := spec0_0.stage ((cfg0 a).slots t 0)
abbrev hst0_0 (a : (pcfg0 (F := F)).Adm) (t : Fin (cfg0 a).N) : (st0_0 a t).IsWhole := hstage0_0 (((cfg0 a).slots t 0).cast nbuf0_0)
abbrev bodyAt0 (a : (pcfg0 (F := F)).Adm) (t : Fin (cfg0 a).N) : Prog (TpuEff nD τ sig (Elt F) Λ₀ .tc) PUnit :=
  cc0_kernel (grid0.coords t) idsM (Memref.isWhole_whole _) tblM (Memref.isWhole_whole _) (st0_0 a t) (hst0_0 a t) cc0_scratch0

theorem kernelRun0_pt (c : Dev nD) (i : grid0.Coords) (arg3 : Memref sig .tc .vmem S64x128 .f32) (harg3 : arg3.IsWhole)
    (x0 : Vec F S65536 .i32) (hx0 : ∀ j, (x0 j : BitVec 32).toNat < 50000) (ft : HbBuf (F := F) c tblM)
    (W : Waits sig Unit) (K : PUnit → sProp 𝕄) :
    iprop(hbPt c idsM x0 ∗ (∃ d, owns (c : Thread nD τ) arg3 fullShare d)
        ∗ Pipeline.ownSems0 (Ix := Unit) (Name := ℕ) (U := Pipeline.UD sig nD τ) (Lvl := ℕ) (Val := Elt F) (τ := τ) osem0 c
        ∗ hbPt c tblM ft ∗ owes (c : Thread nD τ) 0 W
        ∗ (iprop(hbPt c idsM x0 ∗ owns (c : Thread nD τ) arg3 fullShare (rowsOf i x0 (tblM.view.read (Elt F) ft))
            ∗ Pipeline.ownSems0 (Ix := Unit) (Name := ℕ) (U := Pipeline.UD sig nD τ) (Lvl := ℕ) (Val := Elt F) (τ := τ) osem0 c
            ∗ hbPt c tblM ft ∗ (∃ W', owes (c : Thread nD τ) 0 W')) -∗ K ⟨⟩))
      ⊢ wp frame (wpE (defs₀ (F := F)) Variants.none c none) Set.univ
          (cc0_kernel i idsM (Memref.isWhole_whole _) tblM (Memref.isWhole_whole _) arg3 harg3 cc0_scratch0) K := by
  have h := kernelRun0 c i arg3 harg3 x0 hx0 ft W K
  rw [owns_whole (c : Thread nD τ) main_v0 fullShare x0] at h
  exact h

def bodyPre0 (a : (pcfg0 (F := F)).Adm) (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d)))

def bodyPost0 (a : (pcfg0 (F := F)).Adm) (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t))

theorem sound_body0 (hin : ∀ (c : Dev nD) (j : S65536.Idx), ((V c main_v0 : S65536.Idx → BitVec 32) j).toNat < 50000)
    (a : (pcfg0 (F := F)).Adm) (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  rw [show (dat0 V a c).Φ t.succ = (dat0 V a c).Φ t.castSucc from rfl, after0_0]
  rw [show (dat0 V a c).Φ t.castSucc = Inv0 V c from rfl]
  unfold Inv0
  rw [Pipeline.ΦD_eq, hbmPts0_eq, prefHeld0_eq]
  unfold Dat.owesAt Pipeline.owesWithin
  rw [show (dat0 V a c).owed t.castSucc = 0 from rfl, show (dat0 V a c).owed t.succ = 0 from rfl]
  iintro ⟨⟨⟨HR, Hg, Hq, Hh⟩, Ht⟩, ⟨%W, -, HW⟩, ⟨%d0, H0⟩⟩
  iapply (kernelRun0_pt c (grid0.coords t) (st0_0 a t) (hst0_0 a t) (V c main_v0) (hin c) (V c main_arg1) W _)
  isplitl [Ht]; · iexact Ht
  isplitl [H0]; · iexists _; iexact H0
  isplitl [Hq]; · iexact Hq
  isplitl [Hh]; · iexact Hh
  isplitl [HW]; · iexact HW
  iintro ⟨Ht, H0, Hq, Hh, ⟨%W', HW'⟩⟩
  isplitl [HR Hg Hq Hh Ht]
  · isplitr [Ht]
    · isplitl [HR]; · iexact HR
      isplitl [Hg]; · iexact Hg
      isplitl [Hq]; · iexact Hq
      iexact Hh
    · iexact Ht
  isplitl [HW']
  · iexists W'; isplitr; · ipureintro; exact fun _ _ => Or.inl trivial
    iexact HW'
  iexact H0

theorem body_obligation0 (hin : ∀ (c : Dev nD) (j : S65536.Idx), ((V c main_v0 : S65536.Idx → BitVec 32) j).toNat < 50000)
    (a : (pcfg0 (F := F)).Adm) (c : Dev nD) :
    BodyObligation (dat0 (F := F) V a c) (defs₀ (F := F)) Variants.none () Set.univ := fun t => by
  rw [bigSep_W0, bigSep_W0]
  exact sound_body0 V hin a c t

end Cert.KernelIdeal.Gather0

end
-- ==== Proof.Gather1.lean ====
import proofs.«405285_j12421045420642_1_alg».proof.Proof.Gen.KernelIdeal.Launch
import proofs.«405285_j12421045420642_1_alg».proof.Proof.Gen.KernelIdeal.Skeleton
import proofs.«405285_j12421045420642_1_alg».proof.Proof.Gen.KernelIdeal.Points
import proofs.«405285_j12421045420642_1_alg».proof.Proof.RegionSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Gather1

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev idsM : Memref sig .tc .smem S65344 .i32 := Memref.whole main_v4
abbrev tblM : Memref sig .tc .hbm S50000x896 .f32 := Memref.whole main_arg2

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev osem1 : Fin 64 → SemLoc sig := fun j => SemLoc.dma ⟨68 + j.val, by have := j.isLt; show 68 + j.val < 138; omega⟩

def wordAt (x0 : Vec F S65344 .i32) (i : grid1.Coords) (r : Fin 64) : BitVec 32 :=
  x0 (ValueIdx.ix1 ⟨64 * (i 0).val + r.val, by have h : (i 0).val < 1021 := (i 0).isLt; have := r.isLt; omega⟩)

def rowsOf (i : grid1.Coords) (x0 : Vec F S65344 .i32) (T : S50000x896.Idx → Elt F .f32) : Vec F S64x896 .f32 :=
  fun y => T (ValueIdx.ix2 (Cert.RegionSpec.rowOf (wordAt x0 i (y 0))) (y 1))

end Cert.KernelIdeal.Gather1

end
-- ==== Proof.GatherRows1.lean ====
import proofs.«405285_j12421045420642_1_alg».proof.Proof.Gather1
import proofs.«405285_j12421045420642_1_alg».proof.Proof.LibRows
import Idealize.ShloMosaic.Lib.Pipeline.FrameBody
import Idealize.ShloMosaic.Lib.Ring
import Idealize.ShloMosaic.Lib.Tactic

set_option maxRecDepth 16384

noncomputable section

namespace Cert.KernelIdeal.GatherRows1

open Cert.KernelIdeal Cert.KernelIdeal.Gen Cert.LibChain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gather1 (idsM tblM HbBuf osem1)
open Cert.LibRows (rowM rowPt landed rowInb chk_row)

variable {F : FTy → Type} [FloatOps F]

local notation "𝕄" => MT nD τ sig Unit (Elt F) ℕ (Pipeline.UD sig nD τ) ℕ

abbrev tokPt (c : Dev nD) (n : ℕ) (f : HbBuf (F := F) c tblM) : sProp 𝕄 :=
  tblM.view.loc (c : Thread nD τ) ↦{Transfers.shareTokN fullShare n} f

theorem word_lt (x0 : Vec F S65344 .i32) (hx0 : ∀ j, (x0 j : BitVec 32).toNat < 50000) (r : LoadRect S65344) (x : r.shape.Idx) :
    (idsM.view.readAt (Elt F) r ((Memref.isWhole_whole _ : (idsM).IsWhole).unread x0) x : BitVec 32).toNat < 50000 := by
  rw [View.readAt_apply, (Memref.isWhole_whole _ : (idsM).IsWhole).read_unread]; exact hx0 _

abbrev wordR (x0 : Vec F S65344 .i32) (off : Fin 1 → Nat) (inb : ∀ a, off a + S1.size a ≤ S65344.size a) : Elt F .i32 :=
  idsM.view.readAt (Elt F) (Rect.unit (s := S65344) off S1.size inb).toLoadRect ((Memref.isWhole_whole _ : (idsM).IsWhole).unread x0)
    (Shape.Idx.first (numel1_S1.symm ▸ Nat.one_pos))

/-- Copy r reads its token word at 64 · i + r, computed on 32-bit words without wrapping. -/
abbrev offW (r : Fin 64) (i : grid1.Coords) : Fin 1 → Nat :=
  ![(Scalar.indexCast (Scalar.addi (Scalar.muli (BitVec.ofNat 32 (i 0).val) 64#32) (BitVec.ofNat 32 r.val))).toNat]

theorem offW_val (r : Fin 64) (i : grid1.Coords) : offW r i 0 = 64 * (i 0).val + r.val := by
  have hi : (i 0).val < 1021 := (i 0).isLt
  have hr := r.isLt
  show ((BitVec.ofNat 32 (i 0).val * 64#32 + BitVec.ofNat 32 r.val : BitVec 32)).toNat = _
  simp only [BitVec.toNat_add, BitVec.toNat_mul, BitVec.toNat_ofNat, Nat.reducePow, Nat.reduceMod]
  omega

theorem offW_inb (r : Fin 64) (i : grid1.Coords) : ∀ a, offW r i a + S1.size a ≤ S65344.size a := by
  have hi : (i 0).val < 1021 := (i 0).isLt
  have hr := r.isLt
  intro a
  match a with
  | ⟨0, _⟩ => show offW r i 0 + 1 ≤ 65344; rw [offW_val]; omega

abbrev landedAt (c : Dev nD) (i : grid1.Coords) (arg3 : Memref sig .tc .vmem S64x896 .f32) (x0 : Vec F S65344 .i32)
    (hx0 : ∀ j, (x0 j : BitVec 32).toNat < 50000) (ft : HbBuf (F := F) c tblM)
    (f1 : Buf (Elt F) (arg3.view.loc (c : Thread nD τ))) (r : Fin 64) : Buf (Elt F) (arg3.view.loc (c : Thread nD τ)) :=
  landed c arg3 tblM ![r.val, 0] (rowInb r) f1 (wordR x0 (offW r i) (offW_inb r i)) (chk_row _ (word_lt x0 hx0 _ _)) ft

set_option maxHeartbeats 4000000 in
/-- Every copy is awaited before any row is read, so the result does not depend on the order in which the copies land. -/
theorem runRows (c : Dev nD) (i : grid1.Coords) (arg3 : Memref sig .tc .vmem S64x896 .f32) (harg3 : arg3.IsWhole)
    (x0 : Vec F S65344 .i32) (hx0 : ∀ j, (x0 j : BitVec 32).toNat < 50000) (ft : HbBuf (F := F) c tblM)
    (f1 : Buf (Elt F) (arg3.view.loc (c : Thread nD τ))) (W : Waits sig Unit) (K : PUnit → sProp 𝕄) :
    iprop(owns (c : Thread nD τ) idsM fullShare x0
        ∗ chainL l64 (fun r : Fin 64 => rowPt c arg3 ![r.val, 0] (rowInb r) f1)
          (chainL l64 (fun k : Fin 64 => semVal ((c : Thread nD τ), osem1 k) 0)
            (chainL lTok1 (fun k : Fin 132 => tokPt c k.val ft)
              iprop(owes (c : Thread nD τ) 0 W
                ∗ (iprop(owns (c : Thread nD τ) idsM fullShare x0
                    ∗ chainL l64 (fun r : Fin 64 => rowPt c arg3 ![r.val, 0] (rowInb r) (landedAt c i arg3 x0 hx0 ft f1 r))
                      (chainL l64 (fun k : Fin 64 => semVal ((c : Thread nD τ), osem1 k) 0)
                        (chainL lTok1 (fun k : Fin 132 => tokPt c k.val ft) iprop(∃ W', owes (c : Thread nD τ) 0 W')))) -∗ K ⟨⟩)))))
      ⊢ wp frame (wpE (defs₀ (F := F)) Variants.none c none) Set.univ
          (cc1_kernel i idsM (Memref.isWhole_whole _) tblM (Memref.isWhole_whole _) arg3 harg3 cc1_scratch0) K := by
  simp only [chainL, l64, lTok1, Fin.val_zero, Fin.val_one, Fin.coe_ofNat_eq_mod, Nat.reduceMod]
  simp only [cc1_kernel_eq_skeleton]; unfold cc1_kernel_skel
  unfold owns
  iintro ⟨⟨%f0, %hf0, H1⟩, Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31, Hr32, Hr33, Hr34, Hr35, Hr36, Hr37, Hr38, Hr39, Hr40, Hr41, Hr42, Hr43, Hr44, Hr45, Hr46, Hr47, Hr48, Hr49, Hr50, Hr51, Hr52, Hr53, Hr54, Hr55, Hr56, Hr57, Hr58, Hr59, Hr60, Hr61, Hr62, Hr63, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Ht45, Ht46, Ht47, Ht48, Ht49, Ht50, Ht51, Ht52, Ht53, Ht54, Ht55, Ht56, Ht57, Ht58, Ht59, Ht60, Ht61, Ht62, Ht63, HW, Hk⟩
  obtain rfl := (Memref.isWhole_whole _ : (idsM).IsWhole).eq_unread hf0
  sl_exec_parts (disch := first | exact ⟨chk_row _ (word_lt x0 hx0 _ _), chk_row _ (word_lt x0 hx0 _ _)⟩ | exact chk_row _ (word_lt x0 hx0 _ _))
  sl_step
  iapply Hk
  isplitl [H1]
  · iexists _; isplitr; · ipureintro; exact (Memref.isWhole_whole _ : (idsM).IsWhole).read_unread _
    iexact H1
  sl_close

end Cert.KernelIdeal.GatherRows1

end
-- ==== Proof.Gather1Run.lean ====
import proofs.«405285_j12421045420642_1_alg».proof.Proof.GatherRows1
import Idealize.ShloMosaic.Lib.Transfers
import Idealize.ShloMosaic.Lib.Writes
import Idealize.ShloMosaic.Lib.Pipeline.Kit
import Idealize.ShloMosaic.Rules.PointsTo

set_option maxRecDepth 16384

noncomputable section

namespace Cert.KernelIdeal.Gather1Run

open Cert.KernelIdeal Cert.KernelIdeal.Gen Cert.LibChain
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gather1 (idsM tblM HbBuf hbPt osem1 wordAt rowsOf)
open Cert.KernelIdeal.GatherRows1 (tokPt wordR word_lt offW offW_val offW_inb landedAt)
open Cert.LibRows (rowM rowPt landed rowInb chk_row rowM_set rows_open rows_join landed_read)

variable {F : FTy → Type} [FloatOps F]

local notation "𝕄" => MT nD τ sig Unit (Elt F) ℕ (Pipeline.UD sig nD τ) ℕ

theorem sems_list (c : Dev nD) :
    (Pipeline.ownSems0 (Ix := Unit) (Name := ℕ) (U := Pipeline.UD sig nD τ) (Lvl := ℕ) (Val := Elt F) (τ := τ) osem1 c : sProp 𝕄)
      = bigSepL l64 fun k : Fin 64 => semVal ((c : Thread nD τ), osem1 k) 0 :=
  Pipeline.ownSems0_eq_of_list c osem1 l64 l64_all l64_nodup

theorem toks_list (c : Dev nD) (ft : HbBuf (F := F) c tblM) :
    (hbPt c tblM ft : sProp 𝕄)
      = iprop((tblM.view.loc (c : Thread nD τ) ↦{Transfers.shareDrop fullShare 132} ft)
          ∗ (bigSepL lSpare1 fun k : Fin 132 => tokPt c k.val ft) ∗ bigSepL lTok1 fun k : Fin 132 => tokPt c k.val ft) :=
  Cert.LibRows.toks_list c tblM ft lSpare1 lTok1 lTok1_all lTok1_nodup

theorem wordR_eq (x0 : Vec F S65344 .i32) (i : grid1.Coords) (r : Fin 64) :
    wordR x0 (offW r i) (offW_inb r i) = wordAt x0 i r := by
  unfold wordAt
  show idsM.view.readAt (Elt F) _ _ _ = _
  rw [View.readAt_apply, (Memref.isWhole_whole _ : (idsM).IsWhole).read_unread]
  congr 1
  funext a
  apply Fin.ext
  match a with
  | ⟨0, _⟩ =>
    show offW r i 0 + 1 * 0 = 64 * (i 0).val + r.val
    rw [offW_val]
    omega

/-- An entry of the block lies in one row, and that row holds what its copy brought. -/
theorem joined_read (c : Dev nD) (i : grid1.Coords) (arg3 : Memref sig .tc .vmem S64x896 .f32) (x0 : Vec F S65344 .i32)
    (hx0 : ∀ j, (x0 j : BitVec 32).toNat < 50000) (ft : HbBuf (F := F) c tblM)
    (f1 g : Buf (Elt F) (arg3.view.loc (c : Thread nD τ)))
    (hg : ∀ r : Fin 64, ∀ j ∈ (rowM arg3 ![r.val, 0] (rowInb r)).view.set, g j = landedAt c i arg3 x0 hx0 ft f1 r j) :
    arg3.view.read (Elt F) g = rowsOf i x0 (tblM.view.read (Elt F) ft) := by
  funext y
  obtain ⟨r, col, rfl⟩ : ∃ (r : Fin 64) (col : Fin 896), y = ValueIdx.ix2 r col := ⟨y 0, y 1, ValueIdx.eq_ix2 y⟩
  have hmem : arg3.view.emb (ValueIdx.ix2 r col) ∈ (rowM arg3 ![r.val, 0] (rowInb r)).view.set := by
    rw [rowM_set]
    refine Finset.mem_map_of_mem _ (Rect.mem_set_unit.mpr fun a => ?_)
    match a with
    | ⟨0, _⟩ => exact ⟨Nat.le_refl _, by show r.val < r.val + 1; omega⟩
    | ⟨1, _⟩ => exact ⟨Nat.zero_le _, by show col.val < 0 + 896; have := col.isLt; omega⟩
  refine (View.read_congr_at (ValueIdx.ix2 r col) (hg r _ hmem)).trans ?_
  have hw : (wordR x0 (offW r i) (offW_inb r i) : BitVec 32).toNat < 50000 := word_lt x0 hx0 _ _
  refine (landed_read c arg3 tblM r f1 _ hw ft col).trans ?_
  show tblM.view.read (Elt F) ft _ = tblM.view.read (Elt F) ft (ValueIdx.ix2 (Cert.RegionSpec.rowOf (wordAt x0 i r)) col)
  refine congrArg (fun p => tblM.view.read (Elt F) ft (ValueIdx.ix2 p col)) (Fin.ext ?_)
  show (wordR x0 (offW r i) (offW_inb r i) : BitVec 32).toNat = (Cert.RegionSpec.rowOf (wordAt x0 i r)).val
  have hwa : (wordAt x0 i r : BitVec 32).toNat < 50000 := hx0 _
  rw [Cert.RegionSpec.rowOf_val_of_lt hwa, wordR_eq]

theorem run_grouped (c : Dev nD) (i : grid1.Coords) (arg3 : Memref sig .tc .vmem S64x896 .f32) (harg3 : arg3.IsWhole)
    (x0 : Vec F S65344 .i32) (hx0 : ∀ j, (x0 j : BitVec 32).toNat < 50000) (ft : HbBuf (F := F) c tblM)
    (f1 : Buf (Elt F) (arg3.view.loc (c : Thread nD τ))) (W : Waits sig Unit) (K : PUnit → sProp 𝕄) :
    iprop(owns (c : Thread nD τ) idsM fullShare x0
        ∗ (bigSepL l64 fun r : Fin 64 => rowPt c arg3 ![r.val, 0] (rowInb r) f1)
        ∗ (bigSepL l64 fun k : Fin 64 => semVal ((c : Thread nD τ), osem1 k) 0)
        ∗ (bigSepL lTok1 fun k : Fin 132 => tokPt c k.val ft)
        ∗ owes (c : Thread nD τ) 0 W
        ∗ (iprop(owns (c : Thread nD τ) idsM fullShare x0
            ∗ (bigSepL l64 fun r : Fin 64 => rowPt c arg3 ![r.val, 0] (rowInb r) (landedAt c i arg3 x0 hx0 ft f1 r))
            ∗ (bigSepL l64 fun k : Fin 64 => semVal ((c : Thread nD τ), osem1 k) 0)
            ∗ (bigSepL lTok1 fun k : Fin 132 => tokPt c k.val ft)
            ∗ (∃ W', owes (c : Thread nD τ) 0 W')) -∗ K ⟨⟩))
      ⊢ wp frame (wpE (defs₀ (F := F)) Variants.none c none) Set.univ
          (cc1_kernel i idsM (Memref.isWhole_whole _) tblM (Memref.isWhole_whole _) arg3 harg3 cc1_scratch0) K := by
  refine BIBase.Entails.trans ?_ (Cert.KernelIdeal.GatherRows1.runRows c i arg3 harg3 x0 hx0 ft f1 W K)
  refine sep_mono .rfl (chain_intro _ _ (chain_intro _ _ (chain_intro _ _ (sep_mono .rfl (wand_mono ?_ .rfl)))))
  exact sep_mono .rfl (chain_elim _ _ (chain_elim _ _ (chain_elim _ _ .rfl)))

theorem rows_close (c : Dev nD) (i : grid1.Coords) (arg3 : Memref sig .tc .vmem S64x896 .f32) (x0 : Vec F S65344 .i32)
    (hx0 : ∀ j, (x0 j : BitVec 32).toNat < 50000) (ft : HbBuf (F := F) c tblM)
    (f1 : Buf (Elt F) (arg3.view.loc (c : Thread nD τ))) :
    (bigSepL l64 fun r : Fin 64 => rowPt c arg3 ![r.val, 0] (rowInb r) (landedAt c i arg3 x0 hx0 ft f1 r) : sProp 𝕄)
      ⊢ owns (c : Thread nD τ) arg3 fullShare (rowsOf i x0 (tblM.view.read (Elt F) ft)) := by
  refine (rows_join c arg3 (landedAt c i arg3 x0 hx0 ft f1)).trans ?_
  unfold owns
  iintro ⟨%g, %hg, H⟩
  iexists g
  isplitr
  · ipureintro; exact joined_read c i arg3 x0 hx0 ft f1 g hg
  · iexact H

set_option maxHeartbeats 1000000 in
/-- The block splits into its rows and the table's share into one share per copy; after the run both are joined back. -/
theorem kernelRun1 (c : Dev nD) (i : grid1.Coords) (arg3 : Memref sig .tc .vmem S64x896 .f32) (harg3 : arg3.IsWhole)
    (x0 : Vec F S65344 .i32) (hx0 : ∀ j, (x0 j : BitVec 32).toNat < 50000) (ft : HbBuf (F := F) c tblM)
    (W : Waits sig Unit) (K : PUnit → sProp 𝕄) :
    iprop(owns (c : Thread nD τ) idsM fullShare x0 ∗ (∃ d, owns (c : Thread nD τ) arg3 fullShare d)
        ∗ Pipeline.ownSems0 (Ix := Unit) (Name := ℕ) (U := Pipeline.UD sig nD τ) (Lvl := ℕ) (Val := Elt F) (τ := τ) osem1 c
        ∗ hbPt c tblM ft ∗ owes (c : Thread nD τ) 0 W
        ∗ (iprop(owns (c : Thread nD τ) idsM fullShare x0 ∗ owns (c : Thread nD τ) arg3 fullShare (rowsOf i x0 (tblM.view.read (Elt F) ft))
            ∗ Pipeline.ownSems0 (Ix := Unit) (Name := ℕ) (U := Pipeline.UD sig nD τ) (Lvl := ℕ) (Val := Elt F) (τ := τ) osem1 c
            ∗ hbPt c tblM ft ∗ (∃ W', owes (c : Thread nD τ) 0 W')) -∗ K ⟨⟩))
      ⊢ wp frame (wpE (defs₀ (F := F)) Variants.none c none) Set.univ
          (cc1_kernel i idsM (Memref.isWhole_whole _) tblM (Memref.isWhole_whole _) arg3 harg3 cc1_scratch0) K := by
  rw [sems_list c, toks_list c ft]
  iintro ⟨Hids, Harg, Hsems, ⟨Hrem, Hspare, Htoks⟩, Howes, HK⟩
  ihave Hrows := (rows_open c arg3) $$ Harg
  icases Hrows with ⟨%f1, Hrows⟩
  iapply (run_grouped c i arg3 harg3 x0 hx0 ft f1 W K)
  isplitl [Hids]; · iexact Hids
  isplitl [Hrows]; · iexact Hrows
  isplitl [Hsems]; · iexact Hsems
  isplitl [Htoks]; · iexact Htoks
  isplitl [Howes]; · iexact Howes
  iintro ⟨Hids, Hrows, Hsems, Htoks, HW⟩
  iapply HK
  isplitl [Hids]; · iexact Hids
  isplitl [Hrows]
  · iapply (rows_close c i arg3 x0 hx0 ft f1); iexact Hrows
  isplitl [Hsems]; · iexact Hsems
  isplitl [Hrem Hspare Htoks]
  · isplitl [Hrem]; · iexact Hrem
    isplitl [Hspare]; · iexact Hspare
    iexact Htoks
  iexact HW

end Cert.KernelIdeal.Gather1Run

end
-- ==== Proof.Gather1Dat.lean ====
import proofs.«405285_j12421045420642_1_alg».proof.Proof.Gather1Run

set_option maxRecDepth 16384

noncomputable section

namespace Cert.KernelIdeal.Gather1

open Cert.KernelIdeal Cert.KernelIdeal.Gen Cert.KernelIdeal.Gather1Run
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem ownSemFacts1 : Pipeline.OwnSemFacts spec1 osem1 := by decide

def H1 : Finset (Ref sig .tc) := {main_arg2}
theorem H1_sub : H1 ⊆ Pipeline.restRefsP sig pre1 spec1 := by decide

theorem hbmPts1_eq (c : Dev nD) :
    (bigSep H1 (fun b => ((c : Thread nD τ).loc b) ↦{fullShare} V c b) : sProp 𝕄) = iprop(hbPt c tblM (V c main_arg2)) := by
  rw [BI.bigSep_eq_bigSepL_of_eq [main_arg2] (by decide) (by decide)]; rfl

theorem prefHeld1_eq (c : Dev nD) (T : pre1.Contents (Elt F)) :
    (Pipeline.prefHeld (Ix := Unit) (Name := ℕ) (U := Pipeline.UD sig nD τ) (Lvl := ℕ) pre1 c (fun _ => fullShare) T : sProp 𝕄)
      = iprop(hbPt c idsM (T 0)) := by
  unfold Pipeline.prefHeld; rw [bigSep_W1]; rfl

abbrev Inv1 (c : Dev nD) : sProp 𝕄 :=
  iprop(Pipeline.ΦD osem1 spec1 H1 V c
    ∗ Pipeline.prefHeld (Ix := Unit) (Name := ℕ) (U := Pipeline.UD sig nD τ) (Lvl := ℕ) pre1 c (fun _ => fullShare) (fun k => V c (pre1.ref k)))

def dat1 (a : (pcfg1 (F := F)).Adm) (c : Dev nD) : Dat τ (Elt F) Unit ℕ (Pipeline.UD sig nD τ) ℕ (cfg1 a) c where
  A w := V c (Pipeline.arrRef spec1 w)
  after w t := match w with
    | ⟨0, _⟩ => rowsOf ((cfg1 a).grid.coords t) (V c main_v4) (tblM.view.read (Elt F) (V c main_arg2))
  Φ _ := Inv1 V c
  q _ := fullShare
  owed _ := 0

theorem A_eq1 (a : (pcfg1 (F := F)).Adm) (c : Dev nD) (w : Fin (cfg1 a).W) : (dat1 V a c).A w = V c (Pipeline.arrRef spec1 w) := by
  dsimp only [dat1]

theorem after1_0 (a : (pcfg1 (F := F)).Adm) (c : Dev nD) (t : Fin (cfg1 a).N) :
    (dat1 V a c).after 0 t = rowsOf ((cfg1 a).grid.coords t) (V c main_v4) (tblM.view.read (Elt F) (V c main_arg2)) := by
  dsimp only [dat1]; rfl

abbrev st1_0 (a : (pcfg1 (F := F)).Adm) (t : Fin (cfg1 a).N) : Memref sig .tc .vmem S64x896 .f32 := spec1_0.stage ((cfg1 a).slots t 0)
abbrev hst1_0 (a : (pcfg1 (F := F)).Adm) (t : Fin (cfg1 a).N) : (st1_0 a t).IsWhole := hstage1_0 (((cfg1 a).slots t 0).cast nbuf1_0)
abbrev bodyAt1 (a : (pcfg1 (F := F)).Adm) (t : Fin (cfg1 a).N) : Prog (TpuEff nD τ sig (Elt F) Λ₀ .tc) PUnit :=
  cc1_kernel (grid1.coords t) idsM (Memref.isWhole_whole _) tblM (Memref.isWhole_whole _) (st1_0 a t) (hst1_0 a t) cc1_scratch0

theorem kernelRun1_pt (c : Dev nD) (i : grid1.Coords) (arg3 : Memref sig .tc .vmem S64x896 .f32) (harg3 : arg3.IsWhole)
    (x0 : Vec F S65344 .i32) (hx0 : ∀ j, (x0 j : BitVec 32).toNat < 50000) (ft : HbBuf (F := F) c tblM)
    (W : Waits sig Unit) (K : PUnit → sProp 𝕄) :
    iprop(hbPt c idsM x0 ∗ (∃ d, owns (c : Thread nD τ) arg3 fullShare d)
        ∗ Pipeline.ownSems0 (Ix := Unit) (Name := ℕ) (U := Pipeline.UD sig nD τ) (Lvl := ℕ) (Val := Elt F) (τ := τ) osem1 c
        ∗ hbPt c tblM ft ∗ owes (c : Thread nD τ) 0 W
        ∗ (iprop(hbPt c idsM x0 ∗ owns (c : Thread nD τ) arg3 fullShare (rowsOf i x0 (tblM.view.read (Elt F) ft))
            ∗ Pipeline.ownSems0 (Ix := Unit) (Name := ℕ) (U := Pipeline.UD sig nD τ) (Lvl := ℕ) (Val := Elt F) (τ := τ) osem1 c
            ∗ hbPt c tblM ft ∗ (∃ W', owes (c : Thread nD τ) 0 W')) -∗ K ⟨⟩))
      ⊢ wp frame (wpE (defs₀ (F := F)) Variants.none c none) Set.univ
          (cc1_kernel i idsM (Memref.isWhole_whole _) tblM (Memref.isWhole_whole _) arg3 harg3 cc1_scratch0) K := by
  have h := kernelRun1 c i arg3 harg3 x0 hx0 ft W K
  rw [owns_whole (c : Thread nD τ) main_v4 fullShare x0] at h
  exact h

def bodyPre1 (a : (pcfg1 (F := F)).Adm) (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d)))

def bodyPost1 (a : (pcfg1 (F := F)).Adm) (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t))

theorem sound_body1 (hin : ∀ (c : Dev nD) (j : S65344.Idx), ((V c main_v4 : S65344.Idx → BitVec 32) j).toNat < 50000)
    (a : (pcfg1 (F := F)).Adm) (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  rw [show (dat1 V a c).Φ t.succ = (dat1 V a c).Φ t.castSucc from rfl, after1_0]
  rw [show (dat1 V a c).Φ t.castSucc = Inv1 V c from rfl]
  unfold Inv1
  rw [Pipeline.ΦD_eq, hbmPts1_eq, prefHeld1_eq]
  unfold Dat.owesAt Pipeline.owesWithin
  rw [show (dat1 V a c).owed t.castSucc = 0 from rfl, show (dat1 V a c).owed t.succ = 0 from rfl]
  iintro ⟨⟨⟨HR, Hg, Hq, Hh⟩, Ht⟩, ⟨%W, -, HW⟩, ⟨%d0, H1⟩⟩
  iapply (kernelRun1_pt c (grid1.coords t) (st1_0 a t) (hst1_0 a t) (V c main_v4) (hin c) (V c main_arg2) W _)
  isplitl [Ht]; · iexact Ht
  isplitl [H1]; · iexists _; iexact H1
  isplitl [Hq]; · iexact Hq
  isplitl [Hh]; · iexact Hh
  isplitl [HW]; · iexact HW
  iintro ⟨Ht, H1, Hq, Hh, ⟨%W', HW'⟩⟩
  isplitl [HR Hg Hq Hh Ht]
  · isplitr [Ht]
    · isplitl [HR]; · iexact HR
      isplitl [Hg]; · iexact Hg
      isplitl [Hq]; · iexact Hq
      iexact Hh
    · iexact Ht
  isplitl [HW']
  · iexists W'; isplitr; · ipureintro; exact fun _ _ => Or.inl trivial
    iexact HW'
  iexact H1

theorem body_obligation1 (hin : ∀ (c : Dev nD) (j : S65344.Idx), ((V c main_v4 : S65344.Idx → BitVec 32) j).toNat < 50000)
    (a : (pcfg1 (F := F)).Adm) (c : Dev nD) :
    BodyObligation (dat1 (F := F) V a c) (defs₀ (F := F)) Variants.none () Set.univ := fun t => by
  rw [bigSep_W1, bigSep_W1]
  exact sound_body1 V hin a c t

end Cert.KernelIdeal.Gather1

end
-- ==== Proof.Pool.lean ====
import proofs.«405285_j12421045420642_1_alg».proof.Proof.Gen.KernelIdeal.Launch
import proofs.«405285_j12421045420642_1_alg».proof.Proof.Gen.KernelIdeal.Skeleton
import proofs.«405285_j12421045420642_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem held2_0 {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem held2_1 {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev allX : Rect S1x2048x128 := Rect.unit (s := S1x2048x128) ![0, 0, 0] S1x2048x128.size inb_S1x2048x128_S1x2048x128_0_0_0

abbrev allY : Rect S1x2042x896 := Rect.unit (s := S1x2042x896) ![0, 0, 0] S1x2042x896.size inb_S1x2042x896_S1x2042x896_0_0_0

abbrev allZ : Rect S1x2042x128 := Rect.unit (s := S1x2042x128) ![0, 0, 0] S1x2042x128.size inb_S1x2042x128_S1x2042x128_0_0_0

def out2_2 (x0 : Vec F S1x2048x128 .f32) (x1 : Vec F S1x2042x896 .f32) : Vec F S1x2042x128 .f32 :=
  View.canon [⟨allZ, k2_pay1 (View.ld x0 allX) (View.ld x1 allY)⟩]

theorem store_fills (p : Vec F S1x2042x128 .f32) (y : S1x2042x128.Idx) :
    ∃ pc ∈ ([⟨allZ, p⟩] : List (View.Piece (Elt F) S1x2042x128 .f32)), y ∈ pc.1.set :=
  View.cover_of_tiled [⟨allZ, p⟩] S1x2042x128.size (by rfl) y

set_option maxHeartbeats 1000000 in
theorem kernel_triple2 (c : Dev nD) (E : Set ℕ) (i : grid2.Coords)
    (arg1 : Memref sig .tc .vmem S1x2048x128 .f32) (harg1 : arg1.IsWhole)
    (arg2 : Memref sig .tc .vmem S1x2042x896 .f32) (harg2 : arg2.IsWhole)
    (arg3 : Memref sig .tc .vmem S1x2042x128 .f32) (harg3 : arg3.IsWhole)
    (x0 : Vec F S1x2048x128 .f32) (x1 : Vec F S1x2042x896 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_fills _)

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  held2_0 V (dat2 V c) (A_eq2 V c 0) (after2_0 V c) t d
theorem before2_1 (c : Dev nD) (t : Fin cfg2.N) (d) : (dat2 V c).before 1 t d = iblk2 V c 1 t :=
  held2_1 V (dat2 V c) (A_eq2 V c 1) (after2_1 V c) t d

def pointPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def pointPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem point_triple2 (c : Dev nD) (t : Fin cfg2.N) :
    pointPre2 V c t ⊢ wp frame (wpE (defs₀ (F := F)) Variants.none c none) Set.univ (bodyAt2 t) (fun _ => pointPost2 V c t) := by
  unfold pointPre2 pointPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (kernel_triple2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact point_triple2 V c t

end Cert.KernelIdeal.Pool

end
-- ==== Proof.Assemble.lean ====
import proofs.«405285_j12421045420642_1_alg».proof.Proof.Gather0Dat
import proofs.«405285_j12421045420642_1_alg».proof.Proof.Gather1Dat
import proofs.«405285_j12421045420642_1_alg».proof.Proof.Pool
import proofs.«405285_j12421045420642_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Assemble

open Cert.KernelIdeal
open Cert.KernelIdeal.Gen hiding V0 V1 V2 V3 V4 V5 V6 segs seg0 seg2 seg4
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev V0 : (c : Dev nD) → (b : Ref sig .tc) → Buf (Elt F) ((c : Thread nD τ).loc b) := fun c b => W0 m ρ c b

abbrev W1 (c : Dev nD) : Valuation τ sig (Elt F) := StableHlo.after hostOps0 (W0 m ρ c)
abbrev V1 : (c : Dev nD) → (b : Ref sig .tc) → Buf (Elt F) ((c : Thread nD τ).loc b) := fun c b => W1 m ρ c b

def adm0 : (pcfg0 (F := F)).Adm := ⟨fun k => V1 m ρ 0 (pre0.ref k), trivial⟩

def W2 (c : Dev nD) : Valuation τ sig (Elt F) :=
  Pipeline.withArrays spec0 c (W1 m ρ c) fun w => (Gather0.dat0 (V1 m ρ) (adm0 m ρ) c).arrAt w (cfg0 (adm0 m ρ)).N
theorem W2_arr (c : Dev nD) (w : Fin (cfg0 (adm0 m ρ)).W) :
    W2 m ρ c (Proc.devRef .tc (Pipeline.arrRef spec0 w)) = (Gather0.dat0 (V1 m ρ) (adm0 m ρ) c).arrAt w (cfg0 (adm0 m ρ)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin (cfg0 (adm0 m ρ)).W) :
    (Gather0.dat0 (V1 m ρ) (adm0 m ρ) c).arrAt w (cfg0 (adm0 m ρ)).N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 (c : Dev nD) : Valuation τ sig (Elt F) := StableHlo.after hostOps1 (W2 m ρ c)
abbrev V3 : (c : Dev nD) → (b : Ref sig .tc) → Buf (Elt F) ((c : Thread nD τ).loc b) := fun c b => W3 m ρ c b

def adm1 : (pcfg1 (F := F)).Adm := ⟨fun k => V3 m ρ 0 (pre1.ref k), trivial⟩

def W4 (c : Dev nD) : Valuation τ sig (Elt F) :=
  Pipeline.withArrays spec1 c (W3 m ρ c) fun w => (Gather1.dat1 (V3 m ρ) (adm1 m ρ) c).arrAt w (cfg1 (adm1 m ρ)).N
theorem W4_arr (c : Dev nD) (w : Fin (cfg1 (adm1 m ρ)).W) :
    W4 m ρ c (Proc.devRef .tc (Pipeline.arrRef spec1 w)) = (Gather1.dat1 (V3 m ρ) (adm1 m ρ) c).arrAt w (cfg1 (adm1 m ρ)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin (cfg1 (adm1 m ρ)).W) :
    (Gather1.dat1 (V3 m ρ) (adm1 m ρ) c).arrAt w (cfg1 (adm1 m ρ)).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 (c : Dev nD) : Valuation τ sig (Elt F) := StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (Pool.dat2 (V5 m ρ) c).arrAt w cfg2.N
theorem W6_arr (c : Dev nD) (w : Fin cfg2.W) :
    W6 m ρ c (Proc.devRef .tc (Pipeline.arrRef spec2 w)) = (Pool.dat2 (V5 m ρ) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (Pool.dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

theorem W6_of_arg (c : Dev nD) (b : Ref sig .tc) (h2 : ∀ w, Pipeline.arrRef spec2 w ≠ b) (h1 : ∀ w, Pipeline.arrRef spec1 w ≠ b)
    (h0 : ∀ w, Pipeline.arrRef spec0 w ≠ b) (hw2 : b ∉ hostOps2_W) (hw1 : b ∉ hostOps1_W) (hw0 : b ∉ hostOps0_W) :
    W6 m ρ c (Proc.devRef .tc b) = m ((c : Thread nD τ).loc b) :=
  calc W6 m ρ c (Proc.devRef .tc b)
    _ = W5 m ρ c (Proc.devRef .tc b) := W6_of_ne m ρ c b h2
    _ = W4 m ρ c (Proc.devRef .tc b) := StableHlo.after_of_writes_sub hostOps2 _ hostOps2_writes hw2
    _ = W3 m ρ c (Proc.devRef .tc b) := W4_of_ne m ρ c b h1
    _ = W2 m ρ c (Proc.devRef .tc b) := StableHlo.after_of_writes_sub hostOps1 _ hostOps1_writes hw1
    _ = W1 m ρ c (Proc.devRef .tc b) := W2_of_ne m ρ c b h0
    _ = W0 m ρ c (Proc.devRef .tc b) := StableHlo.after_of_writes_sub hostOps0 _ hostOps0_writes hw0
    _ = m ((c : Thread nD τ).loc b) := rfl
theorem W6_main_arg0 (c : Dev nD) : W6 m ρ c (Proc.devRef .tc main_arg0) = m ((c : Thread nD τ).loc main_arg0) :=
  W6_of_arg m ρ c main_arg0 (by decide) (by decide) (by decide) (by decide) (by decide) (by decide)
theorem W6_main_arg1 (c : Dev nD) : W6 m ρ c (Proc.devRef .tc main_arg1) = m ((c : Thread nD τ).loc main_arg1) :=
  W6_of_arg m ρ c main_arg1 (by decide) (by decide) (by decide) (by decide) (by decide) (by decide)
theorem W6_main_arg2 (c : Dev nD) : W6 m ρ c (Proc.devRef .tc main_arg2) = m ((c : Thread nD τ).loc main_arg2) :=
  W6_of_arg m ρ c main_arg2 (by decide) (by decide) (by decide) (by decide) (by decide) (by decide)
theorem W6_main_v7 (c : Dev nD) : W6 m ρ c (Proc.devRef .tc main_v7) = (Pool.dat2 (V5 m ρ) c).arrAt 2 cfg2.N :=
  W6_arr m ρ c 2

abbrev adm : (p : Fin 3) → (pcfgs (F := F) p).Adm
  | ⟨0, _⟩ => adm0 m ρ
  | ⟨1, _⟩ => adm1 m ρ
  | ⟨2, _⟩ => cfg2.toPCfg_adm

def pdats : (p : Fin 3) → (c : Dev nD) → Dat τ (Elt F) Unit ℕ (Pipeline.UD sig nD τ) ℕ (Pipeline.pin (pcfgs (F := F)) (adm m ρ) p) c
  | ⟨0, _⟩ => fun c => Gather0.dat0 (V1 m ρ) (adm0 m ρ) c
  | ⟨1, _⟩ => fun c => Gather1.dat1 (V3 m ρ) (adm1 m ρ) c
  | ⟨2, _⟩ => fun c => Pool.dat2 (V5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W6 m ρ c) ∗ ∃ r, prngReg c r)

set_option backward.isDefEq.respectTransparency.types false in
def reg0 (hin0 : ∀ (c : Dev nD) (j : S65536.Idx), ((V1 m ρ c main_v0 : S65536.Idx → BitVec 32) j).toNat < 50000) :
    Pipeline.RegionSeg (pcfgs (F := F)) (adm m ρ) (pdats m ρ) () defs₀ 𝒱₀ L lv 0 where
  win := (launch0 (F := F)).win.to₀
  block_pos := (launch0 (F := F)).block_pos
  stage_whole := (launch0 (F := F)).stage_whole
  K := Fin 64
  osem := Gather0.osem0
  ho := Gather0.ownSemFacts0
  hbody c := (Gather0.body_obligation0 (V1 m ρ) hin0 (adm0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop((∃ r, prngReg c r) ∗ Pipeline.ownSems0 (Ix := Unit) (Name := ℕ) (U := Pipeline.UD sig nD τ) (Lvl := ℕ) (Val := Elt F) (τ := τ) Gather0.osem0 c
    ∗ (bigSep Gather0.H0 fun b => (((c : Thread nD τ)).loc b) ↦{fullShare} V1 m ρ c b))
  Y c := iprop((∃ r, prngReg c r) ∗ (bigSep Gather0.H0 fun b => (((c : Thread nD τ)).loc b) ↦{fullShare} V1 m ρ c b)
    ∗ Pipeline.prefHeld (Ix := Unit) (Name := ℕ) (U := Pipeline.UD sig nD τ) (Lvl := ℕ) pre0 c (fun _ => fullShare) (fun k => V1 m ρ c (pre0.ref k)))
  Z c := bigSep (Pipeline.restRefsP sig pre0 spec0 \ Gather0.H0) fun b => (((c : Thread nD τ)).loc b) ↦{fullShare} V1 m ρ c b
  hentry c := by
    obtain rfl : c = 0 := Subsingleton.elim _ _
    have hsplit := Pipeline.arrays_of_unscopedBufs (p := 0) (pcfgs (F := F)) (adm m ρ) (pdats m ρ) (launch0 (F := F)).win (launch0 (F := F)).arr_whole 0
      ((pdats m ρ 0 0).share_full fun _ => rfl) (V1 m ρ 0) fun _ => rfl
    rw [Pipeline.unscopedBufs_held] at hsplit
    have hT := Pipeline.unscopedRest_split (Ix := Unit) (Name := ℕ) (U := Pipeline.UD sig nD τ) (Lvl := ℕ) (launch0 (F := F)).pre 0 (V1 m ρ 0)
    have hH := Pipeline.unscopedRestP_sdiff pre0 spec0 Gather0.H0 Gather0.H0_sub 0 (V1 m ρ 0)
    iintro ⟨⟨Hub, Hp, HO⟩, Hos, -⟩
    ihave H := hsplit $$ Hub
    icases H with ⟨Ha, Hrest⟩
    ihave H' := (Entails.of_eq hT) $$ Hrest
    icases H' with ⟨Ht, Hrest⟩
    ihave H'' := (Entails.of_eq hH) $$ Hrest
    icases H'' with ⟨HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    obtain rfl : c = 0 := Subsingleton.elim _ _
    rw [show (pdats m ρ 0 0).Φ 0 = Gather0.Inv0 (V1 m ρ) 0 from rfl]
    unfold Gather0.Inv0
    rw [Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m ρ 0 c).Φ (Fin.last _) = Gather0.Inv0 (V1 m ρ) c from rfl]
    unfold Gather0.Inv0
    rw [Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 0) (pcfgs (F := F)) (adm m ρ) (Ix := Unit) (Name := ℕ) (U := Pipeline.UD sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · (cfg0 (adm0 m ρ)).N) (hF0 m ρ c) (hrest0 m ρ c)
    rw [Pipeline.unscopedBufs_held] at hjoin
    have hT := Pipeline.unscopedRest_split (Ix := Unit) (Name := ℕ) (U := Pipeline.UD sig nD τ) (Lvl := ℕ) (launch0 (F := F)).pre c (V1 m ρ c)
    have hH := Pipeline.unscopedRestP_sdiff pre0 spec0 Gather0.H0 Gather0.H0_sub c (V1 m ρ c)
    iintro ⟨Ha, HO, ⟨HY, HH, Ht⟩, HR⟩
    ihave Hrest := (Entails.of_eq hH.symm) $$ [HH HR]
    · isplitl [HH]; · iexact HH
      iexact HR
    ihave Hrest' := (Entails.of_eq hT.symm) $$ [Ht Hrest]
    · isplitl [Ht]; · iexact Ht
      iexact Hrest
    imodintro
    isplitl [Ha Hrest']
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 (hin1 : ∀ (c : Dev nD) (j : S65344.Idx), ((V3 m ρ c main_v4 : S65344.Idx → BitVec 32) j).toNat < 50000) :
    Pipeline.RegionSeg (pcfgs (F := F)) (adm m ρ) (pdats m ρ) () defs₀ 𝒱₀ L lv 1 where
  win := (launch1 (F := F)).win.to₀
  block_pos := (launch1 (F := F)).block_pos
  stage_whole := (launch1 (F := F)).stage_whole
  K := Fin 64
  osem := Gather1.osem1
  ho := Gather1.ownSemFacts1
  hbody c := (Gather1.body_obligation1 (V3 m ρ) hin1 (adm1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop((∃ r, prngReg c r) ∗ Pipeline.ownSems0 (Ix := Unit) (Name := ℕ) (U := Pipeline.UD sig nD τ) (Lvl := ℕ) (Val := Elt F) (τ := τ) Gather1.osem1 c
    ∗ (bigSep Gather1.H1 fun b => (((c : Thread nD τ)).loc b) ↦{fullShare} V3 m ρ c b))
  Y c := iprop((∃ r, prngReg c r) ∗ (bigSep Gather1.H1 fun b => (((c : Thread nD τ)).loc b) ↦{fullShare} V3 m ρ c b)
    ∗ Pipeline.prefHeld (Ix := Unit) (Name := ℕ) (U := Pipeline.UD sig nD τ) (Lvl := ℕ) pre1 c (fun _ => fullShare) (fun k => V3 m ρ c (pre1.ref k)))
  Z c := bigSep (Pipeline.restRefsP sig pre1 spec1 \ Gather1.H1) fun b => (((c : Thread nD τ)).loc b) ↦{fullShare} V3 m ρ c b
  hentry c := by
    obtain rfl : c = 0 := Subsingleton.elim _ _
    have hsplit := Pipeline.arrays_of_unscopedBufs (p := 1) (pcfgs (F := F)) (adm m ρ) (pdats m ρ) (launch1 (F := F)).win (launch1 (F := F)).arr_whole 0
      ((pdats m ρ 1 0).share_full fun _ => rfl) (V3 m ρ 0) fun _ => rfl
    rw [Pipeline.unscopedBufs_held] at hsplit
    have hT := Pipeline.unscopedRest_split (Ix := Unit) (Name := ℕ) (U := Pipeline.UD sig nD τ) (Lvl := ℕ) (launch1 (F := F)).pre 0 (V3 m ρ 0)
    have hH := Pipeline.unscopedRestP_sdiff pre1 spec1 Gather1.H1 Gather1.H1_sub 0 (V3 m ρ 0)
    iintro ⟨⟨Hub, Hp, HO⟩, Hos, -⟩
    ihave H := hsplit $$ Hub
    icases H with ⟨Ha, Hrest⟩
    ihave H' := (Entails.of_eq hT) $$ Hrest
    icases H' with ⟨Ht, Hrest⟩
    ihave H'' := (Entails.of_eq hH) $$ Hrest
    icases H'' with ⟨HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    obtain rfl : c = 0 := Subsingleton.elim _ _
    rw [show (pdats m ρ 1 0).Φ 0 = Gather1.Inv1 (V3 m ρ) 0 from rfl]
    unfold Gather1.Inv1
    rw [Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m ρ 1 c).Φ (Fin.last _) = Gather1.Inv1 (V3 m ρ) c from rfl]
    unfold Gather1.Inv1
    rw [Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 1) (pcfgs (F := F)) (adm m ρ) (Ix := Unit) (Name := ℕ) (U := Pipeline.UD sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · (cfg1 (adm1 m ρ)).N) (hF1 m ρ c) (hrest1 m ρ c)
    rw [Pipeline.unscopedBufs_held] at hjoin
    have hT := Pipeline.unscopedRest_split (Ix := Unit) (Name := ℕ) (U := Pipeline.UD sig nD τ) (Lvl := ℕ) (launch1 (F := F)).pre c (V3 m ρ c)
    have hH := Pipeline.unscopedRestP_sdiff pre1 spec1 Gather1.H1 Gather1.H1_sub c (V3 m ρ c)
    iintro ⟨Ha, HO, ⟨HY, HH, Ht⟩, HR⟩
    ihave Hrest := (Entails.of_eq hH.symm) $$ [HH HR]
    · isplitl [HH]; · iexact HH
      iexact HR
    ihave Hrest' := (Entails.of_eq hT.symm) $$ [Ht Hrest]
    · isplitl [Ht]; · iexact Ht
      iexact Hrest
    imodintro
    isplitl [Ha Hrest']
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) (adm m ρ) (pdats m ρ) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (Pool.body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) (adm m ρ) (pdats m ρ) (launch2 (F := F)).win (launch2 (F := F)).arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m ρ) (Ix := Unit) (Name := ℕ) (U := Pipeline.UD sig nD τ) (Lvl := ℕ)
      (launch2 (F := F)).win (launch2 (F := F)).arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs (hin0 : ∀ (c : Dev nD) (j : S65536.Idx), ((V1 m ρ c main_v0 : S65536.Idx → BitVec 32) j).toNat < 50000)
    (hin1 : ∀ (c : Dev nD) (j : S65344.Idx), ((V3 m ρ c main_v4 : S65344.Idx → BitVec 32) j).toNat < 50000) :
    List (Pipeline.Seg (pcfgs (F := F)) (adm m ρ) (pdats m ρ) () defs₀ 𝒱₀ L lv) :=
  [ .host (hseg hostOps0 hostOps0_sub hostOps0_fresh (W0 m ρ)),
    .region (reg0 m ρ hin0),
    .host (hseg hostOps1 hostOps1_sub hostOps1_fresh (W2 m ρ)),
    .region (reg1 m ρ hin1),
    .host (hseg hostOps2 hostOps2_sub hostOps2_fresh (W4 m ρ)),
    .region (reg2 m ρ) ]

theorem main_run (hin0 : ∀ (c : Dev nD) (j : S65536.Idx), ((V1 m ρ c main_v0 : S65536.Idx → BitVec 32) j).toNat < 50000)
    (hin1 : ∀ (c : Dev nD) (j : S65344.Idx), ((V3 m ρ c main_v4 : S65344.Idx → BitVec 32) j).toNat < 50000) (c : Dev nD) :
    main (F := F) c = Pipeline.Seg.run (segs m ρ hin0 hin1) := (main_chain c).trans (by chain_rfl)

set_option backward.isDefEq.respectTransparency.types false in
theorem run_main (hin0 : ∀ (c : Dev nD) (j : S65536.Idx), ((V1 m ρ c main_v0 : S65536.Idx → BitVec 32) j).toNat < 50000)
    (hin1 : ∀ (c : Dev nD) (j : S65344.Idx), ((V3 m ρ c main_v4 : S65344.Idx → BitVec 32) j).toNat < 50000) :
    θ_run defs (onTc (τ := τ) (main (F := F))) ⟨m, fun _ => 0, ρ⟩ (fun r => ∀ c : Dev nD, ∀ b ∈ Pipeline.ucRefs τ sig,
      r.2.mem (((c : Thread nD τ)).1, b) = W6 m ρ c b) :=
  Pipeline.θ_run_regions_kit (pcfgs (F := F)) (adm m ρ) (pdats m ρ) () (cellOf_inj (adm m ρ)) embL defs₀ 𝒱₀ L lv m ρ main (segs m ρ hin0 hin1)
    (fun c Q => by rw [main_run m ρ hin0 hin1 c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m ρ)) (cellOf_inj (adm m ρ)))
      (Pipeline.launchToks (Pipeline.pin (pcfgs (F := F)) (adm m ρ)) (cellOf_inj (adm m ρ))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Assemble

end
-- ==== Proof.HostReads.lean ====
import proofs.«405285_j12421045420642_1_alg».proof.Proof.Gen.KernelIdeal.Launch
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

theorem ops0_v0 : StableHlo.after hostOps0 W (Proc.devRef .tc main_v0)
    = shapeCast S65536 (W (Proc.devRef .tc main_arg0)) shapeCasts_S32x2048_S65536 := by after_results; rfl

theorem ops0_arg0 : StableHlo.after hostOps0 W (Proc.devRef .tc main_arg0) = W (Proc.devRef .tc main_arg0) := by after_results
theorem ops0_arg1 : StableHlo.after hostOps0 W (Proc.devRef .tc main_arg1) = W (Proc.devRef .tc main_arg1) := by after_results
theorem ops0_arg2 : StableHlo.after hostOps0 W (Proc.devRef .tc main_arg2) = W (Proc.devRef .tc main_arg2) := by after_results

theorem ops1_v2 : StableHlo.after hostOps1 W (Proc.devRef .tc main_v2)
    = shapeCast S32x2048x128 (W (Proc.devRef .tc main_v1)) shapeCasts_S65536x128_S32x2048x128 := by after_results; rfl

theorem ops1_v4 : StableHlo.after hostOps1 W (Proc.devRef .tc main_v4)
    = shapeCast S65344 (extractStridedSlice S32x2042 ![0, 3] (W (Proc.devRef .tc main_arg0)) slices_S32x2048_S32x2042_0_3) shapeCasts_S32x2042_S65344 := by
  after_results; rfl

theorem ops1_arg0 : StableHlo.after hostOps1 W (Proc.devRef .tc main_arg0) = W (Proc.devRef .tc main_arg0) := by after_results
theorem ops1_arg2 : StableHlo.after hostOps1 W (Proc.devRef .tc main_arg2) = W (Proc.devRef .tc main_arg2) := by after_results

theorem ops2_v6 : StableHlo.after hostOps2 W (Proc.devRef .tc main_v6)
    = shapeCast S32x2042x896 (W (Proc.devRef .tc main_v5)) shapeCasts_S65344x896_S32x2042x896 := by after_results; rfl
theorem ops2_v2 : StableHlo.after hostOps2 W (Proc.devRef .tc main_v2) = W (Proc.devRef .tc main_v2) := by after_results

end Cert.KernelIdeal.HostReads

end
-- ==== Proof.ValueChain.lean ====
import proofs.«405285_j12421045420642_1_alg».proof.Proof.RegionSpec
import Idealize.ShloMosaic.Lib.ValueIdx
import Idealize.ShloMosaic.Lib.Pipeline.Value
import Idealize.ShloMosaic.Lib.ValueLayout
import Idealize.ShloMosaic.PureOps.Ideal

noncomputable section

namespace Cert.ValueChain

open Idealize.ShloMosaic Idealize.ShloMosaic.ValueIdx
open Cert.RegionSpec (SIds SWord SCtx rowOf pos slab term regionAt)

abbrev SFlatIds : Shape := ⟨1, ![65536]⟩

abbrev SFlatWord : Shape := ⟨2, ![65536, 128]⟩

abbrev SWordRows : Shape := ⟨3, ![32, 2048, 128]⟩

abbrev SCentre : Shape := ⟨2, ![32, 2042]⟩

abbrev SFlatCentre : Shape := ⟨1, ![65344]⟩

abbrev SFlatCtx : Shape := ⟨2, ![65344, 896]⟩

abbrev SCtxRows : Shape := ⟨3, ![32, 2042, 896]⟩

section Steps
variable (ids : SIds.Idx → BitVec 32) (we : SWord.Idx → EReal) (ce : SCtx.Idx → EReal)
variable (h0 : SIds.ShapeCasts SFlatIds) (h2 : SFlatWord.ShapeCasts SWordRows)
variable (hs : SIds.Slices ![0, 3] SCentre) (h4 : SCentre.ShapeCasts SFlatCentre) (h6 : SFlatCtx.ShapeCasts SCtxRows)

def flatIds : SFlatIds.Idx → BitVec 32 := shapeCast SFlatIds ids h0

def flatWord : SFlatWord.Idx → EReal :=
  fun j => we (ix2 (rowOf (flatIds ids h0 (ix1 (j 0 : Fin 65536)))) (j 1 : Fin 128))

def wordRows : SWordRows.Idx → EReal := shapeCast SWordRows (flatWord ids we h0) h2

def centre : SCentre.Idx → BitVec 32 := extractStridedSlice SCentre ![0, 3] ids hs

def flatCentre : SFlatCentre.Idx → BitVec 32 := shapeCast SFlatCentre (centre ids hs) h4

def flatCtx : SFlatCtx.Idx → EReal :=
  fun j => ce (ix2 (rowOf (flatCentre ids hs h4 (ix1 (j 0 : Fin 65344)))) (j 1 : Fin 896))

def ctxRows : SCtxRows.Idx → EReal := shapeCast SCtxRows (flatCtx ids ce hs h4) h6

theorem flatIds_at (b : Fin 32) (s : Fin 2048) (q : Fin 65536) (hq : q.val = b.val * 2048 + s.val) :
    flatIds ids h0 (ix1 q) = ids (ix2 b s) := by
  unfold flatIds
  exact shapeCast_apply ids h0 (ix1 q) (ix2 b s) (by
    rw [Shape.rowMajor_val_two, Shape.rowMajor_val_one]
    show b.val * 2048 + s.val = q.val
    exact hq.symm)

theorem wordRows_at (b : Fin 32) (s : Fin 2048) (d : Fin 128) :
    wordRows ids we h0 h2 (ix3 b s d) = we (ix2 (rowOf (ids (ix2 b s))) d) := by
  have hb := b.isLt
  have hsl := s.isLt
  unfold wordRows
  rw [shapeCast_apply (flatWord ids we h0) h2 (ix3 b s d) (ix2 (⟨b.val * 2048 + s.val, by omega⟩ : Fin 65536) d) (by
    rw [Shape.rowMajor_val_two, Shape.rowMajor_val_three]
    rfl)]
  show we (ix2 (rowOf (flatIds ids h0 (ix1 (⟨b.val * 2048 + s.val, _⟩ : Fin 65536)))) d) = _
  rw [flatIds_at ids h0 b s _ rfl]

theorem centre_at (b : Fin 32) (l : Fin 2042) (s : Fin 2048) (hsl : s.val = l.val + 3) :
    centre ids hs (ix2 b l) = ids (ix2 b s) := by
  unfold centre
  exact slice2_axis1_apply 3 ids hs b l s (by omega)

theorem flatCentre_at (b : Fin 32) (l : Fin 2042) (q : Fin 65344) (hq : q.val = b.val * 2042 + l.val) :
    flatCentre ids hs h4 (ix1 q) = centre ids hs (ix2 b l) := by
  unfold flatCentre
  exact shapeCast_apply (centre ids hs) h4 (ix1 q) (ix2 b l) (by
    rw [Shape.rowMajor_val_two, Shape.rowMajor_val_one]
    show b.val * 2042 + l.val = q.val
    exact hq.symm)

theorem ctxRows_at (b : Fin 32) (l : Fin 2042) (k : Fin 896) (s : Fin 2048) (hsl : s.val = l.val + 3) :
    ctxRows ids ce hs h4 h6 (ix3 b l k) = ce (ix2 (rowOf (ids (ix2 b s))) k) := by
  have hb := b.isLt
  have hl := l.isLt
  unfold ctxRows
  rw [shapeCast_apply (flatCtx ids ce hs h4) h6 (ix3 b l k) (ix2 (⟨b.val * 2042 + l.val, by omega⟩ : Fin 65344) k) (by
    rw [Shape.rowMajor_val_two, Shape.rowMajor_val_three]
    rfl)]
  show ce (ix2 (rowOf (flatCentre ids hs h4 (ix1 (⟨b.val * 2042 + l.val, _⟩ : Fin 65344)))) k) = _
  rw [flatCentre_at ids hs h4 b l _ rfl, centre_at ids hs b l s hsl]

theorem range_flatIds (hin : ∀ j, (ids j).toNat < 50000) : ∀ q, (flatIds ids h0 q).toNat < 50000 := fun q => by
  unfold flatIds shapeCast
  exact hin _

theorem range_flatCentre (hin : ∀ j, (ids j).toNat < 50000) : ∀ q, (flatCentre ids hs h4 q).toNat < 50000 := fun q => by
  unfold flatCentre shapeCast centre extractStridedSlice
  exact hin _

theorem word_tap (b : Fin 32) (l : Fin 2042) (d : Fin 128) (r : Fin 7) :
    wordRows ids we h0 h2 (ix3 b (⟨l.val + r.val, by have := l.isLt; have := r.isLt; omega⟩ : Fin 2048) d)
      = we (ix2 (rowOf (ids (ix2 b (pos l r)))) d) :=
  wordRows_at ids we h0 h2 b (pos l r) d

theorem ctx_tap (b : Fin 32) (l : Fin 2042) (d : Fin 128) (r : Fin 7) :
    ctxRows ids ce hs h4 h6 (ix3 b l (⟨r.val * 128 + d.val, by have := d.isLt; have := r.isLt; omega⟩ : Fin 896))
      = ce (ix2 (rowOf (ids (ix2 b (pos l 3)))) (slab r d)) :=
  ctxRows_at ids ce hs h4 h6 b l (slab r d) (pos l 3) rfl

def chainTap (b : Fin 32) (l : Fin 2042) (d : Fin 128) (r : Fin 7) : EReal :=
  wordRows ids we h0 h2 (ix3 b (⟨l.val + r.val, by have := l.isLt; have := r.isLt; omega⟩ : Fin 2048) d)
    * ctxRows ids ce hs h4 h6 (ix3 b l (⟨r.val * 128 + d.val, by have := d.isLt; have := r.isLt; omega⟩ : Fin 896))

theorem chainTap_eq_term (b : Fin 32) (l : Fin 2042) (d : Fin 128) (r : Fin 7) :
    chainTap ids we ce h0 h2 hs h4 h6 b l d r = term ids we ce b l d r := by
  unfold chainTap term
  rw [word_tap, ctx_tap]

theorem taps_region (b : Fin 32) (l : Fin 2042) (d : Fin 128) :
    max (max (max (max (max (max (chainTap ids we ce h0 h2 hs h4 h6 b l d 0) (chainTap ids we ce h0 h2 hs h4 h6 b l d 1))
      (chainTap ids we ce h0 h2 hs h4 h6 b l d 2)) (chainTap ids we ce h0 h2 hs h4 h6 b l d 3))
      (chainTap ids we ce h0 h2 hs h4 h6 b l d 4)) (chainTap ids we ce h0 h2 hs h4 h6 b l d 5))
      (chainTap ids we ce h0 h2 hs h4 h6 b l d 6)
      = regionAt ids we ce b l d := by
  unfold regionAt
  simp only [chainTap_eq_term]

end Steps

end Cert.ValueChain

end
-- ==== Proof.Ranges.lean ====
import proofs.«405285_j12421045420642_1_alg».proof.Proof.Assemble
import proofs.«405285_j12421045420642_1_alg».proof.Proof.HostReads
import proofs.«405285_j12421045420642_1_alg».proof.Proof.ValueChain

set_option maxRecDepth 16384

noncomputable section

namespace Cert.KernelIdeal.Ranges

open Cert.KernelIdeal Cert.KernelIdeal.Gen Cert.KernelIdeal.Assemble
open Idealize.ShloMosaic Idealize.ShloMosaic.TcCoe Idealize.SL.Sem

variable {F : FTy → Type} [FloatOps F]
variable (m : (ℓ : Loc nD τ sig) → Buf (Elt F) ℓ) (ρ : Dev nD → PrngReg)

theorem table0_eq (c : Dev nD) :
    (V1 m ρ c main_v0 : S65536.Idx → BitVec 32) = shapeCast S65536 (m ((c : Thread nD τ).loc main_arg0)) shapeCasts_S32x2048_S65536 :=
  HostReads.ops0_v0 (W0 m ρ c)

theorem ids_at2 (c : Dev nD) : W2 m ρ c (Proc.devRef .tc main_arg0) = m ((c : Thread nD τ).loc main_arg0) :=
  (W2_of_ne m ρ c main_arg0 (by decide)).trans (HostReads.ops0_arg0 (W0 m ρ c))

theorem table1_eq (c : Dev nD) :
    (V3 m ρ c main_v4 : S65344.Idx → BitVec 32)
      = shapeCast S65344 (extractStridedSlice S32x2042 ![0, 3] (m ((c : Thread nD τ).loc main_arg0)) slices_S32x2048_S32x2042_0_3) shapeCasts_S32x2042_S65344 := by
  have e := HostReads.ops1_v4 (W2 m ρ c)
  rw [ids_at2 m ρ c] at e
  exact e

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (hids : ∀ (c : Dev nD) (j : S32x2048.Idx), ((m ((c : Thread nD τ).loc main_arg0) : S32x2048.Idx → BitVec 32) j).toNat < 50000)
include hids

theorem words0_lt : ∀ (c : Dev nD) (j : S65536.Idx), ((V1 m ρ c main_v0 : S65536.Idx → BitVec 32) j).toNat < 50000 := by
  intro c j
  rw [table0_eq m ρ c]
  exact Cert.ValueChain.range_flatIds _ _ (hids c) j

theorem words1_lt : ∀ (c : Dev nD) (j : S65344.Idx), ((V3 m ρ c main_v4 : S65344.Idx → BitVec 32) j).toNat < 50000 := by
  intro c j
  rw [table1_eq m ρ c]
  exact Cert.ValueChain.range_flatCentre _ _ _ (hids c) j

theorem run_named : θ_run defs (onTc (τ := τ) (main (F := F))) ⟨m, fun _ => 0, ρ⟩ (fun r => ∀ c : Dev nD,
      r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v7 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩)
    (run_main m ρ (words0_lt m ρ hids) (words1_lt m ρ hids))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_named m ρ hids)

end Cert.KernelIdeal.Ranges

end
-- ==== Proof.WGather0.lean ====
import proofs.«405285_j12421045420642_1_alg».proof.Proof.Gen.Kernel.Launch
import proofs.«405285_j12421045420642_1_alg».proof.Proof.Gen.Kernel.Skeleton
import proofs.«405285_j12421045420642_1_alg».proof.Proof.Gen.Kernel.Points
import proofs.«405285_j12421045420642_1_alg».proof.Proof.RegionSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Gather0

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev idsM : Memref sig .tc .smem S65536 .i32 := Memref.whole main_v0
abbrev tblM : Memref sig .tc .hbm S50000x128 .f32 := Memref.whole main_arg1

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev osem0 : Fin 64 → SemLoc sig := fun j => SemLoc.dma ⟨2 + j.val, by have := j.isLt; show 2 + j.val < 138; omega⟩

def wordAt (x0 : Vec F S65536 .i32) (i : grid0.Coords) (r : Fin 64) : BitVec 32 :=
  x0 (ValueIdx.ix1 ⟨64 * (i 0).val + r.val, by have h : (i 0).val < 1024 := (i 0).isLt; have := r.isLt; omega⟩)

def rowsOf (i : grid0.Coords) (x0 : Vec F S65536 .i32) (T : S50000x128.Idx → Elt F .f32) : Vec F S64x128 .f32 :=
  fun y => T (ValueIdx.ix2 (Cert.RegionSpec.rowOf (wordAt x0 i (y 0))) (y 1))

end Cert.Kernel.Gather0

end
-- ==== Proof.WGatherRows0.lean ====
import proofs.«405285_j12421045420642_1_alg».proof.Proof.WGather0
import proofs.«405285_j12421045420642_1_alg».proof.Proof.LibRows
import Idealize.ShloMosaic.Lib.Pipeline.FrameBody
import Idealize.ShloMosaic.Lib.Ring
import Idealize.ShloMosaic.Lib.Tactic

set_option maxRecDepth 16384

noncomputable section

namespace Cert.Kernel.GatherRows0

open Cert.Kernel Cert.Kernel.Gen Cert.LibChain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gather0 (idsM tblM HbBuf osem0)
open Cert.LibRows (rowM rowPt landed rowInb chk_row)

variable {F : FTy → Type} [FloatOps F]

local notation "𝕄" => MT nD τ sig Unit (Elt F) ℕ (Pipeline.UD sig nD τ) ℕ

abbrev tokPt (c : Dev nD) (n : ℕ) (f : HbBuf (F := F) c tblM) : sProp 𝕄 :=
  tblM.view.loc (c : Thread nD τ) ↦{Transfers.shareTokN fullShare n} f

theorem word_lt (x0 : Vec F S65536 .i32) (hx0 : ∀ j, (x0 j : BitVec 32).toNat < 50000) (r : LoadRect S65536) (x : r.shape.Idx) :
    (idsM.view.readAt (Elt F) r ((Memref.isWhole_whole _ : (idsM).IsWhole).unread x0) x : BitVec 32).toNat < 50000 := by
  rw [View.readAt_apply, (Memref.isWhole_whole _ : (idsM).IsWhole).read_unread]; exact hx0 _

abbrev wordR (x0 : Vec F S65536 .i32) (off : Fin 1 → Nat) (inb : ∀ a, off a + S1.size a ≤ S65536.size a) : Elt F .i32 :=
  idsM.view.readAt (Elt F) (Rect.unit (s := S65536) off S1.size inb).toLoadRect ((Memref.isWhole_whole _ : (idsM).IsWhole).unread x0)
    (Shape.Idx.first (numel1_S1.symm ▸ Nat.one_pos))

/-- Copy r reads its token word at 64 · i + r, computed on 32-bit words without wrapping. -/
abbrev offW (r : Fin 64) (i : grid0.Coords) : Fin 1 → Nat :=
  ![(Scalar.indexCast (Scalar.addi (Scalar.muli (BitVec.ofNat 32 (i 0).val) 64#32) (BitVec.ofNat 32 r.val))).toNat]

theorem offW_val (r : Fin 64) (i : grid0.Coords) : offW r i 0 = 64 * (i 0).val + r.val := by
  have hi : (i 0).val < 1024 := (i 0).isLt
  have hr := r.isLt
  show ((BitVec.ofNat 32 (i 0).val * 64#32 + BitVec.ofNat 32 r.val : BitVec 32)).toNat = _
  simp only [BitVec.toNat_add, BitVec.toNat_mul, BitVec.toNat_ofNat, Nat.reducePow, Nat.reduceMod]
  omega

theorem offW_inb (r : Fin 64) (i : grid0.Coords) : ∀ a, offW r i a + S1.size a ≤ S65536.size a := by
  have hi : (i 0).val < 1024 := (i 0).isLt
  have hr := r.isLt
  intro a
  match a with
  | ⟨0, _⟩ => show offW r i 0 + 1 ≤ 65536; rw [offW_val]; omega

abbrev landedAt (c : Dev nD) (i : grid0.Coords) (arg3 : Memref sig .tc .vmem S64x128 .f32) (x0 : Vec F S65536 .i32)
    (hx0 : ∀ j, (x0 j : BitVec 32).toNat < 50000) (ft : HbBuf (F := F) c tblM)
    (f1 : Buf (Elt F) (arg3.view.loc (c : Thread nD τ))) (r : Fin 64) : Buf (Elt F) (arg3.view.loc (c : Thread nD τ)) :=
  landed c arg3 tblM ![r.val, 0] (rowInb r) f1 (wordR x0 (offW r i) (offW_inb r i)) (chk_row _ (word_lt x0 hx0 _ _)) ft

set_option maxHeartbeats 4000000 in
/-- Every copy is awaited before any row is read, so the result does not depend on the order in which the copies land. -/
theorem runRows (c : Dev nD) (i : grid0.Coords) (arg3 : Memref sig .tc .vmem S64x128 .f32) (harg3 : arg3.IsWhole)
    (x0 : Vec F S65536 .i32) (hx0 : ∀ j, (x0 j : BitVec 32).toNat < 50000) (ft : HbBuf (F := F) c tblM)
    (f1 : Buf (Elt F) (arg3.view.loc (c : Thread nD τ))) (W : Waits sig Unit) (K : PUnit → sProp 𝕄) :
    iprop(owns (c : Thread nD τ) idsM fullShare x0
        ∗ chainL l64 (fun r : Fin 64 => rowPt c arg3 ![r.val, 0] (rowInb r) f1)
          (chainL l64 (fun k : Fin 64 => semVal ((c : Thread nD τ), osem0 k) 0)
            (chainL lTok0 (fun k : Fin 66 => tokPt c k.val ft)
              iprop(owes (c : Thread nD τ) 0 W
                ∗ (iprop(owns (c : Thread nD τ) idsM fullShare x0
                    ∗ chainL l64 (fun r : Fin 64 => rowPt c arg3 ![r.val, 0] (rowInb r) (landedAt c i arg3 x0 hx0 ft f1 r))
                      (chainL l64 (fun k : Fin 64 => semVal ((c : Thread nD τ), osem0 k) 0)
                        (chainL lTok0 (fun k : Fin 66 => tokPt c k.val ft) iprop(∃ W', owes (c : Thread nD τ) 0 W')))) -∗ K ⟨⟩)))))
      ⊢ wp frame (wpE (defs₀ (F := F)) Variants.none c none) Set.univ
          (cc0_kernel i idsM (Memref.isWhole_whole _) tblM (Memref.isWhole_whole _) arg3 harg3 cc0_scratch0) K := by
  simp only [chainL, l64, lTok0, Fin.val_zero, Fin.val_one, Fin.coe_ofNat_eq_mod, Nat.reduceMod]
  simp only [cc0_kernel_eq_skeleton]; unfold cc0_kernel_skel
  unfold owns
  iintro ⟨⟨%f0, %hf0, H0⟩, Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31, Hr32, Hr33, Hr34, Hr35, Hr36, Hr37, Hr38, Hr39, Hr40, Hr41, Hr42, Hr43, Hr44, Hr45, Hr46, Hr47, Hr48, Hr49, Hr50, Hr51, Hr52, Hr53, Hr54, Hr55, Hr56, Hr57, Hr58, Hr59, Hr60, Hr61, Hr62, Hr63, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Ht45, Ht46, Ht47, Ht48, Ht49, Ht50, Ht51, Ht52, Ht53, Ht54, Ht55, Ht56, Ht57, Ht58, Ht59, Ht60, Ht61, Ht62, Ht63, HW, Hk⟩
  obtain rfl := (Memref.isWhole_whole _ : (idsM).IsWhole).eq_unread hf0
  sl_exec_parts (disch := first | exact ⟨chk_row _ (word_lt x0 hx0 _ _), chk_row _ (word_lt x0 hx0 _ _)⟩ | exact chk_row _ (word_lt x0 hx0 _ _))
  sl_step
  iapply Hk
  isplitl [H0]
  · iexists _; isplitr; · ipureintro; exact (Memref.isWhole_whole _ : (idsM).IsWhole).read_unread _
    iexact H0
  sl_close

end Cert.Kernel.GatherRows0

end
-- ==== Proof.WGather0Run.lean ====
import proofs.«405285_j12421045420642_1_alg».proof.Proof.WGatherRows0
import Idealize.ShloMosaic.Lib.Transfers
import Idealize.ShloMosaic.Lib.Writes
import Idealize.ShloMosaic.Lib.Pipeline.Kit
import Idealize.ShloMosaic.Rules.PointsTo

set_option maxRecDepth 16384

noncomputable section

namespace Cert.Kernel.Gather0Run

open Cert.Kernel Cert.Kernel.Gen Cert.LibChain
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gather0 (idsM tblM HbBuf hbPt osem0 wordAt rowsOf)
open Cert.Kernel.GatherRows0 (tokPt wordR word_lt offW offW_val offW_inb landedAt)
open Cert.LibRows (rowM rowPt landed rowInb chk_row rowM_set rows_open rows_join landed_read)

variable {F : FTy → Type} [FloatOps F]

local notation "𝕄" => MT nD τ sig Unit (Elt F) ℕ (Pipeline.UD sig nD τ) ℕ

theorem sems_list (c : Dev nD) :
    (Pipeline.ownSems0 (Ix := Unit) (Name := ℕ) (U := Pipeline.UD sig nD τ) (Lvl := ℕ) (Val := Elt F) (τ := τ) osem0 c : sProp 𝕄)
      = bigSepL l64 fun k : Fin 64 => semVal ((c : Thread nD τ), osem0 k) 0 :=
  Pipeline.ownSems0_eq_of_list c osem0 l64 l64_all l64_nodup

theorem toks_list (c : Dev nD) (ft : HbBuf (F := F) c tblM) :
    (hbPt c tblM ft : sProp 𝕄)
      = iprop((tblM.view.loc (c : Thread nD τ) ↦{Transfers.shareDrop fullShare 66} ft)
          ∗ (bigSepL lSpare0 fun k : Fin 66 => tokPt c k.val ft) ∗ bigSepL lTok0 fun k : Fin 66 => tokPt c k.val ft) :=
  Cert.LibRows.toks_list c tblM ft lSpare0 lTok0 lTok0_all lTok0_nodup

theorem wordR_eq (x0 : Vec F S65536 .i32) (i : grid0.Coords) (r : Fin 64) :
    wordR x0 (offW r i) (offW_inb r i) = wordAt x0 i r := by
  unfold wordAt
  show idsM.view.readAt (Elt F) _ _ _ = _
  rw [View.readAt_apply, (Memref.isWhole_whole _ : (idsM).IsWhole).read_unread]
  congr 1
  funext a
  apply Fin.ext
  match a with
  | ⟨0, _⟩ =>
    show offW r i 0 + 1 * 0 = 64 * (i 0).val + r.val
    rw [offW_val]
    omega

/-- An entry of the block lies in one row, and that row holds what its copy brought. -/
theorem joined_read (c : Dev nD) (i : grid0.Coords) (arg3 : Memref sig .tc .vmem S64x128 .f32) (x0 : Vec F S65536 .i32)
    (hx0 : ∀ j, (x0 j : BitVec 32).toNat < 50000) (ft : HbBuf (F := F) c tblM)
    (f1 g : Buf (Elt F) (arg3.view.loc (c : Thread nD τ)))
    (hg : ∀ r : Fin 64, ∀ j ∈ (rowM arg3 ![r.val, 0] (rowInb r)).view.set, g j = landedAt c i arg3 x0 hx0 ft f1 r j) :
    arg3.view.read (Elt F) g = rowsOf i x0 (tblM.view.read (Elt F) ft) := by
  funext y
  obtain ⟨r, col, rfl⟩ : ∃ (r : Fin 64) (col : Fin 128), y = ValueIdx.ix2 r col := ⟨y 0, y 1, ValueIdx.eq_ix2 y⟩
  have hmem : arg3.view.emb (ValueIdx.ix2 r col) ∈ (rowM arg3 ![r.val, 0] (rowInb r)).view.set := by
    rw [rowM_set]
    refine Finset.mem_map_of_mem _ (Rect.mem_set_unit.mpr fun a => ?_)
    match a with
    | ⟨0, _⟩ => exact ⟨Nat.le_refl _, by show r.val < r.val + 1; omega⟩
    | ⟨1, _⟩ => exact ⟨Nat.zero_le _, by show col.val < 0 + 128; have := col.isLt; omega⟩
  refine (View.read_congr_at (ValueIdx.ix2 r col) (hg r _ hmem)).trans ?_
  have hw : (wordR x0 (offW r i) (offW_inb r i) : BitVec 32).toNat < 50000 := word_lt x0 hx0 _ _
  refine (landed_read c arg3 tblM r f1 _ hw ft col).trans ?_
  show tblM.view.read (Elt F) ft _ = tblM.view.read (Elt F) ft (ValueIdx.ix2 (Cert.RegionSpec.rowOf (wordAt x0 i r)) col)
  refine congrArg (fun p => tblM.view.read (Elt F) ft (ValueIdx.ix2 p col)) (Fin.ext ?_)
  show (wordR x0 (offW r i) (offW_inb r i) : BitVec 32).toNat = (Cert.RegionSpec.rowOf (wordAt x0 i r)).val
  have hwa : (wordAt x0 i r : BitVec 32).toNat < 50000 := hx0 _
  rw [Cert.RegionSpec.rowOf_val_of_lt hwa, wordR_eq]

theorem run_grouped (c : Dev nD) (i : grid0.Coords) (arg3 : Memref sig .tc .vmem S64x128 .f32) (harg3 : arg3.IsWhole)
    (x0 : Vec F S65536 .i32) (hx0 : ∀ j, (x0 j : BitVec 32).toNat < 50000) (ft : HbBuf (F := F) c tblM)
    (f1 : Buf (Elt F) (arg3.view.loc (c : Thread nD τ))) (W : Waits sig Unit) (K : PUnit → sProp 𝕄) :
    iprop(owns (c : Thread nD τ) idsM fullShare x0
        ∗ (bigSepL l64 fun r : Fin 64 => rowPt c arg3 ![r.val, 0] (rowInb r) f1)
        ∗ (bigSepL l64 fun k : Fin 64 => semVal ((c : Thread nD τ), osem0 k) 0)
        ∗ (bigSepL lTok0 fun k : Fin 66 => tokPt c k.val ft)
        ∗ owes (c : Thread nD τ) 0 W
        ∗ (iprop(owns (c : Thread nD τ) idsM fullShare x0
            ∗ (bigSepL l64 fun r : Fin 64 => rowPt c arg3 ![r.val, 0] (rowInb r) (landedAt c i arg3 x0 hx0 ft f1 r))
            ∗ (bigSepL l64 fun k : Fin 64 => semVal ((c : Thread nD τ), osem0 k) 0)
            ∗ (bigSepL lTok0 fun k : Fin 66 => tokPt c k.val ft)
            ∗ (∃ W', owes (c : Thread nD τ) 0 W')) -∗ K ⟨⟩))
      ⊢ wp frame (wpE (defs₀ (F := F)) Variants.none c none) Set.univ
          (cc0_kernel i idsM (Memref.isWhole_whole _) tblM (Memref.isWhole_whole _) arg3 harg3 cc0_scratch0) K := by
  refine BIBase.Entails.trans ?_ (Cert.Kernel.GatherRows0.runRows c i arg3 harg3 x0 hx0 ft f1 W K)
  refine sep_mono .rfl (chain_intro _ _ (chain_intro _ _ (chain_intro _ _ (sep_mono .rfl (wand_mono ?_ .rfl)))))
  exact sep_mono .rfl (chain_elim _ _ (chain_elim _ _ (chain_elim _ _ .rfl)))

theorem rows_close (c : Dev nD) (i : grid0.Coords) (arg3 : Memref sig .tc .vmem S64x128 .f32) (x0 : Vec F S65536 .i32)
    (hx0 : ∀ j, (x0 j : BitVec 32).toNat < 50000) (ft : HbBuf (F := F) c tblM)
    (f1 : Buf (Elt F) (arg3.view.loc (c : Thread nD τ))) :
    (bigSepL l64 fun r : Fin 64 => rowPt c arg3 ![r.val, 0] (rowInb r) (landedAt c i arg3 x0 hx0 ft f1 r) : sProp 𝕄)
      ⊢ owns (c : Thread nD τ) arg3 fullShare (rowsOf i x0 (tblM.view.read (Elt F) ft)) := by
  refine (rows_join c arg3 (landedAt c i arg3 x0 hx0 ft f1)).trans ?_
  unfold owns
  iintro ⟨%g, %hg, H⟩
  iexists g
  isplitr
  · ipureintro; exact joined_read c i arg3 x0 hx0 ft f1 g hg
  · iexact H

set_option maxHeartbeats 1000000 in
/-- The block splits into its rows and the table's share into one share per copy; after the run both are joined back. -/
theorem kernelRun0 (c : Dev nD) (i : grid0.Coords) (arg3 : Memref sig .tc .vmem S64x128 .f32) (harg3 : arg3.IsWhole)
    (x0 : Vec F S65536 .i32) (hx0 : ∀ j, (x0 j : BitVec 32).toNat < 50000) (ft : HbBuf (F := F) c tblM)
    (W : Waits sig Unit) (K : PUnit → sProp 𝕄) :
    iprop(owns (c : Thread nD τ) idsM fullShare x0 ∗ (∃ d, owns (c : Thread nD τ) arg3 fullShare d)
        ∗ Pipeline.ownSems0 (Ix := Unit) (Name := ℕ) (U := Pipeline.UD sig nD τ) (Lvl := ℕ) (Val := Elt F) (τ := τ) osem0 c
        ∗ hbPt c tblM ft ∗ owes (c : Thread nD τ) 0 W
        ∗ (iprop(owns (c : Thread nD τ) idsM fullShare x0 ∗ owns (c : Thread nD τ) arg3 fullShare (rowsOf i x0 (tblM.view.read (Elt F) ft))
            ∗ Pipeline.ownSems0 (Ix := Unit) (Name := ℕ) (U := Pipeline.UD sig nD τ) (Lvl := ℕ) (Val := Elt F) (τ := τ) osem0 c
            ∗ hbPt c tblM ft ∗ (∃ W', owes (c : Thread nD τ) 0 W')) -∗ K ⟨⟩))
      ⊢ wp frame (wpE (defs₀ (F := F)) Variants.none c none) Set.univ
          (cc0_kernel i idsM (Memref.isWhole_whole _) tblM (Memref.isWhole_whole _) arg3 harg3 cc0_scratch0) K := by
  rw [sems_list c, toks_list c ft]
  iintro ⟨Hids, Harg, Hsems, ⟨Hrem, Hspare, Htoks⟩, Howes, HK⟩
  ihave Hrows := (rows_open c arg3) $$ Harg
  icases Hrows with ⟨%f1, Hrows⟩
  iapply (run_grouped c i arg3 harg3 x0 hx0 ft f1 W K)
  isplitl [Hids]; · iexact Hids
  isplitl [Hrows]; · iexact Hrows
  isplitl [Hsems]; · iexact Hsems
  isplitl [Htoks]; · iexact Htoks
  isplitl [Howes]; · iexact Howes
  iintro ⟨Hids, Hrows, Hsems, Htoks, HW⟩
  iapply HK
  isplitl [Hids]; · iexact Hids
  isplitl [Hrows]
  · iapply (rows_close c i arg3 x0 hx0 ft f1); iexact Hrows
  isplitl [Hsems]; · iexact Hsems
  isplitl [Hrem Hspare Htoks]
  · isplitl [Hrem]; · iexact Hrem
    isplitl [Hspare]; · iexact Hspare
    iexact Htoks
  iexact HW

end Cert.Kernel.Gather0Run

end
-- ==== Proof.WGather0Dat.lean ====
import proofs.«405285_j12421045420642_1_alg».proof.Proof.WGather0Run

set_option maxRecDepth 16384

noncomputable section

namespace Cert.Kernel.Gather0

open Cert.Kernel Cert.Kernel.Gen Cert.Kernel.Gather0Run
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem ownSemFacts0 : Pipeline.OwnSemFacts spec0 osem0 := by decide

def H0 : Finset (Ref sig .tc) := {main_arg1}
theorem H0_sub : H0 ⊆ Pipeline.restRefsP sig pre0 spec0 := by decide

theorem hbmPts0_eq (c : Dev nD) :
    (bigSep H0 (fun b => ((c : Thread nD τ).loc b) ↦{fullShare} V c b) : sProp 𝕄) = iprop(hbPt c tblM (V c main_arg1)) := by
  rw [BI.bigSep_eq_bigSepL_of_eq [main_arg1] (by decide) (by decide)]; rfl

theorem prefHeld0_eq (c : Dev nD) (T : pre0.Contents (Elt F)) :
    (Pipeline.prefHeld (Ix := Unit) (Name := ℕ) (U := Pipeline.UD sig nD τ) (Lvl := ℕ) pre0 c (fun _ => fullShare) T : sProp 𝕄)
      = iprop(hbPt c idsM (T 0)) := by
  unfold Pipeline.prefHeld; rw [bigSep_W0]; rfl

abbrev Inv0 (c : Dev nD) : sProp 𝕄 :=
  iprop(Pipeline.ΦD osem0 spec0 H0 V c
    ∗ Pipeline.prefHeld (Ix := Unit) (Name := ℕ) (U := Pipeline.UD sig nD τ) (Lvl := ℕ) pre0 c (fun _ => fullShare) (fun k => V c (pre0.ref k)))

def dat0 (a : (pcfg0 (F := F)).Adm) (c : Dev nD) : Dat τ (Elt F) Unit ℕ (Pipeline.UD sig nD τ) ℕ (cfg0 a) c where
  A w := V c (Pipeline.arrRef spec0 w)
  after w t := match w with
    | ⟨0, _⟩ => rowsOf ((cfg0 a).grid.coords t) (V c main_v0) (tblM.view.read (Elt F) (V c main_arg1))
  Φ _ := Inv0 V c
  q _ := fullShare
  owed _ := 0

theorem A_eq0 (a : (pcfg0 (F := F)).Adm) (c : Dev nD) (w : Fin (cfg0 a).W) : (dat0 V a c).A w = V c (Pipeline.arrRef spec0 w) := by
  dsimp only [dat0]

theorem after0_0 (a : (pcfg0 (F := F)).Adm) (c : Dev nD) (t : Fin (cfg0 a).N) :
    (dat0 V a c).after 0 t = rowsOf ((cfg0 a).grid.coords t) (V c main_v0) (tblM.view.read (Elt F) (V c main_arg1)) := by
  dsimp only [dat0]; rfl

abbrev st0_0 (a : (pcfg0 (F := F)).Adm) (t : Fin (cfg0 a).N) : Memref sig .tc .vmem S64x128 .f32 := spec0_0.stage ((cfg0 a).slots t 0)
abbrev hst0_0 (a : (pcfg0 (F := F)).Adm) (t : Fin (cfg0 a).N) : (st0_0 a t).IsWhole := hstage0_0 (((cfg0 a).slots t 0).cast nbuf0_0)
abbrev bodyAt0 (a : (pcfg0 (F := F)).Adm) (t : Fin (cfg0 a).N) : Prog (TpuEff nD τ sig (Elt F) Λ₀ .tc) PUnit :=
  cc0_kernel (grid0.coords t) idsM (Memref.isWhole_whole _) tblM (Memref.isWhole_whole _) (st0_0 a t) (hst0_0 a t) cc0_scratch0

theorem kernelRun0_pt (c : Dev nD) (i : grid0.Coords) (arg3 : Memref sig .tc .vmem S64x128 .f32) (harg3 : arg3.IsWhole)
    (x0 : Vec F S65536 .i32) (hx0 : ∀ j, (x0 j : BitVec 32).toNat < 50000) (ft : HbBuf (F := F) c tblM)
    (W : Waits sig Unit) (K : PUnit → sProp 𝕄) :
    iprop(hbPt c idsM x0 ∗ (∃ d, owns (c : Thread nD τ) arg3 fullShare d)
        ∗ Pipeline.ownSems0 (Ix := Unit) (Name := ℕ) (U := Pipeline.UD sig nD τ) (Lvl := ℕ) (Val := Elt F) (τ := τ) osem0 c
        ∗ hbPt c tblM ft ∗ owes (c : Thread nD τ) 0 W
        ∗ (iprop(hbPt c idsM x0 ∗ owns (c : Thread nD τ) arg3 fullShare (rowsOf i x0 (tblM.view.read (Elt F) ft))
            ∗ Pipeline.ownSems0 (Ix := Unit) (Name := ℕ) (U := Pipeline.UD sig nD τ) (Lvl := ℕ) (Val := Elt F) (τ := τ) osem0 c
            ∗ hbPt c tblM ft ∗ (∃ W', owes (c : Thread nD τ) 0 W')) -∗ K ⟨⟩))
      ⊢ wp frame (wpE (defs₀ (F := F)) Variants.none c none) Set.univ
          (cc0_kernel i idsM (Memref.isWhole_whole _) tblM (Memref.isWhole_whole _) arg3 harg3 cc0_scratch0) K := by
  have h := kernelRun0 c i arg3 harg3 x0 hx0 ft W K
  rw [owns_whole (c : Thread nD τ) main_v0 fullShare x0] at h
  exact h

def bodyPre0 (a : (pcfg0 (F := F)).Adm) (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d)))

def bodyPost0 (a : (pcfg0 (F := F)).Adm) (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t))

theorem sound_body0 (hin : ∀ (c : Dev nD) (j : S65536.Idx), ((V c main_v0 : S65536.Idx → BitVec 32) j).toNat < 50000)
    (a : (pcfg0 (F := F)).Adm) (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  rw [show (dat0 V a c).Φ t.succ = (dat0 V a c).Φ t.castSucc from rfl, after0_0]
  rw [show (dat0 V a c).Φ t.castSucc = Inv0 V c from rfl]
  unfold Inv0
  rw [Pipeline.ΦD_eq, hbmPts0_eq, prefHeld0_eq]
  unfold Dat.owesAt Pipeline.owesWithin
  rw [show (dat0 V a c).owed t.castSucc = 0 from rfl, show (dat0 V a c).owed t.succ = 0 from rfl]
  iintro ⟨⟨⟨HR, Hg, Hq, Hh⟩, Ht⟩, ⟨%W, -, HW⟩, ⟨%d0, H0⟩⟩
  iapply (kernelRun0_pt c (grid0.coords t) (st0_0 a t) (hst0_0 a t) (V c main_v0) (hin c) (V c main_arg1) W _)
  isplitl [Ht]; · iexact Ht
  isplitl [H0]; · iexists _; iexact H0
  isplitl [Hq]; · iexact Hq
  isplitl [Hh]; · iexact Hh
  isplitl [HW]; · iexact HW
  iintro ⟨Ht, H0, Hq, Hh, ⟨%W', HW'⟩⟩
  isplitl [HR Hg Hq Hh Ht]
  · isplitr [Ht]
    · isplitl [HR]; · iexact HR
      isplitl [Hg]; · iexact Hg
      isplitl [Hq]; · iexact Hq
      iexact Hh
    · iexact Ht
  isplitl [HW']
  · iexists W'; isplitr; · ipureintro; exact fun _ _ => Or.inl trivial
    iexact HW'
  iexact H0

theorem body_obligation0 (hin : ∀ (c : Dev nD) (j : S65536.Idx), ((V c main_v0 : S65536.Idx → BitVec 32) j).toNat < 50000)
    (a : (pcfg0 (F := F)).Adm) (c : Dev nD) :
    BodyObligation (dat0 (F := F) V a c) (defs₀ (F := F)) Variants.none () Set.univ := fun t => by
  rw [bigSep_W0, bigSep_W0]
  exact sound_body0 V hin a c t

end Cert.Kernel.Gather0

end
-- ==== Proof.WGather1.lean ====
import proofs.«405285_j12421045420642_1_alg».proof.Proof.Gen.Kernel.Launch
import proofs.«405285_j12421045420642_1_alg».proof.Proof.Gen.Kernel.Skeleton
import proofs.«405285_j12421045420642_1_alg».proof.Proof.Gen.Kernel.Points
import proofs.«405285_j12421045420642_1_alg».proof.Proof.RegionSpec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Gather1

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev idsM : Memref sig .tc .smem S65344 .i32 := Memref.whole main_v4
abbrev tblM : Memref sig .tc .hbm S50000x896 .f32 := Memref.whole main_arg2

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev osem1 : Fin 64 → SemLoc sig := fun j => SemLoc.dma ⟨68 + j.val, by have := j.isLt; show 68 + j.val < 138; omega⟩

def wordAt (x0 : Vec F S65344 .i32) (i : grid1.Coords) (r : Fin 64) : BitVec 32 :=
  x0 (ValueIdx.ix1 ⟨64 * (i 0).val + r.val, by have h : (i 0).val < 1021 := (i 0).isLt; have := r.isLt; omega⟩)

def rowsOf (i : grid1.Coords) (x0 : Vec F S65344 .i32) (T : S50000x896.Idx → Elt F .f32) : Vec F S64x896 .f32 :=
  fun y => T (ValueIdx.ix2 (Cert.RegionSpec.rowOf (wordAt x0 i (y 0))) (y 1))

end Cert.Kernel.Gather1

end
-- ==== Proof.WGatherRows1.lean ====
import proofs.«405285_j12421045420642_1_alg».proof.Proof.WGather1
import proofs.«405285_j12421045420642_1_alg».proof.Proof.LibRows
import Idealize.ShloMosaic.Lib.Pipeline.FrameBody
import Idealize.ShloMosaic.Lib.Ring
import Idealize.ShloMosaic.Lib.Tactic

set_option maxRecDepth 16384

noncomputable section

namespace Cert.Kernel.GatherRows1

open Cert.Kernel Cert.Kernel.Gen Cert.LibChain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gather1 (idsM tblM HbBuf osem1)
open Cert.LibRows (rowM rowPt landed rowInb chk_row)

variable {F : FTy → Type} [FloatOps F]

local notation "𝕄" => MT nD τ sig Unit (Elt F) ℕ (Pipeline.UD sig nD τ) ℕ

abbrev tokPt (c : Dev nD) (n : ℕ) (f : HbBuf (F := F) c tblM) : sProp 𝕄 :=
  tblM.view.loc (c : Thread nD τ) ↦{Transfers.shareTokN fullShare n} f

theorem word_lt (x0 : Vec F S65344 .i32) (hx0 : ∀ j, (x0 j : BitVec 32).toNat < 50000) (r : LoadRect S65344) (x : r.shape.Idx) :
    (idsM.view.readAt (Elt F) r ((Memref.isWhole_whole _ : (idsM).IsWhole).unread x0) x : BitVec 32).toNat < 50000 := by
  rw [View.readAt_apply, (Memref.isWhole_whole _ : (idsM).IsWhole).read_unread]; exact hx0 _

abbrev wordR (x0 : Vec F S65344 .i32) (off : Fin 1 → Nat) (inb : ∀ a, off a + S1.size a ≤ S65344.size a) : Elt F .i32 :=
  idsM.view.readAt (Elt F) (Rect.unit (s := S65344) off S1.size inb).toLoadRect ((Memref.isWhole_whole _ : (idsM).IsWhole).unread x0)
    (Shape.Idx.first (numel1_S1.symm ▸ Nat.one_pos))

/-- Copy r reads its token word at 64 · i + r, computed on 32-bit words without wrapping. -/
abbrev offW (r : Fin 64) (i : grid1.Coords) : Fin 1 → Nat :=
  ![(Scalar.indexCast (Scalar.addi (Scalar.muli (BitVec.ofNat 32 (i 0).val) 64#32) (BitVec.ofNat 32 r.val))).toNat]

theorem offW_val (r : Fin 64) (i : grid1.Coords) : offW r i 0 = 64 * (i 0).val + r.val := by
  have hi : (i 0).val < 1021 := (i 0).isLt
  have hr := r.isLt
  show ((BitVec.ofNat 32 (i 0).val * 64#32 + BitVec.ofNat 32 r.val : BitVec 32)).toNat = _
  simp only [BitVec.toNat_add, BitVec.toNat_mul, BitVec.toNat_ofNat, Nat.reducePow, Nat.reduceMod]
  omega

theorem offW_inb (r : Fin 64) (i : grid1.Coords) : ∀ a, offW r i a + S1.size a ≤ S65344.size a := by
  have hi : (i 0).val < 1021 := (i 0).isLt
  have hr := r.isLt
  intro a
  match a with
  | ⟨0, _⟩ => show offW r i 0 + 1 ≤ 65344; rw [offW_val]; omega

abbrev landedAt (c : Dev nD) (i : grid1.Coords) (arg3 : Memref sig .tc .vmem S64x896 .f32) (x0 : Vec F S65344 .i32)
    (hx0 : ∀ j, (x0 j : BitVec 32).toNat < 50000) (ft : HbBuf (F := F) c tblM)
    (f1 : Buf (Elt F) (arg3.view.loc (c : Thread nD τ))) (r : Fin 64) : Buf (Elt F) (arg3.view.loc (c : Thread nD τ)) :=
  landed c arg3 tblM ![r.val, 0] (rowInb r) f1 (wordR x0 (offW r i) (offW_inb r i)) (chk_row _ (word_lt x0 hx0 _ _)) ft

set_option maxHeartbeats 4000000 in
/-- Every copy is awaited before any row is read, so the result does not depend on the order in which the copies land. -/
theorem runRows (c : Dev nD) (i : grid1.Coords) (arg3 : Memref sig .tc .vmem S64x896 .f32) (harg3 : arg3.IsWhole)
    (x0 : Vec F S65344 .i32) (hx0 : ∀ j, (x0 j : BitVec 32).toNat < 50000) (ft : HbBuf (F := F) c tblM)
    (f1 : Buf (Elt F) (arg3.view.loc (c : Thread nD τ))) (W : Waits sig Unit) (K : PUnit → sProp 𝕄) :
    iprop(owns (c : Thread nD τ) idsM fullShare x0
        ∗ chainL l64 (fun r : Fin 64 => rowPt c arg3 ![r.val, 0] (rowInb r) f1)
          (chainL l64 (fun k : Fin 64 => semVal ((c : Thread nD τ), osem1 k) 0)
            (chainL lTok1 (fun k : Fin 132 => tokPt c k.val ft)
              iprop(owes (c : Thread nD τ) 0 W
                ∗ (iprop(owns (c : Thread nD τ) idsM fullShare x0
                    ∗ chainL l64 (fun r : Fin 64 => rowPt c arg3 ![r.val, 0] (rowInb r) (landedAt c i arg3 x0 hx0 ft f1 r))
                      (chainL l64 (fun k : Fin 64 => semVal ((c : Thread nD τ), osem1 k) 0)
                        (chainL lTok1 (fun k : Fin 132 => tokPt c k.val ft) iprop(∃ W', owes (c : Thread nD τ) 0 W')))) -∗ K ⟨⟩)))))
      ⊢ wp frame (wpE (defs₀ (F := F)) Variants.none c none) Set.univ
          (cc1_kernel i idsM (Memref.isWhole_whole _) tblM (Memref.isWhole_whole _) arg3 harg3 cc1_scratch0) K := by
  simp only [chainL, l64, lTok1, Fin.val_zero, Fin.val_one, Fin.coe_ofNat_eq_mod, Nat.reduceMod]
  simp only [cc1_kernel_eq_skeleton]; unfold cc1_kernel_skel
  unfold owns
  iintro ⟨⟨%f0, %hf0, H1⟩, Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31, Hr32, Hr33, Hr34, Hr35, Hr36, Hr37, Hr38, Hr39, Hr40, Hr41, Hr42, Hr43, Hr44, Hr45, Hr46, Hr47, Hr48, Hr49, Hr50, Hr51, Hr52, Hr53, Hr54, Hr55, Hr56, Hr57, Hr58, Hr59, Hr60, Hr61, Hr62, Hr63, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33, Ht34, Ht35, Ht36, Ht37, Ht38, Ht39, Ht40, Ht41, Ht42, Ht43, Ht44, Ht45, Ht46, Ht47, Ht48, Ht49, Ht50, Ht51, Ht52, Ht53, Ht54, Ht55, Ht56, Ht57, Ht58, Ht59, Ht60, Ht61, Ht62, Ht63, HW, Hk⟩
  obtain rfl := (Memref.isWhole_whole _ : (idsM).IsWhole).eq_unread hf0
  sl_exec_parts (disch := first | exact ⟨chk_row _ (word_lt x0 hx0 _ _), chk_row _ (word_lt x0 hx0 _ _)⟩ | exact chk_row _ (word_lt x0 hx0 _ _))
  sl_step
  iapply Hk
  isplitl [H1]
  · iexists _; isplitr; · ipureintro; exact (Memref.isWhole_whole _ : (idsM).IsWhole).read_unread _
    iexact H1
  sl_close

end Cert.Kernel.GatherRows1

end
-- ==== Proof.WGather1Run.lean ====
import proofs.«405285_j12421045420642_1_alg».proof.Proof.WGatherRows1
import Idealize.ShloMosaic.Lib.Transfers
import Idealize.ShloMosaic.Lib.Writes
import Idealize.ShloMosaic.Lib.Pipeline.Kit
import Idealize.ShloMosaic.Rules.PointsTo

set_option maxRecDepth 16384

noncomputable section

namespace Cert.Kernel.Gather1Run

open Cert.Kernel Cert.Kernel.Gen Cert.LibChain
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gather1 (idsM tblM HbBuf hbPt osem1 wordAt rowsOf)
open Cert.Kernel.GatherRows1 (tokPt wordR word_lt offW offW_val offW_inb landedAt)
open Cert.LibRows (rowM rowPt landed rowInb chk_row rowM_set rows_open rows_join landed_read)

variable {F : FTy → Type} [FloatOps F]

local notation "𝕄" => MT nD τ sig Unit (Elt F) ℕ (Pipeline.UD sig nD τ) ℕ

theorem sems_list (c : Dev nD) :
    (Pipeline.ownSems0 (Ix := Unit) (Name := ℕ) (U := Pipeline.UD sig nD τ) (Lvl := ℕ) (Val := Elt F) (τ := τ) osem1 c : sProp 𝕄)
      = bigSepL l64 fun k : Fin 64 => semVal ((c : Thread nD τ), osem1 k) 0 :=
  Pipeline.ownSems0_eq_of_list c osem1 l64 l64_all l64_nodup

theorem toks_list (c : Dev nD) (ft : HbBuf (F := F) c tblM) :
    (hbPt c tblM ft : sProp 𝕄)
      = iprop((tblM.view.loc (c : Thread nD τ) ↦{Transfers.shareDrop fullShare 132} ft)
          ∗ (bigSepL lSpare1 fun k : Fin 132 => tokPt c k.val ft) ∗ bigSepL lTok1 fun k : Fin 132 => tokPt c k.val ft) :=
  Cert.LibRows.toks_list c tblM ft lSpare1 lTok1 lTok1_all lTok1_nodup

theorem wordR_eq (x0 : Vec F S65344 .i32) (i : grid1.Coords) (r : Fin 64) :
    wordR x0 (offW r i) (offW_inb r i) = wordAt x0 i r := by
  unfold wordAt
  show idsM.view.readAt (Elt F) _ _ _ = _
  rw [View.readAt_apply, (Memref.isWhole_whole _ : (idsM).IsWhole).read_unread]
  congr 1
  funext a
  apply Fin.ext
  match a with
  | ⟨0, _⟩ =>
    show offW r i 0 + 1 * 0 = 64 * (i 0).val + r.val
    rw [offW_val]
    omega

/-- An entry of the block lies in one row, and that row holds what its copy brought. -/
theorem joined_read (c : Dev nD) (i : grid1.Coords) (arg3 : Memref sig .tc .vmem S64x896 .f32) (x0 : Vec F S65344 .i32)
    (hx0 : ∀ j, (x0 j : BitVec 32).toNat < 50000) (ft : HbBuf (F := F) c tblM)
    (f1 g : Buf (Elt F) (arg3.view.loc (c : Thread nD τ)))
    (hg : ∀ r : Fin 64, ∀ j ∈ (rowM arg3 ![r.val, 0] (rowInb r)).view.set, g j = landedAt c i arg3 x0 hx0 ft f1 r j) :
    arg3.view.read (Elt F) g = rowsOf i x0 (tblM.view.read (Elt F) ft) := by
  funext y
  obtain ⟨r, col, rfl⟩ : ∃ (r : Fin 64) (col : Fin 896), y = ValueIdx.ix2 r col := ⟨y 0, y 1, ValueIdx.eq_ix2 y⟩
  have hmem : arg3.view.emb (ValueIdx.ix2 r col) ∈ (rowM arg3 ![r.val, 0] (rowInb r)).view.set := by
    rw [rowM_set]
    refine Finset.mem_map_of_mem _ (Rect.mem_set_unit.mpr fun a => ?_)
    match a with
    | ⟨0, _⟩ => exact ⟨Nat.le_refl _, by show r.val < r.val + 1; omega⟩
    | ⟨1, _⟩ => exact ⟨Nat.zero_le _, by show col.val < 0 + 896; have := col.isLt; omega⟩
  refine (View.read_congr_at (ValueIdx.ix2 r col) (hg r _ hmem)).trans ?_
  have hw : (wordR x0 (offW r i) (offW_inb r i) : BitVec 32).toNat < 50000 := word_lt x0 hx0 _ _
  refine (landed_read c arg3 tblM r f1 _ hw ft col).trans ?_
  show tblM.view.read (Elt F) ft _ = tblM.view.read (Elt F) ft (ValueIdx.ix2 (Cert.RegionSpec.rowOf (wordAt x0 i r)) col)
  refine congrArg (fun p => tblM.view.read (Elt F) ft (ValueIdx.ix2 p col)) (Fin.ext ?_)
  show (wordR x0 (offW r i) (offW_inb r i) : BitVec 32).toNat = (Cert.RegionSpec.rowOf (wordAt x0 i r)).val
  have hwa : (wordAt x0 i r : BitVec 32).toNat < 50000 := hx0 _
  rw [Cert.RegionSpec.rowOf_val_of_lt hwa, wordR_eq]

theorem run_grouped (c : Dev nD) (i : grid1.Coords) (arg3 : Memref sig .tc .vmem S64x896 .f32) (harg3 : arg3.IsWhole)
    (x0 : Vec F S65344 .i32) (hx0 : ∀ j, (x0 j : BitVec 32).toNat < 50000) (ft : HbBuf (F := F) c tblM)
    (f1 : Buf (Elt F) (arg3.view.loc (c : Thread nD τ))) (W : Waits sig Unit) (K : PUnit → sProp 𝕄) :
    iprop(owns (c : Thread nD τ) idsM fullShare x0
        ∗ (bigSepL l64 fun r : Fin 64 => rowPt c arg3 ![r.val, 0] (rowInb r) f1)
        ∗ (bigSepL l64 fun k : Fin 64 => semVal ((c : Thread nD τ), osem1 k) 0)
        ∗ (bigSepL lTok1 fun k : Fin 132 => tokPt c k.val ft)
        ∗ owes (c : Thread nD τ) 0 W
        ∗ (iprop(owns (c : Thread nD τ) idsM fullShare x0
            ∗ (bigSepL l64 fun r : Fin 64 => rowPt c arg3 ![r.val, 0] (rowInb r) (landedAt c i arg3 x0 hx0 ft f1 r))
            ∗ (bigSepL l64 fun k : Fin 64 => semVal ((c : Thread nD τ), osem1 k) 0)
            ∗ (bigSepL lTok1 fun k : Fin 132 => tokPt c k.val ft)
            ∗ (∃ W', owes (c : Thread nD τ) 0 W')) -∗ K ⟨⟩))
      ⊢ wp frame (wpE (defs₀ (F := F)) Variants.none c none) Set.univ
          (cc1_kernel i idsM (Memref.isWhole_whole _) tblM (Memref.isWhole_whole _) arg3 harg3 cc1_scratch0) K := by
  refine BIBase.Entails.trans ?_ (Cert.Kernel.GatherRows1.runRows c i arg3 harg3 x0 hx0 ft f1 W K)
  refine sep_mono .rfl (chain_intro _ _ (chain_intro _ _ (chain_intro _ _ (sep_mono .rfl (wand_mono ?_ .rfl)))))
  exact sep_mono .rfl (chain_elim _ _ (chain_elim _ _ (chain_elim _ _ .rfl)))

theorem rows_close (c : Dev nD) (i : grid1.Coords) (arg3 : Memref sig .tc .vmem S64x896 .f32) (x0 : Vec F S65344 .i32)
    (hx0 : ∀ j, (x0 j : BitVec 32).toNat < 50000) (ft : HbBuf (F := F) c tblM)
    (f1 : Buf (Elt F) (arg3.view.loc (c : Thread nD τ))) :
    (bigSepL l64 fun r : Fin 64 => rowPt c arg3 ![r.val, 0] (rowInb r) (landedAt c i arg3 x0 hx0 ft f1 r) : sProp 𝕄)
      ⊢ owns (c : Thread nD τ) arg3 fullShare (rowsOf i x0 (tblM.view.read (Elt F) ft)) := by
  refine (rows_join c arg3 (landedAt c i arg3 x0 hx0 ft f1)).trans ?_
  unfold owns
  iintro ⟨%g, %hg, H⟩
  iexists g
  isplitr
  · ipureintro; exact joined_read c i arg3 x0 hx0 ft f1 g hg
  · iexact H

set_option maxHeartbeats 1000000 in
/-- The block splits into its rows and the table's share into one share per copy; after the run both are joined back. -/
theorem kernelRun1 (c : Dev nD) (i : grid1.Coords) (arg3 : Memref sig .tc .vmem S64x896 .f32) (harg3 : arg3.IsWhole)
    (x0 : Vec F S65344 .i32) (hx0 : ∀ j, (x0 j : BitVec 32).toNat < 50000) (ft : HbBuf (F := F) c tblM)
    (W : Waits sig Unit) (K : PUnit → sProp 𝕄) :
    iprop(owns (c : Thread nD τ) idsM fullShare x0 ∗ (∃ d, owns (c : Thread nD τ) arg3 fullShare d)
        ∗ Pipeline.ownSems0 (Ix := Unit) (Name := ℕ) (U := Pipeline.UD sig nD τ) (Lvl := ℕ) (Val := Elt F) (τ := τ) osem1 c
        ∗ hbPt c tblM ft ∗ owes (c : Thread nD τ) 0 W
        ∗ (iprop(owns (c : Thread nD τ) idsM fullShare x0 ∗ owns (c : Thread nD τ) arg3 fullShare (rowsOf i x0 (tblM.view.read (Elt F) ft))
            ∗ Pipeline.ownSems0 (Ix := Unit) (Name := ℕ) (U := Pipeline.UD sig nD τ) (Lvl := ℕ) (Val := Elt F) (τ := τ) osem1 c
            ∗ hbPt c tblM ft ∗ (∃ W', owes (c : Thread nD τ) 0 W')) -∗ K ⟨⟩))
      ⊢ wp frame (wpE (defs₀ (F := F)) Variants.none c none) Set.univ
          (cc1_kernel i idsM (Memref.isWhole_whole _) tblM (Memref.isWhole_whole _) arg3 harg3 cc1_scratch0) K := by
  rw [sems_list c, toks_list c ft]
  iintro ⟨Hids, Harg, Hsems, ⟨Hrem, Hspare, Htoks⟩, Howes, HK⟩
  ihave Hrows := (rows_open c arg3) $$ Harg
  icases Hrows with ⟨%f1, Hrows⟩
  iapply (run_grouped c i arg3 harg3 x0 hx0 ft f1 W K)
  isplitl [Hids]; · iexact Hids
  isplitl [Hrows]; · iexact Hrows
  isplitl [Hsems]; · iexact Hsems
  isplitl [Htoks]; · iexact Htoks
  isplitl [Howes]; · iexact Howes
  iintro ⟨Hids, Hrows, Hsems, Htoks, HW⟩
  iapply HK
  isplitl [Hids]; · iexact Hids
  isplitl [Hrows]
  · iapply (rows_close c i arg3 x0 hx0 ft f1); iexact Hrows
  isplitl [Hsems]; · iexact Hsems
  isplitl [Hrem Hspare Htoks]
  · isplitl [Hrem]; · iexact Hrem
    isplitl [Hspare]; · iexact Hspare
    iexact Htoks
  iexact HW

end Cert.Kernel.Gather1Run

end
-- ==== Proof.WGather1Dat.lean ====
import proofs.«405285_j12421045420642_1_alg».proof.Proof.WGather1Run

set_option maxRecDepth 16384

noncomputable section

namespace Cert.Kernel.Gather1

open Cert.Kernel Cert.Kernel.Gen Cert.Kernel.Gather1Run
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem ownSemFacts1 : Pipeline.OwnSemFacts spec1 osem1 := by decide

def H1 : Finset (Ref sig .tc) := {main_arg2}
theorem H1_sub : H1 ⊆ Pipeline.restRefsP sig pre1 spec1 := by decide

theorem hbmPts1_eq (c : Dev nD) :
    (bigSep H1 (fun b => ((c : Thread nD τ).loc b) ↦{fullShare} V c b) : sProp 𝕄) = iprop(hbPt c tblM (V c main_arg2)) := by
  rw [BI.bigSep_eq_bigSepL_of_eq [main_arg2] (by decide) (by decide)]; rfl

theorem prefHeld1_eq (c : Dev nD) (T : pre1.Contents (Elt F)) :
    (Pipeline.prefHeld (Ix := Unit) (Name := ℕ) (U := Pipeline.UD sig nD τ) (Lvl := ℕ) pre1 c (fun _ => fullShare) T : sProp 𝕄)
      = iprop(hbPt c idsM (T 0)) := by
  unfold Pipeline.prefHeld; rw [bigSep_W1]; rfl

abbrev Inv1 (c : Dev nD) : sProp 𝕄 :=
  iprop(Pipeline.ΦD osem1 spec1 H1 V c
    ∗ Pipeline.prefHeld (Ix := Unit) (Name := ℕ) (U := Pipeline.UD sig nD τ) (Lvl := ℕ) pre1 c (fun _ => fullShare) (fun k => V c (pre1.ref k)))

def dat1 (a : (pcfg1 (F := F)).Adm) (c : Dev nD) : Dat τ (Elt F) Unit ℕ (Pipeline.UD sig nD τ) ℕ (cfg1 a) c where
  A w := V c (Pipeline.arrRef spec1 w)
  after w t := match w with
    | ⟨0, _⟩ => rowsOf ((cfg1 a).grid.coords t) (V c main_v4) (tblM.view.read (Elt F) (V c main_arg2))
  Φ _ := Inv1 V c
  q _ := fullShare
  owed _ := 0

theorem A_eq1 (a : (pcfg1 (F := F)).Adm) (c : Dev nD) (w : Fin (cfg1 a).W) : (dat1 V a c).A w = V c (Pipeline.arrRef spec1 w) := by
  dsimp only [dat1]

theorem after1_0 (a : (pcfg1 (F := F)).Adm) (c : Dev nD) (t : Fin (cfg1 a).N) :
    (dat1 V a c).after 0 t = rowsOf ((cfg1 a).grid.coords t) (V c main_v4) (tblM.view.read (Elt F) (V c main_arg2)) := by
  dsimp only [dat1]; rfl

abbrev st1_0 (a : (pcfg1 (F := F)).Adm) (t : Fin (cfg1 a).N) : Memref sig .tc .vmem S64x896 .f32 := spec1_0.stage ((cfg1 a).slots t 0)
abbrev hst1_0 (a : (pcfg1 (F := F)).Adm) (t : Fin (cfg1 a).N) : (st1_0 a t).IsWhole := hstage1_0 (((cfg1 a).slots t 0).cast nbuf1_0)
abbrev bodyAt1 (a : (pcfg1 (F := F)).Adm) (t : Fin (cfg1 a).N) : Prog (TpuEff nD τ sig (Elt F) Λ₀ .tc) PUnit :=
  cc1_kernel (grid1.coords t) idsM (Memref.isWhole_whole _) tblM (Memref.isWhole_whole _) (st1_0 a t) (hst1_0 a t) cc1_scratch0

theorem kernelRun1_pt (c : Dev nD) (i : grid1.Coords) (arg3 : Memref sig .tc .vmem S64x896 .f32) (harg3 : arg3.IsWhole)
    (x0 : Vec F S65344 .i32) (hx0 : ∀ j, (x0 j : BitVec 32).toNat < 50000) (ft : HbBuf (F := F) c tblM)
    (W : Waits sig Unit) (K : PUnit → sProp 𝕄) :
    iprop(hbPt c idsM x0 ∗ (∃ d, owns (c : Thread nD τ) arg3 fullShare d)
        ∗ Pipeline.ownSems0 (Ix := Unit) (Name := ℕ) (U := Pipeline.UD sig nD τ) (Lvl := ℕ) (Val := Elt F) (τ := τ) osem1 c
        ∗ hbPt c tblM ft ∗ owes (c : Thread nD τ) 0 W
        ∗ (iprop(hbPt c idsM x0 ∗ owns (c : Thread nD τ) arg3 fullShare (rowsOf i x0 (tblM.view.read (Elt F) ft))
            ∗ Pipeline.ownSems0 (Ix := Unit) (Name := ℕ) (U := Pipeline.UD sig nD τ) (Lvl := ℕ) (Val := Elt F) (τ := τ) osem1 c
            ∗ hbPt c tblM ft ∗ (∃ W', owes (c : Thread nD τ) 0 W')) -∗ K ⟨⟩))
      ⊢ wp frame (wpE (defs₀ (F := F)) Variants.none c none) Set.univ
          (cc1_kernel i idsM (Memref.isWhole_whole _) tblM (Memref.isWhole_whole _) arg3 harg3 cc1_scratch0) K := by
  have h := kernelRun1 c i arg3 harg3 x0 hx0 ft W K
  rw [owns_whole (c : Thread nD τ) main_v4 fullShare x0] at h
  exact h

def bodyPre1 (a : (pcfg1 (F := F)).Adm) (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d)))

def bodyPost1 (a : (pcfg1 (F := F)).Adm) (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t))

theorem sound_body1 (hin : ∀ (c : Dev nD) (j : S65344.Idx), ((V c main_v4 : S65344.Idx → BitVec 32) j).toNat < 50000)
    (a : (pcfg1 (F := F)).Adm) (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  rw [show (dat1 V a c).Φ t.succ = (dat1 V a c).Φ t.castSucc from rfl, after1_0]
  rw [show (dat1 V a c).Φ t.castSucc = Inv1 V c from rfl]
  unfold Inv1
  rw [Pipeline.ΦD_eq, hbmPts1_eq, prefHeld1_eq]
  unfold Dat.owesAt Pipeline.owesWithin
  rw [show (dat1 V a c).owed t.castSucc = 0 from rfl, show (dat1 V a c).owed t.succ = 0 from rfl]
  iintro ⟨⟨⟨HR, Hg, Hq, Hh⟩, Ht⟩, ⟨%W, -, HW⟩, ⟨%d0, H1⟩⟩
  iapply (kernelRun1_pt c (grid1.coords t) (st1_0 a t) (hst1_0 a t) (V c main_v4) (hin c) (V c main_arg2) W _)
  isplitl [Ht]; · iexact Ht
  isplitl [H1]; · iexists _; iexact H1
  isplitl [Hq]; · iexact Hq
  isplitl [Hh]; · iexact Hh
  isplitl [HW]; · iexact HW
  iintro ⟨Ht, H1, Hq, Hh, ⟨%W', HW'⟩⟩
  isplitl [HR Hg Hq Hh Ht]
  · isplitr [Ht]
    · isplitl [HR]; · iexact HR
      isplitl [Hg]; · iexact Hg
      isplitl [Hq]; · iexact Hq
      iexact Hh
    · iexact Ht
  isplitl [HW']
  · iexists W'; isplitr; · ipureintro; exact fun _ _ => Or.inl trivial
    iexact HW'
  iexact H1

theorem body_obligation1 (hin : ∀ (c : Dev nD) (j : S65344.Idx), ((V c main_v4 : S65344.Idx → BitVec 32) j).toNat < 50000)
    (a : (pcfg1 (F := F)).Adm) (c : Dev nD) :
    BodyObligation (dat1 (F := F) V a c) (defs₀ (F := F)) Variants.none () Set.univ := fun t => by
  rw [bigSep_W1, bigSep_W1]
  exact sound_body1 V hin a c t

end Cert.Kernel.Gather1

end
-- ==== Proof.WPool.lean ====
import proofs.«405285_j12421045420642_1_alg».proof.Proof.Gen.Kernel.Launch
import proofs.«405285_j12421045420642_1_alg».proof.Proof.Gen.Kernel.Skeleton
import proofs.«405285_j12421045420642_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem held2_0 {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem held2_1 {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev allX : Rect S1x2048x128 := Rect.unit (s := S1x2048x128) ![0, 0, 0] S1x2048x128.size inb_S1x2048x128_S1x2048x128_0_0_0

abbrev allY : Rect S1x2042x896 := Rect.unit (s := S1x2042x896) ![0, 0, 0] S1x2042x896.size inb_S1x2042x896_S1x2042x896_0_0_0

abbrev allZ : Rect S1x2042x128 := Rect.unit (s := S1x2042x128) ![0, 0, 0] S1x2042x128.size inb_S1x2042x128_S1x2042x128_0_0_0

def out2_2 (x0 : Vec F S1x2048x128 .f32) (x1 : Vec F S1x2042x896 .f32) : Vec F S1x2042x128 .f32 :=
  View.canon [⟨allZ, k2_pay1 (View.ld x0 allX) (View.ld x1 allY)⟩]

theorem store_fills (p : Vec F S1x2042x128 .f32) (y : S1x2042x128.Idx) :
    ∃ pc ∈ ([⟨allZ, p⟩] : List (View.Piece (Elt F) S1x2042x128 .f32)), y ∈ pc.1.set :=
  View.cover_of_tiled [⟨allZ, p⟩] S1x2042x128.size (by rfl) y

set_option maxHeartbeats 1000000 in
theorem kernel_triple2 (c : Dev nD) (E : Set ℕ) (i : grid2.Coords)
    (arg1 : Memref sig .tc .vmem S1x2048x128 .f32) (harg1 : arg1.IsWhole)
    (arg2 : Memref sig .tc .vmem S1x2042x896 .f32) (harg2 : arg2.IsWhole)
    (arg3 : Memref sig .tc .vmem S1x2042x128 .f32) (harg3 : arg3.IsWhole)
    (x0 : Vec F S1x2048x128 .f32) (x1 : Vec F S1x2042x896 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_fills _)

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  held2_0 V (dat2 V c) (A_eq2 V c 0) (after2_0 V c) t d
theorem before2_1 (c : Dev nD) (t : Fin cfg2.N) (d) : (dat2 V c).before 1 t d = iblk2 V c 1 t :=
  held2_1 V (dat2 V c) (A_eq2 V c 1) (after2_1 V c) t d

def pointPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def pointPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem point_triple2 (c : Dev nD) (t : Fin cfg2.N) :
    pointPre2 V c t ⊢ wp frame (wpE (defs₀ (F := F)) Variants.none c none) Set.univ (bodyAt2 t) (fun _ => pointPost2 V c t) := by
  unfold pointPre2 pointPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (kernel_triple2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact point_triple2 V c t

end Cert.Kernel.Pool

end
-- ==== Proof.WAssemble.lean ====
import proofs.«405285_j12421045420642_1_alg».proof.Proof.WGather0Dat
import proofs.«405285_j12421045420642_1_alg».proof.Proof.WGather1Dat
import proofs.«405285_j12421045420642_1_alg».proof.Proof.WPool
import proofs.«405285_j12421045420642_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Assemble

open Cert.Kernel
open Cert.Kernel.Gen hiding V0 V1 V2 V3 V4 V5 V6 segs seg0 seg2 seg4
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev V0 : (c : Dev nD) → (b : Ref sig .tc) → Buf (Elt F) ((c : Thread nD τ).loc b) := fun c b => W0 m ρ c b

abbrev W1 (c : Dev nD) : Valuation τ sig (Elt F) := StableHlo.after hostOps0 (W0 m ρ c)
abbrev V1 : (c : Dev nD) → (b : Ref sig .tc) → Buf (Elt F) ((c : Thread nD τ).loc b) := fun c b => W1 m ρ c b

def adm0 : (pcfg0 (F := F)).Adm := ⟨fun k => V1 m ρ 0 (pre0.ref k), trivial⟩

def W2 (c : Dev nD) : Valuation τ sig (Elt F) :=
  Pipeline.withArrays spec0 c (W1 m ρ c) fun w => (Gather0.dat0 (V1 m ρ) (adm0 m ρ) c).arrAt w (cfg0 (adm0 m ρ)).N
theorem W2_arr (c : Dev nD) (w : Fin (cfg0 (adm0 m ρ)).W) :
    W2 m ρ c (Proc.devRef .tc (Pipeline.arrRef spec0 w)) = (Gather0.dat0 (V1 m ρ) (adm0 m ρ) c).arrAt w (cfg0 (adm0 m ρ)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin (cfg0 (adm0 m ρ)).W) :
    (Gather0.dat0 (V1 m ρ) (adm0 m ρ) c).arrAt w (cfg0 (adm0 m ρ)).N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 (c : Dev nD) : Valuation τ sig (Elt F) := StableHlo.after hostOps1 (W2 m ρ c)
abbrev V3 : (c : Dev nD) → (b : Ref sig .tc) → Buf (Elt F) ((c : Thread nD τ).loc b) := fun c b => W3 m ρ c b

def adm1 : (pcfg1 (F := F)).Adm := ⟨fun k => V3 m ρ 0 (pre1.ref k), trivial⟩

def W4 (c : Dev nD) : Valuation τ sig (Elt F) :=
  Pipeline.withArrays spec1 c (W3 m ρ c) fun w => (Gather1.dat1 (V3 m ρ) (adm1 m ρ) c).arrAt w (cfg1 (adm1 m ρ)).N
theorem W4_arr (c : Dev nD) (w : Fin (cfg1 (adm1 m ρ)).W) :
    W4 m ρ c (Proc.devRef .tc (Pipeline.arrRef spec1 w)) = (Gather1.dat1 (V3 m ρ) (adm1 m ρ) c).arrAt w (cfg1 (adm1 m ρ)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin (cfg1 (adm1 m ρ)).W) :
    (Gather1.dat1 (V3 m ρ) (adm1 m ρ) c).arrAt w (cfg1 (adm1 m ρ)).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 (c : Dev nD) : Valuation τ sig (Elt F) := StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (Pool.dat2 (V5 m ρ) c).arrAt w cfg2.N
theorem W6_arr (c : Dev nD) (w : Fin cfg2.W) :
    W6 m ρ c (Proc.devRef .tc (Pipeline.arrRef spec2 w)) = (Pool.dat2 (V5 m ρ) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (Pool.dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

theorem W6_of_arg (c : Dev nD) (b : Ref sig .tc) (h2 : ∀ w, Pipeline.arrRef spec2 w ≠ b) (h1 : ∀ w, Pipeline.arrRef spec1 w ≠ b)
    (h0 : ∀ w, Pipeline.arrRef spec0 w ≠ b) (hw2 : b ∉ hostOps2_W) (hw1 : b ∉ hostOps1_W) (hw0 : b ∉ hostOps0_W) :
    W6 m ρ c (Proc.devRef .tc b) = m ((c : Thread nD τ).loc b) :=
  calc W6 m ρ c (Proc.devRef .tc b)
    _ = W5 m ρ c (Proc.devRef .tc b) := W6_of_ne m ρ c b h2
    _ = W4 m ρ c (Proc.devRef .tc b) := StableHlo.after_of_writes_sub hostOps2 _ hostOps2_writes hw2
    _ = W3 m ρ c (Proc.devRef .tc b) := W4_of_ne m ρ c b h1
    _ = W2 m ρ c (Proc.devRef .tc b) := StableHlo.after_of_writes_sub hostOps1 _ hostOps1_writes hw1
    _ = W1 m ρ c (Proc.devRef .tc b) := W2_of_ne m ρ c b h0
    _ = W0 m ρ c (Proc.devRef .tc b) := StableHlo.after_of_writes_sub hostOps0 _ hostOps0_writes hw0
    _ = m ((c : Thread nD τ).loc b) := rfl
theorem W6_main_arg0 (c : Dev nD) : W6 m ρ c (Proc.devRef .tc main_arg0) = m ((c : Thread nD τ).loc main_arg0) :=
  W6_of_arg m ρ c main_arg0 (by decide) (by decide) (by decide) (by decide) (by decide) (by decide)
theorem W6_main_arg1 (c : Dev nD) : W6 m ρ c (Proc.devRef .tc main_arg1) = m ((c : Thread nD τ).loc main_arg1) :=
  W6_of_arg m ρ c main_arg1 (by decide) (by decide) (by decide) (by decide) (by decide) (by decide)
theorem W6_main_arg2 (c : Dev nD) : W6 m ρ c (Proc.devRef .tc main_arg2) = m ((c : Thread nD τ).loc main_arg2) :=
  W6_of_arg m ρ c main_arg2 (by decide) (by decide) (by decide) (by decide) (by decide) (by decide)
theorem W6_main_v7 (c : Dev nD) : W6 m ρ c (Proc.devRef .tc main_v7) = (Pool.dat2 (V5 m ρ) c).arrAt 2 cfg2.N :=
  W6_arr m ρ c 2

abbrev adm : (p : Fin 3) → (pcfgs (F := F) p).Adm
  | ⟨0, _⟩ => adm0 m ρ
  | ⟨1, _⟩ => adm1 m ρ
  | ⟨2, _⟩ => cfg2.toPCfg_adm

def pdats : (p : Fin 3) → (c : Dev nD) → Dat τ (Elt F) Unit ℕ (Pipeline.UD sig nD τ) ℕ (Pipeline.pin (pcfgs (F := F)) (adm m ρ) p) c
  | ⟨0, _⟩ => fun c => Gather0.dat0 (V1 m ρ) (adm0 m ρ) c
  | ⟨1, _⟩ => fun c => Gather1.dat1 (V3 m ρ) (adm1 m ρ) c
  | ⟨2, _⟩ => fun c => Pool.dat2 (V5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W6 m ρ c) ∗ ∃ r, prngReg c r)

set_option backward.isDefEq.respectTransparency.types false in
def reg0 (hin0 : ∀ (c : Dev nD) (j : S65536.Idx), ((V1 m ρ c main_v0 : S65536.Idx → BitVec 32) j).toNat < 50000) :
    Pipeline.RegionSeg (pcfgs (F := F)) (adm m ρ) (pdats m ρ) () defs₀ 𝒱₀ L lv 0 where
  win := (launch0 (F := F)).win.to₀
  block_pos := (launch0 (F := F)).block_pos
  stage_whole := (launch0 (F := F)).stage_whole
  K := Fin 64
  osem := Gather0.osem0
  ho := Gather0.ownSemFacts0
  hbody c := (Gather0.body_obligation0 (V1 m ρ) hin0 (adm0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop((∃ r, prngReg c r) ∗ Pipeline.ownSems0 (Ix := Unit) (Name := ℕ) (U := Pipeline.UD sig nD τ) (Lvl := ℕ) (Val := Elt F) (τ := τ) Gather0.osem0 c
    ∗ (bigSep Gather0.H0 fun b => (((c : Thread nD τ)).loc b) ↦{fullShare} V1 m ρ c b))
  Y c := iprop((∃ r, prngReg c r) ∗ (bigSep Gather0.H0 fun b => (((c : Thread nD τ)).loc b) ↦{fullShare} V1 m ρ c b)
    ∗ Pipeline.prefHeld (Ix := Unit) (Name := ℕ) (U := Pipeline.UD sig nD τ) (Lvl := ℕ) pre0 c (fun _ => fullShare) (fun k => V1 m ρ c (pre0.ref k)))
  Z c := bigSep (Pipeline.restRefsP sig pre0 spec0 \ Gather0.H0) fun b => (((c : Thread nD τ)).loc b) ↦{fullShare} V1 m ρ c b
  hentry c := by
    obtain rfl : c = 0 := Subsingleton.elim _ _
    have hsplit := Pipeline.arrays_of_unscopedBufs (p := 0) (pcfgs (F := F)) (adm m ρ) (pdats m ρ) (launch0 (F := F)).win (launch0 (F := F)).arr_whole 0
      ((pdats m ρ 0 0).share_full fun _ => rfl) (V1 m ρ 0) fun _ => rfl
    rw [Pipeline.unscopedBufs_held] at hsplit
    have hT := Pipeline.unscopedRest_split (Ix := Unit) (Name := ℕ) (U := Pipeline.UD sig nD τ) (Lvl := ℕ) (launch0 (F := F)).pre 0 (V1 m ρ 0)
    have hH := Pipeline.unscopedRestP_sdiff pre0 spec0 Gather0.H0 Gather0.H0_sub 0 (V1 m ρ 0)
    iintro ⟨⟨Hub, Hp, HO⟩, Hos, -⟩
    ihave H := hsplit $$ Hub
    icases H with ⟨Ha, Hrest⟩
    ihave H' := (Entails.of_eq hT) $$ Hrest
    icases H' with ⟨Ht, Hrest⟩
    ihave H'' := (Entails.of_eq hH) $$ Hrest
    icases H'' with ⟨HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    obtain rfl : c = 0 := Subsingleton.elim _ _
    rw [show (pdats m ρ 0 0).Φ 0 = Gather0.Inv0 (V1 m ρ) 0 from rfl]
    unfold Gather0.Inv0
    rw [Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m ρ 0 c).Φ (Fin.last _) = Gather0.Inv0 (V1 m ρ) c from rfl]
    unfold Gather0.Inv0
    rw [Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 0) (pcfgs (F := F)) (adm m ρ) (Ix := Unit) (Name := ℕ) (U := Pipeline.UD sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · (cfg0 (adm0 m ρ)).N) (hF0 m ρ c) (hrest0 m ρ c)
    rw [Pipeline.unscopedBufs_held] at hjoin
    have hT := Pipeline.unscopedRest_split (Ix := Unit) (Name := ℕ) (U := Pipeline.UD sig nD τ) (Lvl := ℕ) (launch0 (F := F)).pre c (V1 m ρ c)
    have hH := Pipeline.unscopedRestP_sdiff pre0 spec0 Gather0.H0 Gather0.H0_sub c (V1 m ρ c)
    iintro ⟨Ha, HO, ⟨HY, HH, Ht⟩, HR⟩
    ihave Hrest := (Entails.of_eq hH.symm) $$ [HH HR]
    · isplitl [HH]; · iexact HH
      iexact HR
    ihave Hrest' := (Entails.of_eq hT.symm) $$ [Ht Hrest]
    · isplitl [Ht]; · iexact Ht
      iexact Hrest
    imodintro
    isplitl [Ha Hrest']
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 (hin1 : ∀ (c : Dev nD) (j : S65344.Idx), ((V3 m ρ c main_v4 : S65344.Idx → BitVec 32) j).toNat < 50000) :
    Pipeline.RegionSeg (pcfgs (F := F)) (adm m ρ) (pdats m ρ) () defs₀ 𝒱₀ L lv 1 where
  win := (launch1 (F := F)).win.to₀
  block_pos := (launch1 (F := F)).block_pos
  stage_whole := (launch1 (F := F)).stage_whole
  K := Fin 64
  osem := Gather1.osem1
  ho := Gather1.ownSemFacts1
  hbody c := (Gather1.body_obligation1 (V3 m ρ) hin1 (adm1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop((∃ r, prngReg c r) ∗ Pipeline.ownSems0 (Ix := Unit) (Name := ℕ) (U := Pipeline.UD sig nD τ) (Lvl := ℕ) (Val := Elt F) (τ := τ) Gather1.osem1 c
    ∗ (bigSep Gather1.H1 fun b => (((c : Thread nD τ)).loc b) ↦{fullShare} V3 m ρ c b))
  Y c := iprop((∃ r, prngReg c r) ∗ (bigSep Gather1.H1 fun b => (((c : Thread nD τ)).loc b) ↦{fullShare} V3 m ρ c b)
    ∗ Pipeline.prefHeld (Ix := Unit) (Name := ℕ) (U := Pipeline.UD sig nD τ) (Lvl := ℕ) pre1 c (fun _ => fullShare) (fun k => V3 m ρ c (pre1.ref k)))
  Z c := bigSep (Pipeline.restRefsP sig pre1 spec1 \ Gather1.H1) fun b => (((c : Thread nD τ)).loc b) ↦{fullShare} V3 m ρ c b
  hentry c := by
    obtain rfl : c = 0 := Subsingleton.elim _ _
    have hsplit := Pipeline.arrays_of_unscopedBufs (p := 1) (pcfgs (F := F)) (adm m ρ) (pdats m ρ) (launch1 (F := F)).win (launch1 (F := F)).arr_whole 0
      ((pdats m ρ 1 0).share_full fun _ => rfl) (V3 m ρ 0) fun _ => rfl
    rw [Pipeline.unscopedBufs_held] at hsplit
    have hT := Pipeline.unscopedRest_split (Ix := Unit) (Name := ℕ) (U := Pipeline.UD sig nD τ) (Lvl := ℕ) (launch1 (F := F)).pre 0 (V3 m ρ 0)
    have hH := Pipeline.unscopedRestP_sdiff pre1 spec1 Gather1.H1 Gather1.H1_sub 0 (V3 m ρ 0)
    iintro ⟨⟨Hub, Hp, HO⟩, Hos, -⟩
    ihave H := hsplit $$ Hub
    icases H with ⟨Ha, Hrest⟩
    ihave H' := (Entails.of_eq hT) $$ Hrest
    icases H' with ⟨Ht, Hrest⟩
    ihave H'' := (Entails.of_eq hH) $$ Hrest
    icases H'' with ⟨HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    obtain rfl : c = 0 := Subsingleton.elim _ _
    rw [show (pdats m ρ 1 0).Φ 0 = Gather1.Inv1 (V3 m ρ) 0 from rfl]
    unfold Gather1.Inv1
    rw [Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m ρ 1 c).Φ (Fin.last _) = Gather1.Inv1 (V3 m ρ) c from rfl]
    unfold Gather1.Inv1
    rw [Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 1) (pcfgs (F := F)) (adm m ρ) (Ix := Unit) (Name := ℕ) (U := Pipeline.UD sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · (cfg1 (adm1 m ρ)).N) (hF1 m ρ c) (hrest1 m ρ c)
    rw [Pipeline.unscopedBufs_held] at hjoin
    have hT := Pipeline.unscopedRest_split (Ix := Unit) (Name := ℕ) (U := Pipeline.UD sig nD τ) (Lvl := ℕ) (launch1 (F := F)).pre c (V3 m ρ c)
    have hH := Pipeline.unscopedRestP_sdiff pre1 spec1 Gather1.H1 Gather1.H1_sub c (V3 m ρ c)
    iintro ⟨Ha, HO, ⟨HY, HH, Ht⟩, HR⟩
    ihave Hrest := (Entails.of_eq hH.symm) $$ [HH HR]
    · isplitl [HH]; · iexact HH
      iexact HR
    ihave Hrest' := (Entails.of_eq hT.symm) $$ [Ht Hrest]
    · isplitl [Ht]; · iexact Ht
      iexact Hrest
    imodintro
    isplitl [Ha Hrest']
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) (adm m ρ) (pdats m ρ) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (Pool.body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) (adm m ρ) (pdats m ρ) (launch2 (F := F)).win (launch2 (F := F)).arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m ρ) (Ix := Unit) (Name := ℕ) (U := Pipeline.UD sig nD τ) (Lvl := ℕ)
      (launch2 (F := F)).win (launch2 (F := F)).arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs (hin0 : ∀ (c : Dev nD) (j : S65536.Idx), ((V1 m ρ c main_v0 : S65536.Idx → BitVec 32) j).toNat < 50000)
    (hin1 : ∀ (c : Dev nD) (j : S65344.Idx), ((V3 m ρ c main_v4 : S65344.Idx → BitVec 32) j).toNat < 50000) :
    List (Pipeline.Seg (pcfgs (F := F)) (adm m ρ) (pdats m ρ) () defs₀ 𝒱₀ L lv) :=
  [ .host (hseg hostOps0 hostOps0_sub hostOps0_fresh (W0 m ρ)),
    .region (reg0 m ρ hin0),
    .host (hseg hostOps1 hostOps1_sub hostOps1_fresh (W2 m ρ)),
    .region (reg1 m ρ hin1),
    .host (hseg hostOps2 hostOps2_sub hostOps2_fresh (W4 m ρ)),
    .region (reg2 m ρ) ]

theorem main_run (hin0 : ∀ (c : Dev nD) (j : S65536.Idx), ((V1 m ρ c main_v0 : S65536.Idx → BitVec 32) j).toNat < 50000)
    (hin1 : ∀ (c : Dev nD) (j : S65344.Idx), ((V3 m ρ c main_v4 : S65344.Idx → BitVec 32) j).toNat < 50000) (c : Dev nD) :
    main (F := F) c = Pipeline.Seg.run (segs m ρ hin0 hin1) := (main_chain c).trans (by chain_rfl)

set_option backward.isDefEq.respectTransparency.types false in
theorem run_main (hin0 : ∀ (c : Dev nD) (j : S65536.Idx), ((V1 m ρ c main_v0 : S65536.Idx → BitVec 32) j).toNat < 50000)
    (hin1 : ∀ (c : Dev nD) (j : S65344.Idx), ((V3 m ρ c main_v4 : S65344.Idx → BitVec 32) j).toNat < 50000) :
    θ_run defs (onTc (τ := τ) (main (F := F))) ⟨m, fun _ => 0, ρ⟩ (fun r => ∀ c : Dev nD, ∀ b ∈ Pipeline.ucRefs τ sig,
      r.2.mem (((c : Thread nD τ)).1, b) = W6 m ρ c b) :=
  Pipeline.θ_run_regions_kit (pcfgs (F := F)) (adm m ρ) (pdats m ρ) () (cellOf_inj (adm m ρ)) embL defs₀ 𝒱₀ L lv m ρ main (segs m ρ hin0 hin1)
    (fun c Q => by rw [main_run m ρ hin0 hin1 c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m ρ)) (cellOf_inj (adm m ρ)))
      (Pipeline.launchToks (Pipeline.pin (pcfgs (F := F)) (adm m ρ)) (cellOf_inj (adm m ρ))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Assemble

end
-- ==== Proof.WHostReads.lean ====
import proofs.«405285_j12421045420642_1_alg».proof.Proof.Gen.Kernel.Launch
import Idealize.ShloMosaic.Lib.StableHlo.Run

set_option maxRecDepth 16384

noncomputable section

namespace Cert.Kernel.HostReads

open Cert.Kernel Cert.Kernel.Gen
open Idealize.ShloMosaic Idealize.ShloMosaic.TcCoe Idealize.SL.Sem Idealize.ShloMosaic.StableHlo

variable {F : FTy → Type} [FloatOps F] (W : Valuation τ sig (Elt F))

theorem ops0_v0 : StableHlo.after hostOps0 W (Proc.devRef .tc main_v0)
    = shapeCast S65536 (W (Proc.devRef .tc main_arg0)) shapeCasts_S32x2048_S65536 := by after_results; rfl

theorem ops0_arg0 : StableHlo.after hostOps0 W (Proc.devRef .tc main_arg0) = W (Proc.devRef .tc main_arg0) := by after_results
theorem ops0_arg1 : StableHlo.after hostOps0 W (Proc.devRef .tc main_arg1) = W (Proc.devRef .tc main_arg1) := by after_results
theorem ops0_arg2 : StableHlo.after hostOps0 W (Proc.devRef .tc main_arg2) = W (Proc.devRef .tc main_arg2) := by after_results

theorem ops1_v2 : StableHlo.after hostOps1 W (Proc.devRef .tc main_v2)
    = shapeCast S32x2048x128 (W (Proc.devRef .tc main_v1)) shapeCasts_S65536x128_S32x2048x128 := by after_results; rfl

theorem ops1_v4 : StableHlo.after hostOps1 W (Proc.devRef .tc main_v4)
    = shapeCast S65344 (extractStridedSlice S32x2042 ![0, 3] (W (Proc.devRef .tc main_arg0)) slices_S32x2048_S32x2042_0_3) shapeCasts_S32x2042_S65344 := by
  after_results; rfl

theorem ops1_arg0 : StableHlo.after hostOps1 W (Proc.devRef .tc main_arg0) = W (Proc.devRef .tc main_arg0) := by after_results
theorem ops1_arg2 : StableHlo.after hostOps1 W (Proc.devRef .tc main_arg2) = W (Proc.devRef .tc main_arg2) := by after_results

theorem ops2_v6 : StableHlo.after hostOps2 W (Proc.devRef .tc main_v6)
    = shapeCast S32x2042x896 (W (Proc.devRef .tc main_v5)) shapeCasts_S65344x896_S32x2042x896 := by after_results; rfl
theorem ops2_v2 : StableHlo.after hostOps2 W (Proc.devRef .tc main_v2) = W (Proc.devRef .tc main_v2) := by after_results

end Cert.Kernel.HostReads

end
-- ==== Proof.WRanges.lean ====
import proofs.«405285_j12421045420642_1_alg».proof.Proof.WAssemble
import proofs.«405285_j12421045420642_1_alg».proof.Proof.WHostReads
import proofs.«405285_j12421045420642_1_alg».proof.Proof.ValueChain

set_option maxRecDepth 16384

noncomputable section

namespace Cert.Kernel.Ranges

open Cert.Kernel Cert.Kernel.Gen Cert.Kernel.Assemble
open Idealize.ShloMosaic Idealize.ShloMosaic.TcCoe Idealize.SL.Sem

variable {F : FTy → Type} [FloatOps F]
variable (m : (ℓ : Loc nD τ sig) → Buf (Elt F) ℓ) (ρ : Dev nD → PrngReg)

theorem table0_eq (c : Dev nD) :
    (V1 m ρ c main_v0 : S65536.Idx → BitVec 32) = shapeCast S65536 (m ((c : Thread nD τ).loc main_arg0)) shapeCasts_S32x2048_S65536 :=
  HostReads.ops0_v0 (W0 m ρ c)

theorem ids_at2 (c : Dev nD) : W2 m ρ c (Proc.devRef .tc main_arg0) = m ((c : Thread nD τ).loc main_arg0) :=
  (W2_of_ne m ρ c main_arg0 (by decide)).trans (HostReads.ops0_arg0 (W0 m ρ c))

theorem table1_eq (c : Dev nD) :
    (V3 m ρ c main_v4 : S65344.Idx → BitVec 32)
      = shapeCast S65344 (extractStridedSlice S32x2042 ![0, 3] (m ((c : Thread nD τ).loc main_arg0)) slices_S32x2048_S32x2042_0_3) shapeCasts_S32x2042_S65344 := by
  have e := HostReads.ops1_v4 (W2 m ρ c)
  rw [ids_at2 m ρ c] at e
  exact e

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (hids : ∀ (c : Dev nD) (j : S32x2048.Idx), ((m ((c : Thread nD τ).loc main_arg0) : S32x2048.Idx → BitVec 32) j).toNat < 50000)
include hids

theorem words0_lt : ∀ (c : Dev nD) (j : S65536.Idx), ((V1 m ρ c main_v0 : S65536.Idx → BitVec 32) j).toNat < 50000 := by
  intro c j
  rw [table0_eq m ρ c]
  exact Cert.ValueChain.range_flatIds _ _ (hids c) j

theorem words1_lt : ∀ (c : Dev nD) (j : S65344.Idx), ((V3 m ρ c main_v4 : S65344.Idx → BitVec 32) j).toNat < 50000 := by
  intro c j
  rw [table1_eq m ρ c]
  exact Cert.ValueChain.range_flatCentre _ _ _ (hids c) j

theorem run_named : θ_run defs (onTc (τ := τ) (main (F := F))) ⟨m, fun _ => 0, ρ⟩ (fun r => ∀ c : Dev nD,
      r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v7 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩)
    (run_main m ρ (words0_lt m ρ hids) (words1_lt m ρ hids))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_named m ρ hids)

end Cert.Kernel.Ranges

end
-- ==== Proof.Gather0Array.lean ====
import proofs.«405285_j12421045420642_1_alg».proof.Proof.Gather0
import proofs.«405285_j12421045420642_1_alg».proof.Proof.Gen.KernelIdeal.Launch
import Idealize.ShloMosaic.Lib.Pipeline.Value
import Idealize.ShloMosaic.Lib.Pipeline.FrameBody
import Idealize.ShloMosaic.Lib.ValueIdx

noncomputable section

namespace Cert.KernelIdeal.Gather0Array

open Cert.KernelIdeal Cert.KernelIdeal.Gen
open Idealize.ShloMosaic Idealize.ShloMosaic.TcCoe
open Idealize.SL Idealize.SL.Sem

variable {F : FTy → Type} [FloatOps F]

theorem points (a : (pcfg0 (F := F)).Adm) : (cfg0 a).N = 1024 := rfl

theorem coord_at (a : (pcfg0 (F := F)).Adm) (t : Fin (cfg0 a).N) : (((cfg0 a).grid.coords t) 0).val = t.val := by
  have ht : t.val < 1024 := lt_of_lt_of_eq t.isLt (points a)
  show t.val / (cfg0 a).grid.stride 0 % 1024 = t.val
  rw [show (cfg0 a).grid.stride 0 = 1 from rfl, Nat.div_one, Nat.mod_eq_of_lt ht]

theorem index_at (a : (pcfg0 (F := F)).Adm) (t : Fin (cfg0 a).N) : ((cfg0 a).win 0).index t = ![t.val, 0] := by
  have ht : t.val < 1024 := lt_of_lt_of_eq t.isLt (points a)
  show ![(BitVec.ofNat 32 (((cfg0 a).grid.coords t) 0).val).toNat, (0#32).toNat] = ![t.val, 0]
  rw [coord_at a t, BitVec.toNat_ofNat, Nat.mod_eq_of_lt (by omega)]
  rfl

theorem flush_at (a : (pcfg0 (F := F)).Adm) (t : Fin (cfg0 a).N) : ((cfg0 a).win 0).flush t = true := by
  rw [Pipeline.Window.flush_out _ rfl]
  by_cases h : t.val + 1 = (cfg0 a).grid.N
  · exact Or.inl h
  · have hlt : t.val < (cfg0 a).grid.N := t.isLt
    have h' : t.val + 1 < (cfg0 a).grid.N := by omega
    refine Or.inr ⟨h', fun e => ?_⟩
    have e0 := congrFun e (0 : Fin 2)
    rw [index_at a, index_at a] at e0
    have e1 : t.val + 1 = t.val := e0
    omega

def gathered (x0 : Vec F S65536 .i32) (T : S50000x128.Idx → Elt F .f32) : S65536x128.Idx → Elt F .f32 :=
  fun j => T (ValueIdx.ix2 (Cert.RegionSpec.rowOf (x0 (ValueIdx.ix1 (j 0)))) (j 1))

theorem gather_congr (x0 : Vec F S65536 .i32) (T : S50000x128.Idx → Elt F .f32) (q q' : Fin 65536) (d d' : Fin 128)
    (hq : q.val = q'.val) (hd : d.val = d'.val) :
    T (ValueIdx.ix2 (Cert.RegionSpec.rowOf (x0 (ValueIdx.ix1 q))) d)
      = T (ValueIdx.ix2 (Cert.RegionSpec.rowOf (x0 (ValueIdx.ix1 q'))) d') := by
  cases Fin.ext hq
  cases Fin.ext hd
  rfl

theorem mem_blk (a : (pcfg0 (F := F)).Adm) (t : Fin (cfg0 a).N) (i : S65536x128.Idx) :
    i ∈ (((cfg0 a).win 0).blk t).view.set ↔ ∀ ax : Fin 2, ((cfg0 a).win 0).index t ax * S64x128.size ax ≤ (i ax).val
      ∧ (i ax).val < ((cfg0 a).win 0).index t ax * S64x128.size ax + S64x128.size ax :=
  (Finset.ext_iff.mp (View.set_slice_whole main_v1 (((cfg0 a).win 0).rect t)) i).trans Rect.mem_set_unit

section Data
variable (a : (pcfg0 (F := F)).Adm) (c : Dev nD)
  (dat : Pipeline.Dat τ (Elt F) Unit ℕ (Pipeline.UD sig nD τ) ℕ (cfg0 a) c)
  (x0 : Vec F S65536 .i32) (T : S50000x128.Idx → Elt F .f32)

theorem flushed_eq (hafter : ∀ t : Fin (cfg0 a).N, dat.after 0 t = Gather0.rowsOf ((cfg0 a).grid.coords t) x0 T)
    (t : Fin (cfg0 a).N) :
    dat.flushed 0 t = (((cfg0 a).win 0).blk t).view.read (Elt F) (gathered x0 T) := by
  show ((cfg0 a).win 0).cut ((cfg0 a).grid.coords t) (dat.after 0 t) = _
  rw [hafter t]
  funext y
  show T (ValueIdx.ix2 (Cert.RegionSpec.rowOf (Gather0.wordAt x0 ((cfg0 a).grid.coords t) (y (0 : Fin 2)))) (y (1 : Fin 2)))
    = T (ValueIdx.ix2 (Cert.RegionSpec.rowOf (x0 (ValueIdx.ix1 ((((cfg0 a).win 0).blk t).view.emb y (0 : Fin 2))))) ((((cfg0 a).win 0).blk t).view.emb y (1 : Fin 2)))
  unfold Gather0.wordAt
  refine gather_congr x0 T _ _ _ _ ?_ ?_
  · show 64 * (((cfg0 a).grid.coords t) 0).val + (y (0 : Fin 2)).val = ((cfg0 a).win 0).index t (0 : Fin 2) * 64 + 1 * (y (0 : Fin 2)).val
    rw [index_at a t, coord_at a t]
    show 64 * t.val + (y (0 : Fin 2)).val = t.val * 64 + 1 * (y (0 : Fin 2)).val
    omega
  · show (y (1 : Fin 2)).val = ((cfg0 a).win 0).index t (1 : Fin 2) * 128 + 1 * (y (1 : Fin 2)).val
    rw [index_at a t]
    show (y (1 : Fin 2)).val = 0 * 128 + 1 * (y (1 : Fin 2)).val
    omega

theorem covered (i : S65536x128.Idx) :
    ∃ t : Fin (cfg0 a).N, ((cfg0 a).win 0).flush t = true ∧ i ∈ (((cfg0 a).win 0).blk t).view.set := by
  have hi0 : (i 0).val < 65536 := (i 0).isLt
  have hi1 : (i 1).val < 128 := (i 1).isLt
  refine ⟨⟨(i 0).val / 64, by rw [points a]; omega⟩, flush_at a _, ?_⟩
  rw [mem_blk, index_at]
  intro ax
  match ax with
  | ⟨0, _⟩ => show (i 0).val / 64 * 64 ≤ (i 0).val ∧ (i 0).val < (i 0).val / 64 * 64 + 64; omega
  | ⟨1, _⟩ => show 0 * 128 ≤ (i 1).val ∧ (i 1).val < 0 * 128 + 128; omega

theorem final0 (hafter : ∀ t : Fin (cfg0 a).N, dat.after 0 t = Gather0.rowsOf ((cfg0 a).grid.coords t) x0 T) :
    dat.arrAt 0 (cfg0 a).N
      = fun j : S65536x128.Idx => T (ValueIdx.ix2 (Cert.RegionSpec.rowOf (x0 (ValueIdx.ix1 (j 0)))) (j 1)) :=
  dat.arrAt_eq_of_cover 0 (gathered x0 T) (fun t _ => flushed_eq a c dat x0 T hafter t) (covered a)

end Data

end Cert.KernelIdeal.Gather0Array

end
-- ==== Proof.Gather1Array.lean ====
import proofs.«405285_j12421045420642_1_alg».proof.Proof.Gather1
import proofs.«405285_j12421045420642_1_alg».proof.Proof.Gen.KernelIdeal.Launch
import Idealize.ShloMosaic.Lib.Pipeline.Value
import Idealize.ShloMosaic.Lib.Pipeline.FrameBody
import Idealize.ShloMosaic.Lib.ValueIdx

noncomputable section

namespace Cert.KernelIdeal.Gather1Array

open Cert.KernelIdeal Cert.KernelIdeal.Gen
open Idealize.ShloMosaic Idealize.ShloMosaic.TcCoe
open Idealize.SL Idealize.SL.Sem

variable {F : FTy → Type} [FloatOps F]

theorem points (a : (pcfg1 (F := F)).Adm) : (cfg1 a).N = 1021 := rfl

theorem coord_at (a : (pcfg1 (F := F)).Adm) (t : Fin (cfg1 a).N) : (((cfg1 a).grid.coords t) 0).val = t.val := by
  have ht : t.val < 1021 := lt_of_lt_of_eq t.isLt (points a)
  show t.val / (cfg1 a).grid.stride 0 % 1021 = t.val
  rw [show (cfg1 a).grid.stride 0 = 1 from rfl, Nat.div_one, Nat.mod_eq_of_lt ht]

theorem index_at (a : (pcfg1 (F := F)).Adm) (t : Fin (cfg1 a).N) : ((cfg1 a).win 0).index t = ![t.val, 0] := by
  have ht : t.val < 1021 := lt_of_lt_of_eq t.isLt (points a)
  show ![(BitVec.ofNat 32 (((cfg1 a).grid.coords t) 0).val).toNat, (0#32).toNat] = ![t.val, 0]
  rw [coord_at a t, BitVec.toNat_ofNat, Nat.mod_eq_of_lt (by omega)]
  rfl

theorem flush_at (a : (pcfg1 (F := F)).Adm) (t : Fin (cfg1 a).N) : ((cfg1 a).win 0).flush t = true := by
  rw [Pipeline.Window.flush_out _ rfl]
  by_cases h : t.val + 1 = (cfg1 a).grid.N
  · exact Or.inl h
  · have hlt : t.val < (cfg1 a).grid.N := t.isLt
    have h' : t.val + 1 < (cfg1 a).grid.N := by omega
    refine Or.inr ⟨h', fun e => ?_⟩
    have e0 := congrFun e (0 : Fin 2)
    rw [index_at a, index_at a] at e0
    have e1 : t.val + 1 = t.val := e0
    omega

def gathered (x0 : Vec F S65344 .i32) (T : S50000x896.Idx → Elt F .f32) : S65344x896.Idx → Elt F .f32 :=
  fun j => T (ValueIdx.ix2 (Cert.RegionSpec.rowOf (x0 (ValueIdx.ix1 (j 0)))) (j 1))

theorem gather_congr (x0 : Vec F S65344 .i32) (T : S50000x896.Idx → Elt F .f32) (q q' : Fin 65344) (d d' : Fin 896)
    (hq : q.val = q'.val) (hd : d.val = d'.val) :
    T (ValueIdx.ix2 (Cert.RegionSpec.rowOf (x0 (ValueIdx.ix1 q))) d)
      = T (ValueIdx.ix2 (Cert.RegionSpec.rowOf (x0 (ValueIdx.ix1 q'))) d') := by
  cases Fin.ext hq
  cases Fin.ext hd
  rfl

theorem mem_blk (a : (pcfg1 (F := F)).Adm) (t : Fin (cfg1 a).N) (i : S65344x896.Idx) :
    i ∈ (((cfg1 a).win 0).blk t).view.set ↔ ∀ ax : Fin 2, ((cfg1 a).win 0).index t ax * S64x896.size ax ≤ (i ax).val
      ∧ (i ax).val < ((cfg1 a).win 0).index t ax * S64x896.size ax + S64x896.size ax :=
  (Finset.ext_iff.mp (View.set_slice_whole main_v5 (((cfg1 a).win 0).rect t)) i).trans Rect.mem_set_unit

section Data
variable (a : (pcfg1 (F := F)).Adm) (c : Dev nD)
  (dat : Pipeline.Dat τ (Elt F) Unit ℕ (Pipeline.UD sig nD τ) ℕ (cfg1 a) c)
  (x0 : Vec F S65344 .i32) (T : S50000x896.Idx → Elt F .f32)

theorem flushed_eq (hafter : ∀ t : Fin (cfg1 a).N, dat.after 0 t = Gather1.rowsOf ((cfg1 a).grid.coords t) x0 T)
    (t : Fin (cfg1 a).N) :
    dat.flushed 0 t = (((cfg1 a).win 0).blk t).view.read (Elt F) (gathered x0 T) := by
  show ((cfg1 a).win 0).cut ((cfg1 a).grid.coords t) (dat.after 0 t) = _
  rw [hafter t]
  funext y
  show T (ValueIdx.ix2 (Cert.RegionSpec.rowOf (Gather1.wordAt x0 ((cfg1 a).grid.coords t) (y (0 : Fin 2)))) (y (1 : Fin 2)))
    = T (ValueIdx.ix2 (Cert.RegionSpec.rowOf (x0 (ValueIdx.ix1 ((((cfg1 a).win 0).blk t).view.emb y (0 : Fin 2))))) ((((cfg1 a).win 0).blk t).view.emb y (1 : Fin 2)))
  unfold Gather1.wordAt
  refine gather_congr x0 T _ _ _ _ ?_ ?_
  · show 64 * (((cfg1 a).grid.coords t) 0).val + (y (0 : Fin 2)).val = ((cfg1 a).win 0).index t (0 : Fin 2) * 64 + 1 * (y (0 : Fin 2)).val
    rw [index_at a t, coord_at a t]
    show 64 * t.val + (y (0 : Fin 2)).val = t.val * 64 + 1 * (y (0 : Fin 2)).val
    omega
  · show (y (1 : Fin 2)).val = ((cfg1 a).win 0).index t (1 : Fin 2) * 896 + 1 * (y (1 : Fin 2)).val
    rw [index_at a t]
    show (y (1 : Fin 2)).val = 0 * 896 + 1 * (y (1 : Fin 2)).val
    omega

theorem covered (i : S65344x896.Idx) :
    ∃ t : Fin (cfg1 a).N, ((cfg1 a).win 0).flush t = true ∧ i ∈ (((cfg1 a).win 0).blk t).view.set := by
  have hi0 : (i 0).val < 65344 := (i 0).isLt
  have hi1 : (i 1).val < 896 := (i 1).isLt
  refine ⟨⟨(i 0).val / 64, by rw [points a]; omega⟩, flush_at a _, ?_⟩
  rw [mem_blk, index_at]
  intro ax
  match ax with
  | ⟨0, _⟩ => show (i 0).val / 64 * 64 ≤ (i 0).val ∧ (i 0).val < (i 0).val / 64 * 64 + 64; omega
  | ⟨1, _⟩ => show 0 * 896 ≤ (i 1).val ∧ (i 1).val < 0 * 896 + 896; omega

theorem final1 (hafter : ∀ t : Fin (cfg1 a).N, dat.after 0 t = Gather1.rowsOf ((cfg1 a).grid.coords t) x0 T) :
    dat.arrAt 0 (cfg1 a).N
      = fun j : S65344x896.Idx => T (ValueIdx.ix2 (Cert.RegionSpec.rowOf (x0 (ValueIdx.ix1 (j 0)))) (j 1)) :=
  dat.arrAt_eq_of_cover 0 (gathered x0 T) (fun t _ => flushed_eq a c dat x0 T hafter t) (covered a)

end Data

end Cert.KernelIdeal.Gather1Array

end
-- ==== Proof.PoolArray.lean ====
import proofs.«405285_j12421045420642_1_alg».proof.Proof.Pool
import Idealize.ShloMosaic.Lib.Pipeline.Value
import Idealize.ShloMosaic.Lib.ValueIdx

noncomputable section

namespace Cert.KernelIdeal.PoolArray

open Cert.KernelIdeal Cert.KernelIdeal.Gen Cert.KernelIdeal.Pool
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

set_option maxHeartbeats 400000 in
theorem index_facts : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0 :=
  (by decide +kernel : ∀ t : Fin grid2.N, _)

set_option maxHeartbeats 400000 in
theorem iblk2_0_apply (c : Dev nD) (t : Fin cfg2.N) (y : S1x2048x128.Idx) (k : S32x2048x128.Idx)
    (h0 : (k 0).val = t.val) (h1 : (k 1).val = (y 1).val) (h2 : (k 2).val = (y 2).val) :
    (iblk2 V c 0 t : Vec F S1x2048x128 .f32) y = (V c main_v2 : S32x2048x128.Idx → Elt F .f32) k := by
  obtain ⟨e0, e1, e2, -⟩ := index_facts t
  unfold iblk2
  rw [View.read_apply]
  show V c main_v2 _ = V c main_v2 _
  congr 1
  funext a
  apply Fin.ext
  match a with
  | ⟨0, _⟩ =>
    show win2_0.index t (0 : Fin 3) * 1 + 1 * (y 0).val = (k 0).val
    have hy : (y 0).val < 1 := (y 0).isLt
    rw [e0, h0]; omega
  | ⟨1, _⟩ =>
    show win2_0.index t (1 : Fin 3) * 2048 + 1 * (y 1).val = (k 1).val
    rw [e1, h1]; omega
  | ⟨2, _⟩ =>
    show win2_0.index t (2 : Fin 3) * 128 + 1 * (y 2).val = (k 2).val
    rw [e2, h2]; omega

set_option maxHeartbeats 400000 in
theorem iblk2_1_apply (c : Dev nD) (t : Fin cfg2.N) (y : S1x2042x896.Idx) (k : S32x2042x896.Idx)
    (h0 : (k 0).val = t.val) (h1 : (k 1).val = (y 1).val) (h2 : (k 2).val = (y 2).val) :
    (iblk2 V c 1 t : Vec F S1x2042x896 .f32) y = (V c main_v6 : S32x2042x896.Idx → Elt F .f32) k := by
  obtain ⟨-, -, -, e0, e1, e2, -⟩ := index_facts t
  unfold iblk2
  rw [View.read_apply]
  show V c main_v6 _ = V c main_v6 _
  congr 1
  funext a
  apply Fin.ext
  match a with
  | ⟨0, _⟩ =>
    show win2_1.index t (0 : Fin 3) * 1 + 1 * (y 0).val = (k 0).val
    have hy : (y 0).val < 1 := (y 0).isLt
    rw [e0, h0]; omega
  | ⟨1, _⟩ =>
    show win2_1.index t (1 : Fin 3) * 2042 + 1 * (y 1).val = (k 1).val
    rw [e1, h1]; omega
  | ⟨2, _⟩ =>
    show win2_1.index t (2 : Fin 3) * 896 + 1 * (y 2).val = (k 2).val
    rw [e2, h2]; omega

def pooled (c : Dev nD) : S32x2042x128.Idx → Elt F .f32 := fun j =>
  out2_2 (fun y => (V c main_v2 : S32x2048x128.Idx → Elt F .f32) (ValueIdx.ix3 (j 0) (y 1) (y 2)))
    (fun y => (V c main_v6 : S32x2042x896.Idx → Elt F .f32) (ValueIdx.ix3 (j 0) (y 1) (y 2)))
    (ValueIdx.ix3 (0 : Fin 1) (j 1) (j 2))

set_option maxHeartbeats 400000 in
theorem out_eq_pooled (c : Dev nD) (t : Fin cfg2.N) (j : S1x2042x128.Idx) (i : S32x2042x128.Idx)
    (h0 : (i 0).val = t.val) (h1 : (i 1).val = (j 1).val) (h2 : (i 2).val = (j 2).val) :
    out2_2 (iblk2 V c 0 t) (iblk2 V c 1 t) j = pooled V c i := by
  unfold pooled
  have hx : (iblk2 V c 0 t : Vec F S1x2048x128 .f32)
      = fun y => (V c main_v2 : S32x2048x128.Idx → Elt F .f32) (ValueIdx.ix3 (i 0) (y 1) (y 2)) :=
    funext fun y => iblk2_0_apply V c t y _ h0 rfl rfl
  have hy : (iblk2 V c 1 t : Vec F S1x2042x896 .f32)
      = fun y => (V c main_v6 : S32x2042x896.Idx → Elt F .f32) (ValueIdx.ix3 (i 0) (y 1) (y 2)) :=
    funext fun y => iblk2_1_apply V c t y _ h0 rfl rfl
  have hj : j = ValueIdx.ix3 (0 : Fin 1) (i 1) (i 2) := by
    funext a
    apply Fin.ext
    match a with
    | ⟨0, _⟩ =>
      have hlt : (j 0).val < 1 := (j 0).isLt
      show (j 0).val = 0
      omega
    | ⟨1, _⟩ => exact h1.symm
    | ⟨2, _⟩ => exact h2.symm
  exact congr (congr (congrArg (out2_2 (F := F)) hx) hy) hj

theorem read_blk2 (t : Fin cfg2.N) (G : S32x2042x128.Idx → Elt F .f32) (j : S1x2042x128.Idx) :
    ((cfg2.win 2).blk t).view.read (Elt F) G j = G (((cfg2.win 2).blk t).view.emb j) := rfl

theorem cut2 (t : Fin cfg2.N) (X : Vec F S1x2042x128 .f32) (j : S1x2042x128.Idx) :
    (cfg2.win 2).cut (grid2.coords t) X j = X j := rfl

theorem emb2_0 (t : Fin cfg2.N) (j : S1x2042x128.Idx) :
    ((((cfg2.win 2).blk t).view.emb j) 0).val = win2_2.index t (0 : Fin 3) * 1 + 1 * (j 0).val := rfl
theorem emb2_1 (t : Fin cfg2.N) (j : S1x2042x128.Idx) :
    ((((cfg2.win 2).blk t).view.emb j) 1).val = win2_2.index t (1 : Fin 3) * 2042 + 1 * (j 1).val := rfl
theorem emb2_2 (t : Fin cfg2.N) (j : S1x2042x128.Idx) :
    ((((cfg2.win 2).blk t).view.emb j) 2).val = win2_2.index t (2 : Fin 3) * 128 + 1 * (j 2).val := rfl

set_option maxHeartbeats 400000 in
theorem flushed2_eq (c : Dev nD) (t : Fin cfg2.N) :
    (dat2 V c).flushed 2 t = ((cfg2.win 2).blk t).view.read (Elt F) (pooled V c) := by
  show (cfg2.win 2).cut (grid2.coords t) ((dat2 V c).after 2 t) = _
  rw [after2_2]
  obtain ⟨-, -, -, -, -, -, e0, e1, e2⟩ := index_facts t
  funext j
  refine (cut2 t _ j).trans (Eq.trans ?_ (read_blk2 t (pooled V c) j).symm)
  refine out_eq_pooled V c t j _ ?_ ?_ ?_
  · have hlt : (j 0).val < 1 := (j 0).isLt
    rw [emb2_0, e0]; omega
  · rw [emb2_1, e1]; omega
  · rw [emb2_2, e2]; omega

theorem mem_blk2 (t : Fin cfg2.N) (i : S32x2042x128.Idx) :
    i ∈ ((cfg2.win 2).blk t).view.set ↔ ∀ a : Fin 3, win2_2.index t a * S1x2042x128.size a ≤ (i a).val
      ∧ (i a).val < win2_2.index t a * S1x2042x128.size a + S1x2042x128.size a := by
  show i ∈ ((View.whole main_v7).slice (win2_2.rect t)).set ↔ _
  rw [View.set_slice_whole, Rect.mem_set_unit]
  exact Iff.rfl

set_option maxHeartbeats 400000 in
theorem cover2 (i : S32x2042x128.Idx) :
    ∃ t : Fin cfg2.N, (cfg2.win 2).flush t = true ∧ i ∈ ((cfg2.win 2).blk t).view.set := by
  have hi0 : (i 0).val < 32 := (i 0).isLt
  have hi1 : (i 1).val < 2042 := (i 1).isLt
  have hi2 : (i 2).val < 128 := (i 2).isLt
  have hN : (i 0).val < cfg2.N := by show (i 0).val < grid2.N; rw [N_2]; exact hi0
  refine ⟨⟨(i 0).val, hN⟩, flush2_2 _, ?_⟩
  rw [mem_blk2]
  obtain ⟨-, -, -, -, -, -, e0, e1, e2⟩ := index_facts ⟨(i 0).val, hN⟩
  intro a
  match a with
  | ⟨0, _⟩ =>
    show win2_2.index ⟨(i 0).val, hN⟩ (0 : Fin 3) * 1 ≤ (i 0).val ∧ (i 0).val < win2_2.index ⟨(i 0).val, hN⟩ (0 : Fin 3) * 1 + 1
    rw [e0]; show (i 0).val * 1 ≤ (i 0).val ∧ (i 0).val < (i 0).val * 1 + 1; omega
  | ⟨1, _⟩ =>
    show win2_2.index ⟨(i 0).val, hN⟩ (1 : Fin 3) * 2042 ≤ (i 1).val ∧ (i 1).val < win2_2.index ⟨(i 0).val, hN⟩ (1 : Fin 3) * 2042 + 2042
    rw [e1]; omega
  | ⟨2, _⟩ =>
    show win2_2.index ⟨(i 0).val, hN⟩ (2 : Fin 3) * 128 ≤ (i 2).val ∧ (i 2).val < win2_2.index ⟨(i 0).val, hN⟩ (2 : Fin 3) * 128 + 128
    rw [e2]; omega

theorem final2 (c : Dev nD) : (dat2 V c).arrAt 2 cfg2.N = pooled V c :=
  (dat2 V c).arrAt_eq_of_cover 2 (pooled V c) (fun t _ => flushed2_eq V c t) cover2

end Cert.KernelIdeal.PoolArray

end
-- ==== Proof.PoolValue.lean ====
import proofs.«405285_j12421045420642_1_alg».proof.Proof.Pool
import Idealize.ShloMosaic.Lib.ValueIdx
import Idealize.ShloMosaic.Lib.Pipeline.Value
import Idealize.ShloMosaic.Lib.ValueLayout
import Idealize.ShloMosaic.PureOps.Ideal

noncomputable section

namespace Cert.KernelIdeal.PoolValue

open Cert.KernelIdeal.Gen Cert.KernelIdeal.Pool
open Idealize.ShloMosaic Idealize.ShloMosaic.ValueIdx

theorem zero3 : (![0, 0, 0] : Fin 3 → Nat) = fun _ => 0 := by
  funext a; match a with | ⟨0, _⟩ => rfl | ⟨1, _⟩ => rfl | ⟨2, _⟩ => rfl

def tap (x0 : Vec Ideal S1x2048x128 .f32) (x1 : Vec Ideal S1x2042x896 .f32) (l : Fin 2042) (d : Fin 128) (r : Fin 7) : EReal :=
  x0 (ix3 (0 : Fin 1) (⟨l.val + r.val, by have := l.isLt; have := r.isLt; omega⟩ : Fin 2048) d)
    * x1 (ix3 (0 : Fin 1) l (⟨r.val * 128 + d.val, by have := d.isLt; have := r.isLt; omega⟩ : Fin 896))

theorem rowTap (x0 : Vec Ideal S1x2048x128 .f32) (r : Nat) (hr : r + 2042 ≤ 2048)
    (hc : S1x2048x128.ShapeCasts S2048x128) (hs : S2048x128.Slices ![r, 0] S2042x128) (l : Fin 2042) (d : Fin 128) :
    extractStridedSlice S2042x128 ![r, 0] (shapeCast S2048x128 x0 hc) hs (ix2 l d)
      = x0 (ix3 (0 : Fin 1) (⟨l.val + r, by have := l.isLt; omega⟩ : Fin 2048) d) := by
  rw [slice2_axis0_apply r _ hs l d (⟨l.val + r, by have := l.isLt; omega⟩ : Fin 2048) (Nat.add_comm _ _)]
  exact shapeCast_1ab_ab_apply x0 hc _ d

theorem colTap (x1 : Vec Ideal S1x2042x896 .f32) (o : Nat) (ho : o + 128 ≤ 896)
    (hc : S1x2042x896.ShapeCasts S2042x896) (hs : S2042x896.Slices ![0, o] S2042x128) (l : Fin 2042) (d : Fin 128) :
    extractStridedSlice S2042x128 ![0, o] (shapeCast S2042x896 x1 hc) hs (ix2 l d)
      = x1 (ix3 (0 : Fin 1) l (⟨o + d.val, by have := d.isLt; omega⟩ : Fin 896)) := by
  rw [slice2_axis1_apply o _ hs l d (⟨o + d.val, by have := d.isLt; omega⟩ : Fin 896) rfl]
  exact shapeCast_1ab_ab_apply x1 hc l _

set_option maxHeartbeats 400000 in
theorem pay_apply (x0 : Vec Ideal S1x2048x128 .f32) (x1 : Vec Ideal S1x2042x896 .f32) (l : Fin 2042) (d : Fin 128) :
    k2_pay1 (F := Ideal) x0 x1 (ix3 (0 : Fin 1) l d)
      = max (max (max (max (max (max (tap x0 x1 l d 0) (tap x0 x1 l d 1)) (tap x0 x1 l d 2)) (tap x0 x1 l d 3))
          (tap x0 x1 l d 4)) (tap x0 x1 l d 5)) (tap x0 x1 l d 6) := by
  unfold k2_pay1
  rw [shapeCast_ab_1ab_apply]
  simp only [maximumf_apply, mulf_apply]
  rw [rowTap x0 0 (by omega), rowTap x0 1 (by omega), rowTap x0 2 (by omega), rowTap x0 3 (by omega),
    rowTap x0 4 (by omega), rowTap x0 5 (by omega), rowTap x0 6 (by omega),
    colTap x1 0 (by omega), colTap x1 128 (by omega), colTap x1 256 (by omega), colTap x1 384 (by omega),
    colTap x1 512 (by omega), colTap x1 640 (by omega), colTap x1 768 (by omega)]
  rfl

theorem out2_2_apply (x0 : Vec Ideal S1x2048x128 .f32) (x1 : Vec Ideal S1x2042x896 .f32) (l : Fin 2042) (d : Fin 128) :
    out2_2 (F := Ideal) x0 x1 (ix3 (0 : Fin 1) l d)
      = max (max (max (max (max (max (tap x0 x1 l d 0) (tap x0 x1 l d 1)) (tap x0 x1 l d 2)) (tap x0 x1 l d 3))
          (tap x0 x1 l d 4)) (tap x0 x1 l d 5)) (tap x0 x1 l d 6) := by
  unfold out2_2
  rw [View.canon_unit_zero zero3, View.ld_unit_zero zero3, View.ld_unit_zero zero3]
  exact pay_apply x0 x1 l d

end Cert.KernelIdeal.PoolValue

end
-- ==== Proof.PoolArrayValue.lean ====
import proofs.«405285_j12421045420642_1_alg».proof.Proof.PoolArray
import proofs.«405285_j12421045420642_1_alg».proof.Proof.PoolValue
import Idealize.ShloMosaic.Lib.Pipeline.Value
import Idealize.ShloMosaic.Lib.ValueIdx

noncomputable section

namespace Cert.KernelIdeal.PoolArrayValue

open Cert.KernelIdeal Cert.KernelIdeal.Gen Cert.KernelIdeal.Pool Cert.KernelIdeal.PoolArray
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

abbrev arrX (c : Dev nD) : S32x2048x128.Idx → EReal := V c main_v2

abbrev arrY (c : Dev nD) : S32x2042x896.Idx → EReal := V c main_v6

def tapAt (c : Dev nD) (b : Fin 32) (l : Fin 2042) (d : Fin 128) (r : Fin 7) : EReal :=
  arrX V c (ValueIdx.ix3 b (⟨l.val + r.val, by have := l.isLt; have := r.isLt; omega⟩ : Fin 2048) d)
    * arrY V c (ValueIdx.ix3 b l (⟨r.val * 128 + d.val, by have := d.isLt; have := r.isLt; omega⟩ : Fin 896))

theorem tap_eq (c : Dev nD) (b : Fin 32) (l : Fin 2042) (d : Fin 128) (r : Fin 7) :
    PoolValue.tap (fun y => arrX V c (ValueIdx.ix3 b (y 1) (y 2))) (fun y => arrY V c (ValueIdx.ix3 b (y 1) (y 2))) l d r
      = tapAt V c b l d r := rfl

set_option maxHeartbeats 400000 in
theorem final2_apply (c : Dev nD) (b : Fin 32) (l : Fin 2042) (d : Fin 128) :
    ((dat2 (F := Ideal) V c).arrAt 2 cfg2.N : S32x2042x128.Idx → EReal) (ValueIdx.ix3 b l d)
      = (max (max (max (max (max (max (tapAt V c b l d 0) (tapAt V c b l d 1)) (tapAt V c b l d 2)) (tapAt V c b l d 3))
          (tapAt V c b l d 4)) (tapAt V c b l d 5)) (tapAt V c b l d 6) : EReal) := by
  rw [final2]
  unfold pooled
  show out2_2 (F := Ideal) (fun y => arrX V c (ValueIdx.ix3 b (y 1) (y 2))) (fun y => arrY V c (ValueIdx.ix3 b (y 1) (y 2)))
      (ValueIdx.ix3 (0 : Fin 1) l d) = _
  rw [PoolValue.out2_2_apply]
  simp only [tap_eq]

end Cert.KernelIdeal.PoolArrayValue

end
-- ==== Proof.Glue.lean ====
import proofs.«405285_j12421045420642_1_alg».proof.Proof.Assemble
import proofs.«405285_j12421045420642_1_alg».proof.Proof.HostReads
import proofs.«405285_j12421045420642_1_alg».proof.Proof.ValueChain
import proofs.«405285_j12421045420642_1_alg».proof.Proof.Gather0Array
import proofs.«405285_j12421045420642_1_alg».proof.Proof.Gather1Array
import proofs.«405285_j12421045420642_1_alg».proof.Proof.PoolArrayValue
import Idealize.ShloMosaic.Lib.ValueIdx

set_option maxRecDepth 16384

noncomputable section

namespace Cert.KernelIdeal.Glue

open Cert.KernelIdeal
open Cert.KernelIdeal.Gen hiding V0 V1 V2 V3 V4 V5 V6 segs seg0 seg2 seg4
open Idealize.ShloMosaic Idealize.ShloMosaic.TcCoe Idealize.SL.Sem

variable (m : (ℓ : Loc nD τ sig) → Buf (Elt Ideal) ℓ) (ρ : Dev nD → PrngReg) (c : Dev nD)

abbrev ids : Cert.RegionSpec.SIds.Idx → BitVec 32 := m ((c : Thread nD τ).loc main_arg0)

abbrev we : Cert.RegionSpec.SWord.Idx → EReal := m ((c : Thread nD τ).loc main_arg1)

abbrev ce : Cert.RegionSpec.SCtx.Idx → EReal := m ((c : Thread nD τ).loc main_arg2)

theorem entry0_tokens : Assemble.V1 m ρ c main_v0 = ValueChain.flatIds (ids m c) shapeCasts_S32x2048_S65536 :=
  HostReads.ops0_v0 (Assemble.W0 m ρ c)

theorem entry0_table : Gather0.tblM.view.read (Elt Ideal) (Assemble.V1 m ρ c main_arg1) = we m c :=
  HostReads.ops0_arg1 (Assemble.W0 m ρ c)

theorem exit0_rows : Assemble.W2 m ρ c (Proc.devRef .tc main_v1) = ValueChain.flatWord (ids m c) (we m c) shapeCasts_S32x2048_S65536 := by
  refine (Assemble.W2_arr m ρ c 0).trans ?_
  rw [Gather0Array.final0 (Assemble.adm0 m ρ) c (Gather0.dat0 (Assemble.V1 m ρ) (Assemble.adm0 m ρ) c)
    (Assemble.V1 m ρ c main_v0) (Gather0.tblM.view.read (Elt Ideal) (Assemble.V1 m ρ c main_arg1))
    (Gather0.after0_0 (Assemble.V1 m ρ) (Assemble.adm0 m ρ) c)]
  rw [entry0_tokens m ρ c, entry0_table m ρ c]
  rfl

theorem pool_words : Assemble.V5 m ρ c main_v2
    = ValueChain.wordRows (ids m c) (we m c) shapeCasts_S32x2048_S65536 shapeCasts_S65536x128_S32x2048x128 := by
  show StableHlo.after hostOps2 (Assemble.W4 m ρ c) (Proc.devRef .tc main_v2) = _
  rw [HostReads.ops2_v2, Assemble.W4_of_ne m ρ c main_v2 (by decide)]
  show StableHlo.after hostOps1 (Assemble.W2 m ρ c) (Proc.devRef .tc main_v2) = _
  rw [HostReads.ops1_v2, exit0_rows m ρ c]
  rfl

theorem tokens_kept2 : Assemble.W2 m ρ c (Proc.devRef .tc main_arg0) = ids m c := by
  rw [Assemble.W2_of_ne m ρ c main_arg0 (by decide)]
  exact HostReads.ops0_arg0 (Assemble.W0 m ρ c)

theorem ctx_kept2 : Assemble.W2 m ρ c (Proc.devRef .tc main_arg2) = ce m c := by
  rw [Assemble.W2_of_ne m ρ c main_arg2 (by decide)]
  exact HostReads.ops0_arg2 (Assemble.W0 m ρ c)

theorem entry1_tokens : Assemble.V3 m ρ c main_v4
    = ValueChain.flatCentre (ids m c) slices_S32x2048_S32x2042_0_3 shapeCasts_S32x2042_S65344 := by
  show StableHlo.after hostOps1 (Assemble.W2 m ρ c) (Proc.devRef .tc main_v4) = _
  rw [HostReads.ops1_v4, tokens_kept2 m ρ c]
  rfl

theorem entry1_table : Gather1.tblM.view.read (Elt Ideal) (Assemble.V3 m ρ c main_arg2) = ce m c := by
  show StableHlo.after hostOps1 (Assemble.W2 m ρ c) (Proc.devRef .tc main_arg2) = _
  rw [HostReads.ops1_arg2, ctx_kept2 m ρ c]

theorem exit1_rows : Assemble.W4 m ρ c (Proc.devRef .tc main_v5)
    = ValueChain.flatCtx (ids m c) (ce m c) slices_S32x2048_S32x2042_0_3 shapeCasts_S32x2042_S65344 := by
  refine (Assemble.W4_arr m ρ c 0).trans ?_
  rw [Gather1Array.final1 (Assemble.adm1 m ρ) c (Gather1.dat1 (Assemble.V3 m ρ) (Assemble.adm1 m ρ) c)
    (Assemble.V3 m ρ c main_v4) (Gather1.tblM.view.read (Elt Ideal) (Assemble.V3 m ρ c main_arg2))
    (Gather1.after1_0 (Assemble.V3 m ρ) (Assemble.adm1 m ρ) c)]
  rw [entry1_tokens m ρ c, entry1_table m ρ c]
  rfl

theorem pool_ctx : Assemble.V5 m ρ c main_v6
    = ValueChain.ctxRows (ids m c) (ce m c) slices_S32x2048_S32x2042_0_3 shapeCasts_S32x2042_S65344 shapeCasts_S65344x896_S32x2042x896 := by
  show StableHlo.after hostOps2 (Assemble.W4 m ρ c) (Proc.devRef .tc main_v6) = _
  rw [HostReads.ops2_v6, exit1_rows m ρ c]
  rfl

theorem result_eq :
    (Assemble.W6 m ρ c (Proc.devRef .tc main_v7) : S32x2042x128.Idx → EReal)
      = Cert.RegionSpec.region (m ((c : Thread nD τ).loc main_arg0)) (m ((c : Thread nD τ).loc main_arg1)) (m ((c : Thread nD τ).loc main_arg2)) := by
  funext j
  obtain ⟨b, l, d, rfl⟩ : ∃ (b : Fin 32) (l : Fin 2042) (d : Fin 128), j = ValueIdx.ix3 b l d := ⟨j 0, j 1, j 2, ValueIdx.eq_ix3 j⟩
  rw [Assemble.W6_main_v7, PoolArrayValue.final2_apply]
  simp only [PoolArrayValue.tapAt, PoolArrayValue.arrX, PoolArrayValue.arrY]
  rw [pool_words m ρ c, pool_ctx m ρ c]
  exact ValueChain.taps_region (ids m c) (we m c) (ce m c) shapeCasts_S32x2048_S65536 shapeCasts_S65536x128_S32x2048x128
    slices_S32x2048_S32x2042_0_3 shapeCasts_S32x2042_S65344 shapeCasts_S65344x896_S32x2042x896 b l d

end Cert.KernelIdeal.Glue

end
-- ==== Proof.lean ====
/-
  For every batch b, position l and feature d both programs compute the maximum over the seven offsets r of
  word_emb[ids[b, l + r], d] · ctx_emb[ids[b, l + 3], 128 · r + d]. The kernel gathers the rows it needs by copies,
  64 rows a grid point, and pools them batch by batch; the reference reads them by index. The two agree entry by entry,
  and no law of the extended reals beyond reading the same entries is used.
-/
import proofs.«405285_j12421045420642_1_alg».proof.Defs
import proofs.«405285_j12421045420642_1_alg».proof.Proof.Gen.Kernel
import proofs.«405285_j12421045420642_1_alg».proof.Proof.Gen.KernelIdeal
import proofs.«405285_j12421045420642_1_alg».proof.Proof.Gen.ReferenceIdeal
import proofs.«405285_j12421045420642_1_alg».proof.Proof.Gen.Pre_finite_inputs
import proofs.«405285_j12421045420642_1_alg».proof.Proof.PreRange
import proofs.«405285_j12421045420642_1_alg».proof.Proof.RefRegion
import proofs.«405285_j12421045420642_1_alg».proof.Proof.Ranges
import proofs.«405285_j12421045420642_1_alg».proof.Proof.WRanges
import proofs.«405285_j12421045420642_1_alg».proof.Proof.Glue

noncomputable section

namespace Cert.Proof

open Idealize.ShloMosaic Idealize.ShloMosaic.TcCoe Idealize.SL.Sem

theorem words_k (m : (ℓ : Loc Cert.Kernel.nD Cert.Kernel.τ Cert.Kernel.sig) → Buf (Elt Bits) ℓ) (h : Cert.Pre_Kernel m) :
    ∀ (c : Dev Cert.Kernel.nD) (j : Cert.Kernel.S32x2048.Idx),
      ((m ((c : Thread Cert.Kernel.nD Cert.Kernel.τ).loc Cert.Kernel.main_arg0) : Cert.Kernel.S32x2048.Idx → BitVec 32) j).toNat < 50000 :=
  fun c j => Cert.PreRange.ids_lt_of_pre _ _ _ (h c) j

theorem words_ki (m : (ℓ : Loc Cert.KernelIdeal.nD Cert.KernelIdeal.τ Cert.KernelIdeal.sig) → Buf (Elt Ideal) ℓ) (h : Cert.Pre_KernelIdeal m) :
    ∀ (c : Dev Cert.KernelIdeal.nD) (j : Cert.KernelIdeal.S32x2048.Idx),
      ((m ((c : Thread Cert.KernelIdeal.nD Cert.KernelIdeal.τ).loc Cert.KernelIdeal.main_arg0) : Cert.KernelIdeal.S32x2048.Idx → BitVec 32) j).toNat < 50000 :=
  fun c j => Cert.PreRange.ids_lt_of_pre _ _ _ (h c) j

theorem words_r (m : (ℓ : Loc Cert.ReferenceIdeal.nD Cert.ReferenceIdeal.τ Cert.ReferenceIdeal.sig) → Buf (Elt Ideal) ℓ) (h : Cert.Pre_ReferenceIdeal m) :
    ∀ (c : Dev Cert.ReferenceIdeal.nD) (j : Cert.ReferenceIdeal.S32x2048.Idx),
      ((m ((c.tc : Thread Cert.ReferenceIdeal.nD Cert.ReferenceIdeal.τ).loc Cert.ReferenceIdeal.main_arg0)) j).toNat < 50000 :=
  fun c j => Cert.PreRange.ids_lt_of_pre _ _ _ (h c) j

theorem frame_k : Cert.frame_Kernel := fun m g h => Cert.Kernel.Ranges.frame m g (words_k m h)

theorem frame_ki : Cert.frame_KernelIdeal := fun m g h => Cert.KernelIdeal.Ranges.frame m g (words_ki m h)

theorem frame_r : Cert.frame_ReferenceIdeal := fun m g h =>
  (θ_run Cert.ReferenceIdeal.defs _ _).mono (fun _ hr c => (hr c).2) (Cert.ReferenceIdeal.RefValue.run_region m g (words_r m h))

theorem algebraic : Cert.algebraic_KernelIdeal_ReferenceIdeal := by
  intro m g m' g' h hag
  refine ⟨fun c => Cert.RegionSpec.region (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ hr c => ⟨(hr c).1.trans (Cert.KernelIdeal.Glue.result_eq m g c), (hr c).2⟩)
      (Cert.KernelIdeal.Ranges.run_named m g (words_ki m h))
  · have hw : ∀ (c : Dev Cert.ReferenceIdeal.nD) (j : Cert.ReferenceIdeal.S32x2048.Idx),
        ((m' ((c.tc : Thread Cert.ReferenceIdeal.nD Cert.ReferenceIdeal.τ).loc Cert.ReferenceIdeal.main_arg0)) j).toNat < 50000 := by
      intro c j
      rw [(hag c).1]
      exact words_ki m h c j
    refine (θ_run Cert.ReferenceIdeal.defs _ _).mono (fun _ hr c => ⟨(hr c).1.trans ?_, (hr c).2⟩)
      (Cert.ReferenceIdeal.RefValue.run_region m' g' hw)
    rw [(hag c).1, (hag c).2.1, (hag c).2.2]

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
